-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S512x512 : Shape := ⟨2, ![512, 512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4x2048x512 .f32) (main_arg1 : FVec F S512x512 .f32) (main_arg2 : FVec F S512x512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S4x2048x512 : Shape := ⟨3, ![4, 2048, 512]⟩
abbrev S512x512 : Shape := ⟨2, ![512, 512]⟩
abbrev S1x2048x512 : Shape := ⟨3, ![1, 2048, 512]⟩
abbrev S2048x512 : Shape := ⟨2, ![2048, 512]⟩
abbrev S2047x512 : Shape := ⟨2, ![2047, 512]⟩
abbrev S1x512 : Shape := ⟨2, ![1, 512]⟩
abbrev S2048 : Shape := ⟨1, ![2048]⟩
abbrev S2048x1 : Shape := ⟨2, ![2048, 1]⟩
abbrev S1x1 : Shape := ⟨2, ![1, 1]⟩
abbrev S2047x1 : Shape := ⟨2, ![2047, 1]⟩
abbrev S2048x128 : Shape := ⟨2, ![2048, 128]⟩
abbrev S16x128x128 : Shape := ⟨3, ![16, 128, 128]⟩
abbrev S16x1x128 : Shape := ⟨3, ![16, 1, 128]⟩
abbrev S16x127x128 : Shape := ⟨3, ![16, 127, 128]⟩
abbrev S16x2x128 : Shape := ⟨3, ![16, 2, 128]⟩
abbrev S16x126x128 : Shape := ⟨3, ![16, 126, 128]⟩
abbrev S16x4x128 : Shape := ⟨3, ![16, 4, 128]⟩
abbrev S16x124x128 : Shape := ⟨3, ![16, 124, 128]⟩
abbrev S16x8x128 : Shape := ⟨3, ![16, 8, 128]⟩
abbrev S16x120x128 : Shape := ⟨3, ![16, 120, 128]⟩
abbrev S16x16x128 : Shape := ⟨3, ![16, 16, 128]⟩
abbrev S16x112x128 : Shape := ⟨3, ![16, 112, 128]⟩
abbrev S16x32x128 : Shape := ⟨3, ![16, 32, 128]⟩
abbrev S16x96x128 : Shape := ⟨3, ![16, 96, 128]⟩
abbrev S16x64x128 : Shape := ⟨3, ![16, 64, 128]⟩
abbrev S128x128 : Shape := ⟨2, ![128, 128]⟩
abbrev S128x512 : Shape := ⟨2, ![128, 512]⟩
abbrev S16x512 : Shape := ⟨2, ![16, 512]⟩
abbrev S1x128 : Shape := ⟨2, ![1, 128]⟩
abbrev S16x128 : Shape := ⟨2, ![16, 128]⟩
abbrev S15x512 : Shape := ⟨2, ![15, 512]⟩
abbrev S15x128 : Shape := ⟨2, ![15, 128]⟩
abbrev S2x512 : Shape := ⟨2, ![2, 512]⟩
abbrev S14x512 : Shape := ⟨2, ![14, 512]⟩
abbrev S2x128 : Shape := ⟨2, ![2, 128]⟩
abbrev S14x128 : Shape := ⟨2, ![14, 128]⟩
abbrev S4x512 : Shape := ⟨2, ![4, 512]⟩
abbrev S12x512 : Shape := ⟨2, ![12, 512]⟩
abbrev S4x128 : Shape := ⟨2, ![4, 128]⟩
abbrev S12x128 : Shape := ⟨2, ![12, 128]⟩
abbrev S8x512 : Shape := ⟨2, ![8, 512]⟩
abbrev S16x1x512 : Shape := ⟨3, ![16, 1, 512]⟩
abbrev S16x128x512 : Shape := ⟨3, ![16, 128, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x512, .f32⟩
  | .hbm, ⟨1, _⟩ => ⟨S512x512, .f32⟩
  | .hbm, ⟨2, _⟩ => ⟨S512x512, .f32⟩
  | .hbm, ⟨3, _⟩ => ⟨S4x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .f32⟩
  | .local _ .vmem, ⟨3, _⟩ => ⟨S512x512, .f32⟩
  | .local _ .vmem, ⟨4, _⟩ => ⟨S1x2048x512, .f32⟩
  | .local _ .vmem, ⟨5, _⟩ => ⟨S1x2048x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  slices_S2048x512_o1_0_S2047x512 : S2048x512.Slices ![1, 0] S2047x512
  concatenates_S2047x512_S1x512_S2048x512_d0 : Shape.Concatenates [S2047x512, S1x512] S2048x512 0
  reduces_S2048x512_S2048 : S2048x512.Reduces [1] S2048
  shapeCasts_S2048_S2048x1 : S2048.ShapeCasts S2048x1
  slices_S2048x1_o0_0_S2047x1 : S2048x1.Slices ![0, 0] S2047x1
  concatenates_S1x1_S2047x1_S2048x1_d0 : Shape.Concatenates [S1x1, S2047x1] S2048x1 0
  shapeCasts_S2048x1_S2048x1 : S2048x1.ShapeCasts S2048x1
  broadcasts_S2048x1_S2048x128 : S2048x1.Broadcasts S2048x128
  iota_S16x128x128_d1_w32 : S16x128x128.Iotas .tc 32 [1]
  iota_S16x128x128_d2_w32 : S16x128x128.Iotas .tc 32 [2]
  shapeCasts_S2048x128_S16x128x128 : S2048x128.ShapeCasts S16x128x128
  slices_S16x128x128_o0_0_0_S16x127x128 : S16x128x128.Slices ![0, 0, 0] S16x127x128
  concatenates_S16x1x128_S16x127x128_S16x128x128_d1 : Shape.Concatenates [S16x1x128, S16x127x128] S16x128x128 1
  slices_S16x128x128_o0_0_0_S16x126x128 : S16x128x128.Slices ![0, 0, 0] S16x126x128
  concatenates_S16x2x128_S16x126x128_S16x128x128_d1 : Shape.Concatenates [S16x2x128, S16x126x128] S16x128x128 1
  slices_S16x128x128_o0_0_0_S16x124x128 : S16x128x128.Slices ![0, 0, 0] S16x124x128
  concatenates_S16x4x128_S16x124x128_S16x128x128_d1 : Shape.Concatenates [S16x4x128, S16x124x128] S16x128x128 1
  slices_S16x128x128_o0_0_0_S16x120x128 : S16x128x128.Slices ![0, 0, 0] S16x120x128
  concatenates_S16x8x128_S16x120x128_S16x128x128_d1 : Shape.Concatenates [S16x8x128, S16x120x128] S16x128x128 1
  slices_S16x128x128_o0_0_0_S16x112x128 : S16x128x128.Slices ![0, 0, 0] S16x112x128
  concatenates_S16x16x128_S16x112x128_S16x128x128_d1 : Shape.Concatenates [S16x16x128, S16x112x128] S16x128x128 1
  slices_S16x128x128_o0_0_0_S16x96x128 : S16x128x128.Slices ![0, 0, 0] S16x96x128
  concatenates_S16x32x128_S16x96x128_S16x128x128_d1 : Shape.Concatenates [S16x32x128, S16x96x128] S16x128x128 1
  slices_S16x128x128_o0_0_0_S16x64x128 : S16x128x128.Slices ![0, 0, 0] S16x64x128
  concatenates_S16x64x128_S16x64x128_S16x128x128_d1 : Shape.Concatenates [S16x64x128, S16x64x128] S16x128x128 1
  shapeCasts_S16x128x128_S2048x128 : S16x128x128.ShapeCasts S2048x128
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  concatenates_S2048x128_S2048x128_S2048x128_S2048x128_S2048x512_d1 : Shape.Concatenates [S2048x128, S2048x128, S2048x128, S2048x128] S2048x512 1
  slices_S2048x128_o0_0_S128x128 : S2048x128.Slices ![0, 0] S128x128
  slices_S2048x512_o0_0_S128x512 : S2048x512.Slices ![0, 0] S128x512
  slices_S2048x128_o128_0_S128x128 : S2048x128.Slices ![128, 0] S128x128
  slices_S2048x512_o128_0_S128x512 : S2048x512.Slices ![128, 0] S128x512
  slices_S2048x128_o256_0_S128x128 : S2048x128.Slices ![256, 0] S128x128
  slices_S2048x512_o256_0_S128x512 : S2048x512.Slices ![256, 0] S128x512
  slices_S2048x128_o384_0_S128x128 : S2048x128.Slices ![384, 0] S128x128
  slices_S2048x512_o384_0_S128x512 : S2048x512.Slices ![384, 0] S128x512
  slices_S2048x128_o512_0_S128x128 : S2048x128.Slices ![512, 0] S128x128
  slices_S2048x512_o512_0_S128x512 : S2048x512.Slices ![512, 0] S128x512
  slices_S2048x128_o640_0_S128x128 : S2048x128.Slices ![640, 0] S128x128
  slices_S2048x512_o640_0_S128x512 : S2048x512.Slices ![640, 0] S128x512
  slices_S2048x128_o768_0_S128x128 : S2048x128.Slices ![768, 0] S128x128
  slices_S2048x512_o768_0_S128x512 : S2048x512.Slices ![768, 0] S128x512
  slices_S2048x128_o896_0_S128x128 : S2048x128.Slices ![896, 0] S128x128
  slices_S2048x512_o896_0_S128x512 : S2048x512.Slices ![896, 0] S128x512
  slices_S2048x128_o1024_0_S128x128 : S2048x128.Slices ![1024, 0] S128x128
  slices_S2048x512_o1024_0_S128x512 : S2048x512.Slices ![1024, 0] S128x512
  slices_S2048x128_o1152_0_S128x128 : S2048x128.Slices ![1152, 0] S128x128
  slices_S2048x512_o1152_0_S128x512 : S2048x512.Slices ![1152, 0] S128x512
  slices_S2048x128_o1280_0_S128x128 : S2048x128.Slices ![1280, 0] S128x128
  slices_S2048x512_o1280_0_S128x512 : S2048x512.Slices ![1280, 0] S128x512
  slices_S2048x128_o1408_0_S128x128 : S2048x128.Slices ![1408, 0] S128x128
  slices_S2048x512_o1408_0_S128x512 : S2048x512.Slices ![1408, 0] S128x512
  slices_S2048x128_o1536_0_S128x128 : S2048x128.Slices ![1536, 0] S128x128
  slices_S2048x512_o1536_0_S128x512 : S2048x512.Slices ![1536, 0] S128x512
  slices_S2048x128_o1664_0_S128x128 : S2048x128.Slices ![1664, 0] S128x128
  slices_S2048x512_o1664_0_S128x512 : S2048x512.Slices ![1664, 0] S128x512
  slices_S2048x128_o1792_0_S128x128 : S2048x128.Slices ![1792, 0] S128x128
  slices_S2048x512_o1792_0_S128x512 : S2048x512.Slices ![1792, 0] S128x512
  slices_S2048x128_o1920_0_S128x128 : S2048x128.Slices ![1920, 0] S128x128
  slices_S2048x512_o1920_0_S128x512 : S2048x512.Slices ![1920, 0] S128x512
  slices_S128x512_o127_0_S1x512 : S128x512.Slices ![127, 0] S1x512
  concatenates_S1x512_S1x512_S1x512_S1x512_S1x512_S1x512_S1x512_S1x512_S1x512_S1x512_S1x512_S1x512_S1x512_S1x512_S1x512_S1x512_S16x512_d0 : Shape.Concatenates [S1x512, S1x512, S1x512, S1x512, S1x512, S1x512, S1x512, S1x512, S1x512, S1x512, S1x512, S1x512, S1x512, S1x512, S1x512, S1x512] S16x512 0
  slices_S2048x128_o127_0_S1x128 : S2048x128.Slices ![127, 0] S1x128
  slices_S2048x128_o255_0_S1x128 : S2048x128.Slices ![255, 0] S1x128
  slices_S2048x128_o383_0_S1x128 : S2048x128.Slices ![383, 0] S1x128
  slices_S2048x128_o511_0_S1x128 : S2048x128.Slices ![511, 0] S1x128
  slices_S2048x128_o639_0_S1x128 : S2048x128.Slices ![639, 0] S1x128
  slices_S2048x128_o767_0_S1x128 : S2048x128.Slices ![767, 0] S1x128
  slices_S2048x128_o895_0_S1x128 : S2048x128.Slices ![895, 0] S1x128
  slices_S2048x128_o1023_0_S1x128 : S2048x128.Slices ![1023, 0] S1x128
  slices_S2048x128_o1151_0_S1x128 : S2048x128.Slices ![1151, 0] S1x128
  slices_S2048x128_o1279_0_S1x128 : S2048x128.Slices ![1279, 0] S1x128
  slices_S2048x128_o1407_0_S1x128 : S2048x128.Slices ![1407, 0] S1x128
  slices_S2048x128_o1535_0_S1x128 : S2048x128.Slices ![1535, 0] S1x128
  slices_S2048x128_o1663_0_S1x128 : S2048x128.Slices ![1663, 0] S1x128
  slices_S2048x128_o1791_0_S1x128 : S2048x128.Slices ![1791, 0] S1x128
  slices_S2048x128_o1919_0_S1x128 : S2048x128.Slices ![1919, 0] S1x128
  slices_S2048x128_o2047_0_S1x128 : S2048x128.Slices ![2047, 0] S1x128
  concatenates_S1x128_S1x128_S1x128_S1x128_S1x128_S1x128_S1x128_S1x128_S1x128_S1x128_S1x128_S1x128_S1x128_S1x128_S1x128_S1x128_S16x128_d0 : Shape.Concatenates [S1x128, S1x128, S1x128, S1x128, S1x128, S1x128, S1x128, S1x128, S1x128, S1x128, S1x128, S1x128, S1x128, S1x128, S1x128, S1x128] S16x128 0
  slices_S16x512_o0_0_S15x512 : S16x512.Slices ![0, 0] S15x512
  concatenates_S1x512_S15x512_S16x512_d0 : Shape.Concatenates [S1x512, S15x512] S16x512 0
  slices_S16x128_o0_0_S15x128 : S16x128.Slices ![0, 0] S15x128
  concatenates_S1x128_S15x128_S16x128_d0 : Shape.Concatenates [S1x128, S15x128] S16x128 0
  slices_S16x512_o0_0_S16x128 : S16x512.Slices ![0, 0] S16x128
  slices_S16x512_o0_128_S16x128 : S16x512.Slices ![0, 128] S16x128
  slices_S16x512_o0_256_S16x128 : S16x512.Slices ![0, 256] S16x128
  slices_S16x512_o0_384_S16x128 : S16x512.Slices ![0, 384] S16x128
  concatenates_S16x128_S16x128_S16x128_S16x128_S16x512_d1 : Shape.Concatenates [S16x128, S16x128, S16x128, S16x128] S16x512 1
  slices_S16x512_o0_0_S14x512 : S16x512.Slices ![0, 0] S14x512
  concatenates_S2x512_S14x512_S16x512_d0 : Shape.Concatenates [S2x512, S14x512] S16x512 0
  slices_S16x128_o0_0_S14x128 : S16x128.Slices ![0, 0] S14x128
  concatenates_S2x128_S14x128_S16x128_d0 : Shape.Concatenates [S2x128, S14x128] S16x128 0
  slices_S16x512_o0_0_S12x512 : S16x512.Slices ![0, 0] S12x512
  concatenates_S4x512_S12x512_S16x512_d0 : Shape.Concatenates [S4x512, S12x512] S16x512 0
  slices_S16x128_o0_0_S12x128 : S16x128.Slices ![0, 0] S12x128
  concatenates_S4x128_S12x128_S16x128_d0 : Shape.Concatenates [S4x128, S12x128] S16x128 0
  slices_S16x512_o0_0_S8x512 : S16x512.Slices ![0, 0] S8x512
  concatenates_S8x512_S8x512_S16x512_d0 : Shape.Concatenates [S8x512, S8x512] S16x512 0
  concatenates_S128x512_S128x512_S128x512_S128x512_S128x512_S128x512_S128x512_S128x512_S128x512_S128x512_S128x512_S128x512_S128x512_S128x512_S128x512_S128x512_S2048x512_d0 : Shape.Concatenates [S128x512, S128x512, S128x512, S128x512, S128x512, S128x512, S128x512, S128x512, S128x512, S128x512, S128x512, S128x512, S128x512, S128x512, S128x512, S128x512] S2048x512 0
  shapeCasts_S16x512_S16x1x512 : S16x512.ShapeCasts S16x1x512
  shapeCasts_S16x1x512_S16x1x512 : S16x1x512.ShapeCasts S16x1x512
  broadcasts_S16x1x512_S16x128x512 : S16x1x512.Broadcasts S16x128x512
  shapeCasts_S16x128x512_S2048x512 : S16x128x512.ShapeCasts S2048x512
  shapeCasts_S2048x512_S1x2048x512 : S2048x512.ShapeCasts S1x2048x512
  dot_S2048x512_S512x512_S2048x512_1_1_0_0_n_n_wf : DotDims.WF S2048x512 S512x512 S2048x512 [1] [1] [0] [0] [] []
  dot_S128x128_S128x512_S128x512_1_0_0_1_n_n_wf : DotDims.WF S128x128 S128x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x2048x512.size a
  hwx0_0 : ∀ i : grid0.Coords, EltTy.bits .f32 = 32 ∨ (Rect.block (s := S4x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S4x2048x512.size a
  hwx0_3 : ∀ i : grid0.Coords, EltTy.bits .f32 = 32 ∨ (Rect.block (s := S4x2048x512) S1x2048x512.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x512 : Shape := ⟨3, ![4, 2048, 512]⟩
abbrev S512x512 : Shape := ⟨2, ![512, 512]⟩
abbrev S4x2047x512 : Shape := ⟨3, ![4, 2047, 512]⟩
abbrev S_ : Shape := ⟨0, ![]⟩
abbrev S4x2047 : Shape := ⟨2, ![4, 2047]⟩
abbrev S4x2047x1 : Shape := ⟨3, ![4, 2047, 1]⟩
abbrev S4x1 : Shape := ⟨2, ![4, 1]⟩
abbrev S4x2048 : Shape := ⟨2, ![4, 2048]⟩
abbrev S1 : Shape := ⟨1, ![1]⟩
abbrev S4 : Shape := ⟨1, ![4]⟩
abbrev S4x2048x1 : Shape := ⟨3, ![4, 2048, 1]⟩
abbrev S1x1x1 : Shape := ⟨3, ![1, 1, 1]⟩
abbrev S2048 : Shape := ⟨1, ![2048]⟩
abbrev S1x2048 : Shape := ⟨2, ![1, 2048]⟩
abbrev S4x512 : Shape := ⟨2, ![4, 512]⟩
abbrev S4x1x512 : Shape := ⟨3, ![4, 1, 512]⟩
abbrev S4x2x512 : Shape := ⟨3, ![4, 2, 512]⟩
abbrev S4x2046x512 : Shape := ⟨3, ![4, 2046, 512]⟩
abbrev S4x4x512 : Shape := ⟨3, ![4, 4, 512]⟩
abbrev S4x2044x512 : Shape := ⟨3, ![4, 2044, 512]⟩
abbrev S4x8x512 : Shape := ⟨3, ![4, 8, 512]⟩
abbrev S4x2040x512 : Shape := ⟨3, ![4, 2040, 512]⟩
abbrev S4x16x512 : Shape := ⟨3, ![4, 16, 512]⟩
abbrev S4x2032x512 : Shape := ⟨3, ![4, 2032, 512]⟩
abbrev S4x32x512 : Shape := ⟨3, ![4, 32, 512]⟩
abbrev S4x2016x512 : Shape := ⟨3, ![4, 2016, 512]⟩
abbrev S4x64x512 : Shape := ⟨3, ![4, 64, 512]⟩
abbrev S4x1984x512 : Shape := ⟨3, ![4, 1984, 512]⟩
abbrev S4x128x512 : Shape := ⟨3, ![4, 128, 512]⟩
abbrev S4x1920x512 : Shape := ⟨3, ![4, 1920, 512]⟩
abbrev S4x256x512 : Shape := ⟨3, ![4, 256, 512]⟩
abbrev S4x1792x512 : Shape := ⟨3, ![4, 1792, 512]⟩
abbrev S4x512x512 : Shape := ⟨3, ![4, 512, 512]⟩
abbrev S4x1536x512 : Shape := ⟨3, ![4, 1536, 512]⟩
abbrev S4x1024x512 : Shape := ⟨3, ![4, 1024, 512]⟩

abbrev nBuf : Space → Nat
  | .hbm => 337
  | .vmem => 0
  | .smem => 0
  | _ => 0

abbrev hbmTy0_0 (i : Nat) : BufTy := match i % 128 with
  | 0 => ⟨S4x2048x512, .f32⟩
  | 1 => ⟨S512x512, .f32⟩
  | 2 => ⟨S512x512, .f32⟩
  | 3 => ⟨S4x2047x512, .f32⟩
  | 4 => ⟨S4x2047x512, .f32⟩
  | 5 => ⟨S4x2047x512, .f32⟩
  | 6 => ⟨S_, .f32⟩
  | 7 => ⟨S4x2047, .f32⟩
  | 8 => ⟨S4x2047x1, .f32⟩
  | 9 => ⟨S4x2047x1, .f32⟩
  | 10 => ⟨S_, .f32⟩
  | 11 => ⟨S4x2047x1, .f32⟩
  | 12 => ⟨S4x2047x1, .f32⟩
  | 13 => ⟨S4x2047x512, .f32⟩
  | 14 => ⟨S4x2047x512, .f32⟩
  | 15 => ⟨S4x2047x512, .f32⟩
  | 16 => ⟨S4x2047x512, .f32⟩
  | 17 => ⟨S4x2047x512, .f32⟩
  | 18 => ⟨S_, .f32⟩
  | 19 => ⟨S4x2047, .f32⟩
  | 20 => ⟨S4x2047x1, .f32⟩
  | 21 => ⟨S4x2047x1, .f32⟩
  | 22 => ⟨S_, .f32⟩
  | 23 => ⟨S4x2047x1, .f32⟩
  | 24 => ⟨S4x2047x1, .f32⟩
  | 25 => ⟨S4x2047x512, .f32⟩
  | 26 => ⟨S4x2047x512, .f32⟩
  | 27 => ⟨S4x2047x512, .f32⟩
  | 28 => ⟨S_, .f32⟩
  | 29 => ⟨S4x2047, .f32⟩
  | 30 => ⟨S_, .f32⟩
  | 31 => ⟨S4x1, .f32⟩
  | 32 => ⟨S_, .f32⟩
  | 33 => ⟨S4x2047, .f32⟩
  | 34 => ⟨S4x2047, .f32⟩
  | 35 => ⟨S_, .f32⟩
  | 36 => ⟨S4x2047, .f32⟩
  | 37 => ⟨S4x2047, .f32⟩
  | 38 => ⟨S_, .f32⟩
  | 39 => ⟨S_, .f32⟩
  | 40 => ⟨S_, .f32⟩
  | 41 => ⟨S4x2047, .f32⟩
  | 42 => ⟨S4x2047, .f32⟩
  | 43 => ⟨S_, .f32⟩
  | 44 => ⟨S4x2047, .f32⟩
  | 45 => ⟨S4x2047, .f32⟩
  | 46 => ⟨S4x2048, .f32⟩
  | 47 => ⟨S_, .i32⟩
  | 48 => ⟨S1, .i32⟩
  | 49 => ⟨S_, .f32⟩
  | 50 => ⟨S4, .f32⟩
  | 51 => ⟨S4x2048, .f32⟩
  | 52 => ⟨S_, .f32⟩
  | 53 => ⟨S4x2048, .f32⟩
  | 54 => ⟨S4x2048, .i1⟩
  | 55 => ⟨S4x2048, .i1⟩
  | 56 => ⟨S4x2048, .i32⟩
  | 57 => ⟨S4x2048, .i32⟩
  | 58 => ⟨S4x2048, .i32⟩
  | 59 => ⟨S4x2048, .i32⟩
  | 60 => ⟨S4x2048, .i32⟩
  | 61 => ⟨S_, .i32⟩
  | 62 => ⟨S4, .i32⟩
  | 63 => ⟨S4x2048x1, .i32⟩
  | 64 => ⟨S_, .i32⟩
  | 65 => ⟨S4x2048x1, .i32⟩
  | 66 => ⟨S4x2048x1, .i1⟩
  | 67 => ⟨S_, .i32⟩
  | 68 => ⟨S4x2048x1, .i32⟩
  | 69 => ⟨S4x2048x1, .i32⟩
  | 70 => ⟨S4x2048x1, .i32⟩
  | 71 => ⟨S1, .i32⟩
  | 72 => ⟨S_, .i32⟩
  | 73 => ⟨S4x2048x1, .i32⟩
  | 74 => ⟨S4x2048x1, .i1⟩
  | 75 => ⟨S1x1x1, .i32⟩
  | 76 => ⟨S4x2048x1, .i32⟩
  | 77 => ⟨S4x2048x1, .i1⟩
  | 78 => ⟨S4x2048x1, .i1⟩
  | 79 => ⟨S_, .i1⟩
  | 80 => ⟨S4x2048, .i1⟩
  | 81 => ⟨S4x2048x512, .f32⟩
  | 82 => ⟨S4x2048x512, .i1⟩
  | 83 => ⟨S_, .f32⟩
  | 84 => ⟨S4x2048x512, .f32⟩
  | 85 => ⟨S4x2048x512, .f32⟩
  | 86 => ⟨S2048, .i32⟩
  | 87 => ⟨S1x2048, .i32⟩
  | 88 => ⟨S4x1, .i32⟩
  | 89 => ⟨S4x2048, .i32⟩
  | 90 => ⟨S4x2048, .i32⟩
  | 91 => ⟨S4x2048, .i1⟩
  | 92 => ⟨S_, .i32⟩
  | 93 => ⟨S4x2048, .i32⟩
  | 94 => ⟨S4x2048, .i1⟩
  | 95 => ⟨S_, .i32⟩
  | 96 => ⟨S4x2048, .i32⟩
  | 97 => ⟨S4x2048, .i32⟩
  | 98 => ⟨S4x2048, .i32⟩
  | 99 => ⟨S4x2048x1, .i32⟩
  | 100 => ⟨S1, .i32⟩
  | 101 => ⟨S_, .i32⟩
  | 102 => ⟨S4x2048x1, .i32⟩
  | 103 => ⟨S4x2048x1, .i1⟩
  | 104 => ⟨S1x1x1, .i32⟩
  | 105 => ⟨S4x2048x1, .i32⟩
  | 106 => ⟨S4x2048x1, .i1⟩
  | 107 => ⟨S4x2048x1, .i1⟩
  | 108 => ⟨S_, .i1⟩
  | 109 => ⟨S4x2048, .i1⟩
  | 110 => ⟨S4x2048, .f32⟩
  | 111 => ⟨S_, .f32⟩
  | 112 => ⟨S4x2048, .f32⟩
  | 113 => ⟨S4x2048, .f32⟩
  | 114 => ⟨S4x2048, .f32⟩
  | 115 => ⟨S4x2048, .f32⟩
  | 116 => ⟨S_, .f32⟩
  | 117 => ⟨S4x2048, .f32⟩
  | 118 => ⟨S4x2048, .f32⟩
  | 119 => ⟨S_, .f32⟩
  | 120 => ⟨S_, .f32⟩
  | 121 => ⟨S_, .f32⟩
  | 122 => ⟨S4x2048, .f32⟩
  | 123 => ⟨S4x2048, .f32⟩
  | 124 => ⟨S_, .f32⟩
  | 125 => ⟨S4x2048, .f32⟩
  | 126 => ⟨S4x2048, .f32⟩
  | 127 => ⟨S_, .f32⟩
  | _ => ⟨S4x2048x512, .f32⟩

abbrev hbmTy0_1 (i : Nat) : BufTy := match i % 128 with
  | 0 => ⟨S4x512, .f32⟩
  | 1 => ⟨S4x2048x1, .f32⟩
  | 2 => ⟨S4x2048x512, .f32⟩
  | 3 => ⟨S_, .f32⟩
  | 4 => ⟨S4x2048, .f32⟩
  | 5 => ⟨S4x2048, .f32⟩
  | 6 => ⟨S4x2048x1, .f32⟩
  | 7 => ⟨S4x2048x512, .f32⟩
  | 8 => ⟨S4x2048x512, .f32⟩
  | 9 => ⟨S4x1x512, .f32⟩
  | 10 => ⟨S4x1x512, .f32⟩
  | 11 => ⟨S4x1x512, .f32⟩
  | 12 => ⟨S4x1x512, .f32⟩
  | 13 => ⟨S4x1x512, .f32⟩
  | 14 => ⟨S4x2047x512, .f32⟩
  | 15 => ⟨S4x2048x512, .f32⟩
  | 16 => ⟨S4x1x512, .f32⟩
  | 17 => ⟨S4x2047x512, .f32⟩
  | 18 => ⟨S4x2047x512, .f32⟩
  | 19 => ⟨S4x2047x512, .f32⟩
  | 20 => ⟨S4x2047x512, .f32⟩
  | 21 => ⟨S4x2047x512, .f32⟩
  | 22 => ⟨S4x2048x512, .f32⟩
  | 23 => ⟨S4x1x512, .f32⟩
  | 24 => ⟨S4x2047x512, .f32⟩
  | 25 => ⟨S4x2047x512, .f32⟩
  | 26 => ⟨S4x2047x512, .f32⟩
  | 27 => ⟨S4x2048x512, .f32⟩
  | 28 => ⟨S4x2x512, .f32⟩
  | 29 => ⟨S4x2046x512, .f32⟩
  | 30 => ⟨S4x2046x512, .f32⟩
  | 31 => ⟨S4x2046x512, .f32⟩
  | 32 => ⟨S4x2046x512, .f32⟩
  | 33 => ⟨S4x2046x512, .f32⟩
  | 34 => ⟨S4x2048x512, .f32⟩
  | 35 => ⟨S4x2x512, .f32⟩
  | 36 => ⟨S4x2046x512, .f32⟩
  | 37 => ⟨S4x2046x512, .f32⟩
  | 38 => ⟨S4x2046x512, .f32⟩
  | 39 => ⟨S4x2048x512, .f32⟩
  | 40 => ⟨S4x4x512, .f32⟩
  | 41 => ⟨S4x2044x512, .f32⟩
  | 42 => ⟨S4x2044x512, .f32⟩
  | 43 => ⟨S4x2044x512, .f32⟩
  | 44 => ⟨S4x2044x512, .f32⟩
  | 45 => ⟨S4x2044x512, .f32⟩
  | 46 => ⟨S4x2048x512, .f32⟩
  | 47 => ⟨S4x4x512, .f32⟩
  | 48 => ⟨S4x2044x512, .f32⟩
  | 49 => ⟨S4x2044x512, .f32⟩
  | 50 => ⟨S4x2044x512, .f32⟩
  | 51 => ⟨S4x2048x512, .f32⟩
  | 52 => ⟨S4x8x512, .f32⟩
  | 53 => ⟨S4x2040x512, .f32⟩
  | 54 => ⟨S4x2040x512, .f32⟩
  | 55 => ⟨S4x2040x512, .f32⟩
  | 56 => ⟨S4x2040x512, .f32⟩
  | 57 => ⟨S4x2040x512, .f32⟩
  | 58 => ⟨S4x2048x512, .f32⟩
  | 59 => ⟨S4x8x512, .f32⟩
  | 60 => ⟨S4x2040x512, .f32⟩
  | 61 => ⟨S4x2040x512, .f32⟩
  | 62 => ⟨S4x2040x512, .f32⟩
  | 63 => ⟨S4x2048x512, .f32⟩
  | 64 => ⟨S4x16x512, .f32⟩
  | 65 => ⟨S4x2032x512, .f32⟩
  | 66 => ⟨S4x2032x512, .f32⟩
  | 67 => ⟨S4x2032x512, .f32⟩
  | 68 => ⟨S4x2032x512, .f32⟩
  | 69 => ⟨S4x2032x512, .f32⟩
  | 70 => ⟨S4x2048x512, .f32⟩
  | 71 => ⟨S4x16x512, .f32⟩
  | 72 => ⟨S4x2032x512, .f32⟩
  | 73 => ⟨S4x2032x512, .f32⟩
  | 74 => ⟨S4x2032x512, .f32⟩
  | 75 => ⟨S4x2048x512, .f32⟩
  | 76 => ⟨S4x32x512, .f32⟩
  | 77 => ⟨S4x2016x512, .f32⟩
  | 78 => ⟨S4x2016x512, .f32⟩
  | 79 => ⟨S4x2016x512, .f32⟩
  | 80 => ⟨S4x2016x512, .f32⟩
  | 81 => ⟨S4x2016x512, .f32⟩
  | 82 => ⟨S4x2048x512, .f32⟩
  | 83 => ⟨S4x32x512, .f32⟩
  | 84 => ⟨S4x2016x512, .f32⟩
  | 85 => ⟨S4x2016x512, .f32⟩
  | 86 => ⟨S4x2016x512, .f32⟩
  | 87 => ⟨S4x2048x512, .f32⟩
  | 88 => ⟨S4x64x512, .f32⟩
  | 89 => ⟨S4x1984x512, .f32⟩
  | 90 => ⟨S4x1984x512, .f32⟩
  | 91 => ⟨S4x1984x512, .f32⟩
  | 92 => ⟨S4x1984x512, .f32⟩
  | 93 => ⟨S4x1984x512, .f32⟩
  | 94 => ⟨S4x2048x512, .f32⟩
  | 95 => ⟨S4x64x512, .f32⟩
  | 96 => ⟨S4x1984x512, .f32⟩
  | 97 => ⟨S4x1984x512, .f32⟩
  | 98 => ⟨S4x1984x512, .f32⟩
  | 99 => ⟨S4x2048x512, .f32⟩
  | 100 => ⟨S4x128x512, .f32⟩
  | 101 => ⟨S4x1920x512, .f32⟩
  | 102 => ⟨S4x1920x512, .f32⟩
  | 103 => ⟨S4x1920x512, .f32⟩
  | 104 => ⟨S4x1920x512, .f32⟩
  | 105 => ⟨S4x1920x512, .f32⟩
  | 106 => ⟨S4x2048x512, .f32⟩
  | 107 => ⟨S4x128x512, .f32⟩
  | 108 => ⟨S4x1920x512, .f32⟩
  | 109 => ⟨S4x1920x512, .f32⟩
  | 110 => ⟨S4x1920x512, .f32⟩
  | 111 => ⟨S4x2048x512, .f32⟩
  | 112 => ⟨S4x256x512, .f32⟩
  | 113 => ⟨S4x1792x512, .f32⟩
  | 114 => ⟨S4x1792x512, .f32⟩
  | 115 => ⟨S4x1792x512, .f32⟩
  | 116 => ⟨S4x1792x512, .f32⟩
  | 117 => ⟨S4x1792x512, .f32⟩
  | 118 => ⟨S4x2048x512, .f32⟩
  | 119 => ⟨S4x256x512, .f32⟩
  | 120 => ⟨S4x1792x512, .f32⟩
  | 121 => ⟨S4x1792x512, .f32⟩
  | 122 => ⟨S4x1792x512, .f32⟩
  | 123 => ⟨S4x2048x512, .f32⟩
  | 124 => ⟨S4x512x512, .f32⟩
  | 125 => ⟨S4x1536x512, .f32⟩
  | 126 => ⟨S4x1536x512, .f32⟩
  | 127 => ⟨S4x1536x512, .f32⟩
  | _ => ⟨S4x2048x512, .f32⟩

abbrev hbmTy0_2 (i : Nat) : BufTy := match i % 128 with
  | 0 => ⟨S4x1536x512, .f32⟩
  | 1 => ⟨S4x1536x512, .f32⟩
  | 2 => ⟨S4x2048x512, .f32⟩
  | 3 => ⟨S4x512x512, .f32⟩
  | 4 => ⟨S4x1536x512, .f32⟩
  | 5 => ⟨S4x1536x512, .f32⟩
  | 6 => ⟨S4x1536x512, .f32⟩
  | 7 => ⟨S4x2048x512, .f32⟩
  | 8 => ⟨S4x1024x512, .f32⟩
  | 9 => ⟨S4x1024x512, .f32⟩
  | 10 => ⟨S4x1024x512, .f32⟩
  | 11 => ⟨S4x1024x512, .f32⟩
  | 12 => ⟨S4x1024x512, .f32⟩
  | 13 => ⟨S4x1024x512, .f32⟩
  | 14 => ⟨S4x2048x512, .f32⟩
  | 15 => ⟨S4x1024x512, .f32⟩
  | 16 => ⟨S4x1024x512, .f32⟩
  | 17 => ⟨S4x1024x512, .f32⟩
  | 18 => ⟨S4x1024x512, .f32⟩
  | 19 => ⟨S4x2048x512, .f32⟩
  | 20 => ⟨S4x2048x1, .i1⟩
  | 21 => ⟨S4x2048x1, .f32⟩
  | 22 => ⟨S4x2048x512, .f32⟩
  | 23 => ⟨S4x2048x512, .f32⟩
  | 24 => ⟨S4x2048, .i32⟩
  | 25 => ⟨S_, .i32⟩
  | 26 => ⟨S_, .i32⟩
  | 27 => ⟨S4x2048, .i32⟩
  | 28 => ⟨S_, .i32⟩
  | 29 => ⟨S4x2048, .i32⟩
  | 30 => ⟨S4x2048, .i32⟩
  | 31 => ⟨S_, .i32⟩
  | 32 => ⟨S_, .i32⟩
  | 33 => ⟨S_, .i32⟩
  | 34 => ⟨S4x2048, .i32⟩
  | 35 => ⟨S4x2048, .i32⟩
  | 36 => ⟨S_, .i32⟩
  | 37 => ⟨S4x2048, .i32⟩
  | 38 => ⟨S4x2048, .i32⟩
  | 39 => ⟨S_, .i32⟩
  | 40 => ⟨S4x2048, .i32⟩
  | 41 => ⟨S4x2048, .i1⟩
  | 42 => ⟨S4x2048x1, .i32⟩
  | 43 => ⟨S_, .i32⟩
  | 44 => ⟨S4x2048x1, .i32⟩
  | 45 => ⟨S4x2048x1, .i1⟩
  | 46 => ⟨S_, .i32⟩
  | 47 => ⟨S4x2048x1, .i32⟩
  | 48 => ⟨S4x2048x1, .i32⟩
  | 49 => ⟨S4x2048x1, .i32⟩
  | 50 => ⟨S1, .i32⟩
  | 51 => ⟨S_, .i32⟩
  | 52 => ⟨S4x2048x1, .i32⟩
  | 53 => ⟨S4x2048x1, .i1⟩
  | 54 => ⟨S1x1x1, .i32⟩
  | 55 => ⟨S4x2048x1, .i32⟩
  | 56 => ⟨S4x2048x1, .i1⟩
  | 57 => ⟨S4x2048x1, .i1⟩
  | 58 => ⟨S_, .i1⟩
  | 59 => ⟨S4x2048, .i1⟩
  | 60 => ⟨S4x2048x512, .f32⟩
  | 61 => ⟨S4x2048x512, .i1⟩
  | 62 => ⟨S_, .f32⟩
  | 63 => ⟨S4x2048x512, .f32⟩
  | 64 => ⟨S4x2048x512, .f32⟩
  | 65 => ⟨S4x2048x1, .i1⟩
  | 66 => ⟨S4x2048x1, .f32⟩
  | 67 => ⟨S4x2048x512, .f32⟩
  | 68 => ⟨S4x2048x512, .f32⟩
  | 69 => ⟨S_, .f32⟩
  | 70 => ⟨S4x2048, .f32⟩
  | 71 => ⟨S4x2048, .f32⟩
  | 72 => ⟨S4x2048, .f32⟩
  | 73 => ⟨S_, .f32⟩
  | 74 => ⟨S4x2048, .f32⟩
  | 75 => ⟨S4x2048, .f32⟩
  | 76 => ⟨S4x2048, .f32⟩
  | 77 => ⟨S4x2048x1, .f32⟩
  | 78 => ⟨S4x2048x512, .f32⟩
  | 79 => ⟨S4x2048x512, .f32⟩
  | 80 => ⟨S4x2048x512, .f32⟩
  | _ => ⟨S4x2048x512, .f32⟩

abbrev hbmTy (i : Nat) : BufTy := match i / 128 with
  | 0 => hbmTy0_0 i
  | 1 => hbmTy0_1 i
  | 2 => hbmTy0_2 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_c : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1_0 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_c_2 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_c_3 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_cst : Ref sig .tc := ⟨.hbm, 111, rfl⟩
abbrev main_call3_v14 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_12 : Ref sig .tc := ⟨.hbm, 116, rfl⟩
abbrev main_v50 : Ref sig .tc := ⟨.hbm, 117, rfl⟩
abbrev main_v51 : Ref sig .tc := ⟨.hbm, 118, rfl⟩
abbrev main_cst_13 : Ref sig .tc := ⟨.hbm, 119, rfl⟩
abbrev main_cst_14 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_v52 : Ref sig .tc := ⟨.hbm, 126, rfl⟩
abbrev main_cst_15 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_cst_16 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_call5_call0_c : Ref sig .tc := ⟨.hbm, 281, rfl⟩
abbrev main_call5_call0_v0 : Ref sig .tc := ⟨.hbm, 282, rfl⟩
abbrev main_v205 : Ref sig .tc := ⟨.hbm, 283, rfl⟩
abbrev main_c_17 : Ref sig .tc := ⟨.hbm, 284, rfl⟩
abbrev main_v206 : Ref sig .tc := ⟨.hbm, 285, rfl⟩
abbrev main_v207 : Ref sig .tc := ⟨.hbm, 286, rfl⟩
abbrev main_c_18 : Ref sig .tc := ⟨.hbm, 287, rfl⟩
abbrev main_c_19 : Ref sig .tc := ⟨.hbm, 288, rfl⟩
abbrev main_call6_v0 : Ref sig .tc := ⟨.hbm, 289, rfl⟩
abbrev main_call6_v1 : Ref sig .tc := ⟨.hbm, 290, rfl⟩
abbrev main_call6_v2 : Ref sig .tc := ⟨.hbm, 291, rfl⟩
abbrev main_call6_v3 : Ref sig .tc := ⟨.hbm, 292, rfl⟩
abbrev main_call6_v4 : Ref sig .tc := ⟨.hbm, 293, rfl⟩
abbrev main_v208 : Ref sig .tc := ⟨.hbm, 294, rfl⟩
abbrev main_c_20 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_call7_c : Ref sig .tc := ⟨.hbm, 299, rfl⟩
abbrev main_call7_v0 : Ref sig .tc := ⟨.hbm, 300, rfl⟩
abbrev main_call7_v1 : Ref sig .tc := ⟨.hbm, 301, rfl⟩
abbrev main_call7_c_0 : Ref sig .tc := ⟨.hbm, 302, rfl⟩
abbrev main_call7_v2 : Ref sig .tc := ⟨.hbm, 303, rfl⟩
abbrev main_call7_v3 : Ref sig .tc := ⟨.hbm, 304, rfl⟩
abbrev main_call7_v4 : Ref sig .tc := ⟨.hbm, 305, rfl⟩
abbrev main_call7_c_1 : Ref sig .tc := ⟨.hbm, 306, rfl⟩
abbrev main_call7_c_2 : Ref sig .tc := ⟨.hbm, 307, rfl⟩
abbrev main_call7_v5 : Ref sig .tc := ⟨.hbm, 308, rfl⟩
abbrev main_call7_v6 : Ref sig .tc := ⟨.hbm, 309, rfl⟩
abbrev main_call7_v7 : Ref sig .tc := ⟨.hbm, 310, rfl⟩
abbrev main_call7_v8 : Ref sig .tc := ⟨.hbm, 311, rfl⟩
abbrev main_call7_v9 : Ref sig .tc := ⟨.hbm, 312, rfl⟩
abbrev main_call7_v10 : Ref sig .tc := ⟨.hbm, 313, rfl⟩
abbrev main_call7_c_3 : Ref sig .tc := ⟨.hbm, 314, rfl⟩
abbrev main_call7_v11 : Ref sig .tc := ⟨.hbm, 315, rfl⟩
abbrev main_call7_v12 : Ref sig .tc := ⟨.hbm, 316, rfl⟩
abbrev main_call7_v13 : Ref sig .tc := ⟨.hbm, 317, rfl⟩
abbrev main_call7_cst : Ref sig .tc := ⟨.hbm, 318, rfl⟩
abbrev main_call7_v14 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_cst_21 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_cst_22 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩

abbrev nD : Nat := 1
abbrev τ : Topo := Topo.v7x

variable {F : FTy → Type} [FloatOps F]

class Facts₀ : Prop where
  slices_S4x2048x512_S4x2047x512_0_0_0 : S4x2048x512.Slices ![0, 0, 0] S4x2047x512
  reducesTo_S4x2047x512_S4x2047_d2 : S4x2047x512.ReducesTo [2] S4x2047
  h_S_ : 0 < S_.numel
  bcast_S4x2047_S4x2047x1_0_1 : S4x2047.BroadcastsInDim S4x2047x1 (![0, 1] : Fin 2 → Fin S4x2047x1.rank)
  bcast_S_S4x2047x1 : S_.BroadcastsInDim S4x2047x1 (![] : Fin 0 → Fin S4x2047x1.rank)
  bcast_S4x2047x1_S4x2047x512_0_1_2 : S4x2047x1.BroadcastsInDim S4x2047x512 (![0, 1, 2] : Fin 3 → Fin S4x2047x512.rank)
  slices_S4x2048x512_S4x2047x512_0_1_0 : S4x2048x512.Slices ![0, 1, 0] S4x2047x512
  bcast_S_S4x1 : S_.BroadcastsInDim S4x1 (![] : Fin 0 → Fin S4x1.rank)
  bcast_S_S4x2047 : S_.BroadcastsInDim S4x2047 (![] : Fin 0 → Fin S4x2047.rank)
  concatenates_S4x1_S4x2047_S4x2048_d1 : Shape.Concatenates [S4x1, S4x2047] S4x2048 1
  bcast_S_S1 : S_.BroadcastsInDim S1 (![] : Fin 0 → Fin S1.rank)
  bcast_S_S4 : S_.BroadcastsInDim S4 (![] : Fin 0 → Fin S4.rank)
  bcast_S_S4x2048 : S_.BroadcastsInDim S4x2048 (![] : Fin 0 → Fin S4x2048.rank)
  natLt_1_32 : 1 < 32
  reducesTo_S4x2048_S4_d1 : S4x2048.ReducesTo [1] S4
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S1_S1x1x1_2 : S1.BroadcastsInDim S1x1x1 (![2] : Fin 1 → Fin S1x1x1.rank)
  bcast_S1x1x1_S4x2048x1_0_1_2 : S1x1x1.BroadcastsInDim S4x2048x1 (![0, 1, 2] : Fin 3 → Fin S4x2048x1.rank)
  reducesTo_S4x2048x1_S4x2048_d2 : S4x2048x1.ReducesTo [2] S4x2048
  bcast_S4x2048_S4x2048x512_0_1 : S4x2048.BroadcastsInDim S4x2048x512 (![0, 1] : Fin 2 → Fin S4x2048x512.rank)
  bcast_S_S4x2048x512 : S_.BroadcastsInDim S4x2048x512 (![] : Fin 0 → Fin S4x2048x512.rank)
  bcast_S2048_S1x2048_1 : S2048.BroadcastsInDim S1x2048 (![1] : Fin 1 → Fin S1x2048.rank)
  bcast_S4_S4x1_0 : S4.BroadcastsInDim S4x1 (![0] : Fin 1 → Fin S4x1.rank)
  bcast_S1x2048_S4x2048_0_1 : S1x2048.BroadcastsInDim S4x2048 (![0, 1] : Fin 2 → Fin S4x2048.rank)
  bcast_S4x1_S4x2048_0_1 : S4x1.BroadcastsInDim S4x2048 (![0, 1] : Fin 2 → Fin S4x2048.rank)
  shapeCasts_S4x2048_S4x2048x1 : S4x2048.ShapeCasts S4x2048x1
  bcast_S_S4x512 : S_.BroadcastsInDim S4x512 (![] : Fin 0 → Fin S4x512.rank)
  bcast_S4x2048x1_S4x2048x512_0_1_2 : S4x2048x1.BroadcastsInDim S4x2048x512 (![0, 1, 2] : Fin 3 → Fin S4x2048x512.rank)
  slices_S4x2048x512_S4x1x512_0_0_0 : S4x2048x512.Slices ![0, 0, 0] S4x1x512
  bcast_S4x512_S4x1x512_0_2 : S4x512.BroadcastsInDim S4x1x512 (![0, 2] : Fin 2 → Fin S4x1x512.rank)
  concatenates_S4x1x512_S4x2047x512_S4x2048x512_d1 : Shape.Concatenates [S4x1x512, S4x2047x512] S4x2048x512 1
  slices_S4x2048x512_S4x2x512_0_0_0 : S4x2048x512.Slices ![0, 0, 0] S4x2x512
  slices_S4x2048x512_S4x2046x512_0_2_0 : S4x2048x512.Slices ![0, 2, 0] S4x2046x512
  slices_S4x2048x512_S4x2046x512_0_0_0 : S4x2048x512.Slices ![0, 0, 0] S4x2046x512
  concatenates_S4x2x512_S4x2046x512_S4x2048x512_d1 : Shape.Concatenates [S4x2x512, S4x2046x512] S4x2048x512 1
  slices_S4x2048x512_S4x4x512_0_0_0 : S4x2048x512.Slices ![0, 0, 0] S4x4x512
  slices_S4x2048x512_S4x2044x512_0_4_0 : S4x2048x512.Slices ![0, 4, 0] S4x2044x512
  slices_S4x2048x512_S4x2044x512_0_0_0 : S4x2048x512.Slices ![0, 0, 0] S4x2044x512
  concatenates_S4x4x512_S4x2044x512_S4x2048x512_d1 : Shape.Concatenates [S4x4x512, S4x2044x512] S4x2048x512 1
  slices_S4x2048x512_S4x8x512_0_0_0 : S4x2048x512.Slices ![0, 0, 0] S4x8x512
  slices_S4x2048x512_S4x2040x512_0_8_0 : S4x2048x512.Slices ![0, 8, 0] S4x2040x512
  slices_S4x2048x512_S4x2040x512_0_0_0 : S4x2048x512.Slices ![0, 0, 0] S4x2040x512
  concatenates_S4x8x512_S4x2040x512_S4x2048x512_d1 : Shape.Concatenates [S4x8x512, S4x2040x512] S4x2048x512 1
  slices_S4x2048x512_S4x16x512_0_0_0 : S4x2048x512.Slices ![0, 0, 0] S4x16x512
  slices_S4x2048x512_S4x2032x512_0_16_0 : S4x2048x512.Slices ![0, 16, 0] S4x2032x512
  slices_S4x2048x512_S4x2032x512_0_0_0 : S4x2048x512.Slices ![0, 0, 0] S4x2032x512
  concatenates_S4x16x512_S4x2032x512_S4x2048x512_d1 : Shape.Concatenates [S4x16x512, S4x2032x512] S4x2048x512 1
  slices_S4x2048x512_S4x32x512_0_0_0 : S4x2048x512.Slices ![0, 0, 0] S4x32x512
  slices_S4x2048x512_S4x2016x512_0_32_0 : S4x2048x512.Slices ![0, 32, 0] S4x2016x512
  slices_S4x2048x512_S4x2016x512_0_0_0 : S4x2048x512.Slices ![0, 0, 0] S4x2016x512
  concatenates_S4x32x512_S4x2016x512_S4x2048x512_d1 : Shape.Concatenates [S4x32x512, S4x2016x512] S4x2048x512 1
  slices_S4x2048x512_S4x64x512_0_0_0 : S4x2048x512.Slices ![0, 0, 0] S4x64x512
  slices_S4x2048x512_S4x1984x512_0_64_0 : S4x2048x512.Slices ![0, 64, 0] S4x1984x512
  slices_S4x2048x512_S4x1984x512_0_0_0 : S4x2048x512.Slices ![0, 0, 0] S4x1984x512
  concatenates_S4x64x512_S4x1984x512_S4x2048x512_d1 : Shape.Concatenates [S4x64x512, S4x1984x512] S4x2048x512 1
  slices_S4x2048x512_S4x128x512_0_0_0 : S4x2048x512.Slices ![0, 0, 0] S4x128x512
  slices_S4x2048x512_S4x1920x512_0_128_0 : S4x2048x512.Slices ![0, 128, 0] S4x1920x512
  slices_S4x2048x512_S4x1920x512_0_0_0 : S4x2048x512.Slices ![0, 0, 0] S4x1920x512
  concatenates_S4x128x512_S4x1920x512_S4x2048x512_d1 : Shape.Concatenates [S4x128x512, S4x1920x512] S4x2048x512 1
  slices_S4x2048x512_S4x256x512_0_0_0 : S4x2048x512.Slices ![0, 0, 0] S4x256x512
  slices_S4x2048x512_S4x1792x512_0_256_0 : S4x2048x512.Slices ![0, 256, 0] S4x1792x512
  slices_S4x2048x512_S4x1792x512_0_0_0 : S4x2048x512.Slices ![0, 0, 0] S4x1792x512
  concatenates_S4x256x512_S4x1792x512_S4x2048x512_d1 : Shape.Concatenates [S4x256x512, S4x1792x512] S4x2048x512 1
  slices_S4x2048x512_S4x512x512_0_0_0 : S4x2048x512.Slices ![0, 0, 0] S4x512x512
  slices_S4x2048x512_S4x1536x512_0_512_0 : S4x2048x512.Slices ![0, 512, 0] S4x1536x512
  slices_S4x2048x512_S4x1536x512_0_0_0 : S4x2048x512.Slices ![0, 0, 0] S4x1536x512
  concatenates_S4x512x512_S4x1536x512_S4x2048x512_d1 : Shape.Concatenates [S4x512x512, S4x1536x512] S4x2048x512 1
  slices_S4x2048x512_S4x1024x512_0_0_0 : S4x2048x512.Slices ![0, 0, 0] S4x1024x512
  slices_S4x2048x512_S4x1024x512_0_1024_0 : S4x2048x512.Slices ![0, 1024, 0] S4x1024x512
  concatenates_S4x1024x512_S4x1024x512_S4x2048x512_d1 : Shape.Concatenates [S4x1024x512, S4x1024x512] S4x2048x512 1
  bcast_S_S_ : S_.BroadcastsInDim S_ (![] : Fin 0 → Fin S_.rank)
  reduceWindows_S4x2048_S4x2048_w1s1p0_0_w2048s1p2047_0 : S4x2048.ReduceWindows (![1, 2048] : Fin 2 → Nat) ![1, 1] ![0, 2047] ![0, 0] S4x2048
  dot_S4x2047x512_S512x512_S4x2047x512_2_1_01_0_n_n_wf : DotDims.WF S4x2047x512 S512x512 S4x2047x512 [2] [1] [0, 1] [0] [] []
  scatter_S4x2048_S1_S4_0_1_1_0_wf : ScatterDims.WF S4x2048 S1 S4 [0] [1] [1] 0
  gather_S4x2048x512_S4x2048x1_S4x2048x512_2_1_0_0_1_2_11512_wf : GatherDims.WF S4x2048x512 S4x2048x1 S4x2048x512 [2] [1] [0] [1] [0] 2 ![1, 1, 512]
  gather_S4x2048_S4x2048x1_S4x2048_n_1_0_0_1_2_11_wf : GatherDims.WF S4x2048 S4x2048x1 S4x2048 [] [1] [0] [1] [0] 2 ![1, 1]

variable [Facts₀]

def dot_S4x2047x512_S512x512_S4x2047x512_2_1_01_0_n_n : DotDims S4x2047x512 S512x512 S4x2047x512 where
  lhsContracting := [2]
  rhsContracting := [1]
  lhsNonContracting := [0, 1]
  rhsNonContracting := [0]
  lhsBatch := []
  rhsBatch := []
  wf := dot_S4x2047x512_S512x512_S4x2047x512_2_1_01_0_n_n_wf
def scatter_S4x2048_S1_S4_0_1_1_0 : ScatterDims S4x2048 S1 S4 where
  updateWindowDims := [0]
  insertedWindowDims := [1]
  scatterDimsToOperandDims := [1]
  indexVectorDim := 0
  wf := scatter_S4x2048_S1_S4_0_1_1_0_wf
def comparator_i32_i32_d1 : BitVec 32 × BitVec 32 → BitVec 32 × BitVec 32 → BitVec 1 :=
  fun l r =>
    let v2 := IntOp.cmpi .slt l.1 r.1
    v2
def gather_S4x2048x512_S4x2048x1_S4x2048x512_2_1_0_0_1_2_11512 : GatherDims S4x2048x512 S4x2048x1 S4x2048x512 where
  offsetDims := [2]
  collapsedSliceDims := [1]
  operandBatchingDims := [0]
  startIndicesBatchingDims := [0]
  startIndexMap := [1]
  indexVectorDim := 2
  sliceSizes := ![1, 1, 512]
  wf := gather_S4x2048x512_S4x2048x1_S4x2048x512_2_1_0_0_1_2_11512_wf
def gather_S4x2048_S4x2048x1_S4x2048_n_1_0_0_1_2_11 : GatherDims S4x2048 S4x2048x1 S4x2048 where
  offsetDims := []
  collapsedSliceDims := [1]
  operandBatchingDims := [0]
  startIndicesBatchingDims := [0]
  startIndexMap := [1]
  indexVectorDim := 2
  sliceSizes := ![1, 1]
  wf := gather_S4x2048_S4x2048x1_S4x2048_n_1_0_0_1_2_11_wf

class Facts : Prop extends Facts₀ where

variable [Facts]
-- ==== Proof.Spec.lean ====
import Mathlib.Analysis.SpecialFunctions.Pow.Real
import Mathlib.Algebra.BigOperators.Group.Finset.Basic
import Mathlib.Algebra.BigOperators.Ring.Finset

noncomputable section

namespace Cert.Spec

open Finset

def tiny : ℝ := 9223372 / 2 ^ 63

theorem tiny_pos : 0 < tiny := by unfold tiny; positivity

def proj (x : ℕ → ℕ → ℝ) (w : ℕ → ℕ → ℝ) (l e : ℕ) : ℝ := ∑ d ∈ range 512, x l d * w e d

def len (v : ℕ → ℝ) : ℝ := max (Real.sqrt (∑ e ∈ range 512, v e * v e)) tiny

theorem len_pos (v : ℕ → ℝ) : 0 < len v := lt_of_lt_of_le tiny_pos (le_max_right _ _)

def cosAt (x wq wk : ℕ → ℕ → ℝ) (l : ℕ) : ℝ :=
  ∑ e ∈ range 512, (proj x wq l e / len (proj x wq l)) * (proj x wk (l + 1) e / len (proj x wk (l + 1)))

def cosAt' (x wq wk : ℕ → ℕ → ℝ) (l : ℕ) : ℝ :=
  (∑ e ∈ range 512, proj x wq l e * proj x wk (l + 1) e) / (len (proj x wq l) * len (proj x wk (l + 1)))

theorem cosAt_eq (x wq wk : ℕ → ℕ → ℝ) (l : ℕ) : cosAt x wq wk l = cosAt' x wq wk l := by
  unfold cosAt cosAt'
  rw [div_eq_mul_inv, Finset.sum_mul]
  refine Finset.sum_congr rfl fun e _ => ?_
  have h1 := (len_pos (proj x wq l)).ne'
  have h2 := (len_pos (proj x wk (l + 1))).ne'
  field_simp

def prob (x wq wk : ℕ → ℕ → ℝ) (l : ℕ) : ℝ :=
  if l = 0 then 1 else min 1 (max 0 ((1 - cosAt x wq wk (l - 1)) / 2))

theorem prob_zero (x wq wk : ℕ → ℕ → ℝ) : prob x wq wk 0 = 1 := by simp [prob]

theorem prob_mem (x wq wk : ℕ → ℕ → ℝ) (l : ℕ) : 0 ≤ prob x wq wk l ∧ prob x wq wk l ≤ 1 := by
  unfold prob
  split
  · exact ⟨zero_le_one, le_rfl⟩
  · exact ⟨le_min zero_le_one (le_max_left _ _), min_le_left _ _⟩

def keepOf (p : ℕ → ℝ) (l : ℕ) : ℝ := if 1 / 2 < p l then 1 - p l else 1

def gainOf (p : ℕ → ℝ) (l : ℕ) : ℝ := if 1 / 2 < p l then p l else 0

def stateOf (a c : ℕ → ℝ) (x : ℕ → ℕ → ℝ) : ℕ → ℕ → ℝ
  | 0, _ => 0
  | n + 1, d => a n * stateOf a c x n d + c n * x n d

@[simp] theorem stateOf_zero (a c : ℕ → ℝ) (x : ℕ → ℕ → ℝ) (d : ℕ) : stateOf a c x 0 d = 0 := rfl
@[simp] theorem stateOf_succ (a c : ℕ → ℝ) (x : ℕ → ℕ → ℝ) (n d : ℕ) :
    stateOf a c x (n + 1) d = a n * stateOf a c x n d + c n * x n d := rfl

def state (x wq wk : ℕ → ℕ → ℝ) (n d : ℕ) : ℝ :=
  stateOf (keepOf (prob x wq wk)) (gainOf (prob x wq wk)) x n d

def out (x wq wk : ℕ → ℕ → ℝ) (l d : ℕ) : ℝ := x l d + state x wq wk (l + 1) d

end Cert.Spec

end
-- ==== Proof.Coe.lean ====
import Idealize.ShloMosaic.PureOps.Ideal
import Idealize.ShloMosaic.Lib.ValueIdx
import proofs.«123660_g14800457302192_cont_week2b_463_30_alg».proof.Proof.Spec

noncomputable section

namespace Cert.Num

open Idealize.ShloMosaic Idealize.ShloMosaic.ValueIdx

def AllReal {S : Shape} (a : S.Idx → EReal) : Prop := ∀ i, ∃ r : ℝ, a i = (r : EReal)

def re3 (a : (⟨3, ![4, 2048, 512]⟩ : Shape).Idx → EReal) (b l d : ℕ) : ℝ :=
  if h : b < 4 ∧ l < 2048 ∧ d < 512 then (a (ix3 ⟨b, h.1⟩ ⟨l, h.2.1⟩ ⟨d, h.2.2⟩)).toReal else 0

def re2 (a : (⟨2, ![512, 512]⟩ : Shape).Idx → EReal) (e d : ℕ) : ℝ :=
  if h : e < 512 ∧ d < 512 then (a (ix2 ⟨e, h.1⟩ ⟨d, h.2⟩)).toReal else 0

def reB (a : (⟨3, ![1, 2048, 512]⟩ : Shape).Idx → EReal) (l d : ℕ) : ℝ :=
  if h : l < 2048 ∧ d < 512 then (a (ix3 (0 : Fin 1) ⟨l, h.1⟩ ⟨d, h.2⟩)).toReal else 0

theorem re3_eq {a : (⟨3, ![4, 2048, 512]⟩ : Shape).Idx → EReal} (h : AllReal a) (b : Fin 4) (l : Fin 2048) (d : Fin 512) :
    a (ix3 b l d) = ((re3 a b l d : ℝ) : EReal) := by
  obtain ⟨r, hr⟩ := h (ix3 b l d)
  unfold re3
  rw [dif_pos ⟨b.isLt, l.isLt, d.isLt⟩]
  show a (ix3 b l d) = (((a (ix3 b l d)).toReal : ℝ) : EReal)
  rw [hr, EReal.toReal_coe]

theorem re2_eq {a : (⟨2, ![512, 512]⟩ : Shape).Idx → EReal} (h : AllReal a) (e d : Fin 512) :
    a (ix2 e d) = ((re2 a e d : ℝ) : EReal) := by
  obtain ⟨r, hr⟩ := h (ix2 e d)
  unfold re2
  rw [dif_pos ⟨e.isLt, d.isLt⟩]
  show a (ix2 e d) = (((a (ix2 e d)).toReal : ℝ) : EReal)
  rw [hr, EReal.toReal_coe]

theorem reB_eq {a : (⟨3, ![1, 2048, 512]⟩ : Shape).Idx → EReal} (h : AllReal a) (l : Fin 2048) (d : Fin 512) :
    a (ix3 (0 : Fin 1) l d) = ((reB a l d : ℝ) : EReal) := by
  obtain ⟨r, hr⟩ := h (ix3 (0 : Fin 1) l d)
  unfold reB
  rw [dif_pos ⟨l.isLt, d.isLt⟩]
  show a (ix3 (0 : Fin 1) l d) = (((a (ix3 (0 : Fin 1) l d)).toReal : ℝ) : EReal)
  rw [hr, EReal.toReal_coe]

def result (a0 : (⟨3, ![4, 2048, 512]⟩ : Shape).Idx → EReal) (a1 a2 : (⟨2, ![512, 512]⟩ : Shape).Idx → EReal) :
    (⟨3, ![4, 2048, 512]⟩ : Shape).Idx → EReal :=
  fun i => ((Cert.Spec.out (re3 a0 (i 0)) (re2 a1) (re2 a2) (i 1) (i 2) : ℝ) : EReal)

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_tiny : Ideal.ofBits .f32 0x2B8CBCCC#32 = ((Cert.Spec.tiny : ℝ) : EReal) := by
  simp [Ideal.ofBits, Ideal.ieee, -EReal.coe_mul, Cert.Spec.tiny]; norm_num

theorem div_coe_coe (x y : ℝ) (hy : y ≠ 0) : Ideal.div (x : EReal) (y : EReal) = ((x / y : ℝ) : EReal) := by
  rw [Ideal.div_coe hy, ← EReal.coe_mul, mul_one_div]
theorem sqrt_coe_nonneg (x : ℝ) (hx : 0 ≤ x) : Ideal.sqrt (x : EReal) = ((Real.sqrt x : ℝ) : EReal) := by
  rw [Ideal.sqrt_coe, if_neg (not_lt.mpr hx)]
theorem sub_coe_coe (x y : ℝ) : ((x : EReal) - (y : EReal)) = ((x - y : ℝ) : EReal) := by
  exact (EReal.coe_sub x y).symm
theorem max_coe_coe (x y : ℝ) : max (x : EReal) (y : EReal) = ((max x y : ℝ) : EReal) := by
  exact (EReal.coe_strictMono.monotone.map_max).symm
theorem min_coe_coe (x y : ℝ) : min (x : EReal) (y : EReal) = ((min x y : ℝ) : EReal) := by
  exact (EReal.coe_strictMono.monotone.map_min).symm

theorem sum_coe {n : ℕ} (f : Fin n → ℝ) : (∑ k : Fin n, ((f k : ℝ) : EReal)) = ((∑ k : Fin n, f k : ℝ) : EReal) := by
  induction n with
  | zero => simp
  | succ n ih => rw [Fin.sum_univ_castSucc, Fin.sum_univ_castSucc, ih, EReal.coe_add]

theorem sum_fin_eq_range {n : ℕ} (f : ℕ → ℝ) : (∑ k : Fin n, f k) = ∑ k ∈ Finset.range n, f k := by
  exact Fin.sum_univ_eq_sum_range f n

theorem cmpf_ogt_coe (x y : ℝ) : FloatOps.cmpf (F := Ideal) (φ := .f32) .ogt (x : EReal) (y : EReal) = if y < x then 1#1 else 0#1 := by
  show Ideal.cmp .ogt (x : EReal) (y : EReal) = _
  unfold Ideal.cmp
  by_cases hxy : y < x
  · simp [hxy]
  · simp [hxy]

end Cert.Num

end
-- ==== Proof.Finite.lean ====
import proofs.«123660_g14800457302192_cont_week2b_463_30_alg».proof.Defs
import proofs.«123660_g14800457302192_cont_week2b_463_30_alg».proof.Proof.Coe
import Idealize.ShloMosaic.Lib.ReduceAll

noncomputable section

namespace Cert.Num

open Idealize.ShloMosaic Idealize.ShloMosaic.ValueIdx

instance : Subsingleton Cert.Pre_finite_inputs.S_.Idx := ⟨fun a b => funext fun d => d.elim0⟩

theorem ofBits_inf : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

theorem allReal_of_fn [Cert.Pre_finite_inputs.Facts]
    (a0 : FVec Ideal Cert.Pre_finite_inputs.S4x2048x512 .f32) (a1 a2 : FVec Ideal Cert.Pre_finite_inputs.S512x512 .f32)
    (h : Cert.Pre_finite_inputs.fn (F := Ideal) a0 a1 a2 = (fun _ => 1#1)) :
    AllReal a0 ∧ AllReal a1 ∧ AllReal a2 := by
  have h0 := congrFun h ix0
  dsimp only [Cert.Pre_finite_inputs.fn] at h0
  obtain ⟨h01, h2⟩ := IntOp.andi_eq_one.1 h0
  obtain ⟨h00, h1⟩ := IntOp.andi_eq_one.1 h01
  refine ⟨fun i => ?_, fun i => ?_, fun i => ?_⟩
  · exact real_of_abs_lt_inf (a0 i) (Host.reduce_andi_all _ _ _ _ _ h00 i)
  · exact real_of_abs_lt_inf (a1 i) (Host.reduce_andi_all _ _ _ _ _ h1 i)
  · exact real_of_abs_lt_inf (a2 i) (Host.reduce_andi_all _ _ _ _ _ h2 i)

theorem allReal_of_pre_KernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2)) :=
  allReal_of_fn _ _ _ (h c)

theorem allReal_of_pre_ReferenceIdeal [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    AllReal (m ((c.tc : Thread Cert.ReferenceIdeal.nD Cert.ReferenceIdeal.τ).loc Cert.ReferenceIdeal.main_arg0))
    ∧ AllReal (m ((c.tc : Thread Cert.ReferenceIdeal.nD Cert.ReferenceIdeal.τ).loc Cert.ReferenceIdeal.main_arg1))
    ∧ AllReal (m ((c.tc : Thread Cert.ReferenceIdeal.nD Cert.ReferenceIdeal.τ).loc Cert.ReferenceIdeal.main_arg2)) :=
  allReal_of_fn _ _ _ (h c)

end Cert.Num

end
-- ==== Proof.Real.Scan.lean ====
import proofs.«123660_g14800457302192_cont_week2b_463_30_alg».proof.Proof.Spec

noncomputable section

namespace Cert.Spec

open Finset

def sol (a b : ℕ → ℝ) : ℕ → ℝ
  | 0 => 0
  | n + 1 => a n * sol a b n + b n

@[simp] theorem sol_zero (a b : ℕ → ℝ) : sol a b 0 = 0 := rfl
@[simp] theorem sol_succ (a b : ℕ → ℝ) (n : ℕ) : sol a b (n + 1) = a n * sol a b n + b n := rfl

def dstep (s : ℕ) (ab : (ℕ → ℝ) × (ℕ → ℝ)) : (ℕ → ℝ) × (ℕ → ℝ) :=
  (fun i => if i < s then ab.1 i else ab.1 i * ab.1 (i - s),
   fun i => if i < s then ab.2 i else ab.1 i * ab.2 (i - s) + ab.2 i)

def dscan : ℕ → (ℕ → ℝ) × (ℕ → ℝ) → (ℕ → ℝ) × (ℕ → ℝ)
  | 0, ab => ab
  | k + 1, ab => dstep (2 ^ k) (dscan k ab)

def seg (a b : ℕ → ℝ) (lo : ℕ) : ℕ → ℝ × ℝ
  | 0 => (1, 0)
  | n + 1 => (a (lo + n) * (seg a b lo n).1, a (lo + n) * (seg a b lo n).2 + b (lo + n))

@[simp] theorem seg_zero (a b : ℕ → ℝ) (lo : ℕ) : seg a b lo 0 = (1, 0) := rfl
@[simp] theorem seg_succ (a b : ℕ → ℝ) (lo n : ℕ) :
    seg a b lo (n + 1) = (a (lo + n) * (seg a b lo n).1, a (lo + n) * (seg a b lo n).2 + b (lo + n)) := rfl

theorem seg_add (a b : ℕ → ℝ) (lo n m : ℕ) :
    seg a b lo (n + m) = ((seg a b (lo + n) m).1 * (seg a b lo n).1,
                          (seg a b (lo + n) m).1 * (seg a b lo n).2 + (seg a b (lo + n) m).2) := by
  induction m with
  | zero => simp
  | succ m ih =>
    rw [← Nat.add_assoc, seg_succ, ih, seg_succ, Nat.add_assoc lo n m]
    refine Prod.ext ?_ ?_
    · show a (lo + (n + m)) * ((seg a b (lo + n) m).1 * (seg a b lo n).1)
        = a (lo + (n + m)) * (seg a b (lo + n) m).1 * (seg a b lo n).1
      ring
    · show a (lo + (n + m)) * ((seg a b (lo + n) m).1 * (seg a b lo n).2 + (seg a b (lo + n) m).2) + b (lo + (n + m))
        = a (lo + (n + m)) * (seg a b (lo + n) m).1 * (seg a b lo n).2
          + (a (lo + (n + m)) * (seg a b (lo + n) m).2 + b (lo + (n + m)))
      ring

theorem seg_zero_snd (a b : ℕ → ℝ) (n : ℕ) : (seg a b 0 n).2 = sol a b n := by
  induction n with
  | zero => rfl
  | succ n ih => rw [seg_succ, sol_succ, Nat.zero_add]; show a n * (seg a b 0 n).2 + b n = _; rw [ih]

theorem seg_zero_fst (a b : ℕ → ℝ) (n : ℕ) : (seg a b 0 n).1 = ∏ j ∈ range n, a j := by
  induction n with
  | zero => simp
  | succ n ih =>
    rw [seg_succ, Nat.zero_add, prod_range_succ]
    show a n * (seg a b 0 n).1 = _
    rw [ih, mul_comm]

theorem dscan_window (a b : ℕ → ℝ) (k : ℕ) :
    ∀ i lo n : ℕ, lo + n = i + 1 → n ≤ 2 ^ k → (n = 2 ^ k ∨ lo = 0) →
      ((dscan k (a, b)).1 i, (dscan k (a, b)).2 i) = seg a b lo n := by
  induction k with
  | zero =>
    intro i lo n h1 h2 h3
    rw [Nat.pow_zero] at h2 h3
    have hn : n = 1 := by omega
    have hlo : lo = i := by omega
    subst hn; subst hlo
    simp [dscan]
  | succ k ih =>
    intro i lo n h1 h2 h3
    have hp : 2 ^ (k + 1) = 2 ^ k + 2 ^ k := by rw [pow_succ]; ring
    have hpos : 0 < 2 ^ k := Nat.two_pow_pos k
    rw [hp] at h2 h3
    show ((dstep (2 ^ k) (dscan k (a, b))).1 i, (dstep (2 ^ k) (dscan k (a, b))).2 i) = seg a b lo n
    by_cases hi : i < 2 ^ k
    · have e := ih i lo n h1 (by omega) (Or.inr (by omega))
      simp only [dstep, if_pos hi]
      exact e
    · obtain ⟨m, rfl⟩ : ∃ m, n = m + 2 ^ k := ⟨n - 2 ^ k, by omega⟩
      have e1 := ih i (i + 1 - 2 ^ k) (2 ^ k) (by omega) le_rfl (Or.inl rfl)
      have e2 := ih (i - 2 ^ k) lo m (by omega) (by omega) (by omega)
      have hlo : lo + m = i + 1 - 2 ^ k := by omega
      simp only [dstep, if_neg hi]
      rw [seg_add, hlo, ← e1, ← e2]

theorem dscan_val (a b : ℕ → ℝ) (k i : ℕ) (hi : i < 2 ^ k) : (dscan k (a, b)).2 i = sol a b (i + 1) := by
  have h := dscan_window a b k i 0 (i + 1) (Nat.zero_add _) hi (Or.inr rfl)
  rw [← seg_zero_snd, ← h]

theorem dscan_mul (a b : ℕ → ℝ) (k i : ℕ) (hi : i < 2 ^ k) : (dscan k (a, b)).1 i = ∏ j ∈ range (i + 1), a j := by
  have h := dscan_window a b k i 0 (i + 1) (Nat.zero_add _) hi (Or.inr rfl)
  rw [← seg_zero_fst a b, ← h]

theorem stateOf_eq_sol (a c : ℕ → ℝ) (x : ℕ → ℕ → ℝ) (n d : ℕ) :
    stateOf a c x n d = sol a (fun i => c i * x i d) n := by
  induction n with
  | zero => rfl
  | succ n ih => rw [stateOf_succ, sol_succ, ih]

def dstep' (s : ℕ) (ab : (ℕ → ℝ) × (ℕ → ℝ)) : (ℕ → ℝ) × (ℕ → ℝ) :=
  (fun i => ab.1 i * (if i < s then 1 else ab.1 (i - s)),
   fun i => ab.2 i + ab.1 i * (if i < s then 0 else ab.2 (i - s)))

theorem dstep'_eq (s : ℕ) (ab : (ℕ → ℝ) × (ℕ → ℝ)) : dstep' s ab = dstep s ab := by
  unfold dstep' dstep
  refine Prod.ext ?_ ?_
  · funext i
    by_cases h : i < s
    · simp [h]
    · simp [h]
  · funext i
    by_cases h : i < s
    · simp [h]
    · simp [h, add_comm]

end Cert.Spec

end
-- ==== Proof.Real.Chunk.lean ====
import proofs.«123660_g14800457302192_cont_week2b_463_30_alg».proof.Proof.Spec
import proofs.«123660_g14800457302192_cont_week2b_463_30_alg».proof.Proof.Real.Scan

noncomputable section

namespace Cert.Spec

open Finset

def tw (a : ℕ → ℝ) (o t j : ℕ) : ℝ := if j ≤ t then ∏ i ∈ Ioc j t, a (o + i) else 0

def preOf (a : ℕ → ℝ) (o t : ℕ) : ℝ := ∏ i ∈ range (t + 1), a (o + i)

def locOf (a c : ℕ → ℝ) (x : ℕ → ℕ → ℝ) (o t d : ℕ) : ℝ :=
  ∑ j ∈ range 128, tw a o t j * (c (o + j) * x (o + j) d)

theorem tw_zero (a : ℕ → ℝ) (o j : ℕ) : tw a o 0 j = if 0 = j then 1 else 0 := by
  unfold tw
  by_cases h : j = 0
  · subst h; simp
  · have h1 : ¬ j ≤ 0 := by omega
    have h2 : ¬ 0 = j := fun e => h e.symm
    rw [if_neg h1, if_neg h2]

theorem tw_succ (a : ℕ → ℝ) (o t j : ℕ) :
    tw a o (t + 1) j = a (o + (t + 1)) * tw a o t j + (if t + 1 = j then 1 else 0) := by
  unfold tw
  rcases lt_trichotomy j (t + 1) with h | h | h
  ·
    have h1 : j ≤ t + 1 := by omega
    have h2 : j ≤ t := by omega
    have h3 : ¬ t + 1 = j := by omega
    rw [if_pos h1, if_pos h2, if_neg h3, Finset.prod_Ioc_succ_top h2]
    ring
  ·
    subst h
    have h2 : ¬ t + 1 ≤ t := by omega
    rw [if_pos le_rfl, if_neg h2, if_pos rfl, Finset.Ioc_self, Finset.prod_empty]
    ring
  ·
    have h1 : ¬ j ≤ t + 1 := by omega
    have h2 : ¬ j ≤ t := by omega
    have h3 : ¬ t + 1 = j := by omega
    rw [if_neg h1, if_neg h2, if_neg h3]
    ring

theorem tw_eq_sol (a : ℕ → ℝ) (o t j : ℕ) :
    tw a o t j = sol (fun i => a (o + i)) (fun i => if i = j then 1 else 0) (t + 1) := by
  induction t with
  | zero =>
    rw [tw_zero, sol_succ, sol_zero]
    simp
  | succ t ih =>
    rw [tw_succ, sol_succ, ← ih]

theorem preOf_eq (a : ℕ → ℝ) (o t : ℕ) : preOf a o t = ∏ j ∈ range (t + 1), (fun i => a (o + i)) j := rfl

theorem preOf_succ (a : ℕ → ℝ) (o t : ℕ) : preOf a o (t + 1) = preOf a o t * a (o + (t + 1)) := by
  unfold preOf
  rw [Finset.prod_range_succ]

theorem preOf_zero (a : ℕ → ℝ) (o : ℕ) : preOf a o 0 = a o := by
  unfold preOf
  simp

theorem sum_unit (f : ℕ → ℝ) (k : ℕ) (hk : k < 128) :
    ∑ j ∈ range 128, (if k = j then (1 : ℝ) else 0) * f j = f k := by
  rw [Finset.sum_eq_single k]
  · rw [if_pos rfl, one_mul]
  · intro j _ hj
    have : ¬ k = j := fun e => hj e.symm
    rw [if_neg this, zero_mul]
  · intro hk'
    exact absurd (Finset.mem_range.mpr hk) hk'

theorem locOf_zero (a c : ℕ → ℝ) (x : ℕ → ℕ → ℝ) (o d : ℕ) : locOf a c x o 0 d = c o * x o d := by
  unfold locOf
  simp only [tw_zero]
  rw [sum_unit (fun j => c (o + j) * x (o + j) d) 0 (by norm_num)]
  simp

theorem locOf_succ (a c : ℕ → ℝ) (x : ℕ → ℕ → ℝ) (o t d : ℕ) (ht : t + 1 < 128) :
    locOf a c x o (t + 1) d
      = a (o + (t + 1)) * locOf a c x o t d + c (o + (t + 1)) * x (o + (t + 1)) d := by
  unfold locOf
  simp only [tw_succ, add_mul, Finset.sum_add_distrib]
  rw [sum_unit (fun j => c (o + j) * x (o + j) d) (t + 1) ht, Finset.mul_sum]
  congr 1
  refine Finset.sum_congr rfl fun j _ => ?_
  ring

theorem state_chunk (a c : ℕ → ℝ) (x : ℕ → ℕ → ℝ) (o t d : ℕ) (ht : t < 128) :
    stateOf a c x (o + t + 1) d = locOf a c x o t d + preOf a o t * stateOf a c x o d := by
  induction t with
  | zero =>
    rw [locOf_zero, preOf_zero, Nat.add_zero, stateOf_succ]
    ring
  | succ t ih =>
    have ht' : t < 128 := by omega
    rw [stateOf_succ, ← Nat.add_assoc o t 1, ih ht', Nat.add_assoc o t 1, locOf_succ a c x o t d ht, preOf_succ]
    ring

theorem state_chunks (a c : ℕ → ℝ) (x : ℕ → ℕ → ℝ) (g d : ℕ) :
    stateOf a c x (128 * g) d
      = sol (fun g' => preOf a (128 * g') 127) (fun g' => locOf a c x (128 * g') 127 d) g := by
  induction g with
  | zero => rw [Nat.mul_zero, stateOf_zero, sol_zero]
  | succ g ih =>
    have e : 128 * (g + 1) = 128 * g + 127 + 1 := by ring
    rw [e, state_chunk a c x (128 * g) 127 d (by norm_num), sol_succ, ih]
    ring

end Cert.Spec

end
-- ==== Proof.Ker.Router.lean ====
import proofs.«123660_g14800457302192_cont_week2b_463_30_alg».proof.Proof.Gen.KernelIdeal.Skeleton
import proofs.«123660_g14800457302192_cont_week2b_463_30_alg».proof.Proof.Coe
import Idealize.ShloMosaic.Lib.ValueIdx
import Idealize.ShloMosaic.Lib.ValueLayout
import Idealize.ShloMosaic.Lib.Pipeline.Value
import Idealize.ShloMosaic.PureOps.Ideal.Laws

noncomputable section

namespace Cert.Ker

open Idealize.ShloMosaic Idealize.ShloMosaic.ValueIdx Cert.KernelIdeal Cert.KernelIdeal.Gen Cert.Num

theorem pay2_eq {x0 : Vec Ideal S1x2048x512 .f32} (h0 : AllReal x0) (l : Fin 2048) (d : Fin 512) :
    k0_pay2 x0 (ix2 l d) = ((reB x0 l d : ℝ) : EReal) := by
  unfold k0_pay2
  rw [shapeCast_1ab_ab_apply]
  exact reB_eq h0 l d

namespace Router

theorem lhs_0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem lhs_1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
theorem rhs_0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
theorem rhs_1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

theorem matmul_read (a : FVec Ideal S2048x512 .f32) (w : FVec Ideal S512x512 .f32) (l : Fin 2048) (e : Fin 512) :
    matmul dot_S2048x512_S512x512_S2048x512_1_1_0_0_n_n none a w (constant (F := Ideal) S2048x512 .f32 0x00000000#32) (ix2 l e)
      = ∑ k : Fin 512, a (ix2 l k) * w (ix2 e k) := by
  simp only [matmul]
  rw [Ideal.matmul_constant_zero_apply,
    ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 l e)
      ((contrEquiv1 dot_S2048x512_S512x512_S2048x512_1_1_0_0_n_n 512 rfl rfl).symm k) = ix2 l k :=
    funext fun a => Fin.ext (by
      match a with
      | ⟨0, _⟩ => exact lhs_0 _ _
      | ⟨1, _⟩ => exact (lhs_1 _ _).trans hk)
  have er : dot_S2048x512_S512x512_S2048x512_1_1_0_0_n_n.rhsIdx (ix2 l e)
      ((contrEquiv1 dot_S2048x512_S512x512_S2048x512_1_1_0_0_n_n 512 rfl rfl).symm k) = ix2 e k :=
    funext fun a => Fin.ext (by
      match a with
      | ⟨0, _⟩ => exact rhs_0 _ _
      | ⟨1, _⟩ => exact (rhs_1 _ _).trans hk)
  rw [el, er]

theorem rowsum_read (v : FVec Ideal S2048x512 .f32) (l : Fin 2048) :
    shapeCast S2048x1 (multiReduction .add [1] S2048 v 0x00000000#32 reduces_S2048x512_S2048 (.inl rfl) rfl)
        shapeCasts_S2048_S2048x1 (ix2 l (0 : Fin 1))
      = ∑ k : Fin 512, v (ix2 l k) := by
  rw [shapeCast_apply _ _ _ (ix1 l) (by
    rw [Shape.rowMajor_val_one, Shape.rowMajor_val_two]
    show l.val = l.val * 1 + 0
    omega)]
  refine (Ideal.multiReduction_add_single v 0x00000000#32 reduces_S2048x512_S2048 (.inl rfl) rfl (ix1 l)).trans ?_
  refine Finset.sum_congr rfl fun k _ => congrArg v ?_
  funext a
  match a with
  | ⟨0, _⟩ => rfl
  | ⟨1, _⟩ => rfl

theorem shift_read (v : FVec Ideal S2048x512 .f32) (c : Ideal .f32) (l : Fin 2048) (e : Fin 512) (hl : l.val + 1 < 2048) :
    concatenate S2048x512 0 [⟨S2047x512, extractStridedSlice S2047x512 ![1, 0] v slices_S2048x512_o1_0_S2047x512⟩,
        ⟨S1x512, broadcast S1x512 c⟩] concatenates_S2047x512_S1x512_S2048x512_d0 (ix2 l e)
      = v (ix2 ⟨l.val + 1, hl⟩ e) := by
  refine (concatenate_pair_apply_left (t := S2048x512) (s₁ := S2047x512) (s₂ := S1x512) 0 _ _
    concatenates_S2047x512_S1x512_S2048x512_d0 (ix2 l e) rfl (ix2 (⟨l.val, by omega⟩ : Fin 2047) e) (fun b => by
      match b with
      | ⟨0, _⟩ => rfl
      | ⟨1, _⟩ => rfl)).trans ?_
  exact slice2_axis0_apply 1 v _ _ e _ (by show l.val + 1 = 1 + l.val; omega)

theorem top_zero (a : FVec Ideal S1x1 .f32) (v : FVec Ideal S2048x1 .f32) :
    concatenate S2048x1 0 [⟨S1x1, a⟩, ⟨S2047x1, extractStridedSlice S2047x1 ![0, 0] v slices_S2048x1_o0_0_S2047x1⟩]
        concatenates_S1x1_S2047x1_S2048x1_d0 (ix2 (0 : Fin 2048) (0 : Fin 1))
      = a (ix2 (0 : Fin 1) (0 : Fin 1)) :=
  concatenate_pair_apply_left (t := S2048x1) (s₁ := S1x1) (s₂ := S2047x1) 0 _ _
    concatenates_S1x1_S2047x1_S2048x1_d0 (ix2 (0 : Fin 2048) (0 : Fin 1)) rfl (ix2 (0 : Fin 1) (0 : Fin 1)) (fun b => by
      match b with
      | ⟨0, _⟩ => rfl
      | ⟨1, _⟩ => rfl)

theorem top_succ (a : FVec Ideal S1x1 .f32) (v : FVec Ideal S2048x1 .f32) (l : Fin 2048) (hl : 0 < l.val) :
    concatenate S2048x1 0 [⟨S1x1, a⟩, ⟨S2047x1, extractStridedSlice S2047x1 ![0, 0] v slices_S2048x1_o0_0_S2047x1⟩]
        concatenates_S1x1_S2047x1_S2048x1_d0 (ix2 l (0 : Fin 1))
      = v (ix2 (⟨l.val - 1, by omega⟩ : Fin 2048) (0 : Fin 1)) := by
  refine (concatenate_pair_apply_right (t := S2048x1) (s₁ := S1x1) (s₂ := S2047x1) 0 _ _
    concatenates_S1x1_S2047x1_S2048x1_d0 (ix2 l (0 : Fin 1)) rfl rfl (ix2 (⟨l.val - 1, by omega⟩ : Fin 2047) (0 : Fin 1))
    (fun b hb => by
      match b with
      | ⟨0, _⟩ => exact absurd rfl hb
      | ⟨1, _⟩ => rfl)
    (by show l.val - 1 + 1 = l.val; omega)).trans ?_
  exact slice2_axis0_apply 0 v _ _ _ _ (by show l.val - 1 = 0 + (l.val - 1); omega)

theorem lane_read (v : FVec Ideal S2048x1 .f32) (l : Fin 2048) (j : Fin 128) :
    broadcastTo S2048x128 (shapeCast S2048x1 v shapeCasts_S2048x1_S2048x1) broadcasts_S2048x1_S2048x128 (ix2 l j)
      = v (ix2 l (0 : Fin 1)) := by
  rw [shapeCast_self]
  exact broadcastTo_apply v _ _ (ix2 l (0 : Fin 1)) (fun a => by
    match a with
    | ⟨0, _⟩ => rfl
    | ⟨1, _⟩ => rfl)

theorem proj_eq {x0 : Vec Ideal S1x2048x512 .f32} (h0 : AllReal x0) {w : Vec Ideal S512x512 .f32} (hw : AllReal w)
    (l : Fin 2048) (e : Fin 512) :
    matmul (φ₂ := .f32) dot_S2048x512_S512x512_S2048x512_1_1_0_0_n_n none (k0_pay2 x0) w
        (constant (F := Ideal) S2048x512 .f32 0x00000000#32) (ix2 l e)
      = ((Cert.Spec.proj (reB x0) (re2 w) l e : ℝ) : EReal) := by
  rw [matmul_read]
  rw [Finset.sum_congr rfl (fun (k : Fin 512) _ =>
    show k0_pay2 x0 (ix2 l k) * w (ix2 e k) = ((reB x0 l k * re2 w e k : ℝ) : EReal) by
      rw [pay2_eq h0, re2_eq hw, EReal.coe_mul])]
  rw [sum_coe (fun k : Fin 512 => reB x0 l k * re2 w e k), sum_fin_eq_range (fun k => reB x0 l k * re2 w e k)]
  rfl

theorem dot_read (a b : FVec Ideal S2048x512 .f32) (A B : ℕ → ℝ) (l : Fin 2048)
    (ha : ∀ e : Fin 512, a (ix2 l e) = ((A e : ℝ) : EReal)) (hb : ∀ e : Fin 512, b (ix2 l e) = ((B e : ℝ) : EReal)) :
    shapeCast S2048x1 (multiReduction .add [1] S2048 (mulf a b) 0x00000000#32 reduces_S2048x512_S2048 (.inl rfl) rfl)
        shapeCasts_S2048_S2048x1 (ix2 l (0 : Fin 1))
      = ((∑ e ∈ Finset.range 512, A e * B e : ℝ) : EReal) := by
  rw [rowsum_read]
  rw [Finset.sum_congr rfl (fun (k : Fin 512) _ =>
    show mulf a b (ix2 l k) = ((A k * B k : ℝ) : EReal) by rw [mulf_apply, ha, hb, EReal.coe_mul])]
  rw [sum_coe (fun k : Fin 512 => A k * B k), sum_fin_eq_range (fun k => A k * B k)]

theorem norm_read (a : FVec Ideal S2048x512 .f32) (A : ℕ → ℝ) (l : Fin 2048)
    (ha : ∀ e : Fin 512, a (ix2 l e) = ((A e : ℝ) : EReal)) :
    maximumf (sqrt (shapeCast S2048x1
          (multiReduction .add [1] S2048 (mulf a a) 0x00000000#32 reduces_S2048x512_S2048 (.inl rfl) rfl)
          shapeCasts_S2048_S2048x1))
        (broadcast S2048x1 (Scalar.ofBits (F := Ideal) .f32 0x2B8CBCCC#32)) (ix2 l (0 : Fin 1))
      = ((Cert.Spec.len A : ℝ) : EReal) := by
  rw [maximumf_apply, broadcast_apply]
  show max (Ideal.sqrt (shapeCast S2048x1 _ _ (ix2 l (0 : Fin 1)))) (Ideal.ofBits .f32 0x2B8CBCCC#32) = _
  rw [dot_read a a A A l ha ha, sqrt_coe_nonneg _ (Finset.sum_nonneg fun e _ => mul_self_nonneg (A e)), ofBits_tiny,
    max_coe_coe]
  rfl

theorem clip_read (q k : FVec Ideal S2048x512 .f32) (Q K : ℕ → ℝ) (l : Fin 2048)
    (hq : ∀ e : Fin 512, q (ix2 l e) = ((Q e : ℝ) : EReal)) (hk : ∀ e : Fin 512, k (ix2 l e) = ((K e : ℝ) : EReal)) :
    minimumf (broadcast S2048x1 (Scalar.ofBits (F := Ideal) .f32 0x3F800000#32))
      (maximumf (broadcast S2048x1 (Scalar.ofBits (F := Ideal) .f32 0x00000000#32))
        (mulf
          (subf (broadcast S2048x1 (Scalar.ofBits (F := Ideal) .f32 0x3F800000#32))
            (divf
              (shapeCast S2048x1
                (multiReduction .add [1] S2048 (mulf q k) 0x00000000#32 reduces_S2048x512_S2048 (.inl rfl) rfl)
                shapeCasts_S2048_S2048x1)
              (mulf
                (maximumf (sqrt (shapeCast S2048x1
                    (multiReduction .add [1] S2048 (mulf q q) 0x00000000#32 reduces_S2048x512_S2048 (.inl rfl) rfl)
                    shapeCasts_S2048_S2048x1))
                  (broadcast S2048x1 (Scalar.ofBits (F := Ideal) .f32 0x2B8CBCCC#32)))
                (maximumf (sqrt (shapeCast S2048x1
                    (multiReduction .add [1] S2048 (mulf k k) 0x00000000#32 reduces_S2048x512_S2048 (.inl rfl) rfl)
                    shapeCasts_S2048_S2048x1))
                  (broadcast S2048x1 (Scalar.ofBits (F := Ideal) .f32 0x2B8CBCCC#32))))))
          (broadcast S2048x1 (Scalar.ofBits (F := Ideal) .f32 0x3F000000#32)))) (ix2 l (0 : Fin 1))
      = ((min 1 (max 0 ((1 - (∑ e ∈ Finset.range 512, Q e * K e) / (Cert.Spec.len Q * Cert.Spec.len K)) / 2)) : ℝ) : EReal) := by
  rw [minimumf_apply, maximumf_apply, mulf_apply, subf_apply, divf_apply, mulf_apply, norm_read q Q l hq,
    norm_read k K l hk, dot_read q k Q K l hq hk]
  simp only [broadcast_apply]
  show min (Ideal.ofBits .f32 0x3F800000#32) (max (Ideal.ofBits .f32 0x00000000#32)
    ((Ideal.ofBits .f32 0x3F800000#32 - Ideal.div _ _) * Ideal.ofBits .f32 0x3F000000#32)) = _
  rw [ofBits_one, ofBits_zero, ofBits_half, ← EReal.coe_mul,
    div_coe_coe _ _ (ne_of_gt (mul_pos (Cert.Spec.len_pos Q) (Cert.Spec.len_pos K))), sub_coe_coe, ← EReal.coe_mul,
    max_coe_coe, min_coe_coe, mul_one_div]

end Router

open Router

theorem pay3_eq {x0 : Vec Ideal S1x2048x512 .f32} {x1 x2 : Vec Ideal S512x512 .f32}
    (h0 : AllReal x0) (h1 : AllReal x1) (h2 : AllReal x2) (l : Fin 2048) (j : Fin 128) :
    k0_pay3 x0 x1 x2 (ix2 l j) = ((Cert.Spec.prob (reB x0) (re2 x1) (re2 x2) l : ℝ) : EReal) := by
  unfold k0_pay3
  rw [lane_read]
  by_cases hl : l.val = 0
  · obtain rfl : l = (0 : Fin 2048) := Fin.ext hl
    rw [top_zero, broadcast_apply]
    show Ideal.ofBits .f32 0x3F800000#32 = _
    rw [ofBits_one]
    exact congrArg _ (Cert.Spec.prob_zero _ _ _).symm
  · have hl' : (l.val - 1) + 1 < 2048 := by have := l.isLt; omega
    rw [top_succ _ _ l (by omega)]
    refine (clip_read _ _ (Cert.Spec.proj (reB x0) (re2 x1) (l.val - 1)) (Cert.Spec.proj (reB x0) (re2 x2) (l.val - 1 + 1))
      ⟨l.val - 1, by omega⟩ (fun e => proj_eq h0 h1 _ e)
      (fun e => (shift_read _ _ ⟨l.val - 1, by omega⟩ e hl').trans (proj_eq h0 h2 ⟨l.val - 1 + 1, hl'⟩ e))).trans ?_
    refine congrArg _ ?_
    rw [Cert.Spec.prob, if_neg hl, Cert.Spec.cosAt_eq]
    rfl

end Cert.Ker

end
-- ==== Proof.Ker.LogScan.lean ====
import proofs.«123660_g14800457302192_cont_week2b_463_30_alg».proof.Proof.Gen.KernelIdeal.Skeleton
import proofs.«123660_g14800457302192_cont_week2b_463_30_alg».proof.Proof.Coe
import proofs.«123660_g14800457302192_cont_week2b_463_30_alg».proof.Proof.Real.Scan
import proofs.«123660_g14800457302192_cont_week2b_463_30_alg».proof.Proof.Real.Chunk
import Idealize.ShloMosaic.Lib.ValueIdx
import Idealize.ShloMosaic.Lib.ValueLayout
import Idealize.ShloMosaic.Lib.Pipeline.Value

noncomputable section

namespace Cert.Ker

open Idealize.ShloMosaic Idealize.ShloMosaic.ValueIdx Cert.KernelIdeal Cert.KernelIdeal.Gen Cert.Num Cert.Spec

theorem shift_lt {α : Type} {s m : ℕ} (c : α) (X : (⟨3, ![16, 128, 128]⟩ : Shape).Idx → α)
    (hS : (⟨3, ![16, 128, 128]⟩ : Shape).Slices ![0, 0, 0] ⟨3, ![16, m, 128]⟩)
    (hC : Shape.Concatenates [⟨3, ![16, s, 128]⟩, ⟨3, ![16, m, 128]⟩] ⟨3, ![16, 128, 128]⟩ 1)
    (g : Fin 16) (t j : Fin 128) (ht : t.val < s) :
    concatenate ⟨3, ![16, 128, 128]⟩ 1
      [⟨⟨3, ![16, s, 128]⟩, broadcast ⟨3, ![16, s, 128]⟩ c⟩,
       ⟨⟨3, ![16, m, 128]⟩, extractStridedSlice ⟨3, ![16, m, 128]⟩ ![0, 0, 0] X hS⟩] hC (ix3 g t j) = c := by
  refine (concatenate_pair_apply_left (t := ⟨3, ![16, 128, 128]⟩) (s₁ := ⟨3, ![16, s, 128]⟩) (s₂ := ⟨3, ![16, m, 128]⟩)
    (1 : Fin 3) _ _ hC (ix3 g t j) rfl (ix3 g ⟨t.val, ht⟩ j) (fun b => ?_)).trans ?_
  · match b with
    | ⟨0, _⟩ => rfl
    | ⟨1, _⟩ => rfl
    | ⟨2, _⟩ => rfl
  · rfl

theorem shift_ge {α : Type} {s m : ℕ} (c : α) (X : (⟨3, ![16, 128, 128]⟩ : Shape).Idx → α)
    (hS : (⟨3, ![16, 128, 128]⟩ : Shape).Slices ![0, 0, 0] ⟨3, ![16, m, 128]⟩)
    (hC : Shape.Concatenates [⟨3, ![16, s, 128]⟩, ⟨3, ![16, m, 128]⟩] ⟨3, ![16, 128, 128]⟩ 1)
    (g : Fin 16) (t j : Fin 128) (ht : s ≤ t.val) (hm : s + m = 128) (u : Fin 128) (hu : u.val = t.val - s) :
    concatenate ⟨3, ![16, 128, 128]⟩ 1
      [⟨⟨3, ![16, s, 128]⟩, broadcast ⟨3, ![16, s, 128]⟩ c⟩,
       ⟨⟨3, ![16, m, 128]⟩, extractStridedSlice ⟨3, ![16, m, 128]⟩ ![0, 0, 0] X hS⟩] hC (ix3 g t j) = X (ix3 g u j) := by
  have hlt : t.val - s < m := by have := t.isLt; omega
  refine (concatenate_pair_apply_right (t := ⟨3, ![16, 128, 128]⟩) (s₁ := ⟨3, ![16, s, 128]⟩) (s₂ := ⟨3, ![16, m, 128]⟩)
    (1 : Fin 3) _ _ hC (ix3 g t j) rfl rfl (ix3 g ⟨t.val - s, hlt⟩ j) (fun b hb => ?_) ?_).trans ?_
  · match b, hb with
    | ⟨0, _⟩, _ => rfl
    | ⟨1, _⟩, hb => exact absurd rfl hb
    | ⟨2, _⟩, _ => rfl
  · show (t.val - s) + s = t.val
    omega
  · exact slice3_axis1_apply 0 X hS g ⟨t.val - s, hlt⟩ j u (by show u.val = 0 + (t.val - s); omega)

theorem mul_step {s m : ℕ} (hm : s + m = 128) (A : FVec Ideal (⟨3, ![16, 128, 128]⟩ : Shape) .f32)
    (hS : (⟨3, ![16, 128, 128]⟩ : Shape).Slices ![0, 0, 0] ⟨3, ![16, m, 128]⟩)
    (hC : Shape.Concatenates [⟨3, ![16, s, 128]⟩, ⟨3, ![16, m, 128]⟩] ⟨3, ![16, 128, 128]⟩ 1)
    (ab : ℕ → ℕ → (ℕ → ℝ) × (ℕ → ℝ))
    (hA : ∀ (g : Fin 16) (t j : Fin 128), A (ix3 g t j) = (((ab g j).1 t : ℝ) : EReal))
    (g : Fin 16) (t j : Fin 128) :
    mulf A (concatenate ⟨3, ![16, 128, 128]⟩ 1
      [⟨⟨3, ![16, s, 128]⟩, broadcast ⟨3, ![16, s, 128]⟩ (Scalar.ofBits (F := Ideal) .f32 0x3F800000#32)⟩,
       ⟨⟨3, ![16, m, 128]⟩, extractStridedSlice ⟨3, ![16, m, 128]⟩ ![0, 0, 0] A hS⟩] hC) (ix3 g t j)
      = (((dstep s (ab g j)).1 t : ℝ) : EReal) := by
  rw [← dstep'_eq, mulf_apply, hA]
  show _ = (((ab g j).1 t * (if t.val < s then 1 else (ab g j).1 (t.val - s)) : ℝ) : EReal)
  by_cases ht : t.val < s
  · rw [shift_lt _ _ hS hC g t j ht, if_pos ht, EReal.coe_mul]
    exact congrArg _ ofBits_one
  · have hu : t.val - s < 128 := by have := t.isLt; omega
    rw [shift_ge _ _ hS hC g t j (not_lt.1 ht) hm ⟨t.val - s, hu⟩ rfl, hA, if_neg ht, EReal.coe_mul]

theorem add_step {s m : ℕ} (hm : s + m = 128) (A B : FVec Ideal (⟨3, ![16, 128, 128]⟩ : Shape) .f32)
    (hS : (⟨3, ![16, 128, 128]⟩ : Shape).Slices ![0, 0, 0] ⟨3, ![16, m, 128]⟩)
    (hC : Shape.Concatenates [⟨3, ![16, s, 128]⟩, ⟨3, ![16, m, 128]⟩] ⟨3, ![16, 128, 128]⟩ 1)
    (ab : ℕ → ℕ → (ℕ → ℝ) × (ℕ → ℝ))
    (hA : ∀ (g : Fin 16) (t j : Fin 128), A (ix3 g t j) = (((ab g j).1 t : ℝ) : EReal))
    (hB : ∀ (g : Fin 16) (t j : Fin 128), B (ix3 g t j) = (((ab g j).2 t : ℝ) : EReal))
    (g : Fin 16) (t j : Fin 128) :
    addf B (mulf A (concatenate ⟨3, ![16, 128, 128]⟩ 1
      [⟨⟨3, ![16, s, 128]⟩, broadcast ⟨3, ![16, s, 128]⟩ (Scalar.ofBits (F := Ideal) .f32 0x00000000#32)⟩,
       ⟨⟨3, ![16, m, 128]⟩, extractStridedSlice ⟨3, ![16, m, 128]⟩ ![0, 0, 0] B hS⟩] hC)) (ix3 g t j)
      = (((dstep s (ab g j)).2 t : ℝ) : EReal) := by
  rw [← dstep'_eq, addf_apply, mulf_apply, hA, hB]
  show _ = (((ab g j).2 t + (ab g j).1 t * (if t.val < s then 0 else (ab g j).2 (t.val - s)) : ℝ) : EReal)
  by_cases ht : t.val < s
  · rw [shift_lt _ _ hS hC g t j ht, if_pos ht, EReal.coe_add, EReal.coe_mul]
    exact congrArg (fun z => (((ab g j).2 t : ℝ) : EReal) + (((ab g j).1 t : ℝ) : EReal) * z) ofBits_zero
  · have hu : t.val - s < 128 := by have := t.isLt; omega
    rw [shift_ge _ _ hS hC g t j (not_lt.1 ht) hm ⟨t.val - s, hu⟩ rfl, hB, if_neg ht, EReal.coe_add, EReal.coe_mul]

private theorem one_eq : Scalar.ofBits (F := Ideal) .f32 0x3F800000#32 = ((1 : ℝ) : EReal) := ofBits_one
private theorem zero_eq : Scalar.ofBits (F := Ideal) .f32 0x00000000#32 = ((0 : ℝ) : EReal) := ofBits_zero
private theorem half_eq : Scalar.ofBits (F := Ideal) .f32 0x3F000000#32 = ((1 / 2 : ℝ) : EReal) := ofBits_half

private theorem cmpi_at {s : Shape} (c : CmpIPredicate) (x y : IVec s 32) (i : s.Idx) :
    cmpi c x y i = IntOp.cmpi c (x i) (y i) := rfl

private theorem addi_at {s : Shape} (x y : IVec s 32) (i : s.Idx) : addi x y i = x i + y i := rfl

private theorem sel_word {α : Type} (a b : ℕ) (ha : a < 4294967296) (hb : b < 4294967296) (x y : α) :
    Scalar.select (IntOp.cmpi .eq (BitVec.ofNat 32 a) (BitVec.ofNat 32 b)) x y = if a = b then x else y := by
  have hiff : BitVec.ofNat 32 a = BitVec.ofNat 32 b → a = b := by
    intro h
    have h' := congrArg BitVec.toNat h
    rw [BitVec.toNat_ofNat, BitVec.toNat_ofNat] at h'
    omega
  by_cases h : a = b
  · rw [if_pos h, h]
    have h1 : IntOp.cmpi .eq (BitVec.ofNat 32 b) (BitVec.ofNat 32 b) = 1#1 := by simp [IntOp.cmpi]
    rw [h1, select_one]
  · rw [if_neg h]
    have hne : BitVec.ofNat 32 a ≠ BitVec.ofNat 32 b := fun e => h (hiff e)
    have h0 : IntOp.cmpi .eq (BitVec.ofNat 32 a) (BitVec.ofNat 32 b) = 0#1 := by
      show BitVec.ofBool (BitVec.ofNat 32 a == BitVec.ofNat 32 b) = 0#1
      rw [beq_eq_false_iff_ne.2 hne]
      rfl
    rw [h0, select_zero]

private theorem pos_eq (g : Fin 16) (t j : Fin 128) (hl : 128 * g.val + t.val < 2048) :
    (S16x128x128.rowMajor (ix3 g t j)).val = (S2048x128.rowMajor (ix2 ⟨128 * g.val + t.val, hl⟩ j)).val := by
  rw [Shape.rowMajor_val_two, Shape.rowMajor_val_three]
  show (g.val * 128 + t.val) * 128 + j.val = (128 * g.val + t.val) * 128 + j.val
  omega

def ag (p : ℕ → ℝ) (g : ℕ) : ℕ → ℝ := fun i => keepOf p (128 * g + i)

def ej (j : ℕ) : ℕ → ℝ := fun i => if i = j then 1 else 0

section Payloads

variable (v38 : FVec Ideal S2048x128 .f32) (p : ℕ → ℝ)
  (hp : ∀ (l : Fin 2048) (j : Fin 128), v38 (ix2 l j) = ((p l : ℝ) : EReal))

include hp

theorem pay5_eq (l : Fin 2048) (j : Fin 128) : k0_pay5 v38 (ix2 l j) = ((gainOf p l : ℝ) : EReal) := by
  simp only [k0_pay5, k0_pay4]
  rw [select_apply, cmpf_apply]
  simp only [broadcast_apply]
  rw [hp, half_eq, cmpf_ogt_coe, zero_eq]
  unfold gainOf
  by_cases h : 1 / 2 < p l
  · rw [if_pos h, if_pos h, select_one]
  · rw [if_neg h, if_neg h, select_zero]

theorem a0_eq (g : Fin 16) (t j : Fin 128) :
    k0_pay6 v38 (ix3 g t j) = (((dscan 0 (ag p g, ej j)).1 t : ℝ) : EReal) := by
  have hl : 128 * g.val + t.val < 2048 := by have := g.isLt; have := t.isLt; omega
  simp only [k0_pay6, k0_pay4]
  rw [shapeCast_apply _ shapeCasts_S2048x128_S16x128x128 (ix3 g t j) (ix2 ⟨128 * g.val + t.val, hl⟩ j)
    (by rw [Shape.rowMajor_val_two, Shape.rowMajor_val_three]
        show (128 * g.val + t.val) * 128 + j.val = (g.val * 128 + t.val) * 128 + j.val
        omega)]
  rw [select_apply, cmpf_apply, subf_apply]
  simp only [broadcast_apply]
  rw [hp, half_eq, cmpf_ogt_coe, one_eq, sub_coe_coe]
  show _ = ((keepOf p (128 * g.val + t.val) : ℝ) : EReal)
  unfold keepOf
  show Scalar.select (if 1 / 2 < p (128 * g.val + t.val) then 1#1 else 0#1) (((1 - p (128 * g.val + t.val) : ℝ)) : EReal) ((1 : ℝ) : EReal) = _
  by_cases h : 1 / 2 < p (128 * g.val + t.val)
  · rw [if_pos h, if_pos h, select_one]
  · rw [if_neg h, if_neg h, select_zero]

theorem a1_eq (g : Fin 16) (t j : Fin 128) :
    k0_pay7 v38 (ix3 g t j) = (((dscan 1 (ag p g, ej j)).1 t : ℝ) : EReal) := by
  show _ = (((dstep 1 (dscan 0 (ag p g, ej j))).1 t : ℝ) : EReal)
  exact mul_step (s := 1) (m := 127) rfl (k0_pay6 v38) slices_S16x128x128_o0_0_0_S16x127x128
    concatenates_S16x1x128_S16x127x128_S16x128x128_d1 (fun g j => dscan 0 (ag p g, ej j)) (a0_eq v38 p hp) g t j

theorem a2_eq (g : Fin 16) (t j : Fin 128) :
    k0_pay8 v38 (ix3 g t j) = (((dscan 2 (ag p g, ej j)).1 t : ℝ) : EReal) := by
  show _ = (((dstep 2 (dscan 1 (ag p g, ej j))).1 t : ℝ) : EReal)
  exact mul_step (s := 2) (m := 126) rfl (k0_pay7 v38) slices_S16x128x128_o0_0_0_S16x126x128
    concatenates_S16x2x128_S16x126x128_S16x128x128_d1 (fun g j => dscan 1 (ag p g, ej j)) (a1_eq v38 p hp) g t j

theorem a3_eq (g : Fin 16) (t j : Fin 128) :
    k0_pay10 v38 (ix3 g t j) = (((dscan 3 (ag p g, ej j)).1 t : ℝ) : EReal) := by
  show _ = (((dstep 4 (dscan 2 (ag p g, ej j))).1 t : ℝ) : EReal)
  exact mul_step (s := 4) (m := 124) rfl (k0_pay8 v38) slices_S16x128x128_o0_0_0_S16x124x128
    concatenates_S16x4x128_S16x124x128_S16x128x128_d1 (fun g j => dscan 2 (ag p g, ej j)) (a2_eq v38 p hp) g t j

theorem a4_eq (g : Fin 16) (t j : Fin 128) :
    k0_pay12 (k0_pay10 v38) (k0_pay11 v38) (ix3 g t j) = (((dscan 4 (ag p g, ej j)).1 t : ℝ) : EReal) := by
  show _ = (((dstep 8 (dscan 3 (ag p g, ej j))).1 t : ℝ) : EReal)
  exact mul_step (s := 8) (m := 120) rfl (k0_pay10 v38) slices_S16x128x128_o0_0_0_S16x120x128
    concatenates_S16x8x128_S16x120x128_S16x128x128_d1 (fun g j => dscan 3 (ag p g, ej j)) (a3_eq v38 p hp) g t j

theorem a5_eq (g : Fin 16) (t j : Fin 128) :
    k0_pay13 (k0_pay10 v38) (k0_pay11 v38) (ix3 g t j) = (((dscan 5 (ag p g, ej j)).1 t : ℝ) : EReal) := by
  show _ = (((dstep 16 (dscan 4 (ag p g, ej j))).1 t : ℝ) : EReal)
  exact mul_step (s := 16) (m := 112) rfl (k0_pay12 (k0_pay10 v38) (k0_pay11 v38)) slices_S16x128x128_o0_0_0_S16x112x128
    concatenates_S16x16x128_S16x112x128_S16x128x128_d1 (fun g j => dscan 4 (ag p g, ej j)) (a4_eq v38 p hp) g t j

theorem a6_eq (g : Fin 16) (t j : Fin 128) :
    k0_pay14 (k0_pay10 v38) (k0_pay11 v38) (ix3 g t j) = (((dscan 6 (ag p g, ej j)).1 t : ℝ) : EReal) := by
  show _ = (((dstep 32 (dscan 5 (ag p g, ej j))).1 t : ℝ) : EReal)
  exact mul_step (s := 32) (m := 96) rfl (k0_pay13 (k0_pay10 v38) (k0_pay11 v38)) slices_S16x128x128_o0_0_0_S16x96x128
    concatenates_S16x32x128_S16x96x128_S16x128x128_d1 (fun g j => dscan 5 (ag p g, ej j)) (a5_eq v38 p hp) g t j

theorem l1_eq (g : Fin 16) (t j : Fin 128) :
    addf
      (select (cmpi .eq (iota .tc S16x128x128 32 [1] iota_S16x128x128_d1_w32) (iota .tc S16x128x128 32 [2] iota_S16x128x128_d2_w32))
        (broadcast S16x128x128 (Scalar.ofBits (F := Ideal) .f32 0x3F800000#32))
        (broadcast S16x128x128 (Scalar.ofBits (F := Ideal) .f32 0x00000000#32)))
      (select (cmpi .eq (iota .tc S16x128x128 32 [1] iota_S16x128x128_d1_w32)
          (addi (iota .tc S16x128x128 32 [2] iota_S16x128x128_d2_w32) (broadcast S16x128x128 1#32)))
        (k0_pay6 v38)
        (broadcast S16x128x128 (Scalar.ofBits (F := Ideal) .f32 0x00000000#32))) (ix3 g t j)
      = (((dscan 1 (ag p g, ej j)).2 t : ℝ) : EReal) := by
  have ht := t.isLt
  have hj := j.isLt

  have hR : (dscan 1 (ag p g, ej j)).2 t.val
      = (if t.val = j.val then 1 else 0) + ag p g t.val * (if t.val = j.val + 1 then 1 else 0) := by
    show (dstep 1 (ag p g, ej j)).2 t.val = _
    rw [← dstep'_eq]
    show ej j t.val + ag p g t.val * (if t.val < 1 then 0 else ej j (t.val - 1)) = _
    unfold ej
    by_cases h : t.val = j.val + 1
    · rw [if_pos h, if_neg (show ¬ t.val < 1 by omega), if_pos (show t.val - 1 = j.val by omega)]
    · rw [if_neg h]
      by_cases h0 : t.val < 1
      · rw [if_pos h0]
      · rw [if_neg h0, if_neg (show ¬ t.val - 1 = j.val by omega)]
  rw [hR, addf_apply, select_apply, select_apply, cmpi_at, cmpi_at, addi_at, iota_single_apply, iota_single_apply]
  simp only [broadcast_apply]
  rw [a0_eq v38 p hp g t j, one_eq, zero_eq]
  show Scalar.select (IntOp.cmpi .eq (BitVec.ofNat 32 t.val) (BitVec.ofNat 32 j.val)) ((1 : ℝ) : EReal) ((0 : ℝ) : EReal)
      + Scalar.select (IntOp.cmpi .eq (BitVec.ofNat 32 t.val) (BitVec.ofNat 32 j.val + 1#32)) ((ag p g t.val : ℝ) : EReal) ((0 : ℝ) : EReal)
      = _
  rw [show BitVec.ofNat 32 j.val + 1#32 = BitVec.ofNat 32 (j.val + 1) from (BitVec.ofNat_add j.val 1).symm,
    sel_word t.val j.val (by omega) (by omega), sel_word t.val (j.val + 1) (by omega) (by omega)]
  by_cases h1 : t.val = j.val
  · rw [if_pos h1, if_pos h1, if_neg (show ¬ t.val = j.val + 1 by omega), if_neg (show ¬ t.val = j.val + 1 by omega),
      ← EReal.coe_add, mul_zero]
  · rw [if_neg h1, if_neg h1]
    by_cases h2 : t.val = j.val + 1
    · rw [if_pos h2, if_pos h2, ← EReal.coe_add, mul_one]
    · rw [if_neg h2, if_neg h2, ← EReal.coe_add, mul_zero]

theorem l3_eq (g : Fin 16) (t j : Fin 128) :
    k0_pay9 v38 (ix3 g t j) = (((dscan 3 (ag p g, ej j)).2 t : ℝ) : EReal) := by
  show _ = (((dstep 4 (dscan 2 (ag p g, ej j))).2 t : ℝ) : EReal)
  refine add_step (s := 4) (m := 124) rfl (k0_pay8 v38) _ slices_S16x128x128_o0_0_0_S16x124x128
    concatenates_S16x4x128_S16x124x128_S16x128x128_d1 (fun g j => dscan 2 (ag p g, ej j)) (a2_eq v38 p hp) ?_ g t j
  intro g t j
  show _ = (((dstep 2 (dscan 1 (ag p g, ej j))).2 t : ℝ) : EReal)
  refine add_step (s := 2) (m := 126) rfl (k0_pay7 v38) _ slices_S16x128x128_o0_0_0_S16x126x128
    concatenates_S16x2x128_S16x126x128_S16x128x128_d1 (fun g j => dscan 1 (ag p g, ej j)) (a1_eq v38 p hp) ?_ g t j
  exact l1_eq v38 p hp

theorem lm_eq (g : Fin 16) (t j : Fin 128) :
    k0_pay15 (k0_pay9 v38) (k0_pay10 v38) (k0_pay11 v38) (ix2 ⟨128 * g.val + t.val, by omega⟩ j)
      = ((tw (keepOf p) (128 * g.val) t j : ℝ) : EReal) := by
  have hl : 128 * g.val + t.val < 2048 := by omega
  have hR : tw (keepOf p) (128 * g.val) t.val j.val = (dscan 7 (ag p g, ej j)).2 t.val := by
    rw [dscan_val _ _ 7 t.val (lt_of_lt_of_le t.isLt (by norm_num)), tw_eq_sol]
    rfl
  rw [hR]
  simp only [k0_pay15]
  rw [shapeCast_apply _ shapeCasts_S16x128x128_S2048x128 (ix2 ⟨128 * g.val + t.val, hl⟩ j) (ix3 g t j) (pos_eq g t j hl)]
  show _ = (((dstep 64 (dscan 6 (ag p g, ej j))).2 t : ℝ) : EReal)
  refine add_step (s := 64) (m := 64) rfl (k0_pay14 (k0_pay10 v38) (k0_pay11 v38)) _ slices_S16x128x128_o0_0_0_S16x64x128
    concatenates_S16x64x128_S16x64x128_S16x128x128_d1 (fun g j => dscan 6 (ag p g, ej j)) (a6_eq v38 p hp) ?_ g t j
  intro g t j
  show _ = (((dstep 32 (dscan 5 (ag p g, ej j))).2 t : ℝ) : EReal)
  refine add_step (s := 32) (m := 96) rfl (k0_pay13 (k0_pay10 v38) (k0_pay11 v38)) _ slices_S16x128x128_o0_0_0_S16x96x128
    concatenates_S16x32x128_S16x96x128_S16x128x128_d1 (fun g j => dscan 5 (ag p g, ej j)) (a5_eq v38 p hp) ?_ g t j
  intro g t j
  show _ = (((dstep 16 (dscan 4 (ag p g, ej j))).2 t : ℝ) : EReal)
  refine add_step (s := 16) (m := 112) rfl (k0_pay12 (k0_pay10 v38) (k0_pay11 v38)) _ slices_S16x128x128_o0_0_0_S16x112x128
    concatenates_S16x16x128_S16x112x128_S16x128x128_d1 (fun g j => dscan 4 (ag p g, ej j)) (a4_eq v38 p hp) ?_ g t j
  intro g t j
  show _ = (((dstep 8 (dscan 3 (ag p g, ej j))).2 t : ℝ) : EReal)
  exact add_step (s := 8) (m := 120) rfl (k0_pay10 v38) (k0_pay9 v38) slices_S16x128x128_o0_0_0_S16x120x128
    concatenates_S16x8x128_S16x120x128_S16x128x128_d1 (fun g j => dscan 3 (ag p g, ej j)) (a3_eq v38 p hp) (l3_eq v38 p hp) g t j

theorem pre_eq (g : Fin 16) (t j : Fin 128) :
    k0_pay16 (k0_pay10 v38) (k0_pay11 v38) (ix2 ⟨128 * g.val + t.val, by omega⟩ j)
      = ((preOf (keepOf p) (128 * g.val) t : ℝ) : EReal) := by
  have hl : 128 * g.val + t.val < 2048 := by omega
  have hR : preOf (keepOf p) (128 * g.val) t.val = (dscan 7 (ag p g, ej j)).1 t.val := by
    rw [dscan_mul _ _ 7 t.val (lt_of_lt_of_le t.isLt (by norm_num))]
    rfl
  rw [hR]
  simp only [k0_pay16]
  rw [shapeCast_apply _ shapeCasts_S16x128x128_S2048x128 (ix2 ⟨128 * g.val + t.val, hl⟩ j) (ix3 g t j) (pos_eq g t j hl)]
  show _ = (((dstep 64 (dscan 6 (ag p g, ej j))).1 t : ℝ) : EReal)
  exact mul_step (s := 64) (m := 64) rfl (k0_pay14 (k0_pay10 v38) (k0_pay11 v38)) slices_S16x128x128_o0_0_0_S16x64x128
    concatenates_S16x64x128_S16x64x128_S16x128x128_d1 (fun g j => dscan 6 (ag p g, ej j)) (a6_eq v38 p hp) g t j

end Payloads

end Cert.Ker

end
-- ==== Proof.Ker.Local.lean ====
import proofs.«123660_g14800457302192_cont_week2b_463_30_alg».proof.Proof.Gen.KernelIdeal.Skeleton
import proofs.«123660_g14800457302192_cont_week2b_463_30_alg».proof.Proof.Coe
import Idealize.ShloMosaic.Lib.ValueIdx
import Idealize.ShloMosaic.Lib.ValueLayout
import Idealize.ShloMosaic.Lib.Pipeline.Value
import Idealize.ShloMosaic.PureOps.Ideal.Laws

noncomputable section

namespace Cert.Ker

open Idealize.ShloMosaic Idealize.ShloMosaic.ValueIdx Cert.KernelIdeal Cert.KernelIdeal.Gen Cert.Num

private theorem lhs_chunk_0 (i : S128x512.Idx) (q : dot_S128x128_S128x512_S128x512_1_0_0_1_n_n.contr.Idx) :
    (dot_S128x128_S128x512_S128x512_1_0_0_1_n_n.lhsIdx i q 0).val = (i 0).val := by
  unfold DotDims.lhsIdx
  rw [dif_neg (show ¬(0 : Fin S128x128.rank) ∈ dot_S128x128_S128x512_S128x512_1_0_0_1_n_n.lhsBatch by decide), dif_pos (show (0 : Fin S128x128.rank) ∈ dot_S128x128_S128x512_S128x512_1_0_0_1_n_n.lhsNonContracting by decide)]
  rfl
private theorem lhs_chunk_1 (i : S128x512.Idx) (q : dot_S128x128_S128x512_S128x512_1_0_0_1_n_n.contr.Idx) :
    (dot_S128x128_S128x512_S128x512_1_0_0_1_n_n.lhsIdx i q 1).val = (q ⟨0, by decide⟩).val :=
  dot_S128x128_S128x512_S128x512_1_0_0_1_n_n.lhsIdx_val_of_single rfl i q
private theorem rhs_chunk_0 (i : S128x512.Idx) (q : dot_S128x128_S128x512_S128x512_1_0_0_1_n_n.contr.Idx) :
    (dot_S128x128_S128x512_S128x512_1_0_0_1_n_n.rhsIdx i q 0).val = (q ⟨0, by decide⟩).val :=
  dot_S128x128_S128x512_S128x512_1_0_0_1_n_n.rhsIdx_val_of_single rfl i q
private theorem rhs_chunk_1 (i : S128x512.Idx) (q : dot_S128x128_S128x512_S128x512_1_0_0_1_n_n.contr.Idx) :
    (dot_S128x128_S128x512_S128x512_1_0_0_1_n_n.rhsIdx i q 1).val = (i 1).val := by
  unfold DotDims.rhsIdx
  rw [dif_neg (show ¬(1 : Fin S128x512.rank) ∈ dot_S128x128_S128x512_S128x512_1_0_0_1_n_n.rhsBatch by decide), dif_pos (show (1 : Fin S128x512.rank) ∈ dot_S128x128_S128x512_S128x512_1_0_0_1_n_n.rhsNonContracting by decide)]
  rfl

theorem chunk_matmul_entry (A : FVec Ideal S128x128 .f32) (B : FVec Ideal S128x512 .f32) (t : Fin 128) (d : Fin 512) :
    matmul dot_S128x128_S128x512_S128x512_1_0_0_1_n_n none A B (constant (F := Ideal) S128x512 .f32 0x00000000#32) (ix2 t d)
      = ∑ k : Fin 128, A (ix2 t k) * B (ix2 k d) := by
  show FloatOps.matmul dot_S128x128_S128x512_S128x512_1_0_0_1_n_n none A B (constant (F := Ideal) S128x512 .f32 0x00000000#32) (ix2 t d) = _
  rw [Ideal.matmul_constant_zero_apply,
    ← Equiv.sum_comp (contrEquiv1 dot_S128x128_S128x512_S128x512_1_0_0_1_n_n 128 rfl rfl).symm]
  refine Finset.sum_congr rfl fun k _ => ?_
  have hk := contrEquiv1_symm_val dot_S128x128_S128x512_S128x512_1_0_0_1_n_n 128 rfl rfl k
  have el : dot_S128x128_S128x512_S128x512_1_0_0_1_n_n.lhsIdx (ix2 t d)
      ((contrEquiv1 dot_S128x128_S128x512_S128x512_1_0_0_1_n_n 128 rfl rfl).symm k) = ix2 t k := funext fun a => Fin.ext (by
    match a with
    | ⟨0, _⟩ => exact lhs_chunk_0 _ _
    | ⟨1, _⟩ => exact (lhs_chunk_1 _ _).trans hk)
  have er : dot_S128x128_S128x512_S128x512_1_0_0_1_n_n.rhsIdx (ix2 t d)
      ((contrEquiv1 dot_S128x128_S128x512_S128x512_1_0_0_1_n_n 128 rfl rfl).symm k) = ix2 k d := funext fun a => Fin.ext (by
    match a with
    | ⟨0, _⟩ => exact (rhs_chunk_0 _ _).trans hk
    | ⟨1, _⟩ => exact rhs_chunk_1 _ _)
  rw [el, er]

private theorem rows128_apply (Lm : FVec Ideal S2048x128 .f32) (off : ℕ) (h : S2048x128.Slices ![off, 0] S128x128)
    (t : Fin 128) (k : Fin 128) (ht : off + t.val < 2048) :
    extractStridedSlice S128x128 ![off, 0] Lm h (ix2 t k) = Lm (ix2 ⟨off + t.val, ht⟩ k) := by
  refine extractStridedSlice_apply _ Lm h (ix2 t k) (ix2 ⟨off + t.val, ht⟩ k) fun a => ?_
  match a with
  | ⟨0, _⟩ => rfl
  | ⟨1, _⟩ => show k.val = 0 + k.val; omega

private theorem rows512_apply (B : FVec Ideal S2048x512 .f32) (off : ℕ) (h : S2048x512.Slices ![off, 0] S128x512)
    (k : Fin 128) (d : Fin 512) (hk : off + k.val < 2048) :
    extractStridedSlice S128x512 ![off, 0] B h (ix2 k d) = B (ix2 ⟨off + k.val, hk⟩ d) := by
  refine extractStridedSlice_apply _ B h (ix2 k d) (ix2 ⟨off + k.val, hk⟩ d) fun a => ?_
  match a with
  | ⟨0, _⟩ => rfl
  | ⟨1, _⟩ => show d.val = 0 + d.val; omega

theorem chunk_gen (Lm : FVec Ideal S2048x128 .f32) (B : FVec Ideal S2048x512 .f32) (off : ℕ) (hoff : off + 128 ≤ 2048)
    (h1 : S2048x128.Slices ![off, 0] S128x128) (h2 : S2048x512.Slices ![off, 0] S128x512)
    (L Bf : ℕ → ℕ → ℝ)
    (hL : ∀ (l : Fin 2048) (j : Fin 128), Lm (ix2 l j) = ((L l j : ℝ) : EReal))
    (hB : ∀ (l : Fin 2048) (d : Fin 512), B (ix2 l d) = ((Bf l d : ℝ) : EReal))
    (t : Fin 128) (d : Fin 512) :
    matmul dot_S128x128_S128x512_S128x512_1_0_0_1_n_n none (extractStridedSlice S128x128 ![off, 0] Lm h1)
        (extractStridedSlice S128x512 ![off, 0] B h2) (constant (F := Ideal) S128x512 .f32 0x00000000#32) (ix2 t d)
      = ((∑ j ∈ Finset.range 128, L (off + t) j * Bf (off + j) d : ℝ) : EReal) := by
  rw [chunk_matmul_entry]
  have e : ∀ k : Fin 128, extractStridedSlice S128x128 ![off, 0] Lm h1 (ix2 t k) * extractStridedSlice S128x512 ![off, 0] B h2 (ix2 k d)
      = (((fun j : ℕ => L (off + t) j * Bf (off + j) d) k : ℝ) : EReal) := fun k => by
    have ht : off + t.val < 2048 := by have := t.isLt; omega
    have hk : off + k.val < 2048 := by have := k.isLt; omega
    rw [rows128_apply Lm off h1 t k ht, rows512_apply B off h2 k d hk, hL, hB, ← EReal.coe_mul]
  rw [Finset.sum_congr rfl fun k _ => e k, sum_coe, sum_fin_eq_range (fun j : ℕ => L (off + t) j * Bf (off + j) d)]

section
variable (v1 : FVec Ideal S2048x512 .f32) (v46 : FVec Ideal S2048x128 .f32) (v80 v81 v84 : FVec Ideal S16x128x128 .f32)
  (X : ℕ → ℕ → ℝ) (c : ℕ → ℝ) (L : ℕ → ℕ → ℝ)

private theorem group_eq
    (hX : ∀ (l : Fin 2048) (d : Fin 512), v1 (ix2 l d) = ((X l d : ℝ) : EReal))
    (hc : ∀ (l : Fin 2048) (j : Fin 128), v46 (ix2 l j) = ((c l : ℝ) : EReal))
    (off : ℕ) (h : S2048x512.Slices ![0, off] S2048x128) (l : Fin 2048) (r : Fin 128) (d : Fin 512)
    (hd : d.val = off + r.val) :
    mulf v46 (extractStridedSlice S2048x128 ![0, off] v1 h) (ix2 l r) = ((c l * X l d : ℝ) : EReal) := by
  rw [mulf_apply, hc, extractStridedSlice_apply _ v1 h (ix2 l r) (ix2 l d) (fun a => by
    match a with
    | ⟨0, _⟩ => show l.val = 0 + l.val; omega
    | ⟨1, _⟩ => exact hd), hX, ← EReal.coe_mul]

theorem bfull_eq
    (hX : ∀ (l : Fin 2048) (d : Fin 512), v1 (ix2 l d) = ((X l d : ℝ) : EReal))
    (hc : ∀ (l : Fin 2048) (j : Fin 128), v46 (ix2 l j) = ((c l : ℝ) : EReal))
    (l : Fin 2048) (d : Fin 512) : k0_pay17 v1 v46 (ix2 l d) = ((c l * X l d : ℝ) : EReal) := by
  unfold k0_pay17
  have hd := d.isLt
  by_cases h0 : d.val < 128
  · exact (concatenate_apply_piece (t := S2048x512) 1 _ _ (ix2 l d) 0 (by show _ < 4; omega) S2048x128 _ rfl rfl 0 rfl
      (ix2 l ⟨d.val - 0, by omega⟩)
      (fun b hb => by match b with | ⟨0, _⟩ => rfl | ⟨1, _⟩ => exact absurd rfl hb)
      (by show 0 + (d.val - 0) = d.val; omega)).trans
      (group_eq v1 v46 X c hX hc 0 _ l _ d (by show d.val = 0 + (d.val - 0); omega))
  by_cases h1 : d.val < 256
  · exact (concatenate_apply_piece (t := S2048x512) 1 _ _ (ix2 l d) 1 (by show _ < 4; omega) S2048x128 _ rfl rfl 128 rfl
      (ix2 l ⟨d.val - 128, by omega⟩)
      (fun b hb => by match b with | ⟨0, _⟩ => rfl | ⟨1, _⟩ => exact absurd rfl hb)
      (by show 128 + (d.val - 128) = d.val; omega)).trans
      (group_eq v1 v46 X c hX hc 128 _ l _ d (by show d.val = 128 + (d.val - 128); omega))
  by_cases h2 : d.val < 384
  · exact (concatenate_apply_piece (t := S2048x512) 1 _ _ (ix2 l d) 2 (by show _ < 4; omega) S2048x128 _ rfl rfl 256 rfl
      (ix2 l ⟨d.val - 256, by omega⟩)
      (fun b hb => by match b with | ⟨0, _⟩ => rfl | ⟨1, _⟩ => exact absurd rfl hb)
      (by show 256 + (d.val - 256) = d.val; omega)).trans
      (group_eq v1 v46 X c hX hc 256 _ l _ d (by show d.val = 256 + (d.val - 256); omega))
  · exact (concatenate_apply_piece (t := S2048x512) 1 _ _ (ix2 l d) 3 (by show _ < 4; omega) S2048x128 _ rfl rfl 384 rfl
      (ix2 l ⟨d.val - 384, by omega⟩)
      (fun b hb => by match b with | ⟨0, _⟩ => rfl | ⟨1, _⟩ => exact absurd rfl hb)
      (by show 384 + (d.val - 384) = d.val; omega)).trans
      (group_eq v1 v46 X c hX hc 384 _ l _ d (by show d.val = 384 + (d.val - 384); omega))

-- Every chunk's local scan is one matrix product: rows 128 g … 128 g + 127 of the transfer matrix against the same rows of the gained input.
theorem chunk_eq
    (hX : ∀ (l : Fin 2048) (d : Fin 512), v1 (ix2 l d) = ((X l d : ℝ) : EReal))
    (hc : ∀ (l : Fin 2048) (j : Fin 128), v46 (ix2 l j) = ((c l : ℝ) : EReal))
    (hL : ∀ (l : Fin 2048) (j : Fin 128), k0_pay15 v80 v81 v84 (ix2 l j) = ((L l j : ℝ) : EReal))
    (P : FVec Ideal S128x512 .f32) (g : ℕ) (hg : 128 * g + 128 ≤ 2048)
    (h1 : S2048x128.Slices ![128 * g, 0] S128x128) (h2 : S2048x512.Slices ![128 * g, 0] S128x512)
    (hP : P = matmul dot_S128x128_S128x512_S128x512_1_0_0_1_n_n none
        (extractStridedSlice S128x128 ![128 * g, 0] (k0_pay15 v80 v81 v84) h1)
        (extractStridedSlice S128x512 ![128 * g, 0] (k0_pay17 v1 v46) h2) (constant (F := Ideal) S128x512 .f32 0x00000000#32))
    (t : Fin 128) (d : Fin 512) :
    P (ix2 t d) = ((∑ j ∈ Finset.range 128, L (128 * g + t) j * (c (128 * g + j) * X (128 * g + j) d) : ℝ) : EReal) :=
  hP ▸ chunk_gen (k0_pay15 v80 v81 v84) (k0_pay17 v1 v46) (128 * g) hg h1 h2 L (fun l d => c l * X l d) hL
    (bfull_eq v1 v46 X c hX hc) t d

end

end Cert.Ker

end
-- ==== Proof.Ker.Carry1.lean ====
import Idealize.ShloMosaic.Lib.ValueLayout
import Idealize.ShloMosaic.Lib.Pipeline.Value
import proofs.«123660_g14800457302192_cont_week2b_463_30_alg».proof.Proof.Coe
import proofs.«123660_g14800457302192_cont_week2b_463_30_alg».proof.Proof.Real.Scan

noncomputable section

namespace Cert.Ker

open Idealize.ShloMosaic Idealize.ShloMosaic.ValueIdx Cert.Num

theorem shift_rows_re {n s m w : ℕ} (hsm : n = s + m) (z : EReal) (zr : ℝ) (hz : z = ((zr : ℝ) : EReal))
    (X : (⟨2, ![n, w]⟩ : Shape).Idx → EReal) (B : ℕ → ℕ → ℝ)
    (hX : ∀ (g : Fin n) (d : Fin w), X (ix2 g d) = ((B g d : ℝ) : EReal))
    (hs : (⟨2, ![n, w]⟩ : Shape).Slices ![0, 0] ⟨2, ![m, w]⟩)
    (hc : Shape.Concatenates [(⟨2, ![s, w]⟩ : Shape), ⟨2, ![m, w]⟩] ⟨2, ![n, w]⟩ 0)
    (g : Fin n) (d : Fin w) :
    concatenate ⟨2, ![n, w]⟩ 0
        [⟨⟨2, ![s, w]⟩, broadcast ⟨2, ![s, w]⟩ z⟩, ⟨⟨2, ![m, w]⟩, extractStridedSlice ⟨2, ![m, w]⟩ ![0, 0] X hs⟩] hc (ix2 g d)
      = (((if (g : ℕ) < s then zr else B (g - s) d) : ℝ) : EReal) := by
  by_cases h : (g : ℕ) < s
  · rw [if_pos h]
    refine (concatenate_pair_apply_left (t := ⟨2, ![n, w]⟩) (s₁ := ⟨2, ![s, w]⟩) (s₂ := ⟨2, ![m, w]⟩) (0 : Fin 2) _ _ hc (ix2 g d) rfl (ix2 (⟨g, h⟩ : Fin s) d) ?_).trans ?_
    · intro b
      match b with
      | ⟨0, _⟩ => rfl
      | ⟨1, _⟩ => rfl
    · rw [broadcast_apply, hz]
  · rw [if_neg h]
    have hg := g.isLt
    refine (concatenate_pair_apply_right (t := ⟨2, ![n, w]⟩) (s₁ := ⟨2, ![s, w]⟩) (s₂ := ⟨2, ![m, w]⟩) (0 : Fin 2) _ _ hc (ix2 g d) rfl rfl (ix2 (⟨g - s, by omega⟩ : Fin m) d) ?_ ?_).trans ?_
    · intro b hb
      match b, hb with
      | ⟨0, _⟩, hb => exact absurd rfl hb
      | ⟨1, _⟩, _ => rfl
    · show (g : ℕ) - s + s = g
      omega
    · refine (slice2_axis0_apply 0 X hs (⟨g - s, by omega⟩ : Fin m) d (⟨g - s, by omega⟩ : Fin n) (by simp)).trans ?_
      exact hX (⟨g - s, by omega⟩ : Fin n) d

theorem lane_mul_re {n W : ℕ} (o : ℕ) (Aa : FVec Ideal ⟨2, ![n, 128]⟩ .f32) (Y : FVec Ideal ⟨2, ![n, W]⟩ .f32)
    (hs : (⟨2, ![n, W]⟩ : Shape).Slices ![0, o] ⟨2, ![n, 128]⟩)
    (A : ℕ → ℝ) (Yr : ℕ → ℕ → ℝ)
    (hA : ∀ (g : Fin n) (j : Fin 128), Aa (ix2 g j) = ((A g : ℝ) : EReal))
    (hY : ∀ (g : Fin n) (d : Fin W), Y (ix2 g d) = ((Yr g d : ℝ) : EReal))
    (g : Fin n) (j : Fin 128) :
    mulf Aa (extractStridedSlice ⟨2, ![n, 128]⟩ ![0, o] Y hs) (ix2 g j) = ((A g * Yr g (o + j) : ℝ) : EReal) := by
  rw [mulf_apply, slice2_axis1_eq o Y hs g j, hA, hY, ← EReal.coe_mul]

theorem lanes4_re {n : ℕ} (P0 P1 P2 P3 : FVec Ideal ⟨2, ![n, 128]⟩ .f32)
    (hc : Shape.Concatenates [(⟨2, ![n, 128]⟩ : Shape), ⟨2, ![n, 128]⟩, ⟨2, ![n, 128]⟩, ⟨2, ![n, 128]⟩] ⟨2, ![n, 512]⟩ 1)
    (R : ℕ → ℕ → ℝ)
    (h0 : ∀ (g : Fin n) (j : Fin 128), P0 (ix2 g j) = ((R g (0 + j) : ℝ) : EReal))
    (h1 : ∀ (g : Fin n) (j : Fin 128), P1 (ix2 g j) = ((R g (128 + j) : ℝ) : EReal))
    (h2 : ∀ (g : Fin n) (j : Fin 128), P2 (ix2 g j) = ((R g (256 + j) : ℝ) : EReal))
    (h3 : ∀ (g : Fin n) (j : Fin 128), P3 (ix2 g j) = ((R g (384 + j) : ℝ) : EReal))
    (g : Fin n) (d : Fin 512) :
    concatenate (α := EReal) ⟨2, ![n, 512]⟩ 1
        [⟨⟨2, ![n, 128]⟩, P0⟩, ⟨⟨2, ![n, 128]⟩, P1⟩, ⟨⟨2, ![n, 128]⟩, P2⟩, ⟨⟨2, ![n, 128]⟩, P3⟩] hc (ix2 g d)
      = ((R g d : ℝ) : EReal) := by
  have hd := d.isLt
  have side : ∀ (pre : ℕ) (hq : (d : ℕ) - pre < 128) (b : Fin 2), b.cast (rfl : (2 : ℕ) = 2) ≠ (1 : Fin 2) →
      ((ix2 g (⟨(d : ℕ) - pre, hq⟩ : Fin 128) : (⟨2, ![n, 128]⟩ : Shape).Idx) b).val
        = ((ix2 g d : (⟨2, ![n, 512]⟩ : Shape).Idx) (b.cast rfl)).val := by
    intro pre hq b hb
    match b, hb with
    | ⟨0, _⟩, _ => rfl
    | ⟨1, _⟩, hb => exact absurd rfl hb
  by_cases c1 : (d : ℕ) < 128
  · refine (concatenate_apply_piece (α := EReal) (t := ⟨2, ![n, 512]⟩) (1 : Fin 2)
        [⟨⟨2, ![n, 128]⟩, P0⟩, ⟨⟨2, ![n, 128]⟩, P1⟩, ⟨⟨2, ![n, 128]⟩, P2⟩, ⟨⟨2, ![n, 128]⟩, P3⟩] hc (ix2 g d) 0 (by show (0 : ℕ) < 4; omega) ⟨2, ![n, 128]⟩ P0 rfl rfl 0 rfl
        (ix2 g (⟨(d : ℕ) - 0, by omega⟩ : Fin 128)) (side 0 (by omega)) (by show 0 + ((d : ℕ) - 0) = d; omega)).trans ?_
    rw [h0]; congr 2; show 0 + ((d : ℕ) - 0) = d; omega
  · by_cases c2 : (d : ℕ) < 256
    · refine (concatenate_apply_piece (α := EReal) (t := ⟨2, ![n, 512]⟩) (1 : Fin 2)
          [⟨⟨2, ![n, 128]⟩, P0⟩, ⟨⟨2, ![n, 128]⟩, P1⟩, ⟨⟨2, ![n, 128]⟩, P2⟩, ⟨⟨2, ![n, 128]⟩, P3⟩] hc (ix2 g d) 1 (by show (1 : ℕ) < 4; omega) ⟨2, ![n, 128]⟩ P1 rfl rfl 128 rfl
          (ix2 g (⟨(d : ℕ) - 128, by omega⟩ : Fin 128)) (side 128 (by omega)) (by show 128 + ((d : ℕ) - 128) = d; omega)).trans ?_
      rw [h1]; congr 2; show 128 + ((d : ℕ) - 128) = d; omega
    · by_cases c3 : (d : ℕ) < 384
      · refine (concatenate_apply_piece (α := EReal) (t := ⟨2, ![n, 512]⟩) (1 : Fin 2)
            [⟨⟨2, ![n, 128]⟩, P0⟩, ⟨⟨2, ![n, 128]⟩, P1⟩, ⟨⟨2, ![n, 128]⟩, P2⟩, ⟨⟨2, ![n, 128]⟩, P3⟩] hc (ix2 g d) 2 (by show (2 : ℕ) < 4; omega) ⟨2, ![n, 128]⟩ P2 rfl rfl 256 rfl
            (ix2 g (⟨(d : ℕ) - 256, by omega⟩ : Fin 128)) (side 256 (by omega)) (by show 256 + ((d : ℕ) - 256) = d; omega)).trans ?_
        rw [h2]; congr 2; show 256 + ((d : ℕ) - 256) = d; omega
      · refine (concatenate_apply_piece (α := EReal) (t := ⟨2, ![n, 512]⟩) (1 : Fin 2)
            [⟨⟨2, ![n, 128]⟩, P0⟩, ⟨⟨2, ![n, 128]⟩, P1⟩, ⟨⟨2, ![n, 128]⟩, P2⟩, ⟨⟨2, ![n, 128]⟩, P3⟩] hc (ix2 g d) 3 (by show (3 : ℕ) < 4; omega) ⟨2, ![n, 128]⟩ P3 rfl rfl 384 rfl
            (ix2 g (⟨(d : ℕ) - 384, by omega⟩ : Fin 128)) (side 384 (by omega)) (by show 384 + ((d : ℕ) - 384) = d; omega)).trans ?_
        rw [h3]; congr 2; show 384 + ((d : ℕ) - 384) = d; omega

theorem lane_prod_re {n : ℕ} (Aa : FVec Ideal ⟨2, ![n, 128]⟩ .f32) (Y : FVec Ideal ⟨2, ![n, 512]⟩ .f32)
    (l0 : (⟨2, ![n, 512]⟩ : Shape).Slices ![0, 0] ⟨2, ![n, 128]⟩) (l1 : (⟨2, ![n, 512]⟩ : Shape).Slices ![0, 128] ⟨2, ![n, 128]⟩)
    (l2 : (⟨2, ![n, 512]⟩ : Shape).Slices ![0, 256] ⟨2, ![n, 128]⟩) (l3 : (⟨2, ![n, 512]⟩ : Shape).Slices ![0, 384] ⟨2, ![n, 128]⟩)
    (hc : Shape.Concatenates [(⟨2, ![n, 128]⟩ : Shape), ⟨2, ![n, 128]⟩, ⟨2, ![n, 128]⟩, ⟨2, ![n, 128]⟩] ⟨2, ![n, 512]⟩ 1)
    (A : ℕ → ℝ) (Yr : ℕ → ℕ → ℝ)
    (hA : ∀ (g : Fin n) (j : Fin 128), Aa (ix2 g j) = ((A g : ℝ) : EReal))
    (hY : ∀ (g : Fin n) (d : Fin 512), Y (ix2 g d) = ((Yr g d : ℝ) : EReal))
    (g : Fin n) (d : Fin 512) :
    concatenate (α := EReal) ⟨2, ![n, 512]⟩ 1
        [⟨⟨2, ![n, 128]⟩, mulf Aa (extractStridedSlice ⟨2, ![n, 128]⟩ ![0, 0] Y l0)⟩,
         ⟨⟨2, ![n, 128]⟩, mulf Aa (extractStridedSlice ⟨2, ![n, 128]⟩ ![0, 128] Y l1)⟩,
         ⟨⟨2, ![n, 128]⟩, mulf Aa (extractStridedSlice ⟨2, ![n, 128]⟩ ![0, 256] Y l2)⟩,
         ⟨⟨2, ![n, 128]⟩, mulf Aa (extractStridedSlice ⟨2, ![n, 128]⟩ ![0, 384] Y l3)⟩] hc (ix2 g d)
      = ((A g * Yr g d : ℝ) : EReal) :=
  lanes4_re _ _ _ _ hc (fun g d => A g * Yr g d)
    (lane_mul_re 0 Aa Y l0 A Yr hA hY) (lane_mul_re 128 Aa Y l1 A Yr hA hY)
    (lane_mul_re 256 Aa Y l2 A Yr hA hY) (lane_mul_re 384 Aa Y l3 A Yr hA hY) g d

def mstep (s : ℕ) (A : ℕ → ℝ) : ℕ → ℝ := fun i => A i * (if i < s then 1 else A (i - s))

theorem dstep'_fst (s : ℕ) (A b : ℕ → ℝ) : (Cert.Spec.dstep' s (A, b)).1 = mstep s A := rfl

theorem dstep'_snd (s : ℕ) (A b : ℕ → ℝ) (i : ℕ) :
    (Cert.Spec.dstep' s (A, b)).2 i = b i + A i * (if i < s then 0 else b (i - s)) := rfl

theorem aa_step_re {s m : ℕ} (hsm : 16 = s + m) (z : EReal) (hz : z = ((1 : ℝ) : EReal))
    (Aa : FVec Ideal ⟨2, ![16, 128]⟩ .f32) (A : ℕ → ℝ)
    (hA : ∀ (g : Fin 16) (j : Fin 128), Aa (ix2 g j) = ((A g : ℝ) : EReal))
    (hs : (⟨2, ![16, 128]⟩ : Shape).Slices ![0, 0] ⟨2, ![m, 128]⟩)
    (hc : Shape.Concatenates [(⟨2, ![s, 128]⟩ : Shape), ⟨2, ![m, 128]⟩] ⟨2, ![16, 128]⟩ 0)
    (g : Fin 16) (j : Fin 128) :
    mulf Aa (concatenate ⟨2, ![16, 128]⟩ 0
        [⟨⟨2, ![s, 128]⟩, broadcast ⟨2, ![s, 128]⟩ z⟩, ⟨⟨2, ![m, 128]⟩, extractStridedSlice ⟨2, ![m, 128]⟩ ![0, 0] Aa hs⟩] hc) (ix2 g j)
      = ((mstep s A g : ℝ) : EReal) := by
  rw [mulf_apply, hA, shift_rows_re hsm z 1 hz Aa (fun g _ => A g) hA hs hc g j, ← EReal.coe_mul]
  rfl

theorem sb_acc_re {n : ℕ} (Sb Y : FVec Ideal ⟨2, ![n, 512]⟩ .f32) (Aa : FVec Ideal ⟨2, ![n, 128]⟩ .f32)
    (l0 : (⟨2, ![n, 512]⟩ : Shape).Slices ![0, 0] ⟨2, ![n, 128]⟩) (l1 : (⟨2, ![n, 512]⟩ : Shape).Slices ![0, 128] ⟨2, ![n, 128]⟩)
    (l2 : (⟨2, ![n, 512]⟩ : Shape).Slices ![0, 256] ⟨2, ![n, 128]⟩) (l3 : (⟨2, ![n, 512]⟩ : Shape).Slices ![0, 384] ⟨2, ![n, 128]⟩)
    (hc : Shape.Concatenates [(⟨2, ![n, 128]⟩ : Shape), ⟨2, ![n, 128]⟩, ⟨2, ![n, 128]⟩, ⟨2, ![n, 128]⟩] ⟨2, ![n, 512]⟩ 1)
    (A : ℕ → ℝ) (B Yr : ℕ → ℕ → ℝ)
    (hA : ∀ (g : Fin n) (j : Fin 128), Aa (ix2 g j) = ((A g : ℝ) : EReal))
    (hB : ∀ (g : Fin n) (d : Fin 512), Sb (ix2 g d) = ((B g d : ℝ) : EReal))
    (hY : ∀ (g : Fin n) (d : Fin 512), Y (ix2 g d) = ((Yr g d : ℝ) : EReal))
    (g : Fin n) (d : Fin 512) :
    addf Sb (concatenate (α := EReal) ⟨2, ![n, 512]⟩ 1
        [⟨⟨2, ![n, 128]⟩, mulf Aa (extractStridedSlice ⟨2, ![n, 128]⟩ ![0, 0] Y l0)⟩,
         ⟨⟨2, ![n, 128]⟩, mulf Aa (extractStridedSlice ⟨2, ![n, 128]⟩ ![0, 128] Y l1)⟩,
         ⟨⟨2, ![n, 128]⟩, mulf Aa (extractStridedSlice ⟨2, ![n, 128]⟩ ![0, 256] Y l2)⟩,
         ⟨⟨2, ![n, 128]⟩, mulf Aa (extractStridedSlice ⟨2, ![n, 128]⟩ ![0, 384] Y l3)⟩] hc) (ix2 g d)
      = ((B g d + A g * Yr g d : ℝ) : EReal) := by
  rw [addf_apply, hB, lane_prod_re Aa Y l0 l1 l2 l3 hc A Yr hA hY g d, ← EReal.coe_add]

abbrev shiftRows {n w : ℕ} (s m : ℕ) (z : EReal) (X : FVec Ideal ⟨2, ![n, w]⟩ .f32)
    (hs : (⟨2, ![n, w]⟩ : Shape).Slices ![0, 0] ⟨2, ![m, w]⟩)
    (hc : Shape.Concatenates [(⟨2, ![s, w]⟩ : Shape), ⟨2, ![m, w]⟩] ⟨2, ![n, w]⟩ 0) : FVec Ideal ⟨2, ![n, w]⟩ .f32 :=
  concatenate ⟨2, ![n, w]⟩ 0
    [⟨⟨2, ![s, w]⟩, broadcast ⟨2, ![s, w]⟩ z⟩, ⟨⟨2, ![m, w]⟩, extractStridedSlice ⟨2, ![m, w]⟩ ![0, 0] X hs⟩] hc

abbrev laneAcc {n : ℕ} (Sb Y : FVec Ideal ⟨2, ![n, 512]⟩ .f32) (Aa : FVec Ideal ⟨2, ![n, 128]⟩ .f32)
    (l0 : (⟨2, ![n, 512]⟩ : Shape).Slices ![0, 0] ⟨2, ![n, 128]⟩) (l1 : (⟨2, ![n, 512]⟩ : Shape).Slices ![0, 128] ⟨2, ![n, 128]⟩)
    (l2 : (⟨2, ![n, 512]⟩ : Shape).Slices ![0, 256] ⟨2, ![n, 128]⟩) (l3 : (⟨2, ![n, 512]⟩ : Shape).Slices ![0, 384] ⟨2, ![n, 128]⟩)
    (hc : Shape.Concatenates [(⟨2, ![n, 128]⟩ : Shape), ⟨2, ![n, 128]⟩, ⟨2, ![n, 128]⟩, ⟨2, ![n, 128]⟩] ⟨2, ![n, 512]⟩ 1) :
    FVec Ideal ⟨2, ![n, 512]⟩ .f32 :=
  addf Sb (concatenate (α := EReal) ⟨2, ![n, 512]⟩ 1
    [⟨⟨2, ![n, 128]⟩, mulf Aa (extractStridedSlice ⟨2, ![n, 128]⟩ ![0, 0] Y l0)⟩,
     ⟨⟨2, ![n, 128]⟩, mulf Aa (extractStridedSlice ⟨2, ![n, 128]⟩ ![0, 128] Y l1)⟩,
     ⟨⟨2, ![n, 128]⟩, mulf Aa (extractStridedSlice ⟨2, ![n, 128]⟩ ![0, 256] Y l2)⟩,
     ⟨⟨2, ![n, 128]⟩, mulf Aa (extractStridedSlice ⟨2, ![n, 128]⟩ ![0, 384] Y l3)⟩] hc)

theorem shiftRows_re {n s m w : ℕ} (hsm : n = s + m) (z : EReal) (zr : ℝ) (hz : z = ((zr : ℝ) : EReal))
    (X : FVec Ideal ⟨2, ![n, w]⟩ .f32) (B : ℕ → ℕ → ℝ)
    (hX : ∀ (g : Fin n) (d : Fin w), X (ix2 g d) = ((B g d : ℝ) : EReal))
    (hs : (⟨2, ![n, w]⟩ : Shape).Slices ![0, 0] ⟨2, ![m, w]⟩)
    (hc : Shape.Concatenates [(⟨2, ![s, w]⟩ : Shape), ⟨2, ![m, w]⟩] ⟨2, ![n, w]⟩ 0) (g : Fin n) (d : Fin w) :
    shiftRows s m z X hs hc (ix2 g d) = (((if (g : ℕ) < s then zr else B (g - s) d) : ℝ) : EReal) :=
  shift_rows_re hsm z zr hz X B hX hs hc g d

theorem sbNext_re {s m : ℕ} (hsm : 16 = s + m) (z : EReal) (hz : z = ((0 : ℝ) : EReal))
    (Sb : FVec Ideal ⟨2, ![16, 512]⟩ .f32) (Aa : FVec Ideal ⟨2, ![16, 128]⟩ .f32) (A : ℕ → ℝ) (B : ℕ → ℕ → ℝ)
    (hA : ∀ (g : Fin 16) (j : Fin 128), Aa (ix2 g j) = ((A g : ℝ) : EReal))
    (hB : ∀ (g : Fin 16) (d : Fin 512), Sb (ix2 g d) = ((B g d : ℝ) : EReal))
    (hs : (⟨2, ![16, 512]⟩ : Shape).Slices ![0, 0] ⟨2, ![m, 512]⟩)
    (hc0 : Shape.Concatenates [(⟨2, ![s, 512]⟩ : Shape), ⟨2, ![m, 512]⟩] ⟨2, ![16, 512]⟩ 0)
    (l0 : (⟨2, ![16, 512]⟩ : Shape).Slices ![0, 0] ⟨2, ![16, 128]⟩) (l1 : (⟨2, ![16, 512]⟩ : Shape).Slices ![0, 128] ⟨2, ![16, 128]⟩)
    (l2 : (⟨2, ![16, 512]⟩ : Shape).Slices ![0, 256] ⟨2, ![16, 128]⟩) (l3 : (⟨2, ![16, 512]⟩ : Shape).Slices ![0, 384] ⟨2, ![16, 128]⟩)
    (hc1 : Shape.Concatenates [(⟨2, ![16, 128]⟩ : Shape), ⟨2, ![16, 128]⟩, ⟨2, ![16, 128]⟩, ⟨2, ![16, 128]⟩] ⟨2, ![16, 512]⟩ 1)
    (g : Fin 16) (d : Fin 512) :
    laneAcc Sb (shiftRows s m z Sb hs hc0) Aa l0 l1 l2 l3 hc1 (ix2 g d)
      = (((Cert.Spec.dstep' s (A, fun i => B i d)).2 g : ℝ) : EReal) := by
  refine (sb_acc_re Sb (shiftRows s m z Sb hs hc0) Aa l0 l1 l2 l3 hc1 A B (fun g d => if g < s then 0 else B (g - s) d) hA hB
    (fun g d => shift_rows_re hsm z 0 hz Sb B hB hs hc0 g d) g d).trans ?_
  rfl

theorem aaNext_re {s m : ℕ} (hsm : 16 = s + m) (z : EReal) (hz : z = ((1 : ℝ) : EReal))
    (Aa : FVec Ideal ⟨2, ![16, 128]⟩ .f32) (A : ℕ → ℝ)
    (hA : ∀ (g : Fin 16) (j : Fin 128), Aa (ix2 g j) = ((A g : ℝ) : EReal))
    (hs : (⟨2, ![16, 128]⟩ : Shape).Slices ![0, 0] ⟨2, ![m, 128]⟩)
    (hc : Shape.Concatenates [(⟨2, ![s, 128]⟩ : Shape), ⟨2, ![m, 128]⟩] ⟨2, ![16, 128]⟩ 0)
    (g : Fin 16) (j : Fin 128) :
    mulf Aa (shiftRows s m z Aa hs hc) (ix2 g j) = ((mstep s A g : ℝ) : EReal) :=
  aa_step_re hsm z hz Aa A hA hs hc g j

end Cert.Ker

end
-- ==== Proof.Ker.CarryLay.lean ====
import Idealize.ShloMosaic.Lib.ValueLayout
import Idealize.ShloMosaic.Lib.Pipeline.Value
import proofs.«123660_g14800457302192_cont_week2b_463_30_alg».proof.Proof.Coe

noncomputable section

namespace Cert.Ker

open Idealize.ShloMosaic Idealize.ShloMosaic.ValueIdx Cert.Num

theorem rows16_unit_re {w : ℕ}
    (P0 P1 P2 P3 P4 P5 P6 P7 P8 P9 P10 P11 P12 P13 P14 P15 : (⟨2, ![1, w]⟩ : Shape).Idx → EReal)
    (hc : Shape.Concatenates [(⟨2, ![1, w]⟩ : Shape), ⟨2, ![1, w]⟩, ⟨2, ![1, w]⟩, ⟨2, ![1, w]⟩, ⟨2, ![1, w]⟩, ⟨2, ![1, w]⟩, ⟨2, ![1, w]⟩, ⟨2, ![1, w]⟩, ⟨2, ![1, w]⟩, ⟨2, ![1, w]⟩, ⟨2, ![1, w]⟩, ⟨2, ![1, w]⟩, ⟨2, ![1, w]⟩, ⟨2, ![1, w]⟩, ⟨2, ![1, w]⟩, ⟨2, ![1, w]⟩] ⟨2, ![16, w]⟩ 0)
    (R : ℕ → ℕ → ℝ)
    (h0 : ∀ d : Fin w, P0 (ix2 (0 : Fin 1) d) = ((R 0 d : ℝ) : EReal))
    (h1 : ∀ d : Fin w, P1 (ix2 (0 : Fin 1) d) = ((R 1 d : ℝ) : EReal))
    (h2 : ∀ d : Fin w, P2 (ix2 (0 : Fin 1) d) = ((R 2 d : ℝ) : EReal))
    (h3 : ∀ d : Fin w, P3 (ix2 (0 : Fin 1) d) = ((R 3 d : ℝ) : EReal))
    (h4 : ∀ d : Fin w, P4 (ix2 (0 : Fin 1) d) = ((R 4 d : ℝ) : EReal))
    (h5 : ∀ d : Fin w, P5 (ix2 (0 : Fin 1) d) = ((R 5 d : ℝ) : EReal))
    (h6 : ∀ d : Fin w, P6 (ix2 (0 : Fin 1) d) = ((R 6 d : ℝ) : EReal))
    (h7 : ∀ d : Fin w, P7 (ix2 (0 : Fin 1) d) = ((R 7 d : ℝ) : EReal))
    (h8 : ∀ d : Fin w, P8 (ix2 (0 : Fin 1) d) = ((R 8 d : ℝ) : EReal))
    (h9 : ∀ d : Fin w, P9 (ix2 (0 : Fin 1) d) = ((R 9 d : ℝ) : EReal))
    (h10 : ∀ d : Fin w, P10 (ix2 (0 : Fin 1) d) = ((R 10 d : ℝ) : EReal))
    (h11 : ∀ d : Fin w, P11 (ix2 (0 : Fin 1) d) = ((R 11 d : ℝ) : EReal))
    (h12 : ∀ d : Fin w, P12 (ix2 (0 : Fin 1) d) = ((R 12 d : ℝ) : EReal))
    (h13 : ∀ d : Fin w, P13 (ix2 (0 : Fin 1) d) = ((R 13 d : ℝ) : EReal))
    (h14 : ∀ d : Fin w, P14 (ix2 (0 : Fin 1) d) = ((R 14 d : ℝ) : EReal))
    (h15 : ∀ d : Fin w, P15 (ix2 (0 : Fin 1) d) = ((R 15 d : ℝ) : EReal))
    (g : Fin 16) (d : Fin w) :
    concatenate ⟨2, ![16, w]⟩ 0 [⟨⟨2, ![1, w]⟩, P0⟩, ⟨⟨2, ![1, w]⟩, P1⟩, ⟨⟨2, ![1, w]⟩, P2⟩, ⟨⟨2, ![1, w]⟩, P3⟩, ⟨⟨2, ![1, w]⟩, P4⟩, ⟨⟨2, ![1, w]⟩, P5⟩, ⟨⟨2, ![1, w]⟩, P6⟩, ⟨⟨2, ![1, w]⟩, P7⟩, ⟨⟨2, ![1, w]⟩, P8⟩, ⟨⟨2, ![1, w]⟩, P9⟩, ⟨⟨2, ![1, w]⟩, P10⟩, ⟨⟨2, ![1, w]⟩, P11⟩, ⟨⟨2, ![1, w]⟩, P12⟩, ⟨⟨2, ![1, w]⟩, P13⟩, ⟨⟨2, ![1, w]⟩, P14⟩, ⟨⟨2, ![1, w]⟩, P15⟩] hc (ix2 g d) = ((R g d : ℝ) : EReal) := by

  have hf : ∀ (n : Fin 16) (d : Fin w), (![P0, P1, P2, P3, P4, P5, P6, P7, P8, P9, P10, P11, P12, P13, P14, P15] : Fin 16 → (⟨2, ![1, w]⟩ : Shape).Idx → EReal) n (ix2 (0 : Fin 1) d)
      = ((R n d : ℝ) : EReal) := by
    intro n d
    match n with
    | ⟨0, _⟩ => exact h0 d
    | ⟨1, _⟩ => exact h1 d
    | ⟨2, _⟩ => exact h2 d
    | ⟨3, _⟩ => exact h3 d
    | ⟨4, _⟩ => exact h4 d
    | ⟨5, _⟩ => exact h5 d
    | ⟨6, _⟩ => exact h6 d
    | ⟨7, _⟩ => exact h7 d
    | ⟨8, _⟩ => exact h8 d
    | ⟨9, _⟩ => exact h9 d
    | ⟨10, _⟩ => exact h10 d
    | ⟨11, _⟩ => exact h11 d
    | ⟨12, _⟩ => exact h12 d
    | ⟨13, _⟩ => exact h13 d
    | ⟨14, _⟩ => exact h14 d
    | ⟨15, _⟩ => exact h15 d
    | ⟨n + 16, h⟩ => exact absurd h (by omega)
  exact (concatenate_ofFn_unit_apply (t := ⟨2, ![16, w]⟩) (s₁ := ⟨2, ![1, w]⟩) 0
    (![P0, P1, P2, P3, P4, P5, P6, P7, P8, P9, P10, P11, P12, P13, P14, P15] : Fin 16 → (⟨2, ![1, w]⟩ : Shape).Idx → EReal) hc rfl rfl (ix2 g d) g rfl
    (ix2 (0 : Fin 1) d) (fun b hb => by
      match b with
      | ⟨0, _⟩ => exact absurd rfl hb
      | ⟨1, _⟩ => rfl)).trans (hf g d)

theorem rows16_chunk_re
    (P0 P1 P2 P3 P4 P5 P6 P7 P8 P9 P10 P11 P12 P13 P14 P15 : (⟨2, ![128, 512]⟩ : Shape).Idx → EReal)
    (hc : Shape.Concatenates [(⟨2, ![128, 512]⟩ : Shape), ⟨2, ![128, 512]⟩, ⟨2, ![128, 512]⟩, ⟨2, ![128, 512]⟩, ⟨2, ![128, 512]⟩, ⟨2, ![128, 512]⟩, ⟨2, ![128, 512]⟩, ⟨2, ![128, 512]⟩, ⟨2, ![128, 512]⟩, ⟨2, ![128, 512]⟩, ⟨2, ![128, 512]⟩, ⟨2, ![128, 512]⟩, ⟨2, ![128, 512]⟩, ⟨2, ![128, 512]⟩, ⟨2, ![128, 512]⟩, ⟨2, ![128, 512]⟩] ⟨2, ![2048, 512]⟩ 0)
    (R : ℕ → ℕ → ℝ)
    (h0 : ∀ (t : Fin 128) (d : Fin 512), P0 (ix2 t d) = ((R (128 * 0 + t) d : ℝ) : EReal))
    (h1 : ∀ (t : Fin 128) (d : Fin 512), P1 (ix2 t d) = ((R (128 * 1 + t) d : ℝ) : EReal))
    (h2 : ∀ (t : Fin 128) (d : Fin 512), P2 (ix2 t d) = ((R (128 * 2 + t) d : ℝ) : EReal))
    (h3 : ∀ (t : Fin 128) (d : Fin 512), P3 (ix2 t d) = ((R (128 * 3 + t) d : ℝ) : EReal))
    (h4 : ∀ (t : Fin 128) (d : Fin 512), P4 (ix2 t d) = ((R (128 * 4 + t) d : ℝ) : EReal))
    (h5 : ∀ (t : Fin 128) (d : Fin 512), P5 (ix2 t d) = ((R (128 * 5 + t) d : ℝ) : EReal))
    (h6 : ∀ (t : Fin 128) (d : Fin 512), P6 (ix2 t d) = ((R (128 * 6 + t) d : ℝ) : EReal))
    (h7 : ∀ (t : Fin 128) (d : Fin 512), P7 (ix2 t d) = ((R (128 * 7 + t) d : ℝ) : EReal))
    (h8 : ∀ (t : Fin 128) (d : Fin 512), P8 (ix2 t d) = ((R (128 * 8 + t) d : ℝ) : EReal))
    (h9 : ∀ (t : Fin 128) (d : Fin 512), P9 (ix2 t d) = ((R (128 * 9 + t) d : ℝ) : EReal))
    (h10 : ∀ (t : Fin 128) (d : Fin 512), P10 (ix2 t d) = ((R (128 * 10 + t) d : ℝ) : EReal))
    (h11 : ∀ (t : Fin 128) (d : Fin 512), P11 (ix2 t d) = ((R (128 * 11 + t) d : ℝ) : EReal))
    (h12 : ∀ (t : Fin 128) (d : Fin 512), P12 (ix2 t d) = ((R (128 * 12 + t) d : ℝ) : EReal))
    (h13 : ∀ (t : Fin 128) (d : Fin 512), P13 (ix2 t d) = ((R (128 * 13 + t) d : ℝ) : EReal))
    (h14 : ∀ (t : Fin 128) (d : Fin 512), P14 (ix2 t d) = ((R (128 * 14 + t) d : ℝ) : EReal))
    (h15 : ∀ (t : Fin 128) (d : Fin 512), P15 (ix2 t d) = ((R (128 * 15 + t) d : ℝ) : EReal))
    (l : Fin 2048) (d : Fin 512) :
    concatenate ⟨2, ![2048, 512]⟩ 0 [⟨⟨2, ![128, 512]⟩, P0⟩, ⟨⟨2, ![128, 512]⟩, P1⟩, ⟨⟨2, ![128, 512]⟩, P2⟩, ⟨⟨2, ![128, 512]⟩, P3⟩, ⟨⟨2, ![128, 512]⟩, P4⟩, ⟨⟨2, ![128, 512]⟩, P5⟩, ⟨⟨2, ![128, 512]⟩, P6⟩, ⟨⟨2, ![128, 512]⟩, P7⟩, ⟨⟨2, ![128, 512]⟩, P8⟩, ⟨⟨2, ![128, 512]⟩, P9⟩, ⟨⟨2, ![128, 512]⟩, P10⟩, ⟨⟨2, ![128, 512]⟩, P11⟩, ⟨⟨2, ![128, 512]⟩, P12⟩, ⟨⟨2, ![128, 512]⟩, P13⟩, ⟨⟨2, ![128, 512]⟩, P14⟩, ⟨⟨2, ![128, 512]⟩, P15⟩] hc (ix2 l d) = ((R l d : ℝ) : EReal) := by

  have hf : ∀ (n : Fin 16) (t : Fin 128) (d : Fin 512),
      (![P0, P1, P2, P3, P4, P5, P6, P7, P8, P9, P10, P11, P12, P13, P14, P15] : Fin 16 → (⟨2, ![128, 512]⟩ : Shape).Idx → EReal) n (ix2 t d)
      = ((R (128 * n + t) d : ℝ) : EReal) := by
    intro n t d
    match n with
    | ⟨0, _⟩ => exact h0 t d
    | ⟨1, _⟩ => exact h1 t d
    | ⟨2, _⟩ => exact h2 t d
    | ⟨3, _⟩ => exact h3 t d
    | ⟨4, _⟩ => exact h4 t d
    | ⟨5, _⟩ => exact h5 t d
    | ⟨6, _⟩ => exact h6 t d
    | ⟨7, _⟩ => exact h7 t d
    | ⟨8, _⟩ => exact h8 t d
    | ⟨9, _⟩ => exact h9 t d
    | ⟨10, _⟩ => exact h10 t d
    | ⟨11, _⟩ => exact h11 t d
    | ⟨12, _⟩ => exact h12 t d
    | ⟨13, _⟩ => exact h13 t d
    | ⟨14, _⟩ => exact h14 t d
    | ⟨15, _⟩ => exact h15 t d
    | ⟨n + 16, h⟩ => exact absurd h (by omega)
  have hl := l.isLt
  have hq : l.val / 128 < 16 := by omega
  have hlt : l.val % 128 < 128 := Nat.mod_lt _ (by norm_num)
  refine (concatenate_ofFn_apply (t := ⟨2, ![2048, 512]⟩) (s₁ := ⟨2, ![128, 512]⟩) 0
    (![P0, P1, P2, P3, P4, P5, P6, P7, P8, P9, P10, P11, P12, P13, P14, P15] : Fin 16 → (⟨2, ![128, 512]⟩ : Shape).Idx → EReal) hc rfl 128 rfl (ix2 l d) ⟨l.val / 128, hq⟩ rfl
    (ix2 ⟨l.val % 128, hlt⟩ d) rfl (fun b hb => by
      match b with
      | ⟨0, _⟩ => exact absurd rfl hb
      | ⟨1, _⟩ => rfl)).trans ?_
  refine (hf ⟨l.val / 128, hq⟩ ⟨l.val % 128, hlt⟩ d).trans ?_
  exact congrArg (fun n => ((R n d : ℝ) : EReal)) (Nat.div_add_mod l.val 128)

theorem bcast_chunks_re (V : (⟨2, ![16, 512]⟩ : Shape).Idx → EReal) (R : ℕ → ℕ → ℝ)
    (hV : ∀ (g : Fin 16) (d : Fin 512), V (ix2 g d) = ((R g d : ℝ) : EReal))
    (h1 : (⟨2, ![16, 512]⟩ : Shape).ShapeCasts ⟨3, ![16, 1, 512]⟩)
    (h2 : (⟨3, ![16, 1, 512]⟩ : Shape).ShapeCasts ⟨3, ![16, 1, 512]⟩)
    (h3 : (⟨3, ![16, 1, 512]⟩ : Shape).Broadcasts ⟨3, ![16, 128, 512]⟩)
    (h4 : (⟨3, ![16, 128, 512]⟩ : Shape).ShapeCasts ⟨2, ![2048, 512]⟩)
    (l : Fin 2048) (d : Fin 512) :
    shapeCast ⟨2, ![2048, 512]⟩ (broadcastTo ⟨3, ![16, 128, 512]⟩ (shapeCast ⟨3, ![16, 1, 512]⟩
      (shapeCast ⟨3, ![16, 1, 512]⟩ V h1) h2) h3) h4 (ix2 l d) = ((R (l / 128) d : ℝ) : EReal) := by
  have hl := l.isLt
  have hq : l.val / 128 < 16 := by omega
  have hr : l.val % 128 < 128 := Nat.mod_lt _ (by norm_num)
  refine (shapeCast_apply _ h4 (ix2 l d) (ix3 ⟨l.val / 128, hq⟩ ⟨l.val % 128, hr⟩ d) ?_).trans ?_
  · rw [Shape.rowMajor_val_three, Shape.rowMajor_val_two]
    show ((l.val / 128) * 128 + l.val % 128) * 512 + d.val = l.val * 512 + d.val
    have := Nat.div_add_mod l.val 128
    omega
  refine (broadcastTo_apply _ h3 (ix3 ⟨l.val / 128, hq⟩ ⟨l.val % 128, hr⟩ d) (ix3 ⟨l.val / 128, hq⟩ (0 : Fin 1) d) ?_).trans ?_
  · intro a
    match a with
    | ⟨0, _⟩ => rfl
    | ⟨1, _⟩ => rfl
    | ⟨2, _⟩ => rfl
  refine (shapeCast_apply _ h2 (ix3 ⟨l.val / 128, hq⟩ (0 : Fin 1) d) (ix3 ⟨l.val / 128, hq⟩ (0 : Fin 1) d) rfl).trans ?_
  refine (shapeCast_apply _ h1 (ix3 ⟨l.val / 128, hq⟩ (0 : Fin 1) d) (ix2 ⟨l.val / 128, hq⟩ d) ?_).trans ?_
  · rw [Shape.rowMajor_val_three, Shape.rowMajor_val_two]
    show (l.val / 128) * 512 + d.val = ((l.val / 128) * 1 + 0) * 512 + d.val
    omega
  exact hV ⟨l.val / 128, hq⟩ d

end Cert.Ker

end
-- ==== Proof.Ker.Carry2.lean ====
import proofs.«123660_g14800457302192_cont_week2b_463_30_alg».proof.Proof.Gen.KernelIdeal.Skeleton
import proofs.«123660_g14800457302192_cont_week2b_463_30_alg».proof.Proof.Ker.Carry1
import proofs.«123660_g14800457302192_cont_week2b_463_30_alg».proof.Proof.Ker.CarryLay

noncomputable section

namespace Cert.Ker

open Idealize.ShloMosaic Idealize.ShloMosaic.ValueIdx Cert.KernelIdeal Cert.KernelIdeal.Gen Cert.Num

theorem dscan4_eq (ab : (ℕ → ℝ) × (ℕ → ℝ)) :
    Cert.Spec.dscan 4 ab = Cert.Spec.dstep' 8 (Cert.Spec.dstep' 4 (Cert.Spec.dstep' 2 (Cert.Spec.dstep' 1 ab))) := by
  rw [Cert.Spec.dstep'_eq, Cert.Spec.dstep'_eq, Cert.Spec.dstep'_eq, Cert.Spec.dstep'_eq]
  rfl

theorem carry_re (v1 : FVec Ideal S2048x512 .f32) (v119 : FVec Ideal S2048x128 .f32)
    (c0 c1 c2 c3 c4 c5 c6 c7 c8 c9 c10 c11 c12 c13 c14 c15 : FVec Ideal S128x512 .f32)
    (r0 r1 r2 r3 r4 : FVec Ideal S1x512 .f32)
    (X Loc : ℕ → ℕ → ℝ) (Pre : ℕ → ℝ)
    (hX : ∀ (l : Fin 2048) (d : Fin 512), v1 (ix2 l d) = ((X l d : ℝ) : EReal))
    (hP : ∀ (l : Fin 2048) (j : Fin 128), v119 (ix2 l j) = ((Pre l : ℝ) : EReal))
    (hc0 : ∀ (t : Fin 128) (d : Fin 512), c0 (ix2 t d) = ((Loc (128 * 0 + t) d : ℝ) : EReal))
    (hc1 : ∀ (t : Fin 128) (d : Fin 512), c1 (ix2 t d) = ((Loc (128 * 1 + t) d : ℝ) : EReal))
    (hc2 : ∀ (t : Fin 128) (d : Fin 512), c2 (ix2 t d) = ((Loc (128 * 2 + t) d : ℝ) : EReal))
    (hc3 : ∀ (t : Fin 128) (d : Fin 512), c3 (ix2 t d) = ((Loc (128 * 3 + t) d : ℝ) : EReal))
    (hc4 : ∀ (t : Fin 128) (d : Fin 512), c4 (ix2 t d) = ((Loc (128 * 4 + t) d : ℝ) : EReal))
    (hc5 : ∀ (t : Fin 128) (d : Fin 512), c5 (ix2 t d) = ((Loc (128 * 5 + t) d : ℝ) : EReal))
    (hc6 : ∀ (t : Fin 128) (d : Fin 512), c6 (ix2 t d) = ((Loc (128 * 6 + t) d : ℝ) : EReal))
    (hc7 : ∀ (t : Fin 128) (d : Fin 512), c7 (ix2 t d) = ((Loc (128 * 7 + t) d : ℝ) : EReal))
    (hc8 : ∀ (t : Fin 128) (d : Fin 512), c8 (ix2 t d) = ((Loc (128 * 8 + t) d : ℝ) : EReal))
    (hc9 : ∀ (t : Fin 128) (d : Fin 512), c9 (ix2 t d) = ((Loc (128 * 9 + t) d : ℝ) : EReal))
    (hc10 : ∀ (t : Fin 128) (d : Fin 512), c10 (ix2 t d) = ((Loc (128 * 10 + t) d : ℝ) : EReal))
    (hc11 : ∀ (t : Fin 128) (d : Fin 512), c11 (ix2 t d) = ((Loc (128 * 11 + t) d : ℝ) : EReal))
    (hc12 : ∀ (t : Fin 128) (d : Fin 512), c12 (ix2 t d) = ((Loc (128 * 12 + t) d : ℝ) : EReal))
    (hc13 : ∀ (t : Fin 128) (d : Fin 512), c13 (ix2 t d) = ((Loc (128 * 13 + t) d : ℝ) : EReal))
    (hc14 : ∀ (t : Fin 128) (d : Fin 512), c14 (ix2 t d) = ((Loc (128 * 14 + t) d : ℝ) : EReal))
    (hc15 : ∀ (t : Fin 128) (d : Fin 512), c15 (ix2 t d) = ((Loc (128 * 15 + t) d : ℝ) : EReal))
    (hr0 : ∀ d : Fin 512, r0 (ix2 (0 : Fin 1) d) = ((Loc (128 * 0 + 127) d : ℝ) : EReal))
    (hr1 : ∀ d : Fin 512, r1 (ix2 (0 : Fin 1) d) = ((Loc (128 * 1 + 127) d : ℝ) : EReal))
    (hr2 : ∀ d : Fin 512, r2 (ix2 (0 : Fin 1) d) = ((Loc (128 * 2 + 127) d : ℝ) : EReal))
    (hr3 : ∀ d : Fin 512, r3 (ix2 (0 : Fin 1) d) = ((Loc (128 * 3 + 127) d : ℝ) : EReal))
    (hr4 : ∀ d : Fin 512, r4 (ix2 (0 : Fin 1) d) = ((Loc (128 * 4 + 127) d : ℝ) : EReal))
    (l : Fin 2048) (d : Fin 512) :
    k0_pay47 v1 v119 c0 c1 c2 c3 c4 c5 c6 c7 c8 c9 c10 c11 c12 c13 c14 c15 (k0_pay41 v119 c5 c6 c7 c8 c9 c10 c11 c12 c13 c14 c15 r0 r1 r2 r3 r4) (k0_pay42 v119) (k0_pay43 v119 c5 c6 c7 c8 c9 c10 c11 c12 c13 c14 c15 r0 r1 r2 r3 r4) (k0_pay44 v119) (k0_pay45 v119 c5 c6 c7 c8 c9 c10 c11 c12 c13 c14 c15 r0 r1 r2 r3 r4) (k0_pay46 v119 c5 c6 c7 c8 c9 c10 c11 c12 c13 c14 c15 r0 r1 r2 r3 r4) (ix2 l d)
      = ((X l d + Loc l d + Pre l * (if (l : ℕ) / 128 < 1 then 0 else
            (Cert.Spec.dscan 4 (fun g => Pre (128 * g + 127), fun g => Loc (128 * g + 127) d)).2 ((l : ℕ) / 128 - 1)) : ℝ) : EReal) := by

  have hz0 : (Scalar.ofBits .f32 0x00000000#32 : Ideal .f32) = ((0 : ℝ) : EReal) := ofBits_zero
  have hz1 : (Scalar.ofBits .f32 0x3F800000#32 : Ideal .f32) = ((1 : ℝ) : EReal) := ofBits_one

  let A0 : ℕ → ℝ := fun g => Pre (128 * g + 127)
  let B0 : ℕ → ℕ → ℝ := fun g d => Loc (128 * g + 127) d
  have hAa0 : ∀ (g : Fin 16) (j : Fin 128), k0_pay40 v119 (ix2 g j) = ((A0 g : ℝ) : EReal) := by
    intro g j
    unfold k0_pay40
    exact rows16_unit_re (w := 128) _ _ _ _ _ _ _ _ _ _ _ _ _ _ _ _ concatenates_S1x128_S1x128_S1x128_S1x128_S1x128_S1x128_S1x128_S1x128_S1x128_S1x128_S1x128_S1x128_S1x128_S1x128_S1x128_S1x128_S16x128_d0 (fun g _ => A0 g)
      (fun d => (slice2_axis0_apply 127 v119 slices_S2048x128_o127_0_S1x128 (0 : Fin 1) d (⟨127, by norm_num⟩ : Fin 2048) (by simp)).trans (hP _ d))
      (fun d => (slice2_axis0_apply 255 v119 slices_S2048x128_o255_0_S1x128 (0 : Fin 1) d (⟨255, by norm_num⟩ : Fin 2048) (by simp)).trans (hP _ d))
      (fun d => (slice2_axis0_apply 383 v119 slices_S2048x128_o383_0_S1x128 (0 : Fin 1) d (⟨383, by norm_num⟩ : Fin 2048) (by simp)).trans (hP _ d))
      (fun d => (slice2_axis0_apply 511 v119 slices_S2048x128_o511_0_S1x128 (0 : Fin 1) d (⟨511, by norm_num⟩ : Fin 2048) (by simp)).trans (hP _ d))
      (fun d => (slice2_axis0_apply 639 v119 slices_S2048x128_o639_0_S1x128 (0 : Fin 1) d (⟨639, by norm_num⟩ : Fin 2048) (by simp)).trans (hP _ d))
      (fun d => (slice2_axis0_apply 767 v119 slices_S2048x128_o767_0_S1x128 (0 : Fin 1) d (⟨767, by norm_num⟩ : Fin 2048) (by simp)).trans (hP _ d))
      (fun d => (slice2_axis0_apply 895 v119 slices_S2048x128_o895_0_S1x128 (0 : Fin 1) d (⟨895, by norm_num⟩ : Fin 2048) (by simp)).trans (hP _ d))
      (fun d => (slice2_axis0_apply 1023 v119 slices_S2048x128_o1023_0_S1x128 (0 : Fin 1) d (⟨1023, by norm_num⟩ : Fin 2048) (by simp)).trans (hP _ d))
      (fun d => (slice2_axis0_apply 1151 v119 slices_S2048x128_o1151_0_S1x128 (0 : Fin 1) d (⟨1151, by norm_num⟩ : Fin 2048) (by simp)).trans (hP _ d))
      (fun d => (slice2_axis0_apply 1279 v119 slices_S2048x128_o1279_0_S1x128 (0 : Fin 1) d (⟨1279, by norm_num⟩ : Fin 2048) (by simp)).trans (hP _ d))
      (fun d => (slice2_axis0_apply 1407 v119 slices_S2048x128_o1407_0_S1x128 (0 : Fin 1) d (⟨1407, by norm_num⟩ : Fin 2048) (by simp)).trans (hP _ d))
      (fun d => (slice2_axis0_apply 1535 v119 slices_S2048x128_o1535_0_S1x128 (0 : Fin 1) d (⟨1535, by norm_num⟩ : Fin 2048) (by simp)).trans (hP _ d))
      (fun d => (slice2_axis0_apply 1663 v119 slices_S2048x128_o1663_0_S1x128 (0 : Fin 1) d (⟨1663, by norm_num⟩ : Fin 2048) (by simp)).trans (hP _ d))
      (fun d => (slice2_axis0_apply 1791 v119 slices_S2048x128_o1791_0_S1x128 (0 : Fin 1) d (⟨1791, by norm_num⟩ : Fin 2048) (by simp)).trans (hP _ d))
      (fun d => (slice2_axis0_apply 1919 v119 slices_S2048x128_o1919_0_S1x128 (0 : Fin 1) d (⟨1919, by norm_num⟩ : Fin 2048) (by simp)).trans (hP _ d))
      (fun d => (slice2_axis0_apply 2047 v119 slices_S2048x128_o2047_0_S1x128 (0 : Fin 1) d (⟨2047, by norm_num⟩ : Fin 2048) (by simp)).trans (hP _ d))
      g j

  let A1 : ℕ → ℝ := mstep 1 A0
  let B1 : ℕ → ℕ → ℝ := fun g d => (Cert.Spec.dstep' 1 (A0, fun i => B0 i d)).2 g
  have hSb1 : ∀ (g : Fin 16) (d : Fin 512), k0_pay41 v119 c5 c6 c7 c8 c9 c10 c11 c12 c13 c14 c15 r0 r1 r2 r3 r4 (ix2 g d) = ((B1 g d : ℝ) : EReal) := by
    intro g d
    unfold k0_pay41
    refine sbNext_re (s := 1) (m := 15) rfl _ hz0 _ (k0_pay40 v119) A0 B0 hAa0 ?_ _ _ _ _ _ _ _ g d
    intro g d
    exact rows16_unit_re (w := 512) _ _ _ _ _ _ _ _ _ _ _ _ _ _ _ _ concatenates_S1x512_S1x512_S1x512_S1x512_S1x512_S1x512_S1x512_S1x512_S1x512_S1x512_S1x512_S1x512_S1x512_S1x512_S1x512_S1x512_S16x512_d0 B0
      hr0
      hr1
      hr2
      hr3
      hr4
      (fun d => (slice2_axis0_apply 127 c5 slices_S128x512_o127_0_S1x512 (0 : Fin 1) d (⟨127, by norm_num⟩ : Fin 128) (by simp)).trans (hc5 _ d))
      (fun d => (slice2_axis0_apply 127 c6 slices_S128x512_o127_0_S1x512 (0 : Fin 1) d (⟨127, by norm_num⟩ : Fin 128) (by simp)).trans (hc6 _ d))
      (fun d => (slice2_axis0_apply 127 c7 slices_S128x512_o127_0_S1x512 (0 : Fin 1) d (⟨127, by norm_num⟩ : Fin 128) (by simp)).trans (hc7 _ d))
      (fun d => (slice2_axis0_apply 127 c8 slices_S128x512_o127_0_S1x512 (0 : Fin 1) d (⟨127, by norm_num⟩ : Fin 128) (by simp)).trans (hc8 _ d))
      (fun d => (slice2_axis0_apply 127 c9 slices_S128x512_o127_0_S1x512 (0 : Fin 1) d (⟨127, by norm_num⟩ : Fin 128) (by simp)).trans (hc9 _ d))
      (fun d => (slice2_axis0_apply 127 c10 slices_S128x512_o127_0_S1x512 (0 : Fin 1) d (⟨127, by norm_num⟩ : Fin 128) (by simp)).trans (hc10 _ d))
      (fun d => (slice2_axis0_apply 127 c11 slices_S128x512_o127_0_S1x512 (0 : Fin 1) d (⟨127, by norm_num⟩ : Fin 128) (by simp)).trans (hc11 _ d))
      (fun d => (slice2_axis0_apply 127 c12 slices_S128x512_o127_0_S1x512 (0 : Fin 1) d (⟨127, by norm_num⟩ : Fin 128) (by simp)).trans (hc12 _ d))
      (fun d => (slice2_axis0_apply 127 c13 slices_S128x512_o127_0_S1x512 (0 : Fin 1) d (⟨127, by norm_num⟩ : Fin 128) (by simp)).trans (hc13 _ d))
      (fun d => (slice2_axis0_apply 127 c14 slices_S128x512_o127_0_S1x512 (0 : Fin 1) d (⟨127, by norm_num⟩ : Fin 128) (by simp)).trans (hc14 _ d))
      (fun d => (slice2_axis0_apply 127 c15 slices_S128x512_o127_0_S1x512 (0 : Fin 1) d (⟨127, by norm_num⟩ : Fin 128) (by simp)).trans (hc15 _ d))
      g d
  have hAa1 : ∀ (g : Fin 16) (j : Fin 128), k0_pay42 v119 (ix2 g j) = ((A1 g : ℝ) : EReal) :=
    fun g j => aaNext_re (s := 1) (m := 15) rfl _ hz1 (k0_pay40 v119) A0 hAa0 slices_S16x128_o0_0_S15x128 concatenates_S1x128_S15x128_S16x128_d0 g j

  let z0 : EReal := (Scalar.ofBits .f32 0x00000000#32 : Ideal .f32)
  let z1 : EReal := (Scalar.ofBits .f32 0x3F800000#32 : Ideal .f32)
  let Sb1 : FVec Ideal S16x512 .f32 := k0_pay41 v119 c5 c6 c7 c8 c9 c10 c11 c12 c13 c14 c15 r0 r1 r2 r3 r4
  let Aa1 : FVec Ideal S16x128 .f32 := k0_pay42 v119
  let Sb2 : FVec Ideal S16x512 .f32 := laneAcc Sb1 (shiftRows 2 14 z0 Sb1 slices_S16x512_o0_0_S14x512 concatenates_S2x512_S14x512_S16x512_d0) Aa1 slices_S16x512_o0_0_S16x128 slices_S16x512_o0_128_S16x128 slices_S16x512_o0_256_S16x128 slices_S16x512_o0_384_S16x128 concatenates_S16x128_S16x128_S16x128_S16x128_S16x512_d1
  let Aa2 : FVec Ideal S16x128 .f32 := mulf Aa1 (shiftRows 2 14 z1 Aa1 slices_S16x128_o0_0_S14x128 concatenates_S2x128_S14x128_S16x128_d0)
  let Sb3 : FVec Ideal S16x512 .f32 := laneAcc Sb2 (shiftRows 4 12 z0 Sb2 slices_S16x512_o0_0_S12x512 concatenates_S4x512_S12x512_S16x512_d0) Aa2 slices_S16x512_o0_0_S16x128 slices_S16x512_o0_128_S16x128 slices_S16x512_o0_256_S16x128 slices_S16x512_o0_384_S16x128 concatenates_S16x128_S16x128_S16x128_S16x128_S16x512_d1
  let Aa3 : FVec Ideal S16x128 .f32 := mulf Aa2 (shiftRows 4 12 z1 Aa2 slices_S16x128_o0_0_S12x128 concatenates_S4x128_S12x128_S16x128_d0)
  let Sb4 : FVec Ideal S16x512 .f32 := laneAcc Sb3 (shiftRows 8 8 z0 Sb3 slices_S16x512_o0_0_S8x512 concatenates_S8x512_S8x512_S16x512_d0) Aa3 slices_S16x512_o0_0_S16x128 slices_S16x512_o0_128_S16x128 slices_S16x512_o0_256_S16x128 slices_S16x512_o0_384_S16x128 concatenates_S16x128_S16x128_S16x128_S16x128_S16x512_d1
  let Sp : FVec Ideal S16x512 .f32 := shiftRows 1 15 z0 Sb4 slices_S16x512_o0_0_S15x512 concatenates_S1x512_S15x512_S16x512_d0
  let Sf : FVec Ideal S2048x512 .f32 := shapeCast S2048x512 (broadcastTo S16x128x512 (shapeCast S16x1x512 (shapeCast S16x1x512 Sp shapeCasts_S16x512_S16x1x512) shapeCasts_S16x1x512_S16x1x512) broadcasts_S16x1x512_S16x128x512) shapeCasts_S16x128x512_S2048x512
  let Sl : FVec Ideal S2048x512 .f32 := concatenate S2048x512 0 [⟨S128x512, c0⟩, ⟨S128x512, c1⟩, ⟨S128x512, c2⟩, ⟨S128x512, c3⟩, ⟨S128x512, c4⟩, ⟨S128x512, c5⟩, ⟨S128x512, c6⟩, ⟨S128x512, c7⟩, ⟨S128x512, c8⟩, ⟨S128x512, c9⟩, ⟨S128x512, c10⟩, ⟨S128x512, c11⟩, ⟨S128x512, c12⟩, ⟨S128x512, c13⟩, ⟨S128x512, c14⟩, ⟨S128x512, c15⟩] concatenates_S128x512_S128x512_S128x512_S128x512_S128x512_S128x512_S128x512_S128x512_S128x512_S128x512_S128x512_S128x512_S128x512_S128x512_S128x512_S128x512_S2048x512_d0
  have e : k0_pay47 v1 v119 c0 c1 c2 c3 c4 c5 c6 c7 c8 c9 c10 c11 c12 c13 c14 c15 (k0_pay41 v119 c5 c6 c7 c8 c9 c10 c11 c12 c13 c14 c15 r0 r1 r2 r3 r4) (k0_pay42 v119) (k0_pay43 v119 c5 c6 c7 c8 c9 c10 c11 c12 c13 c14 c15 r0 r1 r2 r3 r4) (k0_pay44 v119) (k0_pay45 v119 c5 c6 c7 c8 c9 c10 c11 c12 c13 c14 c15 r0 r1 r2 r3 r4) (k0_pay46 v119 c5 c6 c7 c8 c9 c10 c11 c12 c13 c14 c15 r0 r1 r2 r3 r4)
      = laneAcc (addf v1 Sl) Sf v119 slices_S2048x512_o0_0_S2048x128 slices_S2048x512_o0_128_S2048x128 slices_S2048x512_o0_256_S2048x128 slices_S2048x512_o0_384_S2048x128 concatenates_S2048x128_S2048x128_S2048x128_S2048x128_S2048x512_d1 := rfl

  let A2 : ℕ → ℝ := mstep 2 A1
  let B2 : ℕ → ℕ → ℝ := fun g d => (Cert.Spec.dstep' 2 (A1, fun i => B1 i d)).2 g
  let A3 : ℕ → ℝ := mstep 4 A2
  let B3 : ℕ → ℕ → ℝ := fun g d => (Cert.Spec.dstep' 4 (A2, fun i => B2 i d)).2 g
  let B4 : ℕ → ℕ → ℝ := fun g d => (Cert.Spec.dstep' 8 (A3, fun i => B3 i d)).2 g
  have hSb2 : ∀ (g : Fin 16) (d : Fin 512), Sb2 (ix2 g d) = ((B2 g d : ℝ) : EReal) :=
    fun g d => sbNext_re (s := 2) (m := 14) rfl z0 hz0 Sb1 Aa1 A1 B1 hAa1 hSb1 _ _ _ _ _ _ _ g d
  have hAa2 : ∀ (g : Fin 16) (j : Fin 128), Aa2 (ix2 g j) = ((A2 g : ℝ) : EReal) :=
    fun g j => aaNext_re (s := 2) (m := 14) rfl z1 hz1 Aa1 A1 hAa1 _ _ g j
  have hSb3 : ∀ (g : Fin 16) (d : Fin 512), Sb3 (ix2 g d) = ((B3 g d : ℝ) : EReal) :=
    fun g d => sbNext_re (s := 4) (m := 12) rfl z0 hz0 Sb2 Aa2 A2 B2 hAa2 hSb2 _ _ _ _ _ _ _ g d
  have hAa3 : ∀ (g : Fin 16) (j : Fin 128), Aa3 (ix2 g j) = ((A3 g : ℝ) : EReal) :=
    fun g j => aaNext_re (s := 4) (m := 12) rfl z1 hz1 Aa2 A2 hAa2 _ _ g j
  have hSb4 : ∀ (g : Fin 16) (d : Fin 512), Sb4 (ix2 g d) = ((B4 g d : ℝ) : EReal) :=
    fun g d => sbNext_re (s := 8) (m := 8) rfl z0 hz0 Sb3 Aa3 A3 B3 hAa3 hSb3 _ _ _ _ _ _ _ g d

  have hSp : ∀ (g : Fin 16) (d : Fin 512), Sp (ix2 g d) = (((if (g : ℕ) < 1 then 0 else B4 (g - 1) d) : ℝ) : EReal) :=
    fun g d => shiftRows_re (s := 1) (m := 15) rfl z0 0 hz0 Sb4 B4 hSb4 _ _ g d
  have hSf : ∀ (l : Fin 2048) (d : Fin 512), Sf (ix2 l d) = (((if (l : ℕ) / 128 < 1 then 0 else B4 ((l : ℕ) / 128 - 1) d) : ℝ) : EReal) :=
    fun l d => bcast_chunks_re Sp (fun g d => if g < 1 then 0 else B4 (g - 1) d) hSp _ _ _ _ l d
  have hSl : ∀ (l : Fin 2048) (d : Fin 512), Sl (ix2 l d) = ((Loc l d : ℝ) : EReal) :=
    fun l d => rows16_chunk_re c0 c1 c2 c3 c4 c5 c6 c7 c8 c9 c10 c11 c12 c13 c14 c15 _ Loc hc0 hc1 hc2 hc3 hc4 hc5 hc6 hc7 hc8 hc9 hc10 hc11 hc12 hc13 hc14 hc15 l d
  have hXl : ∀ (l : Fin 2048) (d : Fin 512), addf v1 Sl (ix2 l d) = ((X l d + Loc l d : ℝ) : EReal) := by
    intro l d
    rw [addf_apply, hX, hSl, ← EReal.coe_add]
  rw [e]
  refine (sb_acc_re (addf v1 Sl) Sf v119 _ _ _ _ _ Pre (fun l d => X l d + Loc l d)
    (fun l d => if l / 128 < 1 then 0 else B4 (l / 128 - 1) d) hP hXl hSf l d).trans ?_

  have hB4 : ∀ g : ℕ, B4 g d = (Cert.Spec.dscan 4 (A0, fun i => B0 i d)).2 g := by
    intro g
    rw [dscan4_eq]
    rfl
  show (((X l d + Loc l d + Pre l * (if (l : ℕ) / 128 < 1 then 0 else B4 ((l : ℕ) / 128 - 1) d) : ℝ)) : EReal) = _
  rw [hB4]

end Cert.Ker

end
-- ==== Proof.Ker.CarryMath.lean ====
import proofs.«123660_g14800457302192_cont_week2b_463_30_alg».proof.Proof.Spec
import proofs.«123660_g14800457302192_cont_week2b_463_30_alg».proof.Proof.Real.Scan
import proofs.«123660_g14800457302192_cont_week2b_463_30_alg».proof.Proof.Real.Chunk

noncomputable section

namespace Cert.Ker

open Cert.Spec

def preAt (a : ℕ → ℝ) (l : ℕ) : ℝ := preOf a (128 * (l / 128)) (l % 128)

def locAt (a c : ℕ → ℝ) (x : ℕ → ℕ → ℝ) (l d : ℕ) : ℝ := locOf a c x (128 * (l / 128)) (l % 128) d

theorem preAt_last (a : ℕ → ℝ) (g : ℕ) : preAt a (128 * g + 127) = preOf a (128 * g) 127 := by
  unfold preAt
  have h1 : (128 * g + 127) / 128 = g := by omega
  have h2 : (128 * g + 127) % 128 = 127 := by omega
  rw [h1, h2]

theorem locAt_last (a c : ℕ → ℝ) (x : ℕ → ℕ → ℝ) (g d : ℕ) :
    locAt a c x (128 * g + 127) d = locOf a c x (128 * g) 127 d := by
  unfold locAt
  have h1 : (128 * g + 127) / 128 = g := by omega
  have h2 : (128 * g + 127) % 128 = 127 := by omega
  rw [h1, h2]

theorem carry_math (a c : ℕ → ℝ) (x : ℕ → ℕ → ℝ) (l d : ℕ) (hl : l < 2048) :
    x l d + locAt a c x l d + preAt a l * (if l / 128 < 1 then 0 else
        (dscan 4 (fun g => preAt a (128 * g + 127), fun g => locAt a c x (128 * g + 127) d)).2 (l / 128 - 1))
      = x l d + stateOf a c x (l + 1) d := by
  have hfun1 : (fun g => preAt a (128 * g + 127)) = fun g => preOf a (128 * g) 127 := funext (preAt_last a)
  have hfun2 : (fun g => locAt a c x (128 * g + 127) d) = fun g => locOf a c x (128 * g) 127 d :=
    funext fun g => locAt_last a c x g d
  rw [hfun1, hfun2]

  have hs : (if l / 128 < 1 then 0 else
      (dscan 4 (fun g => preOf a (128 * g) 127, fun g => locOf a c x (128 * g) 127 d)).2 (l / 128 - 1))
      = stateOf a c x (128 * (l / 128)) d := by
    by_cases h : l / 128 < 1
    · rw [if_pos h]
      have h0 : l / 128 = 0 := by omega
      rw [h0, Nat.mul_zero, stateOf_zero]
    · have hlt : l / 128 - 1 < 2 ^ 4 := by
        have : (2 : ℕ) ^ 4 = 16 := by norm_num
        omega
      have h1 : l / 128 - 1 + 1 = l / 128 := by omega
      rw [if_neg h, dscan_val _ _ 4 (l / 128 - 1) hlt, state_chunks, h1]
  rw [hs]
  have hsc := state_chunk a c x (128 * (l / 128)) (l % 128) d (Nat.mod_lt _ (by norm_num))
  have hdm : 128 * (l / 128) + l % 128 = l := Nat.div_add_mod l 128
  rw [hdm] at hsc
  rw [hsc]
  unfold locAt preAt
  ring

end Cert.Ker

end
-- ==== Proof.Ker.CarryIdx.lean ====
import proofs.«123660_g14800457302192_cont_week2b_463_30_alg».proof.Proof.Ker.LogScan
import proofs.«123660_g14800457302192_cont_week2b_463_30_alg».proof.Proof.Ker.CarryMath

noncomputable section

namespace Cert.Ker

open Idealize.ShloMosaic Idealize.ShloMosaic.ValueIdx Cert.KernelIdeal Cert.KernelIdeal.Gen Cert.Num Cert.Spec

section Rows

variable (v38 : FVec Ideal S2048x128 .f32) (p : ℕ → ℝ)
  (hp : ∀ (l : Fin 2048) (j : Fin 128), v38 (ix2 l j) = ((p l : ℝ) : EReal))

include hp

theorem pre_row (l : Fin 2048) (j : Fin 128) :
    k0_pay16 (k0_pay10 v38) (k0_pay11 v38) (ix2 l j) = ((preAt (keepOf p) l : ℝ) : EReal) := by
  have hl := l.isLt
  have hq : l.val / 128 < 16 := by omega
  have ht : l.val % 128 < 128 := Nat.mod_lt _ (by norm_num)
  have hidx : (⟨128 * (l.val / 128) + l.val % 128, by omega⟩ : Fin 2048) = l := Fin.ext (Nat.div_add_mod l.val 128)
  exact (congrArg (fun i => k0_pay16 (k0_pay10 v38) (k0_pay11 v38) (ix2 i j)) hidx).symm.trans
    (pre_eq v38 p hp ⟨l.val / 128, hq⟩ ⟨l.val % 128, ht⟩ j)

theorem lm_row (l : Fin 2048) (j : Fin 128) :
    k0_pay15 (k0_pay9 v38) (k0_pay10 v38) (k0_pay11 v38) (ix2 l j)
      = ((tw (keepOf p) (128 * (l / 128)) (l % 128) j : ℝ) : EReal) := by
  have hl := l.isLt
  have hq : l.val / 128 < 16 := by omega
  have ht : l.val % 128 < 128 := Nat.mod_lt _ (by norm_num)
  have hidx : (⟨128 * (l.val / 128) + l.val % 128, by omega⟩ : Fin 2048) = l := Fin.ext (Nat.div_add_mod l.val 128)
  exact (congrArg (fun i => k0_pay15 (k0_pay9 v38) (k0_pay10 v38) (k0_pay11 v38) (ix2 i j)) hidx).symm.trans
    (lm_eq v38 p hp ⟨l.val / 128, hq⟩ ⟨l.val % 128, ht⟩ j)

end Rows

end Cert.Ker

end
-- ==== Proof.Ker.Carry.lean ====
import proofs.«123660_g14800457302192_cont_week2b_463_30_alg».proof.Proof.Gen.KernelIdeal.Frame
import proofs.«123660_g14800457302192_cont_week2b_463_30_alg».proof.Proof.Coe
import proofs.«123660_g14800457302192_cont_week2b_463_30_alg».proof.Proof.Real.Scan
import proofs.«123660_g14800457302192_cont_week2b_463_30_alg».proof.Proof.Real.Chunk
import proofs.«123660_g14800457302192_cont_week2b_463_30_alg».proof.Proof.Ker.Router
import proofs.«123660_g14800457302192_cont_week2b_463_30_alg».proof.Proof.Ker.LogScan
import proofs.«123660_g14800457302192_cont_week2b_463_30_alg».proof.Proof.Ker.Local
import proofs.«123660_g14800457302192_cont_week2b_463_30_alg».proof.Proof.Ker.Carry2
import proofs.«123660_g14800457302192_cont_week2b_463_30_alg».proof.Proof.Ker.CarryIdx

noncomputable section

namespace Cert.Ker

open Idealize.ShloMosaic Idealize.ShloMosaic.ValueIdx Cert.KernelIdeal Cert.KernelIdeal.Gen Cert.Num Cert.Spec

theorem zero_offsets3 : (![0, 0, 0] : Fin 3 → Nat) = fun _ => 0 := funext fun a => by fin_cases a <;> rfl

theorem zero_offsets2 : (![0, 0] : Fin 2 → Nat) = fun _ => 0 := funext fun a => by fin_cases a <;> rfl

theorem loc_row (a c : ℕ → ℝ) (x : ℕ → ℕ → ℝ) (k t d : ℕ) (ht : t < 128) :
    (∑ j ∈ Finset.range 128,
        tw a (128 * ((128 * k + t) / 128)) ((128 * k + t) % 128) j * (c (128 * k + j) * x (128 * k + j) d))
      = locAt a c x (128 * k + t) d := by
  have e1 : (128 * k + t) / 128 = k := by omega
  have e2 : (128 * k + t) % 128 = t := by omega
  unfold locAt locOf
  rw [e1, e2]

-- The carried aggregate of a chunk is the last row of its local scan.
theorem last_row (P : FVec Ideal S128x512 .f32) (R : FVec Ideal S1x512 .f32)
    (hR : R = extractStridedSlice S1x512 ![127, 0] P slices_S128x512_o127_0_S1x512) (d : Fin 512) :
    R (ix2 (0 : Fin 1) d) = P (ix2 (⟨127, by norm_num⟩ : Fin 128) d) :=
  hR ▸ slice2_axis0_apply 127 P slices_S128x512_o127_0_S1x512 (0 : Fin 1) d (⟨127, by norm_num⟩ : Fin 128) (by simp)

theorem out_eq {x0 : Vec Ideal S1x2048x512 .f32} {x1 x2 : Vec Ideal S512x512 .f32}
    (h0 : AllReal x0) (h1 : AllReal x1) (h2 : AllReal x2) (l : Fin 2048) (d : Fin 512) :
    out0_3 x0 x1 x2 (ix3 (0 : Fin 1) l d)
      = ((Cert.Spec.out (reB x0) (re2 x1) (re2 x2) l d : ℝ) : EReal) := by

  have e0 : View.ld x0 r0_0 = x0 := View.ld_unit_zero zero_offsets3 _ x0
  have e1 : View.ld x1 r0_1 = x1 := View.ld_unit_zero zero_offsets2 _ x1
  have e2 : View.ld x2 r0_1 = x2 := View.ld_unit_zero zero_offsets2 _ x2
  unfold out0_3
  rw [View.canon_unit_zero zero_offsets3, e0, e1, e2]
  unfold k0_pay1
  refine (shapeCast_ab_1ab_apply _ _ (0 : Fin 1) l d).trans ?_

  have hp := pay3_eq h0 h1 h2
  have hX := pay2_eq h0
  have hc := pay5_eq (k0_pay3 x0 x1 x2) (prob (reB x0) (re2 x1) (re2 x2)) hp
  have hPre := pre_row (k0_pay3 x0 x1 x2) (prob (reB x0) (re2 x1) (re2 x2)) hp
  let L : ℕ → ℕ → ℝ := fun l j => tw (keepOf (prob (reB x0) (re2 x1) (re2 x2))) (128 * (l / 128)) (l % 128) j
  have hL : ∀ (l : Fin 2048) (j : Fin 128), k0_pay15 (k0_pay9 (k0_pay3 x0 x1 x2)) (k0_pay10 (k0_pay3 x0 x1 x2)) (k0_pay11 (k0_pay3 x0 x1 x2)) (ix2 l j) = ((L l j : ℝ) : EReal) :=
    lm_row (k0_pay3 x0 x1 x2) (prob (reB x0) (re2 x1) (re2 x2)) hp

  have hcg := fun (P : FVec Ideal S128x512 .f32) (g : ℕ) (hg : 128 * g + 128 ≤ 2048) h1 h2 hP (t : Fin 128) (d : Fin 512) =>
    (chunk_eq (k0_pay2 x0) (k0_pay5 (k0_pay3 x0 x1 x2)) (k0_pay9 (k0_pay3 x0 x1 x2)) (k0_pay10 (k0_pay3 x0 x1 x2)) (k0_pay11 (k0_pay3 x0 x1 x2)) (reB x0) (gainOf (prob (reB x0) (re2 x1) (re2 x2))) L hX hc hL P g hg h1 h2 hP t d).trans
      (congrArg (fun r : ℝ => (r : EReal)) (loc_row (keepOf (prob (reB x0) (re2 x1) (re2 x2))) (gainOf (prob (reB x0) (re2 x1) (re2 x2))) (reB x0) g t d t.isLt))
  refine (carry_re _ _ _ _ _ _ _ _ _ _ _ _ _ _ _ _ _ _ _ _ _ _ _ (reB x0)
    (locAt (keepOf (prob (reB x0) (re2 x1) (re2 x2))) (gainOf (prob (reB x0) (re2 x1) (re2 x2))) (reB x0)) (preAt (keepOf (prob (reB x0) (re2 x1) (re2 x2))))
    hX hPre ?_ ?_ ?_ ?_ ?_ ?_ ?_ ?_ ?_ ?_ ?_ ?_ ?_ ?_ ?_ ?_ ?_ ?_ ?_ ?_ ?_ l d).trans ?_
  iterate 16 exact fun t d => hcg _ _ (by norm_num) (by decide) (by decide) (by rfl) t d
  iterate 5 exact fun d => (last_row _ _ (by rfl) d).trans (hcg _ _ (by norm_num) (by decide) (by decide) (by rfl) _ d)
  exact congrArg (fun r : ℝ => (r : EReal)) (carry_math (keepOf (prob (reB x0) (re2 x1) (re2 x2))) (gainOf (prob (reB x0) (re2 x1) (re2 x2))) (reB x0) l d l.isLt)

end Cert.Ker

end
-- ==== Proof.Ker.Array.lean ====
import proofs.«123660_g14800457302192_cont_week2b_463_30_alg».proof.Proof.Gen.KernelIdeal.Value
import proofs.«123660_g14800457302192_cont_week2b_463_30_alg».proof.Proof.Spec
import proofs.«123660_g14800457302192_cont_week2b_463_30_alg».proof.Proof.Coe
import Idealize.ShloMosaic.Lib.Pipeline.Value
import Idealize.ShloMosaic.Lib.ValueIdx

noncomputable section

namespace Cert.Ker

open Cert.KernelIdeal Cert.KernelIdeal.Gen Idealize.ShloMosaic Idealize.ShloMosaic.TcCoe Idealize.SL.Sem
open Idealize.ShloMosaic.Pipeline (Dat)
open Idealize.ShloMosaic.ValueIdx
open Cert.Num

variable (m : (ℓ : Loc nD τ sig) → Buf (Elt Ideal) ℓ) (ρ : Dev nD → PrngReg)

theorem blockIndex : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

def rowOf (t : Fin cfg0.N) : Fin 4 := ⟨t.val, lt_of_lt_of_eq t.isLt N_0⟩

theorem seqBlock_apply (c : Dev nD) (t : Fin cfg0.N) (x : S1x2048x512.Idx) (k : S4x2048x512.Idx)
    (hk0 : (k 0).val = t.val) (hk1 : (k 1).val = (x 1).val) (hk2 : (k 2).val = (x 2).val) :
    (iblk m c 0 t : Vec Ideal S1x2048x512 .f32) x = (m ((c : Thread nD τ).loc main_arg0) : S4x2048x512.Idx → EReal) k := by
  obtain ⟨e0, e1, e2, -⟩ := blockIndex t
  have hx0 : (x 0).val < 1 := (x 0).isLt
  unfold iblk
  rw [View.read_apply]
  show V m c main_arg0 _ = m (c.tc.loc main_arg0) _
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 2048 + 1 * (x 1).val = (k 1).val; rw [e1, hk1]; omega
  | ⟨2, _⟩ => show win0_0.index t (2 : Fin 3) * 512 + 1 * (x 2).val = (k 2).val; rw [e2, hk2]; omega

theorem wqBlock_eq (c : Dev nD) (t : Fin cfg0.N) :
    (iblk m c 1 t : Vec Ideal S512x512 .f32) = (m ((c : Thread nD τ).loc main_arg1) : S512x512.Idx → EReal) := by
  obtain ⟨-, -, -, e0, e1, -⟩ := blockIndex t
  funext x
  unfold iblk
  rw [View.read_apply]
  show V m c main_arg1 _ = m (c.tc.loc main_arg1) _
  congr 1
  funext a
  apply Fin.ext
  match a with
  | ⟨0, _⟩ => show win0_1.index t (0 : Fin 2) * 512 + 1 * (x 0).val = (x 0).val; rw [e0]; omega
  | ⟨1, _⟩ => show win0_1.index t (1 : Fin 2) * 512 + 1 * (x 1).val = (x 1).val; rw [e1]; omega

theorem wkBlock_eq (c : Dev nD) (t : Fin cfg0.N) :
    (iblk m c 2 t : Vec Ideal S512x512 .f32) = (m ((c : Thread nD τ).loc main_arg2) : S512x512.Idx → EReal) := by
  obtain ⟨-, -, -, -, -, e0, e1, -⟩ := blockIndex t
  funext x
  unfold iblk
  rw [View.read_apply]
  show V m c main_arg2 _ = m (c.tc.loc main_arg2) _
  congr 1
  funext a
  apply Fin.ext
  match a with
  | ⟨0, _⟩ => show win0_2.index t (0 : Fin 2) * 512 + 1 * (x 0).val = (x 0).val; rw [e0]; omega
  | ⟨1, _⟩ => show win0_2.index t (1 : Fin 2) * 512 + 1 * (x 1).val = (x 1).val; rw [e1]; omega

theorem reB_seqBlock (c : Dev nD) (t : Fin cfg0.N) :
    reB (iblk m c 0 t : Vec Ideal S1x2048x512 .f32)
      = re3 (m ((c : Thread nD τ).loc main_arg0) : S4x2048x512.Idx → EReal) (rowOf t) := by
  funext l d
  unfold reB re3
  by_cases h : l < 2048 ∧ d < 512
  · rw [dif_pos h, dif_pos ⟨(rowOf t).isLt, h.1, h.2⟩]
    exact congrArg EReal.toReal (seqBlock_apply m c t _ _ rfl rfl rfl)
  · rw [dif_neg h, dif_neg fun h' => h ⟨h'.2.1, h'.2.2⟩]

theorem allReal_seqBlock (c : Dev nD) (t : Fin cfg0.N)
    (h : AllReal (S := S4x2048x512) (m ((c : Thread nD τ).loc main_arg0) : S4x2048x512.Idx → EReal)) :
    AllReal (S := S1x2048x512) (iblk m c 0 t : Vec Ideal S1x2048x512 .f32) := by
  intro x
  obtain ⟨r, hr⟩ := h (ix3 (rowOf t) (x 1) (x 2))
  exact ⟨r, (seqBlock_apply m c t x _ rfl rfl rfl).trans hr⟩

theorem outBlock_apply
    (hout : ∀ (x0 : Vec Ideal S1x2048x512 .f32) (x1 x2 : Vec Ideal S512x512 .f32),
      AllReal (S := S1x2048x512) x0 → AllReal (S := S512x512) x1 → AllReal (S := S512x512) x2 →
      ∀ (l : Fin 2048) (d : Fin 512),
        out0_3 x0 x1 x2 (ix3 (0 : Fin 1) l d) = ((Cert.Spec.out (reB x0) (re2 x1) (re2 x2) l d : ℝ) : EReal))
    (x0 : Vec Ideal S1x2048x512 .f32) (x1 x2 : Vec Ideal S512x512 .f32)
    (a0 : S4x2048x512.Idx → EReal) (a1 a2 : S512x512.Idx → EReal) (b : Fin 4)
    (h0 : AllReal (S := S1x2048x512) x0) (h1 : AllReal (S := S512x512) a1) (h2 : AllReal (S := S512x512) a2)
    (e0 : reB x0 = re3 a0 b) (e1 : x1 = a1) (e2 : x2 = a2)
    (j : S1x2048x512.Idx) (i : S4x2048x512.Idx)
    (hi0 : (i 0).val = b.val) (hi1 : (i 1).val = (j 1).val) (hi2 : (i 2).val = (j 2).val) :
    out0_3 x0 x1 x2 j = result a0 a1 a2 i := by
  subst e1 e2
  obtain ⟨z, l, d, rfl⟩ : ∃ (z : Fin 1) (l : Fin 2048) (d : Fin 512), j = ix3 z l d := ⟨j 0, j 1, j 2, eq_ix3 j⟩
  obtain rfl : z = 0 := Subsingleton.elim _ _
  have hi1' : (i 1).val = l.val := hi1
  have hi2' : (i 2).val = d.val := hi2
  rw [hout x0 x1 x2 h0 h1 h2 l d, e0]
  unfold result
  show ((Cert.Spec.out (re3 a0 b.val) (re2 x1) (re2 x2) l.val d.val : ℝ) : EReal)
    = ((Cert.Spec.out (re3 a0 (i 0).val) (re2 x1) (re2 x2) (i 1).val (i 2).val : ℝ) : EReal)
  rw [hi0, hi1', hi2']

theorem flushed_eq
    (hout : ∀ (x0 : Vec Ideal S1x2048x512 .f32) (x1 x2 : Vec Ideal S512x512 .f32),
      AllReal (S := S1x2048x512) x0 → AllReal (S := S512x512) x1 → AllReal (S := S512x512) x2 →
      ∀ (l : Fin 2048) (d : Fin 512),
        out0_3 x0 x1 x2 (ix3 (0 : Fin 1) l d) = ((Cert.Spec.out (reB x0) (re2 x1) (re2 x2) l d : ℝ) : EReal))
    (c : Dev nD)
    (hreal : AllReal (S := S4x2048x512) (m ((c : Thread nD τ).loc main_arg0) : S4x2048x512.Idx → EReal)
      ∧ AllReal (S := S512x512) (m ((c : Thread nD τ).loc main_arg1) : S512x512.Idx → EReal)
      ∧ AllReal (S := S512x512) (m ((c : Thread nD τ).loc main_arg2) : S512x512.Idx → EReal))
    (t : Fin cfg0.N) :
    (dats m 0 c).flushed 3 t = ((cfg0.win 3).blk t).view.read (Elt Ideal)
      (result (m ((c : Thread nD τ).loc main_arg0)) (m ((c : Thread nD τ).loc main_arg1)) (m ((c : Thread nD τ).loc main_arg2))) := by
  rw [Value.flushed3]
  obtain ⟨-, -, -, -, -, -, -, e0, e1, e2⟩ := blockIndex t
  funext j
  have hj0 : (j 0).val < 1 := (j 0).isLt
  show out0_3 (iblk m c 0 t) (iblk m c 1 t) (iblk m c 2 t) j
    = result (m ((c : Thread nD τ).loc main_arg0)) (m ((c : Thread nD τ).loc main_arg1)) (m ((c : Thread nD τ).loc main_arg2))
        (((cfg0.win 3).blk t).view.emb j)
  refine outBlock_apply hout _ _ _ _ _ _ (rowOf t) (allReal_seqBlock m c t hreal.1) hreal.2.1 hreal.2.2
    (reB_seqBlock m c t) (wqBlock_eq m c t) (wkBlock_eq m c t) j _ ?_ ?_ ?_
  · show win0_3.index t (0 : Fin 3) * 1 + 1 * (j 0).val = t.val; rw [e0]; omega
  · show win0_3.index t (1 : Fin 3) * 2048 + 1 * (j 1).val = (j 1).val; rw [e1]; omega
  · show win0_3.index t (2 : Fin 3) * 512 + 1 * (j 2).val = (j 2).val; rw [e2]; omega

theorem mem_blk (t : Fin cfg0.N) (i : S4x2048x512.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v0).slice (win0_3.rect t)).set ↔ _
  rw [View.set_slice_whole, Rect.mem_set_unit]
  exact Iff.rfl

theorem cover (i : S4x2048x512.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 512 := (i 2).isLt
  refine ⟨⟨(i 0).val, lt_of_lt_of_eq hi0 N_0.symm⟩, flush0_3 _, ?_⟩
  obtain ⟨-, -, -, -, -, -, -, e0, e1, e2⟩ := blockIndex ⟨(i 0).val, lt_of_lt_of_eq hi0 N_0.symm⟩
  rw [mem_blk]
  intro a
  match a with
  | ⟨0, _⟩ =>
    show win0_3.index _ (0 : Fin 3) * 1 ≤ (i 0).val ∧ (i 0).val < win0_3.index _ (0 : Fin 3) * 1 + 1
    rw [e0]; show (i 0).val * 1 ≤ (i 0).val ∧ (i 0).val < (i 0).val * 1 + 1; omega
  | ⟨1, _⟩ =>
    show win0_3.index _ (1 : Fin 3) * 2048 ≤ (i 1).val ∧ (i 1).val < win0_3.index _ (1 : Fin 3) * 2048 + 2048
    rw [e1]; omega
  | ⟨2, _⟩ =>
    show win0_3.index _ (2 : Fin 3) * 512 ≤ (i 2).val ∧ (i 2).val < win0_3.index _ (2 : Fin 3) * 512 + 512
    rw [e2]; omega

theorem final
    (hout : ∀ (x0 : Vec Ideal S1x2048x512 .f32) (x1 x2 : Vec Ideal S512x512 .f32),
      AllReal (S := S1x2048x512) x0 → AllReal (S := S512x512) x1 → AllReal (S := S512x512) x2 →
      ∀ (l : Fin 2048) (d : Fin 512),
        out0_3 x0 x1 x2 (ix3 (0 : Fin 1) l d) = ((Cert.Spec.out (reB x0) (re2 x1) (re2 x2) l d : ℝ) : EReal))
    (c : Dev nD)
    (hreal : AllReal (S := S4x2048x512) (m ((c : Thread nD τ).loc main_arg0) : S4x2048x512.Idx → EReal)
      ∧ AllReal (S := S512x512) (m ((c : Thread nD τ).loc main_arg1) : S512x512.Idx → EReal)
      ∧ AllReal (S := S512x512) (m ((c : Thread nD τ).loc main_arg2) : S512x512.Idx → EReal)) :
    (dats m 0 c).arrAt 3 cfg0.N
      = result (m ((c : Thread nD τ).loc main_arg0)) (m ((c : Thread nD τ).loc main_arg1)) (m ((c : Thread nD τ).loc main_arg2)) :=
  (dats m 0 c).arrAt_eq_of_cover 3 _ (fun t _ => flushed_eq m hout c hreal t) cover

theorem run
    (hreal : ∀ c : Dev nD, AllReal (S := S4x2048x512) (m ((c : Thread nD τ).loc main_arg0) : S4x2048x512.Idx → EReal)
      ∧ AllReal (S := S512x512) (m ((c : Thread nD τ).loc main_arg1) : S512x512.Idx → EReal)
      ∧ AllReal (S := S512x512) (m ((c : Thread nD τ).loc main_arg2) : S512x512.Idx → EReal))
    (hout : ∀ (x0 : Vec Ideal S1x2048x512 .f32) (x1 x2 : Vec Ideal S512x512 .f32),
      AllReal (S := S1x2048x512) x0 → AllReal (S := S512x512) x1 → AllReal (S := S512x512) x2 →
      ∀ (l : Fin 2048) (d : Fin 512),
        out0_3 x0 x1 x2 (ix3 (0 : Fin 1) l d) = ((Cert.Spec.out (reB x0) (re2 x1) (re2 x2) l d : ℝ) : EReal)) :
    θ_run defs (onTc (τ := τ) (main (F := Ideal))) ⟨m, fun _ => 0, ρ⟩ fun r => ∀ c : Dev nD,
      r.2.mem ((c.tc : Thread nD τ).loc main_v0)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m hout c (hreal c)), (h c).2⟩)
    (Value.run_blocks m ρ)

end Cert.Ker

end
-- ==== Proof.Ref.RunLib.lean ====
import Idealize.ShloMosaic.Lib.StableHlo.Run
import Mathlib.Data.List.Forall2

namespace Cert.Ref

open Idealize.ShloMosaic Idealize.ShloMosaic.StableHlo Idealize.ShloMosaic.TcCoe Idealize.SL.Sem

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

def WritesList (ops : List (HloOp τ sig Val)) (Ws : List (Ref sig .tc)) : Prop :=
  List.Forall₂ (fun op y => op.writes = {Proc.devRef (τ := τ) .tc y}) ops Ws

theorem WritesList.nil : WritesList ([] : List (HloOp τ sig Val)) [] := List.Forall₂.nil

theorem WritesList.cons {op : HloOp τ sig Val} {y : Ref sig .tc} {ops : List (HloOp τ sig Val)} {Ws : List (Ref sig .tc)}
    (h : op.writes = {Proc.devRef (τ := τ) .tc y}) (t : WritesList ops Ws) : WritesList (op :: ops) (y :: Ws) :=
  List.Forall₂.cons h t

theorem WritesList.append {l₁ l₂ : List (HloOp τ sig Val)} {W₁ W₂ : List (Ref sig .tc)}
    (h₁ : WritesList l₁ W₁) (h₂ : WritesList l₂ W₂) : WritesList (l₁ ++ l₂) (W₁ ++ W₂) := by
  induction h₁ with
  | nil => exact h₂
  | cons h _ ih => exact List.Forall₂.cons h ih

theorem WritesList.drop {ops : List (HloOp τ sig Val)} {Ws : List (Ref sig .tc)} (h : WritesList ops Ws) (n : ℕ) :
    WritesList (ops.drop n) (Ws.drop n) :=
  List.forall₂_drop n h

-- An array the line never writes keeps its contents.
theorem frame {ops : List (HloOp τ sig Val)} {Ws : List (Ref sig .tc)} (h : WritesList ops Ws) {r : Ref sig .tc}
    (hr : r ∉ Ws) (V : Valuation τ sig Val) : after ops V (Proc.devRef .tc r) = V (Proc.devRef .tc r) := by
  induction h generalizing V with
  | nil => rfl
  | @cons op y ops' Ws' hy _ ih =>
    rw [after_cons, ih (fun hm => hr (List.mem_cons_of_mem _ hm)), op.result_of_not_mem]
    rw [hy, Finset.mem_singleton]
    exact fun e => hr (Proc.devRef_injective _ e ▸ List.mem_cons_self)

-- The array written at place k and never again ends at that operation's result on the contents just before it.
theorem after_at {ops : List (HloOp τ sig Val)} {Ws : List (Ref sig .tc)} (h : WritesList ops Ws) (k : ℕ)
    {op : HloOp τ sig Val} (hk : ops[k]? = some op) {r : Ref sig .tc} (hr : r ∉ Ws.drop (k + 1))
    (V : Valuation τ sig Val) :
    after ops V (Proc.devRef .tc r) = op.result (after (ops.take k) V) (Proc.devRef .tc r) := by
  obtain ⟨hlt, rfl⟩ := List.getElem?_eq_some_iff.mp hk
  have e : ops = ops.take k ++ ops[k] :: ops.drop (k + 1) := by
    rw [← List.drop_eq_getElem_cons hlt, List.take_append_drop]
  calc after ops V (Proc.devRef .tc r)
      = after (ops.take k ++ ops[k] :: ops.drop (k + 1)) V (Proc.devRef .tc r) := by rw [← e]
    _ = _ := by rw [after_append, after_cons, frame (h.drop (k + 1)) hr]

theorem after_take {ops : List (HloOp τ sig Val)} {Ws : List (Ref sig .tc)} (h : WritesList ops Ws) (k : ℕ)
    {r : Ref sig .tc} (hr : r ∉ Ws.drop k) (V : Valuation τ sig Val) :
    after (ops.take k) V (Proc.devRef .tc r) = after ops V (Proc.devRef .tc r) := by
  calc after (ops.take k) V (Proc.devRef .tc r)
      = after (ops.drop k) (after (ops.take k) V) (Proc.devRef .tc r) := (frame (h.drop k) hr _).symm
    _ = after (ops.take k ++ ops.drop k) V (Proc.devRef .tc r) := by rw [after_append]
    _ = _ := by rw [List.take_append_drop]

section Builders

variable {ops : List (HloOp τ sig Val)} {Ws : List (Ref sig .tc)} {V : Valuation τ sig Val}
variable {x a b c y : Ref sig .tc}

-- The same with every operand read at its final contents: no operand is written from place k on.
theorem at_nullary (h : WritesList ops Ws) (k : ℕ) {v : y.ty.Contents Val} {hy} (hk : ops[k]? = some (nullary (τ := τ) y v hy))
    (hy' : y ∉ Ws.drop (k + 1) := by decide) : after ops V (Proc.devRef .tc y) = v := by
  rw [after_at h k hk hy' V, nullary_result]

theorem at_unary (h : WritesList ops Ws) (k : ℕ) {f : x.ty.Contents Val → y.ty.Contents Val} {hx hy}
    (hk : ops[k]? = some (unary (τ := τ) x y f hx hy)) {vx : x.ty.Contents Val} (ex : after ops V (Proc.devRef .tc x) = vx)
    (hy' : y ∉ Ws.drop (k + 1) := by decide) (hx' : x ∉ Ws.drop k := by decide) :
    after ops V (Proc.devRef .tc y) = f vx := by
  rw [after_at h k hk hy' V, unary_result, after_take h k hx' V, ex]

theorem at_binary (h : WritesList ops Ws) (k : ℕ) {f : a.ty.Contents Val → b.ty.Contents Val → y.ty.Contents Val} {ha hb hy}
    (hk : ops[k]? = some (binary (τ := τ) a b y f ha hb hy)) {va : a.ty.Contents Val} {vb : b.ty.Contents Val}
    (ea : after ops V (Proc.devRef .tc a) = va) (eb : after ops V (Proc.devRef .tc b) = vb)
    (hy' : y ∉ Ws.drop (k + 1) := by decide) (ha' : a ∉ Ws.drop k := by decide) (hb' : b ∉ Ws.drop k := by decide) :
    after ops V (Proc.devRef .tc y) = f va vb := by
  rw [after_at h k hk hy' V, binary_result, after_take h k ha' V, after_take h k hb' V, ea, eb]

theorem at_ternary (h : WritesList ops Ws) (k : ℕ)
    {f : c.ty.Contents Val → a.ty.Contents Val → b.ty.Contents Val → y.ty.Contents Val} {hc ha hb hy}
    (hk : ops[k]? = some (ternary (τ := τ) c a b y f hc ha hb hy))
    {vc : c.ty.Contents Val} {va : a.ty.Contents Val} {vb : b.ty.Contents Val}
    (ec : after ops V (Proc.devRef .tc c) = vc) (ea : after ops V (Proc.devRef .tc a) = va)
    (eb : after ops V (Proc.devRef .tc b) = vb)
    (hy' : y ∉ Ws.drop (k + 1) := by decide) (hc' : c ∉ Ws.drop k := by decide) (ha' : a ∉ Ws.drop k := by decide)
    (hb' : b ∉ Ws.drop k := by decide) : after ops V (Proc.devRef .tc y) = f vc va vb := by
  rw [after_at h k hk hy' V, ternary_result, after_take h k hc' V, after_take h k ha' V, after_take h k hb' V, ec, ea, eb]

theorem at_reshape (h : WritesList ops Ws) (k : ℕ) {he : x.ty.elt = y.ty.elt} {hn : x.ty.shape.ShapeCasts y.ty.shape} {hx hy}
    (hk : ops[k]? = some (reshape (τ := τ) (Val := Val) x y he hn hx hy)) {vx : x.ty.Contents Val}
    (ex : after ops V (Proc.devRef .tc x) = vx) (hy' : y ∉ Ws.drop (k + 1) := by decide) (hx' : x ∉ Ws.drop k := by decide) :
    after ops V (Proc.devRef .tc y) = fun i => he ▸ shapeCast y.ty.shape vx hn i := by
  rw [after_at h k hk hy' V, reshape_result, after_take h k hx' V, ex]

end Builders

end Cert.Ref
-- ==== Proof.Ref.Ops.lean ====
import proofs.«123660_g14800457302192_cont_week2b_463_30_alg».proof.ReferenceIdeal
import proofs.«123660_g14800457302192_cont_week2b_463_30_alg».proof.Proof.Gen.ReferenceIdeal
import proofs.«123660_g14800457302192_cont_week2b_463_30_alg».proof.Proof.Ref.RunLib
import Idealize.ShloMosaic.PureOps.Ideal

noncomputable section

namespace Cert.Ref

open Cert.ReferenceIdeal Cert.ReferenceIdeal.Facts₀ Idealize.ShloMosaic Idealize.ShloMosaic.TcCoe Idealize.SL.Sem Idealize.ShloMosaic.StableHlo

variable {F : FTy → Type} [FloatOps F]

-- The reference program as one straight line of operations (the outlined functions written out at their calls), window by window, and the array each operation writes.
abbrev ops0 : List (HloOp τ sig (Elt F)) :=
  [ unary main_arg0 main_v0 ((extractStridedSlice S4x2047x512 ![0, 0, 0] · slices_S4x2048x512_S4x2047x512_0_0_0) : Vec F S4x2048x512 .f32 → Vec F S4x2047x512 .f32),
    binary main_v0 main_arg1 main_v1 ((fun l r => Host.dotGeneral dot_S4x2047x512_S512x512_S4x2047x512_2_1_01_0_n_n none l r) : Vec F S4x2047x512 .f32 → Vec F S512x512 .f32 → Vec F S4x2047x512 .f32),
    binary main_v1 main_v1 main_v2 (mulf : Vec F S4x2047x512 .f32 → Vec F S4x2047x512 .f32 → Vec F S4x2047x512 .f32),
    nullary main_cst (constant S_ .f32 0x00000000#32),
    binary main_v2 main_cst main_v3 ((fun x v => Host.reduceAdd x v reducesTo_S4x2047x512_S4x2047_d2 h_S_) : Vec F S4x2047x512 .f32 → Vec F S_ .f32 → Vec F S4x2047 .f32),
    unary main_v3 main_v4 (broadcastInDim S4x2047x1 ![0, 1] bcast_S4x2047_S4x2047x1_0_1 : Vec F S4x2047 .f32 → Vec F S4x2047x1 .f32),
    unary main_v4 main_v5 (Host.sqrt : Vec F S4x2047x1 .f32 → Vec F S4x2047x1 .f32),
    nullary main_cst_0 (constant S_ .f32 0x2B8CBCCC#32),
    unary main_cst_0 main_v6 (broadcastInDim S4x2047x1 ![] bcast_S_S4x2047x1 : Vec F S_ .f32 → Vec F S4x2047x1 .f32),
    binary main_v5 main_v6 main_v7 (maximumf : Vec F S4x2047x1 .f32 → Vec F S4x2047x1 .f32 → Vec F S4x2047x1 .f32),
    unary main_v7 main_v8 (broadcastInDim S4x2047x512 ![0, 1, 2] bcast_S4x2047x1_S4x2047x512_0_1_2 : Vec F S4x2047x1 .f32 → Vec F S4x2047x512 .f32),
    binary main_v1 main_v8 main_v9 (Host.divf : Vec F S4x2047x512 .f32 → Vec F S4x2047x512 .f32 → Vec F S4x2047x512 .f32),
    unary main_arg0 main_v10 ((extractStridedSlice S4x2047x512 ![0, 1, 0] · slices_S4x2048x512_S4x2047x512_0_1_0) : Vec F S4x2048x512 .f32 → Vec F S4x2047x512 .f32),
    binary main_v10 main_arg2 main_v11 ((fun l r => Host.dotGeneral dot_S4x2047x512_S512x512_S4x2047x512_2_1_01_0_n_n none l r) : Vec F S4x2047x512 .f32 → Vec F S512x512 .f32 → Vec F S4x2047x512 .f32),
    binary main_v11 main_v11 main_v12 (mulf : Vec F S4x2047x512 .f32 → Vec F S4x2047x512 .f32 → Vec F S4x2047x512 .f32),
    nullary main_cst_1 (constant S_ .f32 0x00000000#32),
    binary main_v12 main_cst_1 main_v13 ((fun x v => Host.reduceAdd x v reducesTo_S4x2047x512_S4x2047_d2 h_S_) : Vec F S4x2047x512 .f32 → Vec F S_ .f32 → Vec F S4x2047 .f32),
    unary main_v13 main_v14 (broadcastInDim S4x2047x1 ![0, 1] bcast_S4x2047_S4x2047x1_0_1 : Vec F S4x2047 .f32 → Vec F S4x2047x1 .f32),
    unary main_v14 main_v15 (Host.sqrt : Vec F S4x2047x1 .f32 → Vec F S4x2047x1 .f32),
    nullary main_cst_2 (constant S_ .f32 0x2B8CBCCC#32),
    unary main_cst_2 main_v16 (broadcastInDim S4x2047x1 ![] bcast_S_S4x2047x1 : Vec F S_ .f32 → Vec F S4x2047x1 .f32),
    binary main_v15 main_v16 main_v17 (maximumf : Vec F S4x2047x1 .f32 → Vec F S4x2047x1 .f32 → Vec F S4x2047x1 .f32),
    unary main_v17 main_v18 (broadcastInDim S4x2047x512 ![0, 1, 2] bcast_S4x2047x1_S4x2047x512_0_1_2 : Vec F S4x2047x1 .f32 → Vec F S4x2047x512 .f32),
    binary main_v11 main_v18 main_v19 (Host.divf : Vec F S4x2047x512 .f32 → Vec F S4x2047x512 .f32 → Vec F S4x2047x512 .f32),
    binary main_v9 main_v19 main_v20 (mulf : Vec F S4x2047x512 .f32 → Vec F S4x2047x512 .f32 → Vec F S4x2047x512 .f32),
    nullary main_cst_3 (constant S_ .f32 0x00000000#32),
    binary main_v20 main_cst_3 main_v21 ((fun x v => Host.reduceAdd x v reducesTo_S4x2047x512_S4x2047_d2 h_S_) : Vec F S4x2047x512 .f32 → Vec F S_ .f32 → Vec F S4x2047 .f32),
    nullary main_cst_4 (constant S_ .f32 0x3F800000#32),
    unary main_cst_4 main_v22 (broadcastInDim S4x1 ![] bcast_S_S4x1 : Vec F S_ .f32 → Vec F S4x1 .f32),
    nullary main_cst_5 (constant S_ .f32 0x3F800000#32),
    unary main_cst_5 main_v23 (broadcastInDim S4x2047 ![] bcast_S_S4x2047 : Vec F S_ .f32 → Vec F S4x2047 .f32),
    binary main_v23 main_v21 main_v24 (subf : Vec F S4x2047 .f32 → Vec F S4x2047 .f32 → Vec F S4x2047 .f32),
    nullary main_cst_6 (constant S_ .f32 0x40000000#32),
    unary main_cst_6 main_v25 (broadcastInDim S4x2047 ![] bcast_S_S4x2047 : Vec F S_ .f32 → Vec F S4x2047 .f32),
    binary main_v24 main_v25 main_v26 (Host.divf : Vec F S4x2047 .f32 → Vec F S4x2047 .f32 → Vec F S4x2047 .f32),
    nullary main_cst_7 (constant S_ .f32 0x00000000#32),
    nullary main_cst_8 (constant S_ .f32 0x3F800000#32),
    TRef.unary (.of main_cst_7) main_call0.v0 id,
    TRef.unary main_call0.v0 main_call0.v1 (broadcastInDim S4x2047 ![] bcast_S_S4x2047),
    TRef.binary main_call0.v1 (.of main_v26) main_call0.v2 maximumf,
    TRef.unary (.of main_cst_8) main_call0.v3 id,
    TRef.unary main_call0.v3 main_call0.v4 (broadcastInDim S4x2047 ![] bcast_S_S4x2047),
    TRef.binary main_call0.v4 main_call0.v2 main_call0.v5 minimumf,
    binary main_v22 main_v27 main_v28 ((fun a b => concatenate S4x2048 1 [⟨S4x1, a⟩, ⟨S4x2047, b⟩] concatenates_S4x1_S4x2047_S4x2048_d1) : Vec F S4x1 .f32 → Vec F S4x2047 .f32 → Vec F S4x2048 .f32),
    nullary main_c (constantI S_ 32 0#32),
    unary main_c main_v29 (broadcastInDim S1 ![] bcast_S_S1 : Vec F S_ .i32 → Vec F S1 .i32),
    nullary main_cst_9 (constant S_ .f32 0x3F800000#32),
    unary main_cst_9 main_v30 (broadcastInDim S4 ![] bcast_S_S4 : Vec F S_ .f32 → Vec F S4 .f32),
    ternary main_v28 main_v29 main_v30 main_v31 ((fun x i u => Host.scatter scatter_S4x2048_S1_S4_0_1_1_0 (fun _ b => b) x i u) : Vec F S4x2048 .f32 → Vec F S1 .i32 → Vec F S4 .f32 → Vec F S4x2048 .f32),
    nullary main_cst_10 (constant S_ .f32 0x3F000000#32),
    unary main_cst_10 main_v32 (broadcastInDim S4x2048 ![] bcast_S_S4x2048 : Vec F S_ .f32 → Vec F S4x2048 .f32),
    binary main_v31 main_v32 main_v33 (cmpf .ogt : Vec F S4x2048 .f32 → Vec F S4x2048 .f32 → Vec F S4x2048 .i1),
    unary main_v33 main_v34 (noti : Vec F S4x2048 .i1 → Vec F S4x2048 .i1),
    unary main_v34 main_v35 ((extui 32 · natLt_1_32) : Vec F S4x2048 .i1 → Vec F S4x2048 .i32),
    TRef.nullary main_call1.v0 (iotaInDim S4x2048 32 1),
    TRef.binary (.of main_v35) main_call1.v0 main_call1.v1_0 (fun x y => (Host.sort2 S4x2048 1 comparator_i32_i32_d1 x y).1),
    TRef.binary (.of main_v35) main_call1.v0 main_call1.v1_1 (fun x y => (Host.sort2 S4x2048 1 comparator_i32_i32_d1 x y).2),
    unary main_v33 main_v37 ((extui 32 · natLt_1_32) : Vec F S4x2048 .i1 → Vec F S4x2048 .i32),
    nullary main_c_11 (constantI S_ 32 0#32),
    binary main_v37 main_c_11 main_v38 ((fun x v => Host.reduce IntOp.addi x v reducesTo_S4x2048_S4_d1 h_S_) : Vec F S4x2048 .i32 → Vec F S_ .i32 → Vec F S4 .i32),
    unary main_v36 main_v39 (broadcastInDim S4x2048x1 ![0, 1] bcast_S4x2048_S4x2048x1_0_1 : Vec F S4x2048 .i32 → Vec F S4x2048x1 .i32),
    TRef.nullary main_call2.c (constantI S_ 32 0#32),
    TRef.unary main_call2.c main_call2.v0 (broadcastInDim S4x2048x1 ![] bcast_S_S4x2048x1),
    TRef.binary (.of main_v39) main_call2.v0 main_call2.v1 (cmpi .slt),
    TRef.nullary main_call2.c_0 (constantI S_ 32 2048#32),
    TRef.unary main_call2.c_0 main_call2.v2 (broadcastInDim S4x2048x1 ![] bcast_S_S4x2048x1),
    TRef.binary (.of main_v39) main_call2.v2 main_call2.v3 addi,
    TRef.ternary main_call2.v1 main_call2.v3 (.of main_v39) main_call2.v4 select,
    TRef.nullary main_call2.c_1 (constantI S1 32 2047#32),
    TRef.nullary main_call2.c_2 (constantI S_ 32 0#32),
    TRef.unary main_call2.c_2 main_call2.v5 (broadcastInDim S4x2048x1 ![] bcast_S_S4x2048x1),
    TRef.binary main_call2.v4 main_call2.v5 main_call2.v6 (cmpi .sge),
    TRef.unary main_call2.c_1 main_call2.v7 (broadcastInDim S1x1x1 ![2] bcast_S1_S1x1x1_2),
    TRef.unary main_call2.v7 main_call2.v8 (broadcastInDim S4x2048x1 ![0, 1, 2] bcast_S1x1x1_S4x2048x1_0_1_2),
    TRef.binary main_call2.v4 main_call2.v8 main_call2.v9 (cmpi .sle),
    TRef.binary main_call2.v6 main_call2.v9 main_call2.v10 andi,
    TRef.nullary main_call2.c_3 (constantI S_ 1 1#1),
    TRef.binary main_call2.v10 main_call2.c_3 main_call2.v11 (fun x v => Host.reduce IntOp.andi x v reducesTo_S4x2048x1_S4x2048_d2 h_S_),
    TRef.binary (.of main_arg0) main_call2.v4 main_call2.v12 (fun x i => Host.gather gather_S4x2048x512_S4x2048x1_S4x2048x512_2_1_0_0_1_2_11512 x i),
    TRef.unary main_call2.v11 main_call2.v13 (broadcastInDim S4x2048x512 ![0, 1] bcast_S4x2048_S4x2048x512_0_1),
    TRef.nullary main_call2.cst (constant S_ .f32 0x7FC00000#32),
    TRef.unary main_call2.cst main_call2.v14 (broadcastInDim S4x2048x512 ![] bcast_S_S4x2048x512),
    TRef.ternary main_call2.v13 main_call2.v12 main_call2.v14 main_call2.v15 select,
    nullary main_v41 (iotaInDim S2048 32 0),
    unary main_v41 main_v42 (broadcastInDim S1x2048 ![1] bcast_S2048_S1x2048_1 : Vec F S2048 .i32 → Vec F S1x2048 .i32),
    unary main_v38 main_v43 (broadcastInDim S4x1 ![0] bcast_S4_S4x1_0 : Vec F S4 .i32 → Vec F S4x1 .i32),
    unary main_v42 main_v44 (broadcastInDim S4x2048 ![0, 1] bcast_S1x2048_S4x2048_0_1 : Vec F S1x2048 .i32 → Vec F S4x2048 .i32),
    unary main_v43 main_v45 (broadcastInDim S4x2048 ![0, 1] bcast_S4x1_S4x2048_0_1 : Vec F S4x1 .i32 → Vec F S4x2048 .i32) ]

abbrev Ws0 : List (Ref sig .tc) :=
  [main_v0, main_v1, main_v2, main_cst, main_v3, main_v4, main_v5, main_cst_0, main_v6, main_v7, main_v8, main_v9, main_v10, main_v11, main_v12, main_cst_1, main_v13, main_v14, main_v15, main_cst_2, main_v16, main_v17, main_v18, main_v19, main_v20, main_cst_3, main_v21, main_cst_4, main_v22, main_cst_5, main_v23, main_v24, main_cst_6, main_v25, main_v26, main_cst_7, main_cst_8, main_call0_v0, main_call0_v1, main_call0_v2, main_call0_v3, main_call0_v4, main_v27, main_v28, main_c, main_v29, main_cst_9, main_v30, main_v31, main_cst_10, main_v32, main_v33, main_v34, main_v35, main_call1_v0, main_call1_v1_0, main_v36, main_v37, main_c_11, main_v38, main_v39, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v40, main_v41, main_v42, main_v43, main_v44, main_v45]

set_option maxRecDepth 8192 in
theorem ops0_sub : (ops0 : List (HloOp τ sig (Elt F))).Forall fun op => op.bufs ⊆ tcRefs τ sig :=
  ⟨unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., nullary_bufs_sub .., unary_bufs_sub .., ternary_bufs_sub .., nullary_bufs_sub .., unary_bufs_sub .., binary_bufs_sub .., unary_bufs_sub .., unary_bufs_sub .., nullary_bufs_sub .., binary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., unary_bufs_sub .., unary_bufs_sub ..⟩

abbrev ops1 : List (HloOp τ sig (Elt F)) :=
  [ binary main_v44 main_v45 main_v46 (cmpi .slt : Vec F S4x2048 .i32 → Vec F S4x2048 .i32 → Vec F S4x2048 .i1),
    TRef.nullary main_call3.c (constantI S_ 32 0#32),
    TRef.unary main_call3.c main_call3.v0 (broadcastInDim S4x2048 ![] bcast_S_S4x2048),
    TRef.binary (.of main_v36) main_call3.v0 main_call3.v1 (cmpi .slt),
    TRef.nullary main_call3.c_0 (constantI S_ 32 2048#32),
    TRef.unary main_call3.c_0 main_call3.v2 (broadcastInDim S4x2048 ![] bcast_S_S4x2048),
    TRef.binary (.of main_v36) main_call3.v2 main_call3.v3 addi,
    TRef.ternary main_call3.v1 main_call3.v3 (.of main_v36) main_call3.v4 select,
    TRef.reshape main_call3.v4 main_call3.v5 rfl shapeCasts_S4x2048_S4x2048x1,
    TRef.nullary main_call3.c_1 (constantI S1 32 2047#32),
    TRef.nullary main_call3.c_2 (constantI S_ 32 0#32),
    TRef.unary main_call3.c_2 main_call3.v6 (broadcastInDim S4x2048x1 ![] bcast_S_S4x2048x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S4x2048x1 ![0, 1, 2] bcast_S1x1x1_S4x2048x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4x2048x1_S4x2048_d2 h_S_),
    TRef.binary (.of main_v31) main_call3.v5 main_call3.v13 (fun x i => Host.gather gather_S4x2048_S4x2048x1_S4x2048_n_1_0_0_1_2_11 x i),
    TRef.nullary main_call3.cst (constant S_ .f32 0x7FC00000#32),
    TRef.unary main_call3.cst main_call3.v14 (broadcastInDim S4x2048 ![] bcast_S_S4x2048),
    TRef.ternary main_call3.v12 main_call3.v13 main_call3.v14 main_call3.v15 select,
    unary main_v46 main_v48 (uitofp .f32 : Vec F S4x2048 .i1 → Vec F S4x2048 .f32),
    binary main_v47 main_v48 main_v49 (mulf : Vec F S4x2048 .f32 → Vec F S4x2048 .f32 → Vec F S4x2048 .f32),
    nullary main_cst_12 (constant S_ .f32 0x3F800000#32),
    unary main_cst_12 main_v50 (broadcastInDim S4x2048 ![] bcast_S_S4x2048 : Vec F S_ .f32 → Vec F S4x2048 .f32),
    binary main_v50 main_v49 main_v51 (subf : Vec F S4x2048 .f32 → Vec F S4x2048 .f32 → Vec F S4x2048 .f32),
    nullary main_cst_13 (constant S_ .f32 0x00000000#32),
    nullary main_cst_14 (constant S_ .f32 0x3F800000#32),
    TRef.unary (.of main_cst_13) main_call4.v0 id,
    TRef.unary main_call4.v0 main_call4.v1 (broadcastInDim S4x2048 ![] bcast_S_S4x2048),
    TRef.binary main_call4.v1 (.of main_v51) main_call4.v2 maximumf,
    TRef.unary (.of main_cst_14) main_call4.v3 id,
    TRef.unary main_call4.v3 main_call4.v4 (broadcastInDim S4x2048 ![] bcast_S_S4x2048),
    TRef.binary main_call4.v4 main_call4.v2 main_call4.v5 minimumf,
    nullary main_cst_15 (constant S_ .f32 0x00000000#32),
    unary main_cst_15 main_v53 (broadcastInDim S4x512 ![] bcast_S_S4x512 : Vec F S_ .f32 → Vec F S4x512 .f32),
    unary main_v52 main_v54 (broadcastInDim S4x2048x1 ![0, 1] bcast_S4x2048_S4x2048x1_0_1 : Vec F S4x2048 .f32 → Vec F S4x2048x1 .f32),
    unary main_v54 main_v55 (broadcastInDim S4x2048x512 ![0, 1, 2] bcast_S4x2048x1_S4x2048x512_0_1_2 : Vec F S4x2048x1 .f32 → Vec F S4x2048x512 .f32),
    nullary main_cst_16 (constant S_ .f32 0x3F800000#32),
    unary main_cst_16 main_v56 (broadcastInDim S4x2048 ![] bcast_S_S4x2048 : Vec F S_ .f32 → Vec F S4x2048 .f32),
    binary main_v56 main_v52 main_v57 (subf : Vec F S4x2048 .f32 → Vec F S4x2048 .f32 → Vec F S4x2048 .f32),
    unary main_v57 main_v58 (broadcastInDim S4x2048x1 ![0, 1] bcast_S4x2048_S4x2048x1_0_1 : Vec F S4x2048 .f32 → Vec F S4x2048x1 .f32),
    unary main_v58 main_v59 (broadcastInDim S4x2048x512 ![0, 1, 2] bcast_S4x2048x1_S4x2048x512_0_1_2 : Vec F S4x2048x1 .f32 → Vec F S4x2048x512 .f32),
    binary main_v59 main_v40 main_v60 (mulf : Vec F S4x2048x512 .f32 → Vec F S4x2048x512 .f32 → Vec F S4x2048x512 .f32),
    unary main_v60 main_v61 ((extractStridedSlice S4x1x512 ![0, 0, 0] · slices_S4x2048x512_S4x1x512_0_0_0) : Vec F S4x2048x512 .f32 → Vec F S4x1x512 .f32),
    unary main_v55 main_v62 ((extractStridedSlice S4x1x512 ![0, 0, 0] · slices_S4x2048x512_S4x1x512_0_0_0) : Vec F S4x2048x512 .f32 → Vec F S4x1x512 .f32),
    unary main_v53 main_v63 (broadcastInDim S4x1x512 ![0, 2] bcast_S4x512_S4x1x512_0_2 : Vec F S4x512 .f32 → Vec F S4x1x512 .f32),
    binary main_v62 main_v63 main_v64 (mulf : Vec F S4x1x512 .f32 → Vec F S4x1x512 .f32 → Vec F S4x1x512 .f32),
    binary main_v61 main_v64 main_v65 (addf : Vec F S4x1x512 .f32 → Vec F S4x1x512 .f32 → Vec F S4x1x512 .f32),
    unary main_v60 main_v66 ((extractStridedSlice S4x2047x512 ![0, 1, 0] · slices_S4x2048x512_S4x2047x512_0_1_0) : Vec F S4x2048x512 .f32 → Vec F S4x2047x512 .f32),
    binary main_v65 main_v66 main_v67 ((fun a b => concatenate S4x2048x512 1 [⟨S4x1x512, a⟩, ⟨S4x2047x512, b⟩] concatenates_S4x1x512_S4x2047x512_S4x2048x512_d1) : Vec F S4x1x512 .f32 → Vec F S4x2047x512 .f32 → Vec F S4x2048x512 .f32),
    unary main_v67 main_v68 ((extractStridedSlice S4x1x512 ![0, 0, 0] · slices_S4x2048x512_S4x1x512_0_0_0) : Vec F S4x2048x512 .f32 → Vec F S4x1x512 .f32),
    unary main_v55 main_v69 ((extractStridedSlice S4x2047x512 ![0, 1, 0] · slices_S4x2048x512_S4x2047x512_0_1_0) : Vec F S4x2048x512 .f32 → Vec F S4x2047x512 .f32),
    unary main_v67 main_v70 ((extractStridedSlice S4x2047x512 ![0, 0, 0] · slices_S4x2048x512_S4x2047x512_0_0_0) : Vec F S4x2048x512 .f32 → Vec F S4x2047x512 .f32),
    binary main_v69 main_v70 main_v71 (mulf : Vec F S4x2047x512 .f32 → Vec F S4x2047x512 .f32 → Vec F S4x2047x512 .f32),
    unary main_v67 main_v72 ((extractStridedSlice S4x2047x512 ![0, 1, 0] · slices_S4x2048x512_S4x2047x512_0_1_0) : Vec F S4x2048x512 .f32 → Vec F S4x2047x512 .f32),
    binary main_v71 main_v72 main_v73 (addf : Vec F S4x2047x512 .f32 → Vec F S4x2047x512 .f32 → Vec F S4x2047x512 .f32),
    binary main_v68 main_v73 main_v74 ((fun a b => concatenate S4x2048x512 1 [⟨S4x1x512, a⟩, ⟨S4x2047x512, b⟩] concatenates_S4x1x512_S4x2047x512_S4x2048x512_d1) : Vec F S4x1x512 .f32 → Vec F S4x2047x512 .f32 → Vec F S4x2048x512 .f32),
    unary main_v55 main_v75 ((extractStridedSlice S4x1x512 ![0, 0, 0] · slices_S4x2048x512_S4x1x512_0_0_0) : Vec F S4x2048x512 .f32 → Vec F S4x1x512 .f32),
    unary main_v55 main_v76 ((extractStridedSlice S4x2047x512 ![0, 1, 0] · slices_S4x2048x512_S4x2047x512_0_1_0) : Vec F S4x2048x512 .f32 → Vec F S4x2047x512 .f32),
    unary main_v55 main_v77 ((extractStridedSlice S4x2047x512 ![0, 0, 0] · slices_S4x2048x512_S4x2047x512_0_0_0) : Vec F S4x2048x512 .f32 → Vec F S4x2047x512 .f32),
    binary main_v76 main_v77 main_v78 (mulf : Vec F S4x2047x512 .f32 → Vec F S4x2047x512 .f32 → Vec F S4x2047x512 .f32),
    binary main_v75 main_v78 main_v79 ((fun a b => concatenate S4x2048x512 1 [⟨S4x1x512, a⟩, ⟨S4x2047x512, b⟩] concatenates_S4x1x512_S4x2047x512_S4x2048x512_d1) : Vec F S4x1x512 .f32 → Vec F S4x2047x512 .f32 → Vec F S4x2048x512 .f32),
    unary main_v74 main_v80 ((extractStridedSlice S4x2x512 ![0, 0, 0] · slices_S4x2048x512_S4x2x512_0_0_0) : Vec F S4x2048x512 .f32 → Vec F S4x2x512 .f32),
    unary main_v79 main_v81 ((extractStridedSlice S4x2046x512 ![0, 2, 0] · slices_S4x2048x512_S4x2046x512_0_2_0) : Vec F S4x2048x512 .f32 → Vec F S4x2046x512 .f32),
    unary main_v74 main_v82 ((extractStridedSlice S4x2046x512 ![0, 0, 0] · slices_S4x2048x512_S4x2046x512_0_0_0) : Vec F S4x2048x512 .f32 → Vec F S4x2046x512 .f32),
    binary main_v81 main_v82 main_v83 (mulf : Vec F S4x2046x512 .f32 → Vec F S4x2046x512 .f32 → Vec F S4x2046x512 .f32),
    unary main_v74 main_v84 ((extractStridedSlice S4x2046x512 ![0, 2, 0] · slices_S4x2048x512_S4x2046x512_0_2_0) : Vec F S4x2048x512 .f32 → Vec F S4x2046x512 .f32),
    binary main_v83 main_v84 main_v85 (addf : Vec F S4x2046x512 .f32 → Vec F S4x2046x512 .f32 → Vec F S4x2046x512 .f32),
    binary main_v80 main_v85 main_v86 ((fun a b => concatenate S4x2048x512 1 [⟨S4x2x512, a⟩, ⟨S4x2046x512, b⟩] concatenates_S4x2x512_S4x2046x512_S4x2048x512_d1) : Vec F S4x2x512 .f32 → Vec F S4x2046x512 .f32 → Vec F S4x2048x512 .f32),
    unary main_v79 main_v87 ((extractStridedSlice S4x2x512 ![0, 0, 0] · slices_S4x2048x512_S4x2x512_0_0_0) : Vec F S4x2048x512 .f32 → Vec F S4x2x512 .f32),
    unary main_v79 main_v88 ((extractStridedSlice S4x2046x512 ![0, 2, 0] · slices_S4x2048x512_S4x2046x512_0_2_0) : Vec F S4x2048x512 .f32 → Vec F S4x2046x512 .f32),
    unary main_v79 main_v89 ((extractStridedSlice S4x2046x512 ![0, 0, 0] · slices_S4x2048x512_S4x2046x512_0_0_0) : Vec F S4x2048x512 .f32 → Vec F S4x2046x512 .f32),
    binary main_v88 main_v89 main_v90 (mulf : Vec F S4x2046x512 .f32 → Vec F S4x2046x512 .f32 → Vec F S4x2046x512 .f32),
    binary main_v87 main_v90 main_v91 ((fun a b => concatenate S4x2048x512 1 [⟨S4x2x512, a⟩, ⟨S4x2046x512, b⟩] concatenates_S4x2x512_S4x2046x512_S4x2048x512_d1) : Vec F S4x2x512 .f32 → Vec F S4x2046x512 .f32 → Vec F S4x2048x512 .f32),
    unary main_v86 main_v92 ((extractStridedSlice S4x4x512 ![0, 0, 0] · slices_S4x2048x512_S4x4x512_0_0_0) : Vec F S4x2048x512 .f32 → Vec F S4x4x512 .f32),
    unary main_v91 main_v93 ((extractStridedSlice S4x2044x512 ![0, 4, 0] · slices_S4x2048x512_S4x2044x512_0_4_0) : Vec F S4x2048x512 .f32 → Vec F S4x2044x512 .f32),
    unary main_v86 main_v94 ((extractStridedSlice S4x2044x512 ![0, 0, 0] · slices_S4x2048x512_S4x2044x512_0_0_0) : Vec F S4x2048x512 .f32 → Vec F S4x2044x512 .f32),
    binary main_v93 main_v94 main_v95 (mulf : Vec F S4x2044x512 .f32 → Vec F S4x2044x512 .f32 → Vec F S4x2044x512 .f32),
    unary main_v86 main_v96 ((extractStridedSlice S4x2044x512 ![0, 4, 0] · slices_S4x2048x512_S4x2044x512_0_4_0) : Vec F S4x2048x512 .f32 → Vec F S4x2044x512 .f32),
    binary main_v95 main_v96 main_v97 (addf : Vec F S4x2044x512 .f32 → Vec F S4x2044x512 .f32 → Vec F S4x2044x512 .f32),
    binary main_v92 main_v97 main_v98 ((fun a b => concatenate S4x2048x512 1 [⟨S4x4x512, a⟩, ⟨S4x2044x512, b⟩] concatenates_S4x4x512_S4x2044x512_S4x2048x512_d1) : Vec F S4x4x512 .f32 → Vec F S4x2044x512 .f32 → Vec F S4x2048x512 .f32),
    unary main_v91 main_v99 ((extractStridedSlice S4x4x512 ![0, 0, 0] · slices_S4x2048x512_S4x4x512_0_0_0) : Vec F S4x2048x512 .f32 → Vec F S4x4x512 .f32),
    unary main_v91 main_v100 ((extractStridedSlice S4x2044x512 ![0, 4, 0] · slices_S4x2048x512_S4x2044x512_0_4_0) : Vec F S4x2048x512 .f32 → Vec F S4x2044x512 .f32) ]

abbrev Ws1 : List (Ref sig .tc) :=
  [main_v46, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v47, main_v48, main_v49, main_cst_12, main_v50, main_v51, main_cst_13, main_cst_14, main_call4_v0, main_call4_v1, main_call4_v2, main_call4_v3, main_call4_v4, main_v52, main_cst_15, main_v53, main_v54, main_v55, main_cst_16, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100]

set_option maxRecDepth 8192 in
theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., unary_bufs_sub .., unary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub ..⟩

abbrev ops2 : List (HloOp τ sig (Elt F)) :=
  [ unary main_v91 main_v101 ((extractStridedSlice S4x2044x512 ![0, 0, 0] · slices_S4x2048x512_S4x2044x512_0_0_0) : Vec F S4x2048x512 .f32 → Vec F S4x2044x512 .f32),
    binary main_v100 main_v101 main_v102 (mulf : Vec F S4x2044x512 .f32 → Vec F S4x2044x512 .f32 → Vec F S4x2044x512 .f32),
    binary main_v99 main_v102 main_v103 ((fun a b => concatenate S4x2048x512 1 [⟨S4x4x512, a⟩, ⟨S4x2044x512, b⟩] concatenates_S4x4x512_S4x2044x512_S4x2048x512_d1) : Vec F S4x4x512 .f32 → Vec F S4x2044x512 .f32 → Vec F S4x2048x512 .f32),
    unary main_v98 main_v104 ((extractStridedSlice S4x8x512 ![0, 0, 0] · slices_S4x2048x512_S4x8x512_0_0_0) : Vec F S4x2048x512 .f32 → Vec F S4x8x512 .f32),
    unary main_v103 main_v105 ((extractStridedSlice S4x2040x512 ![0, 8, 0] · slices_S4x2048x512_S4x2040x512_0_8_0) : Vec F S4x2048x512 .f32 → Vec F S4x2040x512 .f32),
    unary main_v98 main_v106 ((extractStridedSlice S4x2040x512 ![0, 0, 0] · slices_S4x2048x512_S4x2040x512_0_0_0) : Vec F S4x2048x512 .f32 → Vec F S4x2040x512 .f32),
    binary main_v105 main_v106 main_v107 (mulf : Vec F S4x2040x512 .f32 → Vec F S4x2040x512 .f32 → Vec F S4x2040x512 .f32),
    unary main_v98 main_v108 ((extractStridedSlice S4x2040x512 ![0, 8, 0] · slices_S4x2048x512_S4x2040x512_0_8_0) : Vec F S4x2048x512 .f32 → Vec F S4x2040x512 .f32),
    binary main_v107 main_v108 main_v109 (addf : Vec F S4x2040x512 .f32 → Vec F S4x2040x512 .f32 → Vec F S4x2040x512 .f32),
    binary main_v104 main_v109 main_v110 ((fun a b => concatenate S4x2048x512 1 [⟨S4x8x512, a⟩, ⟨S4x2040x512, b⟩] concatenates_S4x8x512_S4x2040x512_S4x2048x512_d1) : Vec F S4x8x512 .f32 → Vec F S4x2040x512 .f32 → Vec F S4x2048x512 .f32),
    unary main_v103 main_v111 ((extractStridedSlice S4x8x512 ![0, 0, 0] · slices_S4x2048x512_S4x8x512_0_0_0) : Vec F S4x2048x512 .f32 → Vec F S4x8x512 .f32),
    unary main_v103 main_v112 ((extractStridedSlice S4x2040x512 ![0, 8, 0] · slices_S4x2048x512_S4x2040x512_0_8_0) : Vec F S4x2048x512 .f32 → Vec F S4x2040x512 .f32),
    unary main_v103 main_v113 ((extractStridedSlice S4x2040x512 ![0, 0, 0] · slices_S4x2048x512_S4x2040x512_0_0_0) : Vec F S4x2048x512 .f32 → Vec F S4x2040x512 .f32),
    binary main_v112 main_v113 main_v114 (mulf : Vec F S4x2040x512 .f32 → Vec F S4x2040x512 .f32 → Vec F S4x2040x512 .f32),
    binary main_v111 main_v114 main_v115 ((fun a b => concatenate S4x2048x512 1 [⟨S4x8x512, a⟩, ⟨S4x2040x512, b⟩] concatenates_S4x8x512_S4x2040x512_S4x2048x512_d1) : Vec F S4x8x512 .f32 → Vec F S4x2040x512 .f32 → Vec F S4x2048x512 .f32),
    unary main_v110 main_v116 ((extractStridedSlice S4x16x512 ![0, 0, 0] · slices_S4x2048x512_S4x16x512_0_0_0) : Vec F S4x2048x512 .f32 → Vec F S4x16x512 .f32),
    unary main_v115 main_v117 ((extractStridedSlice S4x2032x512 ![0, 16, 0] · slices_S4x2048x512_S4x2032x512_0_16_0) : Vec F S4x2048x512 .f32 → Vec F S4x2032x512 .f32),
    unary main_v110 main_v118 ((extractStridedSlice S4x2032x512 ![0, 0, 0] · slices_S4x2048x512_S4x2032x512_0_0_0) : Vec F S4x2048x512 .f32 → Vec F S4x2032x512 .f32),
    binary main_v117 main_v118 main_v119 (mulf : Vec F S4x2032x512 .f32 → Vec F S4x2032x512 .f32 → Vec F S4x2032x512 .f32),
    unary main_v110 main_v120 ((extractStridedSlice S4x2032x512 ![0, 16, 0] · slices_S4x2048x512_S4x2032x512_0_16_0) : Vec F S4x2048x512 .f32 → Vec F S4x2032x512 .f32),
    binary main_v119 main_v120 main_v121 (addf : Vec F S4x2032x512 .f32 → Vec F S4x2032x512 .f32 → Vec F S4x2032x512 .f32),
    binary main_v116 main_v121 main_v122 ((fun a b => concatenate S4x2048x512 1 [⟨S4x16x512, a⟩, ⟨S4x2032x512, b⟩] concatenates_S4x16x512_S4x2032x512_S4x2048x512_d1) : Vec F S4x16x512 .f32 → Vec F S4x2032x512 .f32 → Vec F S4x2048x512 .f32),
    unary main_v115 main_v123 ((extractStridedSlice S4x16x512 ![0, 0, 0] · slices_S4x2048x512_S4x16x512_0_0_0) : Vec F S4x2048x512 .f32 → Vec F S4x16x512 .f32),
    unary main_v115 main_v124 ((extractStridedSlice S4x2032x512 ![0, 16, 0] · slices_S4x2048x512_S4x2032x512_0_16_0) : Vec F S4x2048x512 .f32 → Vec F S4x2032x512 .f32),
    unary main_v115 main_v125 ((extractStridedSlice S4x2032x512 ![0, 0, 0] · slices_S4x2048x512_S4x2032x512_0_0_0) : Vec F S4x2048x512 .f32 → Vec F S4x2032x512 .f32),
    binary main_v124 main_v125 main_v126 (mulf : Vec F S4x2032x512 .f32 → Vec F S4x2032x512 .f32 → Vec F S4x2032x512 .f32),
    binary main_v123 main_v126 main_v127 ((fun a b => concatenate S4x2048x512 1 [⟨S4x16x512, a⟩, ⟨S4x2032x512, b⟩] concatenates_S4x16x512_S4x2032x512_S4x2048x512_d1) : Vec F S4x16x512 .f32 → Vec F S4x2032x512 .f32 → Vec F S4x2048x512 .f32),
    unary main_v122 main_v128 ((extractStridedSlice S4x32x512 ![0, 0, 0] · slices_S4x2048x512_S4x32x512_0_0_0) : Vec F S4x2048x512 .f32 → Vec F S4x32x512 .f32),
    unary main_v127 main_v129 ((extractStridedSlice S4x2016x512 ![0, 32, 0] · slices_S4x2048x512_S4x2016x512_0_32_0) : Vec F S4x2048x512 .f32 → Vec F S4x2016x512 .f32),
    unary main_v122 main_v130 ((extractStridedSlice S4x2016x512 ![0, 0, 0] · slices_S4x2048x512_S4x2016x512_0_0_0) : Vec F S4x2048x512 .f32 → Vec F S4x2016x512 .f32),
    binary main_v129 main_v130 main_v131 (mulf : Vec F S4x2016x512 .f32 → Vec F S4x2016x512 .f32 → Vec F S4x2016x512 .f32),
    unary main_v122 main_v132 ((extractStridedSlice S4x2016x512 ![0, 32, 0] · slices_S4x2048x512_S4x2016x512_0_32_0) : Vec F S4x2048x512 .f32 → Vec F S4x2016x512 .f32),
    binary main_v131 main_v132 main_v133 (addf : Vec F S4x2016x512 .f32 → Vec F S4x2016x512 .f32 → Vec F S4x2016x512 .f32),
    binary main_v128 main_v133 main_v134 ((fun a b => concatenate S4x2048x512 1 [⟨S4x32x512, a⟩, ⟨S4x2016x512, b⟩] concatenates_S4x32x512_S4x2016x512_S4x2048x512_d1) : Vec F S4x32x512 .f32 → Vec F S4x2016x512 .f32 → Vec F S4x2048x512 .f32),
    unary main_v127 main_v135 ((extractStridedSlice S4x32x512 ![0, 0, 0] · slices_S4x2048x512_S4x32x512_0_0_0) : Vec F S4x2048x512 .f32 → Vec F S4x32x512 .f32),
    unary main_v127 main_v136 ((extractStridedSlice S4x2016x512 ![0, 32, 0] · slices_S4x2048x512_S4x2016x512_0_32_0) : Vec F S4x2048x512 .f32 → Vec F S4x2016x512 .f32),
    unary main_v127 main_v137 ((extractStridedSlice S4x2016x512 ![0, 0, 0] · slices_S4x2048x512_S4x2016x512_0_0_0) : Vec F S4x2048x512 .f32 → Vec F S4x2016x512 .f32),
    binary main_v136 main_v137 main_v138 (mulf : Vec F S4x2016x512 .f32 → Vec F S4x2016x512 .f32 → Vec F S4x2016x512 .f32),
    binary main_v135 main_v138 main_v139 ((fun a b => concatenate S4x2048x512 1 [⟨S4x32x512, a⟩, ⟨S4x2016x512, b⟩] concatenates_S4x32x512_S4x2016x512_S4x2048x512_d1) : Vec F S4x32x512 .f32 → Vec F S4x2016x512 .f32 → Vec F S4x2048x512 .f32),
    unary main_v134 main_v140 ((extractStridedSlice S4x64x512 ![0, 0, 0] · slices_S4x2048x512_S4x64x512_0_0_0) : Vec F S4x2048x512 .f32 → Vec F S4x64x512 .f32),
    unary main_v139 main_v141 ((extractStridedSlice S4x1984x512 ![0, 64, 0] · slices_S4x2048x512_S4x1984x512_0_64_0) : Vec F S4x2048x512 .f32 → Vec F S4x1984x512 .f32),
    unary main_v134 main_v142 ((extractStridedSlice S4x1984x512 ![0, 0, 0] · slices_S4x2048x512_S4x1984x512_0_0_0) : Vec F S4x2048x512 .f32 → Vec F S4x1984x512 .f32),
    binary main_v141 main_v142 main_v143 (mulf : Vec F S4x1984x512 .f32 → Vec F S4x1984x512 .f32 → Vec F S4x1984x512 .f32),
    unary main_v134 main_v144 ((extractStridedSlice S4x1984x512 ![0, 64, 0] · slices_S4x2048x512_S4x1984x512_0_64_0) : Vec F S4x2048x512 .f32 → Vec F S4x1984x512 .f32),
    binary main_v143 main_v144 main_v145 (addf : Vec F S4x1984x512 .f32 → Vec F S4x1984x512 .f32 → Vec F S4x1984x512 .f32),
    binary main_v140 main_v145 main_v146 ((fun a b => concatenate S4x2048x512 1 [⟨S4x64x512, a⟩, ⟨S4x1984x512, b⟩] concatenates_S4x64x512_S4x1984x512_S4x2048x512_d1) : Vec F S4x64x512 .f32 → Vec F S4x1984x512 .f32 → Vec F S4x2048x512 .f32),
    unary main_v139 main_v147 ((extractStridedSlice S4x64x512 ![0, 0, 0] · slices_S4x2048x512_S4x64x512_0_0_0) : Vec F S4x2048x512 .f32 → Vec F S4x64x512 .f32),
    unary main_v139 main_v148 ((extractStridedSlice S4x1984x512 ![0, 64, 0] · slices_S4x2048x512_S4x1984x512_0_64_0) : Vec F S4x2048x512 .f32 → Vec F S4x1984x512 .f32),
    unary main_v139 main_v149 ((extractStridedSlice S4x1984x512 ![0, 0, 0] · slices_S4x2048x512_S4x1984x512_0_0_0) : Vec F S4x2048x512 .f32 → Vec F S4x1984x512 .f32),
    binary main_v148 main_v149 main_v150 (mulf : Vec F S4x1984x512 .f32 → Vec F S4x1984x512 .f32 → Vec F S4x1984x512 .f32),
    binary main_v147 main_v150 main_v151 ((fun a b => concatenate S4x2048x512 1 [⟨S4x64x512, a⟩, ⟨S4x1984x512, b⟩] concatenates_S4x64x512_S4x1984x512_S4x2048x512_d1) : Vec F S4x64x512 .f32 → Vec F S4x1984x512 .f32 → Vec F S4x2048x512 .f32),
    unary main_v146 main_v152 ((extractStridedSlice S4x128x512 ![0, 0, 0] · slices_S4x2048x512_S4x128x512_0_0_0) : Vec F S4x2048x512 .f32 → Vec F S4x128x512 .f32),
    unary main_v151 main_v153 ((extractStridedSlice S4x1920x512 ![0, 128, 0] · slices_S4x2048x512_S4x1920x512_0_128_0) : Vec F S4x2048x512 .f32 → Vec F S4x1920x512 .f32),
    unary main_v146 main_v154 ((extractStridedSlice S4x1920x512 ![0, 0, 0] · slices_S4x2048x512_S4x1920x512_0_0_0) : Vec F S4x2048x512 .f32 → Vec F S4x1920x512 .f32),
    binary main_v153 main_v154 main_v155 (mulf : Vec F S4x1920x512 .f32 → Vec F S4x1920x512 .f32 → Vec F S4x1920x512 .f32),
    unary main_v146 main_v156 ((extractStridedSlice S4x1920x512 ![0, 128, 0] · slices_S4x2048x512_S4x1920x512_0_128_0) : Vec F S4x2048x512 .f32 → Vec F S4x1920x512 .f32),
    binary main_v155 main_v156 main_v157 (addf : Vec F S4x1920x512 .f32 → Vec F S4x1920x512 .f32 → Vec F S4x1920x512 .f32),
    binary main_v152 main_v157 main_v158 ((fun a b => concatenate S4x2048x512 1 [⟨S4x128x512, a⟩, ⟨S4x1920x512, b⟩] concatenates_S4x128x512_S4x1920x512_S4x2048x512_d1) : Vec F S4x128x512 .f32 → Vec F S4x1920x512 .f32 → Vec F S4x2048x512 .f32),
    unary main_v151 main_v159 ((extractStridedSlice S4x128x512 ![0, 0, 0] · slices_S4x2048x512_S4x128x512_0_0_0) : Vec F S4x2048x512 .f32 → Vec F S4x128x512 .f32),
    unary main_v151 main_v160 ((extractStridedSlice S4x1920x512 ![0, 128, 0] · slices_S4x2048x512_S4x1920x512_0_128_0) : Vec F S4x2048x512 .f32 → Vec F S4x1920x512 .f32) ]

abbrev Ws2 : List (Ref sig .tc) :=
  [main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160]

set_option maxRecDepth 8192 in
theorem ops2_sub : (ops2 : List (HloOp τ sig (Elt F))).Forall fun op => op.bufs ⊆ tcRefs τ sig :=
  ⟨unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub ..⟩

abbrev ops3 : List (HloOp τ sig (Elt F)) :=
  [ unary main_v151 main_v161 ((extractStridedSlice S4x1920x512 ![0, 0, 0] · slices_S4x2048x512_S4x1920x512_0_0_0) : Vec F S4x2048x512 .f32 → Vec F S4x1920x512 .f32),
    binary main_v160 main_v161 main_v162 (mulf : Vec F S4x1920x512 .f32 → Vec F S4x1920x512 .f32 → Vec F S4x1920x512 .f32),
    binary main_v159 main_v162 main_v163 ((fun a b => concatenate S4x2048x512 1 [⟨S4x128x512, a⟩, ⟨S4x1920x512, b⟩] concatenates_S4x128x512_S4x1920x512_S4x2048x512_d1) : Vec F S4x128x512 .f32 → Vec F S4x1920x512 .f32 → Vec F S4x2048x512 .f32),
    unary main_v158 main_v164 ((extractStridedSlice S4x256x512 ![0, 0, 0] · slices_S4x2048x512_S4x256x512_0_0_0) : Vec F S4x2048x512 .f32 → Vec F S4x256x512 .f32),
    unary main_v163 main_v165 ((extractStridedSlice S4x1792x512 ![0, 256, 0] · slices_S4x2048x512_S4x1792x512_0_256_0) : Vec F S4x2048x512 .f32 → Vec F S4x1792x512 .f32),
    unary main_v158 main_v166 ((extractStridedSlice S4x1792x512 ![0, 0, 0] · slices_S4x2048x512_S4x1792x512_0_0_0) : Vec F S4x2048x512 .f32 → Vec F S4x1792x512 .f32),
    binary main_v165 main_v166 main_v167 (mulf : Vec F S4x1792x512 .f32 → Vec F S4x1792x512 .f32 → Vec F S4x1792x512 .f32),
    unary main_v158 main_v168 ((extractStridedSlice S4x1792x512 ![0, 256, 0] · slices_S4x2048x512_S4x1792x512_0_256_0) : Vec F S4x2048x512 .f32 → Vec F S4x1792x512 .f32),
    binary main_v167 main_v168 main_v169 (addf : Vec F S4x1792x512 .f32 → Vec F S4x1792x512 .f32 → Vec F S4x1792x512 .f32),
    binary main_v164 main_v169 main_v170 ((fun a b => concatenate S4x2048x512 1 [⟨S4x256x512, a⟩, ⟨S4x1792x512, b⟩] concatenates_S4x256x512_S4x1792x512_S4x2048x512_d1) : Vec F S4x256x512 .f32 → Vec F S4x1792x512 .f32 → Vec F S4x2048x512 .f32),
    unary main_v163 main_v171 ((extractStridedSlice S4x256x512 ![0, 0, 0] · slices_S4x2048x512_S4x256x512_0_0_0) : Vec F S4x2048x512 .f32 → Vec F S4x256x512 .f32),
    unary main_v163 main_v172 ((extractStridedSlice S4x1792x512 ![0, 256, 0] · slices_S4x2048x512_S4x1792x512_0_256_0) : Vec F S4x2048x512 .f32 → Vec F S4x1792x512 .f32),
    unary main_v163 main_v173 ((extractStridedSlice S4x1792x512 ![0, 0, 0] · slices_S4x2048x512_S4x1792x512_0_0_0) : Vec F S4x2048x512 .f32 → Vec F S4x1792x512 .f32),
    binary main_v172 main_v173 main_v174 (mulf : Vec F S4x1792x512 .f32 → Vec F S4x1792x512 .f32 → Vec F S4x1792x512 .f32),
    binary main_v171 main_v174 main_v175 ((fun a b => concatenate S4x2048x512 1 [⟨S4x256x512, a⟩, ⟨S4x1792x512, b⟩] concatenates_S4x256x512_S4x1792x512_S4x2048x512_d1) : Vec F S4x256x512 .f32 → Vec F S4x1792x512 .f32 → Vec F S4x2048x512 .f32),
    unary main_v170 main_v176 ((extractStridedSlice S4x512x512 ![0, 0, 0] · slices_S4x2048x512_S4x512x512_0_0_0) : Vec F S4x2048x512 .f32 → Vec F S4x512x512 .f32),
    unary main_v175 main_v177 ((extractStridedSlice S4x1536x512 ![0, 512, 0] · slices_S4x2048x512_S4x1536x512_0_512_0) : Vec F S4x2048x512 .f32 → Vec F S4x1536x512 .f32),
    unary main_v170 main_v178 ((extractStridedSlice S4x1536x512 ![0, 0, 0] · slices_S4x2048x512_S4x1536x512_0_0_0) : Vec F S4x2048x512 .f32 → Vec F S4x1536x512 .f32),
    binary main_v177 main_v178 main_v179 (mulf : Vec F S4x1536x512 .f32 → Vec F S4x1536x512 .f32 → Vec F S4x1536x512 .f32),
    unary main_v170 main_v180 ((extractStridedSlice S4x1536x512 ![0, 512, 0] · slices_S4x2048x512_S4x1536x512_0_512_0) : Vec F S4x2048x512 .f32 → Vec F S4x1536x512 .f32),
    binary main_v179 main_v180 main_v181 (addf : Vec F S4x1536x512 .f32 → Vec F S4x1536x512 .f32 → Vec F S4x1536x512 .f32),
    binary main_v176 main_v181 main_v182 ((fun a b => concatenate S4x2048x512 1 [⟨S4x512x512, a⟩, ⟨S4x1536x512, b⟩] concatenates_S4x512x512_S4x1536x512_S4x2048x512_d1) : Vec F S4x512x512 .f32 → Vec F S4x1536x512 .f32 → Vec F S4x2048x512 .f32),
    unary main_v175 main_v183 ((extractStridedSlice S4x512x512 ![0, 0, 0] · slices_S4x2048x512_S4x512x512_0_0_0) : Vec F S4x2048x512 .f32 → Vec F S4x512x512 .f32),
    unary main_v175 main_v184 ((extractStridedSlice S4x1536x512 ![0, 512, 0] · slices_S4x2048x512_S4x1536x512_0_512_0) : Vec F S4x2048x512 .f32 → Vec F S4x1536x512 .f32),
    unary main_v175 main_v185 ((extractStridedSlice S4x1536x512 ![0, 0, 0] · slices_S4x2048x512_S4x1536x512_0_0_0) : Vec F S4x2048x512 .f32 → Vec F S4x1536x512 .f32),
    binary main_v184 main_v185 main_v186 (mulf : Vec F S4x1536x512 .f32 → Vec F S4x1536x512 .f32 → Vec F S4x1536x512 .f32),
    binary main_v183 main_v186 main_v187 ((fun a b => concatenate S4x2048x512 1 [⟨S4x512x512, a⟩, ⟨S4x1536x512, b⟩] concatenates_S4x512x512_S4x1536x512_S4x2048x512_d1) : Vec F S4x512x512 .f32 → Vec F S4x1536x512 .f32 → Vec F S4x2048x512 .f32),
    unary main_v182 main_v188 ((extractStridedSlice S4x1024x512 ![0, 0, 0] · slices_S4x2048x512_S4x1024x512_0_0_0) : Vec F S4x2048x512 .f32 → Vec F S4x1024x512 .f32),
    unary main_v187 main_v189 ((extractStridedSlice S4x1024x512 ![0, 1024, 0] · slices_S4x2048x512_S4x1024x512_0_1024_0) : Vec F S4x2048x512 .f32 → Vec F S4x1024x512 .f32),
    unary main_v182 main_v190 ((extractStridedSlice S4x1024x512 ![0, 0, 0] · slices_S4x2048x512_S4x1024x512_0_0_0) : Vec F S4x2048x512 .f32 → Vec F S4x1024x512 .f32),
    binary main_v189 main_v190 main_v191 (mulf : Vec F S4x1024x512 .f32 → Vec F S4x1024x512 .f32 → Vec F S4x1024x512 .f32),
    unary main_v182 main_v192 ((extractStridedSlice S4x1024x512 ![0, 1024, 0] · slices_S4x2048x512_S4x1024x512_0_1024_0) : Vec F S4x2048x512 .f32 → Vec F S4x1024x512 .f32),
    binary main_v191 main_v192 main_v193 (addf : Vec F S4x1024x512 .f32 → Vec F S4x1024x512 .f32 → Vec F S4x1024x512 .f32),
    binary main_v188 main_v193 main_v194 ((fun a b => concatenate S4x2048x512 1 [⟨S4x1024x512, a⟩, ⟨S4x1024x512, b⟩] concatenates_S4x1024x512_S4x1024x512_S4x2048x512_d1) : Vec F S4x1024x512 .f32 → Vec F S4x1024x512 .f32 → Vec F S4x2048x512 .f32),
    unary main_v187 main_v195 ((extractStridedSlice S4x1024x512 ![0, 0, 0] · slices_S4x2048x512_S4x1024x512_0_0_0) : Vec F S4x2048x512 .f32 → Vec F S4x1024x512 .f32),
    unary main_v187 main_v196 ((extractStridedSlice S4x1024x512 ![0, 1024, 0] · slices_S4x2048x512_S4x1024x512_0_1024_0) : Vec F S4x2048x512 .f32 → Vec F S4x1024x512 .f32),
    unary main_v187 main_v197 ((extractStridedSlice S4x1024x512 ![0, 0, 0] · slices_S4x2048x512_S4x1024x512_0_0_0) : Vec F S4x2048x512 .f32 → Vec F S4x1024x512 .f32),
    binary main_v196 main_v197 main_v198 (mulf : Vec F S4x1024x512 .f32 → Vec F S4x1024x512 .f32 → Vec F S4x1024x512 .f32),
    binary main_v195 main_v198 main_v199 ((fun a b => concatenate S4x2048x512 1 [⟨S4x1024x512, a⟩, ⟨S4x1024x512, b⟩] concatenates_S4x1024x512_S4x1024x512_S4x2048x512_d1) : Vec F S4x1024x512 .f32 → Vec F S4x1024x512 .f32 → Vec F S4x2048x512 .f32),
    unary main_v46 main_v200 (broadcastInDim S4x2048x1 ![0, 1] bcast_S4x2048_S4x2048x1_0_1 : Vec F S4x2048 .i1 → Vec F S4x2048x1 .i1),
    unary main_v200 main_v201 (uitofp .f32 : Vec F S4x2048x1 .i1 → Vec F S4x2048x1 .f32),
    unary main_v201 main_v202 (broadcastInDim S4x2048x512 ![0, 1, 2] bcast_S4x2048x1_S4x2048x512_0_1_2 : Vec F S4x2048x1 .f32 → Vec F S4x2048x512 .f32),
    binary main_v194 main_v202 main_v203 (mulf : Vec F S4x2048x512 .f32 → Vec F S4x2048x512 .f32 → Vec F S4x2048x512 .f32),
    unary main_v33 main_v204 ((extui 32 · natLt_1_32) : Vec F S4x2048 .i1 → Vec F S4x2048 .i32),
    TRef.nullary main_call5.call0.c (constantI S_ 32 0#32),
    TRef.unary main_call5.call0.c main_call5.call0.v0 (broadcastInDim S_ ![] bcast_S_S_),
    TRef.binary (.of main_v204) main_call5.call0.v0 main_call5.call0.v1 (fun x v => Host.reduceWindow IntOp.addi ![1, 2048] ![1, 1] ![0, 2047] ![0, 0] x v reduceWindows_S4x2048_S4x2048_w1s1p0_0_w2048s1p2047_0 h_S_),
    nullary main_c_17 (constantI S_ 32 1#32),
    unary main_c_17 main_v206 (broadcastInDim S4x2048 ![] bcast_S_S4x2048 : Vec F S_ .i32 → Vec F S4x2048 .i32),
    binary main_v205 main_v206 main_v207 (subi : Vec F S4x2048 .i32 → Vec F S4x2048 .i32 → Vec F S4x2048 .i32),
    nullary main_c_18 (constantI S_ 32 0#32),
    nullary main_c_19 (constantI S_ 32 2047#32),
    TRef.unary (.of main_c_18) main_call6.v0 id,
    TRef.unary main_call6.v0 main_call6.v1 (broadcastInDim S4x2048 ![] bcast_S_S4x2048),
    TRef.binary main_call6.v1 (.of main_v207) main_call6.v2 maxsi,
    TRef.unary (.of main_c_19) main_call6.v3 id,
    TRef.unary main_call6.v3 main_call6.v4 (broadcastInDim S4x2048 ![] bcast_S_S4x2048),
    TRef.binary main_call6.v4 main_call6.v2 main_call6.v5 minsi,
    nullary main_c_20 (constantI S_ 32 0#32),
    unary main_c_20 main_v209 (broadcastInDim S4x2048 ![] bcast_S_S4x2048 : Vec F S_ .i32 → Vec F S4x2048 .i32),
    binary main_v207 main_v209 main_v210 (cmpi .sge : Vec F S4x2048 .i32 → Vec F S4x2048 .i32 → Vec F S4x2048 .i1),
    unary main_v208 main_v211 (broadcastInDim S4x2048x1 ![0, 1] bcast_S4x2048_S4x2048x1_0_1 : Vec F S4x2048 .i32 → Vec F S4x2048x1 .i32),
    TRef.nullary main_call7.c (constantI S_ 32 0#32),
    TRef.unary main_call7.c main_call7.v0 (broadcastInDim S4x2048x1 ![] bcast_S_S4x2048x1),
    TRef.binary (.of main_v211) main_call7.v0 main_call7.v1 (cmpi .slt),
    TRef.nullary main_call7.c_0 (constantI S_ 32 2048#32),
    TRef.unary main_call7.c_0 main_call7.v2 (broadcastInDim S4x2048x1 ![] bcast_S_S4x2048x1),
    TRef.binary (.of main_v211) main_call7.v2 main_call7.v3 addi,
    TRef.ternary main_call7.v1 main_call7.v3 (.of main_v211) main_call7.v4 select,
    TRef.nullary main_call7.c_1 (constantI S1 32 2047#32),
    TRef.nullary main_call7.c_2 (constantI S_ 32 0#32),
    TRef.unary main_call7.c_2 main_call7.v5 (broadcastInDim S4x2048x1 ![] bcast_S_S4x2048x1),
    TRef.binary main_call7.v4 main_call7.v5 main_call7.v6 (cmpi .sge),
    TRef.unary main_call7.c_1 main_call7.v7 (broadcastInDim S1x1x1 ![2] bcast_S1_S1x1x1_2),
    TRef.unary main_call7.v7 main_call7.v8 (broadcastInDim S4x2048x1 ![0, 1, 2] bcast_S1x1x1_S4x2048x1_0_1_2),
    TRef.binary main_call7.v4 main_call7.v8 main_call7.v9 (cmpi .sle),
    TRef.binary main_call7.v6 main_call7.v9 main_call7.v10 andi,
    TRef.nullary main_call7.c_3 (constantI S_ 1 1#1),
    TRef.binary main_call7.v10 main_call7.c_3 main_call7.v11 (fun x v => Host.reduce IntOp.andi x v reducesTo_S4x2048x1_S4x2048_d2 h_S_),
    TRef.binary (.of main_v203) main_call7.v4 main_call7.v12 (fun x i => Host.gather gather_S4x2048x512_S4x2048x1_S4x2048x512_2_1_0_0_1_2_11512 x i),
    TRef.unary main_call7.v11 main_call7.v13 (broadcastInDim S4x2048x512 ![0, 1] bcast_S4x2048_S4x2048x512_0_1),
    TRef.nullary main_call7.cst (constant S_ .f32 0x7FC00000#32),
    TRef.unary main_call7.cst main_call7.v14 (broadcastInDim S4x2048x512 ![] bcast_S_S4x2048x512),
    TRef.ternary main_call7.v13 main_call7.v12 main_call7.v14 main_call7.v15 select,
    unary main_v210 main_v213 (broadcastInDim S4x2048x1 ![0, 1] bcast_S4x2048_S4x2048x1_0_1 : Vec F S4x2048 .i1 → Vec F S4x2048x1 .i1),
    unary main_v213 main_v214 (uitofp .f32 : Vec F S4x2048x1 .i1 → Vec F S4x2048x1 .f32),
    unary main_v214 main_v215 (broadcastInDim S4x2048x512 ![0, 1, 2] bcast_S4x2048x1_S4x2048x512_0_1_2 : Vec F S4x2048x1 .f32 → Vec F S4x2048x512 .f32),
    binary main_v212 main_v215 main_v216 (mulf : Vec F S4x2048x512 .f32 → Vec F S4x2048x512 .f32 → Vec F S4x2048x512 .f32) ]

abbrev Ws3 : List (Ref sig .tc) :=
  [main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_call5_call0_c, main_call5_call0_v0, main_v205, main_c_17, main_v206, main_v207, main_c_18, main_c_19, main_call6_v0, main_call6_v1, main_call6_v2, main_call6_v3, main_call6_v4, main_v208, main_c_20, main_v209, main_v210, main_v211, main_call7_c, main_call7_v0, main_call7_v1, main_call7_c_0, main_call7_v2, main_call7_v3, main_call7_v4, main_call7_c_1, main_call7_c_2, main_call7_v5, main_call7_v6, main_call7_v7, main_call7_v8, main_call7_v9, main_call7_v10, main_call7_c_3, main_call7_v11, main_call7_v12, main_call7_v13, main_call7_cst, main_call7_v14, main_v212, main_v213, main_v214, main_v215, main_v216]

set_option maxRecDepth 8192 in
theorem ops3_sub : (ops3 : List (HloOp τ sig (Elt F))).Forall fun op => op.bufs ⊆ tcRefs τ sig :=
  ⟨unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub ..⟩

abbrev ops4 : List (HloOp τ sig (Elt F)) :=
  [ nullary main_cst_21 (constant S_ .f32 0x3F800000#32),
    unary main_cst_21 main_v217 (broadcastInDim S4x2048 ![] bcast_S_S4x2048 : Vec F S_ .f32 → Vec F S4x2048 .f32),
    binary main_v217 main_v31 main_v218 (subf : Vec F S4x2048 .f32 → Vec F S4x2048 .f32 → Vec F S4x2048 .f32),
    binary main_v218 main_v31 main_v219 (maximumf : Vec F S4x2048 .f32 → Vec F S4x2048 .f32 → Vec F S4x2048 .f32),
    nullary main_cst_22 (constant S_ .f32 0x3F800000#32),
    unary main_cst_22 main_v220 (broadcastInDim S4x2048 ![] bcast_S_S4x2048 : Vec F S_ .f32 → Vec F S4x2048 .f32),
    binary main_v219 main_v219 main_v221 (subf : Vec F S4x2048 .f32 → Vec F S4x2048 .f32 → Vec F S4x2048 .f32),
    binary main_v220 main_v221 main_v222 (addf : Vec F S4x2048 .f32 → Vec F S4x2048 .f32 → Vec F S4x2048 .f32),
    unary main_v222 main_v223 (broadcastInDim S4x2048x1 ![0, 1] bcast_S4x2048_S4x2048x1_0_1 : Vec F S4x2048 .f32 → Vec F S4x2048x1 .f32),
    unary main_v223 main_v224 (broadcastInDim S4x2048x512 ![0, 1, 2] bcast_S4x2048x1_S4x2048x512_0_1_2 : Vec F S4x2048x1 .f32 → Vec F S4x2048x512 .f32),
    binary main_v216 main_v224 main_v225 (mulf : Vec F S4x2048x512 .f32 → Vec F S4x2048x512 .f32 → Vec F S4x2048x512 .f32),
    binary main_arg0 main_v225 main_v226 (addf : Vec F S4x2048x512 .f32 → Vec F S4x2048x512 .f32 → Vec F S4x2048x512 .f32) ]

abbrev Ws4 : List (Ref sig .tc) :=
  [main_cst_21, main_v217, main_v218, main_v219, main_cst_22, main_v220, main_v221, main_v222, main_v223, main_v224, main_v225, main_v226]

set_option maxRecDepth 8192 in
theorem ops4_sub : (ops4 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., unary_bufs_sub .., unary_bufs_sub .., binary_bufs_sub .., binary_bufs_sub ..⟩

abbrev ops : List (HloOp τ sig (Elt F)) := ops0 ++ (ops1 ++ (ops2 ++ (ops3 ++ (ops4))))

abbrev Ws : List (Ref sig .tc) := Ws0 ++ (Ws1 ++ (Ws2 ++ (Ws3 ++ (Ws4))))

set_option maxRecDepth 8192 in
theorem hW : WritesList (τ := τ) (ops (F := F)) Ws := by
  unfold WritesList; repeat first | exact .nil | refine .cons rfl ?_

abbrev arg0 (V : Valuation τ sig (Elt Ideal)) : Vec Ideal S4x2048x512 .f32 := V (Proc.devRef .tc main_arg0)
abbrev arg1 (V : Valuation τ sig (Elt Ideal)) : Vec Ideal S512x512 .f32 := V (Proc.devRef .tc main_arg1)
abbrev arg2 (V : Valuation τ sig (Elt Ideal)) : Vec Ideal S512x512 .f32 := V (Proc.devRef .tc main_arg2)

end Cert.Ref

end
-- ==== Proof.Ref.RunMain.lean ====
import proofs.«123660_g14800457302192_cont_week2b_463_30_alg».proof.Proof.Ref.Ops
import Idealize.ShloMosaic.Lib.StableHlo.Run

noncomputable section

namespace Cert.Ref

open Cert.ReferenceIdeal Cert.ReferenceIdeal.Facts₀ Idealize.ShloMosaic Idealize.ShloMosaic.TcCoe Idealize.SL.Sem Idealize.ShloMosaic.StableHlo

variable {F : FTy → Type} [FloatOps F]

set_option maxRecDepth 8192 in
theorem part0_eq (d : Dev nD) : main_part0 (F := F) d = seq ops0 := rfl
set_option maxRecDepth 8192 in
theorem part1_eq (d : Dev nD) : main_part1 (F := F) d = seq ops1 := rfl
set_option maxRecDepth 8192 in
theorem part2_eq (d : Dev nD) : main_part2 (F := F) d = seq ops2 := rfl
set_option maxRecDepth 8192 in
theorem part3_eq (d : Dev nD) : main_part3 (F := F) d = seq ops3 := rfl
set_option maxRecDepth 8192 in
theorem part4_eq (d : Dev nD) : main_part4 (F := F) d = seq ops4 := rfl

-- The program runs its windows in order, so it is the sequence of the concatenated list.
theorem main_eq (d : Dev nD) : main (F := F) d = seq ops := by
  show main (F := F) d = seq (ops0 ++ (ops1 ++ (ops2 ++ (ops3 ++ ops4))))
  rw [seq_append, seq_append, seq_append, seq_append, ← part0_eq d, ← part1_eq d, ← part2_eq d, ← part3_eq d, ← part4_eq d]
  rfl

theorem scopedRefs_eq : (Finset.univ.filter fun b : Ref sig .tc => b.isScoped) = ∅ := by decide
theorem scopedSems_eq : (Finset.univ.filter fun sm : SemLoc sig => sm.isScoped .tc) = ∅ := by decide

private theorem forall_append {α : Type*} {p : α → Prop} {l₁ l₂ : List α} (h₁ : l₁.Forall p) (h₂ : l₂.Forall p) :
    (l₁ ++ l₂).Forall p :=
  List.forall_iff_forall_mem.2 fun a ha =>
    (List.mem_append.1 ha).elim (List.forall_iff_forall_mem.1 h₁ a) (List.forall_iff_forall_mem.1 h₂ a)

theorem ops_sub : (ops : List (HloOp τ sig (Elt F))).Forall fun op => op.bufs ⊆ tcRefs τ sig :=
  forall_append ops0_sub (forall_append ops1_sub (forall_append ops2_sub (forall_append ops3_sub ops4_sub)))

set_option maxRecDepth 8192 in
theorem ops_fresh : ∀ op ∈ (ops : List (HloOp τ sig (Elt F))), op.fresh = ∅ :=
  List.forall_iff_forall_mem.1 (by repeat' apply And.intro
                                   all_goals rfl)

-- Every execution ends with every array at the fold of the operations over the initial contents.
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.Ref

end
-- ==== Proof.Ref.Stages.lean ====
import proofs.«123660_g14800457302192_cont_week2b_463_30_alg».proof.ReferenceIdeal
import proofs.«123660_g14800457302192_cont_week2b_463_30_alg».proof.Proof.Gen.ReferenceIdeal
import Idealize.ShloMosaic.PureOps.Ideal

noncomputable section

namespace Cert.Ref

open Idealize.ShloMosaic Idealize.SL.Sem Cert.ReferenceIdeal Cert.ReferenceIdeal.Facts₀

-- Every array of the reference program as a function of the three argument arrays: its operation applied to the arrays it reads.
abbrev Stage (S : Shape) (φ : EltTy) : Type :=
  Vec Ideal S4x2048x512 .f32 → Vec Ideal S512x512 .f32 → Vec Ideal S512x512 .f32 → Vec Ideal S φ

def v0 : Stage S4x2047x512 .f32 := fun a0 a1 a2 =>
  (extractStridedSlice S4x2047x512 ![0, 0, 0] · slices_S4x2048x512_S4x2047x512_0_0_0) a0
def v1 : Stage S4x2047x512 .f32 := fun a0 a1 a2 =>
  (fun l r => Host.dotGeneral (F := Ideal) (φ₁ := .f32) (φ₂ := .f32) dot_S4x2047x512_S512x512_S4x2047x512_2_1_01_0_n_n none l r) (v0 a0 a1 a2) a1
def v2 : Stage S4x2047x512 .f32 := fun a0 a1 a2 =>
  mulf (F := Ideal) (φ := .f32) (v1 a0 a1 a2) (v1 a0 a1 a2)
def cst : Stage S_ .f32 := fun a0 a1 a2 =>
  (constant (F := Ideal) S_ .f32 0x00000000#32)
def v3 : Stage S4x2047 .f32 := fun a0 a1 a2 =>
  (fun x v => Host.reduceAdd (F := Ideal) (φ := .f32) x v reducesTo_S4x2047x512_S4x2047_d2 h_S_) (v2 a0 a1 a2) (cst a0 a1 a2)
def v4 : Stage S4x2047x1 .f32 := fun a0 a1 a2 =>
  broadcastInDim S4x2047x1 ![0, 1] bcast_S4x2047_S4x2047x1_0_1 (v3 a0 a1 a2)
def v5 : Stage S4x2047x1 .f32 := fun a0 a1 a2 =>
  Host.sqrt (F := Ideal) (φ := .f32) (v4 a0 a1 a2)
def cst_0 : Stage S_ .f32 := fun a0 a1 a2 =>
  (constant (F := Ideal) S_ .f32 0x2B8CBCCC#32)
def v6 : Stage S4x2047x1 .f32 := fun a0 a1 a2 =>
  broadcastInDim S4x2047x1 ![] bcast_S_S4x2047x1 (cst_0 a0 a1 a2)
def v7 : Stage S4x2047x1 .f32 := fun a0 a1 a2 =>
  maximumf (F := Ideal) (φ := .f32) (v5 a0 a1 a2) (v6 a0 a1 a2)
def v8 : Stage S4x2047x512 .f32 := fun a0 a1 a2 =>
  broadcastInDim S4x2047x512 ![0, 1, 2] bcast_S4x2047x1_S4x2047x512_0_1_2 (v7 a0 a1 a2)
def v9 : Stage S4x2047x512 .f32 := fun a0 a1 a2 =>
  Host.divf (F := Ideal) (φ := .f32) (v1 a0 a1 a2) (v8 a0 a1 a2)
def v10 : Stage S4x2047x512 .f32 := fun a0 a1 a2 =>
  (extractStridedSlice S4x2047x512 ![0, 1, 0] · slices_S4x2048x512_S4x2047x512_0_1_0) a0
def v11 : Stage S4x2047x512 .f32 := fun a0 a1 a2 =>
  (fun l r => Host.dotGeneral (F := Ideal) (φ₁ := .f32) (φ₂ := .f32) dot_S4x2047x512_S512x512_S4x2047x512_2_1_01_0_n_n none l r) (v10 a0 a1 a2) a2
def v12 : Stage S4x2047x512 .f32 := fun a0 a1 a2 =>
  mulf (F := Ideal) (φ := .f32) (v11 a0 a1 a2) (v11 a0 a1 a2)
def cst_1 : Stage S_ .f32 := fun a0 a1 a2 =>
  (constant (F := Ideal) S_ .f32 0x00000000#32)
def v13 : Stage S4x2047 .f32 := fun a0 a1 a2 =>
  (fun x v => Host.reduceAdd (F := Ideal) (φ := .f32) x v reducesTo_S4x2047x512_S4x2047_d2 h_S_) (v12 a0 a1 a2) (cst_1 a0 a1 a2)
def v14 : Stage S4x2047x1 .f32 := fun a0 a1 a2 =>
  broadcastInDim S4x2047x1 ![0, 1] bcast_S4x2047_S4x2047x1_0_1 (v13 a0 a1 a2)
def v15 : Stage S4x2047x1 .f32 := fun a0 a1 a2 =>
  Host.sqrt (F := Ideal) (φ := .f32) (v14 a0 a1 a2)
def cst_2 : Stage S_ .f32 := fun a0 a1 a2 =>
  (constant (F := Ideal) S_ .f32 0x2B8CBCCC#32)
def v16 : Stage S4x2047x1 .f32 := fun a0 a1 a2 =>
  broadcastInDim S4x2047x1 ![] bcast_S_S4x2047x1 (cst_2 a0 a1 a2)
def v17 : Stage S4x2047x1 .f32 := fun a0 a1 a2 =>
  maximumf (F := Ideal) (φ := .f32) (v15 a0 a1 a2) (v16 a0 a1 a2)
def v18 : Stage S4x2047x512 .f32 := fun a0 a1 a2 =>
  broadcastInDim S4x2047x512 ![0, 1, 2] bcast_S4x2047x1_S4x2047x512_0_1_2 (v17 a0 a1 a2)
def v19 : Stage S4x2047x512 .f32 := fun a0 a1 a2 =>
  Host.divf (F := Ideal) (φ := .f32) (v11 a0 a1 a2) (v18 a0 a1 a2)
def v20 : Stage S4x2047x512 .f32 := fun a0 a1 a2 =>
  mulf (F := Ideal) (φ := .f32) (v9 a0 a1 a2) (v19 a0 a1 a2)
def cst_3 : Stage S_ .f32 := fun a0 a1 a2 =>
  (constant (F := Ideal) S_ .f32 0x00000000#32)
def v21 : Stage S4x2047 .f32 := fun a0 a1 a2 =>
  (fun x v => Host.reduceAdd (F := Ideal) (φ := .f32) x v reducesTo_S4x2047x512_S4x2047_d2 h_S_) (v20 a0 a1 a2) (cst_3 a0 a1 a2)
def cst_4 : Stage S_ .f32 := fun a0 a1 a2 =>
  (constant (F := Ideal) S_ .f32 0x3F800000#32)
def v22 : Stage S4x1 .f32 := fun a0 a1 a2 =>
  broadcastInDim S4x1 ![] bcast_S_S4x1 (cst_4 a0 a1 a2)
def cst_5 : Stage S_ .f32 := fun a0 a1 a2 =>
  (constant (F := Ideal) S_ .f32 0x3F800000#32)
def v23 : Stage S4x2047 .f32 := fun a0 a1 a2 =>
  broadcastInDim S4x2047 ![] bcast_S_S4x2047 (cst_5 a0 a1 a2)
def v24 : Stage S4x2047 .f32 := fun a0 a1 a2 =>
  subf (F := Ideal) (φ := .f32) (v23 a0 a1 a2) (v21 a0 a1 a2)
def cst_6 : Stage S_ .f32 := fun a0 a1 a2 =>
  (constant (F := Ideal) S_ .f32 0x40000000#32)
def v25 : Stage S4x2047 .f32 := fun a0 a1 a2 =>
  broadcastInDim S4x2047 ![] bcast_S_S4x2047 (cst_6 a0 a1 a2)
def v26 : Stage S4x2047 .f32 := fun a0 a1 a2 =>
  Host.divf (F := Ideal) (φ := .f32) (v24 a0 a1 a2) (v25 a0 a1 a2)
def cst_7 : Stage S_ .f32 := fun a0 a1 a2 =>
  (constant (F := Ideal) S_ .f32 0x00000000#32)
def cst_8 : Stage S_ .f32 := fun a0 a1 a2 =>
  (constant (F := Ideal) S_ .f32 0x3F800000#32)
def call0_v0 : Stage S_ .f32 := fun a0 a1 a2 =>
  id (cst_7 a0 a1 a2)
def call0_v1 : Stage S4x2047 .f32 := fun a0 a1 a2 =>
  (broadcastInDim S4x2047 ![] bcast_S_S4x2047) (call0_v0 a0 a1 a2)
def call0_v2 : Stage S4x2047 .f32 := fun a0 a1 a2 =>
  (maximumf (F := Ideal) (φ := .f32)) (call0_v1 a0 a1 a2) (v26 a0 a1 a2)
def call0_v3 : Stage S_ .f32 := fun a0 a1 a2 =>
  id (cst_8 a0 a1 a2)
def call0_v4 : Stage S4x2047 .f32 := fun a0 a1 a2 =>
  (broadcastInDim S4x2047 ![] bcast_S_S4x2047) (call0_v3 a0 a1 a2)
def v27 : Stage S4x2047 .f32 := fun a0 a1 a2 =>
  (minimumf (F := Ideal) (φ := .f32)) (call0_v4 a0 a1 a2) (call0_v2 a0 a1 a2)
def v28 : Stage S4x2048 .f32 := fun a0 a1 a2 =>
  (fun a b => concatenate S4x2048 1 [⟨S4x1, a⟩, ⟨S4x2047, b⟩] concatenates_S4x1_S4x2047_S4x2048_d1) (v22 a0 a1 a2) (v27 a0 a1 a2)
def c : Stage S_ .i32 := fun a0 a1 a2 =>
  (constantI S_ 32 0#32)
def v29 : Stage S1 .i32 := fun a0 a1 a2 =>
  broadcastInDim S1 ![] bcast_S_S1 (c a0 a1 a2)
def cst_9 : Stage S_ .f32 := fun a0 a1 a2 =>
  (constant (F := Ideal) S_ .f32 0x3F800000#32)
def v30 : Stage S4 .f32 := fun a0 a1 a2 =>
  broadcastInDim S4 ![] bcast_S_S4 (cst_9 a0 a1 a2)
def v31 : Stage S4x2048 .f32 := fun a0 a1 a2 =>
  (fun x i u => Host.scatter scatter_S4x2048_S1_S4_0_1_1_0 (fun _ b => b) x i u) (v28 a0 a1 a2) (v29 a0 a1 a2) (v30 a0 a1 a2)
def cst_10 : Stage S_ .f32 := fun a0 a1 a2 =>
  (constant (F := Ideal) S_ .f32 0x3F000000#32)
def v32 : Stage S4x2048 .f32 := fun a0 a1 a2 =>
  broadcastInDim S4x2048 ![] bcast_S_S4x2048 (cst_10 a0 a1 a2)
def v33 : Stage S4x2048 .i1 := fun a0 a1 a2 =>
  cmpf (F := Ideal) (φ := .f32) .ogt (v31 a0 a1 a2) (v32 a0 a1 a2)
def v34 : Stage S4x2048 .i1 := fun a0 a1 a2 =>
  noti (v33 a0 a1 a2)
def v35 : Stage S4x2048 .i32 := fun a0 a1 a2 =>
  (extui 32 · natLt_1_32) (v34 a0 a1 a2)
def call1_v0 : Stage S4x2048 .i32 := fun a0 a1 a2 =>
  (iotaInDim S4x2048 32 1)
def call1_v1_0 : Stage S4x2048 .i32 := fun a0 a1 a2 =>
  (fun x y => (Host.sort2 S4x2048 1 comparator_i32_i32_d1 x y).1) (v35 a0 a1 a2) (call1_v0 a0 a1 a2)
def v36 : Stage S4x2048 .i32 := fun a0 a1 a2 =>
  (fun x y => (Host.sort2 S4x2048 1 comparator_i32_i32_d1 x y).2) (v35 a0 a1 a2) (call1_v0 a0 a1 a2)
def v37 : Stage S4x2048 .i32 := fun a0 a1 a2 =>
  (extui 32 · natLt_1_32) (v33 a0 a1 a2)
def c_11 : Stage S_ .i32 := fun a0 a1 a2 =>
  (constantI S_ 32 0#32)
def v38 : Stage S4 .i32 := fun a0 a1 a2 =>
  (fun x v => Host.reduce IntOp.addi x v reducesTo_S4x2048_S4_d1 h_S_) (v37 a0 a1 a2) (c_11 a0 a1 a2)
def v39 : Stage S4x2048x1 .i32 := fun a0 a1 a2 =>
  broadcastInDim S4x2048x1 ![0, 1] bcast_S4x2048_S4x2048x1_0_1 (v36 a0 a1 a2)
def call2_c : Stage S_ .i32 := fun a0 a1 a2 =>
  (constantI S_ 32 0#32)
def call2_v0 : Stage S4x2048x1 .i32 := fun a0 a1 a2 =>
  (broadcastInDim S4x2048x1 ![] bcast_S_S4x2048x1) (call2_c a0 a1 a2)
def call2_v1 : Stage S4x2048x1 .i1 := fun a0 a1 a2 =>
  (cmpi .slt) (v39 a0 a1 a2) (call2_v0 a0 a1 a2)
def call2_c_0 : Stage S_ .i32 := fun a0 a1 a2 =>
  (constantI S_ 32 2048#32)
def call2_v2 : Stage S4x2048x1 .i32 := fun a0 a1 a2 =>
  (broadcastInDim S4x2048x1 ![] bcast_S_S4x2048x1) (call2_c_0 a0 a1 a2)
def call2_v3 : Stage S4x2048x1 .i32 := fun a0 a1 a2 =>
  addi (v39 a0 a1 a2) (call2_v2 a0 a1 a2)
def call2_v4 : Stage S4x2048x1 .i32 := fun a0 a1 a2 =>
  select (call2_v1 a0 a1 a2) (call2_v3 a0 a1 a2) (v39 a0 a1 a2)
def call2_c_1 : Stage S1 .i32 := fun a0 a1 a2 =>
  (constantI S1 32 2047#32)
def call2_c_2 : Stage S_ .i32 := fun a0 a1 a2 =>
  (constantI S_ 32 0#32)
def call2_v5 : Stage S4x2048x1 .i32 := fun a0 a1 a2 =>
  (broadcastInDim S4x2048x1 ![] bcast_S_S4x2048x1) (call2_c_2 a0 a1 a2)
def call2_v6 : Stage S4x2048x1 .i1 := fun a0 a1 a2 =>
  (cmpi .sge) (call2_v4 a0 a1 a2) (call2_v5 a0 a1 a2)
def call2_v7 : Stage S1x1x1 .i32 := fun a0 a1 a2 =>
  (broadcastInDim S1x1x1 ![2] bcast_S1_S1x1x1_2) (call2_c_1 a0 a1 a2)
def call2_v8 : Stage S4x2048x1 .i32 := fun a0 a1 a2 =>
  (broadcastInDim S4x2048x1 ![0, 1, 2] bcast_S1x1x1_S4x2048x1_0_1_2) (call2_v7 a0 a1 a2)
def call2_v9 : Stage S4x2048x1 .i1 := fun a0 a1 a2 =>
  (cmpi .sle) (call2_v4 a0 a1 a2) (call2_v8 a0 a1 a2)
def call2_v10 : Stage S4x2048x1 .i1 := fun a0 a1 a2 =>
  andi (call2_v6 a0 a1 a2) (call2_v9 a0 a1 a2)
def call2_c_3 : Stage S_ .i1 := fun a0 a1 a2 =>
  (constantI S_ 1 1#1)
def call2_v11 : Stage S4x2048 .i1 := fun a0 a1 a2 =>
  (fun x v => Host.reduce IntOp.andi x v reducesTo_S4x2048x1_S4x2048_d2 h_S_) (call2_v10 a0 a1 a2) (call2_c_3 a0 a1 a2)
def call2_v12 : Stage S4x2048x512 .f32 := fun a0 a1 a2 =>
  (fun x i => Host.gather gather_S4x2048x512_S4x2048x1_S4x2048x512_2_1_0_0_1_2_11512 x i) a0 (call2_v4 a0 a1 a2)
def call2_v13 : Stage S4x2048x512 .i1 := fun a0 a1 a2 =>
  (broadcastInDim S4x2048x512 ![0, 1] bcast_S4x2048_S4x2048x512_0_1) (call2_v11 a0 a1 a2)
def call2_cst : Stage S_ .f32 := fun a0 a1 a2 =>
  (constant (F := Ideal) S_ .f32 0x7FC00000#32)
def call2_v14 : Stage S4x2048x512 .f32 := fun a0 a1 a2 =>
  (broadcastInDim S4x2048x512 ![] bcast_S_S4x2048x512) (call2_cst a0 a1 a2)
def v40 : Stage S4x2048x512 .f32 := fun a0 a1 a2 =>
  select (call2_v13 a0 a1 a2) (call2_v12 a0 a1 a2) (call2_v14 a0 a1 a2)
def v41 : Stage S2048 .i32 := fun a0 a1 a2 =>
  (iotaInDim S2048 32 0)
def v42 : Stage S1x2048 .i32 := fun a0 a1 a2 =>
  broadcastInDim S1x2048 ![1] bcast_S2048_S1x2048_1 (v41 a0 a1 a2)
def v43 : Stage S4x1 .i32 := fun a0 a1 a2 =>
  broadcastInDim S4x1 ![0] bcast_S4_S4x1_0 (v38 a0 a1 a2)
def v44 : Stage S4x2048 .i32 := fun a0 a1 a2 =>
  broadcastInDim S4x2048 ![0, 1] bcast_S1x2048_S4x2048_0_1 (v42 a0 a1 a2)
def v45 : Stage S4x2048 .i32 := fun a0 a1 a2 =>
  broadcastInDim S4x2048 ![0, 1] bcast_S4x1_S4x2048_0_1 (v43 a0 a1 a2)
def v46 : Stage S4x2048 .i1 := fun a0 a1 a2 =>
  cmpi .slt (v44 a0 a1 a2) (v45 a0 a1 a2)
def call3_c : Stage S_ .i32 := fun a0 a1 a2 =>
  (constantI S_ 32 0#32)
def call3_v0 : Stage S4x2048 .i32 := fun a0 a1 a2 =>
  (broadcastInDim S4x2048 ![] bcast_S_S4x2048) (call3_c a0 a1 a2)
def call3_v1 : Stage S4x2048 .i1 := fun a0 a1 a2 =>
  (cmpi .slt) (v36 a0 a1 a2) (call3_v0 a0 a1 a2)
def call3_c_0 : Stage S_ .i32 := fun a0 a1 a2 =>
  (constantI S_ 32 2048#32)
def call3_v2 : Stage S4x2048 .i32 := fun a0 a1 a2 =>
  (broadcastInDim S4x2048 ![] bcast_S_S4x2048) (call3_c_0 a0 a1 a2)
def call3_v3 : Stage S4x2048 .i32 := fun a0 a1 a2 =>
  addi (v36 a0 a1 a2) (call3_v2 a0 a1 a2)
def call3_v4 : Stage S4x2048 .i32 := fun a0 a1 a2 =>
  select (call3_v1 a0 a1 a2) (call3_v3 a0 a1 a2) (v36 a0 a1 a2)
def call3_v5 : Stage S4x2048x1 .i32 := fun a0 a1 a2 =>
  fun i => shapeCast S4x2048x1 (call3_v4 a0 a1 a2) shapeCasts_S4x2048_S4x2048x1 i
def call3_c_1 : Stage S1 .i32 := fun a0 a1 a2 =>
  (constantI S1 32 2047#32)
def call3_c_2 : Stage S_ .i32 := fun a0 a1 a2 =>
  (constantI S_ 32 0#32)
def call3_v6 : Stage S4x2048x1 .i32 := fun a0 a1 a2 =>
  (broadcastInDim S4x2048x1 ![] bcast_S_S4x2048x1) (call3_c_2 a0 a1 a2)
def call3_v7 : Stage S4x2048x1 .i1 := fun a0 a1 a2 =>
  (cmpi .sge) (call3_v5 a0 a1 a2) (call3_v6 a0 a1 a2)
def call3_v8 : Stage S1x1x1 .i32 := fun a0 a1 a2 =>
  (broadcastInDim S1x1x1 ![2] bcast_S1_S1x1x1_2) (call3_c_1 a0 a1 a2)
def call3_v9 : Stage S4x2048x1 .i32 := fun a0 a1 a2 =>
  (broadcastInDim S4x2048x1 ![0, 1, 2] bcast_S1x1x1_S4x2048x1_0_1_2) (call3_v8 a0 a1 a2)
def call3_v10 : Stage S4x2048x1 .i1 := fun a0 a1 a2 =>
  (cmpi .sle) (call3_v5 a0 a1 a2) (call3_v9 a0 a1 a2)
def call3_v11 : Stage S4x2048x1 .i1 := fun a0 a1 a2 =>
  andi (call3_v7 a0 a1 a2) (call3_v10 a0 a1 a2)
def call3_c_3 : Stage S_ .i1 := fun a0 a1 a2 =>
  (constantI S_ 1 1#1)
def call3_v12 : Stage S4x2048 .i1 := fun a0 a1 a2 =>
  (fun x v => Host.reduce IntOp.andi x v reducesTo_S4x2048x1_S4x2048_d2 h_S_) (call3_v11 a0 a1 a2) (call3_c_3 a0 a1 a2)
def call3_v13 : Stage S4x2048 .f32 := fun a0 a1 a2 =>
  (fun x i => Host.gather gather_S4x2048_S4x2048x1_S4x2048_n_1_0_0_1_2_11 x i) (v31 a0 a1 a2) (call3_v5 a0 a1 a2)
def call3_cst : Stage S_ .f32 := fun a0 a1 a2 =>
  (constant (F := Ideal) S_ .f32 0x7FC00000#32)
def call3_v14 : Stage S4x2048 .f32 := fun a0 a1 a2 =>
  (broadcastInDim S4x2048 ![] bcast_S_S4x2048) (call3_cst a0 a1 a2)
def v47 : Stage S4x2048 .f32 := fun a0 a1 a2 =>
  select (call3_v12 a0 a1 a2) (call3_v13 a0 a1 a2) (call3_v14 a0 a1 a2)
def v48 : Stage S4x2048 .f32 := fun a0 a1 a2 =>
  uitofp (F := Ideal) .f32 (v46 a0 a1 a2)
def v49 : Stage S4x2048 .f32 := fun a0 a1 a2 =>
  mulf (F := Ideal) (φ := .f32) (v47 a0 a1 a2) (v48 a0 a1 a2)
def cst_12 : Stage S_ .f32 := fun a0 a1 a2 =>
  (constant (F := Ideal) S_ .f32 0x3F800000#32)
def v50 : Stage S4x2048 .f32 := fun a0 a1 a2 =>
  broadcastInDim S4x2048 ![] bcast_S_S4x2048 (cst_12 a0 a1 a2)
def v51 : Stage S4x2048 .f32 := fun a0 a1 a2 =>
  subf (F := Ideal) (φ := .f32) (v50 a0 a1 a2) (v49 a0 a1 a2)
def cst_13 : Stage S_ .f32 := fun a0 a1 a2 =>
  (constant (F := Ideal) S_ .f32 0x00000000#32)
def cst_14 : Stage S_ .f32 := fun a0 a1 a2 =>
  (constant (F := Ideal) S_ .f32 0x3F800000#32)
def call4_v0 : Stage S_ .f32 := fun a0 a1 a2 =>
  id (cst_13 a0 a1 a2)
def call4_v1 : Stage S4x2048 .f32 := fun a0 a1 a2 =>
  (broadcastInDim S4x2048 ![] bcast_S_S4x2048) (call4_v0 a0 a1 a2)
def call4_v2 : Stage S4x2048 .f32 := fun a0 a1 a2 =>
  (maximumf (F := Ideal) (φ := .f32)) (call4_v1 a0 a1 a2) (v51 a0 a1 a2)
def call4_v3 : Stage S_ .f32 := fun a0 a1 a2 =>
  id (cst_14 a0 a1 a2)
def call4_v4 : Stage S4x2048 .f32 := fun a0 a1 a2 =>
  (broadcastInDim S4x2048 ![] bcast_S_S4x2048) (call4_v3 a0 a1 a2)
def v52 : Stage S4x2048 .f32 := fun a0 a1 a2 =>
  (minimumf (F := Ideal) (φ := .f32)) (call4_v4 a0 a1 a2) (call4_v2 a0 a1 a2)
def cst_15 : Stage S_ .f32 := fun a0 a1 a2 =>
  (constant (F := Ideal) S_ .f32 0x00000000#32)
def v53 : Stage S4x512 .f32 := fun a0 a1 a2 =>
  broadcastInDim S4x512 ![] bcast_S_S4x512 (cst_15 a0 a1 a2)
def v54 : Stage S4x2048x1 .f32 := fun a0 a1 a2 =>
  broadcastInDim S4x2048x1 ![0, 1] bcast_S4x2048_S4x2048x1_0_1 (v52 a0 a1 a2)
def v55 : Stage S4x2048x512 .f32 := fun a0 a1 a2 =>
  broadcastInDim S4x2048x512 ![0, 1, 2] bcast_S4x2048x1_S4x2048x512_0_1_2 (v54 a0 a1 a2)
def cst_16 : Stage S_ .f32 := fun a0 a1 a2 =>
  (constant (F := Ideal) S_ .f32 0x3F800000#32)
def v56 : Stage S4x2048 .f32 := fun a0 a1 a2 =>
  broadcastInDim S4x2048 ![] bcast_S_S4x2048 (cst_16 a0 a1 a2)
def v57 : Stage S4x2048 .f32 := fun a0 a1 a2 =>
  subf (F := Ideal) (φ := .f32) (v56 a0 a1 a2) (v52 a0 a1 a2)
def v58 : Stage S4x2048x1 .f32 := fun a0 a1 a2 =>
  broadcastInDim S4x2048x1 ![0, 1] bcast_S4x2048_S4x2048x1_0_1 (v57 a0 a1 a2)
def v59 : Stage S4x2048x512 .f32 := fun a0 a1 a2 =>
  broadcastInDim S4x2048x512 ![0, 1, 2] bcast_S4x2048x1_S4x2048x512_0_1_2 (v58 a0 a1 a2)
def v60 : Stage S4x2048x512 .f32 := fun a0 a1 a2 =>
  mulf (F := Ideal) (φ := .f32) (v59 a0 a1 a2) (v40 a0 a1 a2)
def v61 : Stage S4x1x512 .f32 := fun a0 a1 a2 =>
  (extractStridedSlice S4x1x512 ![0, 0, 0] · slices_S4x2048x512_S4x1x512_0_0_0) (v60 a0 a1 a2)
def v62 : Stage S4x1x512 .f32 := fun a0 a1 a2 =>
  (extractStridedSlice S4x1x512 ![0, 0, 0] · slices_S4x2048x512_S4x1x512_0_0_0) (v55 a0 a1 a2)
def v63 : Stage S4x1x512 .f32 := fun a0 a1 a2 =>
  broadcastInDim S4x1x512 ![0, 2] bcast_S4x512_S4x1x512_0_2 (v53 a0 a1 a2)
def v64 : Stage S4x1x512 .f32 := fun a0 a1 a2 =>
  mulf (F := Ideal) (φ := .f32) (v62 a0 a1 a2) (v63 a0 a1 a2)
def v65 : Stage S4x1x512 .f32 := fun a0 a1 a2 =>
  addf (F := Ideal) (φ := .f32) (v61 a0 a1 a2) (v64 a0 a1 a2)
def v66 : Stage S4x2047x512 .f32 := fun a0 a1 a2 =>
  (extractStridedSlice S4x2047x512 ![0, 1, 0] · slices_S4x2048x512_S4x2047x512_0_1_0) (v60 a0 a1 a2)
def v67 : Stage S4x2048x512 .f32 := fun a0 a1 a2 =>
  (fun a b => concatenate S4x2048x512 1 [⟨S4x1x512, a⟩, ⟨S4x2047x512, b⟩] concatenates_S4x1x512_S4x2047x512_S4x2048x512_d1) (v65 a0 a1 a2) (v66 a0 a1 a2)
def v68 : Stage S4x1x512 .f32 := fun a0 a1 a2 =>
  (extractStridedSlice S4x1x512 ![0, 0, 0] · slices_S4x2048x512_S4x1x512_0_0_0) (v67 a0 a1 a2)
def v69 : Stage S4x2047x512 .f32 := fun a0 a1 a2 =>
  (extractStridedSlice S4x2047x512 ![0, 1, 0] · slices_S4x2048x512_S4x2047x512_0_1_0) (v55 a0 a1 a2)
def v70 : Stage S4x2047x512 .f32 := fun a0 a1 a2 =>
  (extractStridedSlice S4x2047x512 ![0, 0, 0] · slices_S4x2048x512_S4x2047x512_0_0_0) (v67 a0 a1 a2)
def v71 : Stage S4x2047x512 .f32 := fun a0 a1 a2 =>
  mulf (F := Ideal) (φ := .f32) (v69 a0 a1 a2) (v70 a0 a1 a2)
def v72 : Stage S4x2047x512 .f32 := fun a0 a1 a2 =>
  (extractStridedSlice S4x2047x512 ![0, 1, 0] · slices_S4x2048x512_S4x2047x512_0_1_0) (v67 a0 a1 a2)
def v73 : Stage S4x2047x512 .f32 := fun a0 a1 a2 =>
  addf (F := Ideal) (φ := .f32) (v71 a0 a1 a2) (v72 a0 a1 a2)
def v74 : Stage S4x2048x512 .f32 := fun a0 a1 a2 =>
  (fun a b => concatenate S4x2048x512 1 [⟨S4x1x512, a⟩, ⟨S4x2047x512, b⟩] concatenates_S4x1x512_S4x2047x512_S4x2048x512_d1) (v68 a0 a1 a2) (v73 a0 a1 a2)
def v75 : Stage S4x1x512 .f32 := fun a0 a1 a2 =>
  (extractStridedSlice S4x1x512 ![0, 0, 0] · slices_S4x2048x512_S4x1x512_0_0_0) (v55 a0 a1 a2)
def v76 : Stage S4x2047x512 .f32 := fun a0 a1 a2 =>
  (extractStridedSlice S4x2047x512 ![0, 1, 0] · slices_S4x2048x512_S4x2047x512_0_1_0) (v55 a0 a1 a2)
def v77 : Stage S4x2047x512 .f32 := fun a0 a1 a2 =>
  (extractStridedSlice S4x2047x512 ![0, 0, 0] · slices_S4x2048x512_S4x2047x512_0_0_0) (v55 a0 a1 a2)
def v78 : Stage S4x2047x512 .f32 := fun a0 a1 a2 =>
  mulf (F := Ideal) (φ := .f32) (v76 a0 a1 a2) (v77 a0 a1 a2)
def v79 : Stage S4x2048x512 .f32 := fun a0 a1 a2 =>
  (fun a b => concatenate S4x2048x512 1 [⟨S4x1x512, a⟩, ⟨S4x2047x512, b⟩] concatenates_S4x1x512_S4x2047x512_S4x2048x512_d1) (v75 a0 a1 a2) (v78 a0 a1 a2)
def v80 : Stage S4x2x512 .f32 := fun a0 a1 a2 =>
  (extractStridedSlice S4x2x512 ![0, 0, 0] · slices_S4x2048x512_S4x2x512_0_0_0) (v74 a0 a1 a2)
def v81 : Stage S4x2046x512 .f32 := fun a0 a1 a2 =>
  (extractStridedSlice S4x2046x512 ![0, 2, 0] · slices_S4x2048x512_S4x2046x512_0_2_0) (v79 a0 a1 a2)
def v82 : Stage S4x2046x512 .f32 := fun a0 a1 a2 =>
  (extractStridedSlice S4x2046x512 ![0, 0, 0] · slices_S4x2048x512_S4x2046x512_0_0_0) (v74 a0 a1 a2)
def v83 : Stage S4x2046x512 .f32 := fun a0 a1 a2 =>
  mulf (F := Ideal) (φ := .f32) (v81 a0 a1 a2) (v82 a0 a1 a2)
def v84 : Stage S4x2046x512 .f32 := fun a0 a1 a2 =>
  (extractStridedSlice S4x2046x512 ![0, 2, 0] · slices_S4x2048x512_S4x2046x512_0_2_0) (v74 a0 a1 a2)
def v85 : Stage S4x2046x512 .f32 := fun a0 a1 a2 =>
  addf (F := Ideal) (φ := .f32) (v83 a0 a1 a2) (v84 a0 a1 a2)
def v86 : Stage S4x2048x512 .f32 := fun a0 a1 a2 =>
  (fun a b => concatenate S4x2048x512 1 [⟨S4x2x512, a⟩, ⟨S4x2046x512, b⟩] concatenates_S4x2x512_S4x2046x512_S4x2048x512_d1) (v80 a0 a1 a2) (v85 a0 a1 a2)
def v87 : Stage S4x2x512 .f32 := fun a0 a1 a2 =>
  (extractStridedSlice S4x2x512 ![0, 0, 0] · slices_S4x2048x512_S4x2x512_0_0_0) (v79 a0 a1 a2)
def v88 : Stage S4x2046x512 .f32 := fun a0 a1 a2 =>
  (extractStridedSlice S4x2046x512 ![0, 2, 0] · slices_S4x2048x512_S4x2046x512_0_2_0) (v79 a0 a1 a2)
def v89 : Stage S4x2046x512 .f32 := fun a0 a1 a2 =>
  (extractStridedSlice S4x2046x512 ![0, 0, 0] · slices_S4x2048x512_S4x2046x512_0_0_0) (v79 a0 a1 a2)
def v90 : Stage S4x2046x512 .f32 := fun a0 a1 a2 =>
  mulf (F := Ideal) (φ := .f32) (v88 a0 a1 a2) (v89 a0 a1 a2)
def v91 : Stage S4x2048x512 .f32 := fun a0 a1 a2 =>
  (fun a b => concatenate S4x2048x512 1 [⟨S4x2x512, a⟩, ⟨S4x2046x512, b⟩] concatenates_S4x2x512_S4x2046x512_S4x2048x512_d1) (v87 a0 a1 a2) (v90 a0 a1 a2)
def v92 : Stage S4x4x512 .f32 := fun a0 a1 a2 =>
  (extractStridedSlice S4x4x512 ![0, 0, 0] · slices_S4x2048x512_S4x4x512_0_0_0) (v86 a0 a1 a2)
def v93 : Stage S4x2044x512 .f32 := fun a0 a1 a2 =>
  (extractStridedSlice S4x2044x512 ![0, 4, 0] · slices_S4x2048x512_S4x2044x512_0_4_0) (v91 a0 a1 a2)
def v94 : Stage S4x2044x512 .f32 := fun a0 a1 a2 =>
  (extractStridedSlice S4x2044x512 ![0, 0, 0] · slices_S4x2048x512_S4x2044x512_0_0_0) (v86 a0 a1 a2)
def v95 : Stage S4x2044x512 .f32 := fun a0 a1 a2 =>
  mulf (F := Ideal) (φ := .f32) (v93 a0 a1 a2) (v94 a0 a1 a2)
def v96 : Stage S4x2044x512 .f32 := fun a0 a1 a2 =>
  (extractStridedSlice S4x2044x512 ![0, 4, 0] · slices_S4x2048x512_S4x2044x512_0_4_0) (v86 a0 a1 a2)
def v97 : Stage S4x2044x512 .f32 := fun a0 a1 a2 =>
  addf (F := Ideal) (φ := .f32) (v95 a0 a1 a2) (v96 a0 a1 a2)
def v98 : Stage S4x2048x512 .f32 := fun a0 a1 a2 =>
  (fun a b => concatenate S4x2048x512 1 [⟨S4x4x512, a⟩, ⟨S4x2044x512, b⟩] concatenates_S4x4x512_S4x2044x512_S4x2048x512_d1) (v92 a0 a1 a2) (v97 a0 a1 a2)
def v99 : Stage S4x4x512 .f32 := fun a0 a1 a2 =>
  (extractStridedSlice S4x4x512 ![0, 0, 0] · slices_S4x2048x512_S4x4x512_0_0_0) (v91 a0 a1 a2)
def v100 : Stage S4x2044x512 .f32 := fun a0 a1 a2 =>
  (extractStridedSlice S4x2044x512 ![0, 4, 0] · slices_S4x2048x512_S4x2044x512_0_4_0) (v91 a0 a1 a2)
def v101 : Stage S4x2044x512 .f32 := fun a0 a1 a2 =>
  (extractStridedSlice S4x2044x512 ![0, 0, 0] · slices_S4x2048x512_S4x2044x512_0_0_0) (v91 a0 a1 a2)
def v102 : Stage S4x2044x512 .f32 := fun a0 a1 a2 =>
  mulf (F := Ideal) (φ := .f32) (v100 a0 a1 a2) (v101 a0 a1 a2)
def v103 : Stage S4x2048x512 .f32 := fun a0 a1 a2 =>
  (fun a b => concatenate S4x2048x512 1 [⟨S4x4x512, a⟩, ⟨S4x2044x512, b⟩] concatenates_S4x4x512_S4x2044x512_S4x2048x512_d1) (v99 a0 a1 a2) (v102 a0 a1 a2)
def v104 : Stage S4x8x512 .f32 := fun a0 a1 a2 =>
  (extractStridedSlice S4x8x512 ![0, 0, 0] · slices_S4x2048x512_S4x8x512_0_0_0) (v98 a0 a1 a2)
def v105 : Stage S4x2040x512 .f32 := fun a0 a1 a2 =>
  (extractStridedSlice S4x2040x512 ![0, 8, 0] · slices_S4x2048x512_S4x2040x512_0_8_0) (v103 a0 a1 a2)
def v106 : Stage S4x2040x512 .f32 := fun a0 a1 a2 =>
  (extractStridedSlice S4x2040x512 ![0, 0, 0] · slices_S4x2048x512_S4x2040x512_0_0_0) (v98 a0 a1 a2)
def v107 : Stage S4x2040x512 .f32 := fun a0 a1 a2 =>
  mulf (F := Ideal) (φ := .f32) (v105 a0 a1 a2) (v106 a0 a1 a2)
def v108 : Stage S4x2040x512 .f32 := fun a0 a1 a2 =>
  (extractStridedSlice S4x2040x512 ![0, 8, 0] · slices_S4x2048x512_S4x2040x512_0_8_0) (v98 a0 a1 a2)
def v109 : Stage S4x2040x512 .f32 := fun a0 a1 a2 =>
  addf (F := Ideal) (φ := .f32) (v107 a0 a1 a2) (v108 a0 a1 a2)
def v110 : Stage S4x2048x512 .f32 := fun a0 a1 a2 =>
  (fun a b => concatenate S4x2048x512 1 [⟨S4x8x512, a⟩, ⟨S4x2040x512, b⟩] concatenates_S4x8x512_S4x2040x512_S4x2048x512_d1) (v104 a0 a1 a2) (v109 a0 a1 a2)
def v111 : Stage S4x8x512 .f32 := fun a0 a1 a2 =>
  (extractStridedSlice S4x8x512 ![0, 0, 0] · slices_S4x2048x512_S4x8x512_0_0_0) (v103 a0 a1 a2)
def v112 : Stage S4x2040x512 .f32 := fun a0 a1 a2 =>
  (extractStridedSlice S4x2040x512 ![0, 8, 0] · slices_S4x2048x512_S4x2040x512_0_8_0) (v103 a0 a1 a2)
def v113 : Stage S4x2040x512 .f32 := fun a0 a1 a2 =>
  (extractStridedSlice S4x2040x512 ![0, 0, 0] · slices_S4x2048x512_S4x2040x512_0_0_0) (v103 a0 a1 a2)
def v114 : Stage S4x2040x512 .f32 := fun a0 a1 a2 =>
  mulf (F := Ideal) (φ := .f32) (v112 a0 a1 a2) (v113 a0 a1 a2)
def v115 : Stage S4x2048x512 .f32 := fun a0 a1 a2 =>
  (fun a b => concatenate S4x2048x512 1 [⟨S4x8x512, a⟩, ⟨S4x2040x512, b⟩] concatenates_S4x8x512_S4x2040x512_S4x2048x512_d1) (v111 a0 a1 a2) (v114 a0 a1 a2)
def v116 : Stage S4x16x512 .f32 := fun a0 a1 a2 =>
  (extractStridedSlice S4x16x512 ![0, 0, 0] · slices_S4x2048x512_S4x16x512_0_0_0) (v110 a0 a1 a2)
def v117 : Stage S4x2032x512 .f32 := fun a0 a1 a2 =>
  (extractStridedSlice S4x2032x512 ![0, 16, 0] · slices_S4x2048x512_S4x2032x512_0_16_0) (v115 a0 a1 a2)
def v118 : Stage S4x2032x512 .f32 := fun a0 a1 a2 =>
  (extractStridedSlice S4x2032x512 ![0, 0, 0] · slices_S4x2048x512_S4x2032x512_0_0_0) (v110 a0 a1 a2)
def v119 : Stage S4x2032x512 .f32 := fun a0 a1 a2 =>
  mulf (F := Ideal) (φ := .f32) (v117 a0 a1 a2) (v118 a0 a1 a2)
def v120 : Stage S4x2032x512 .f32 := fun a0 a1 a2 =>
  (extractStridedSlice S4x2032x512 ![0, 16, 0] · slices_S4x2048x512_S4x2032x512_0_16_0) (v110 a0 a1 a2)
def v121 : Stage S4x2032x512 .f32 := fun a0 a1 a2 =>
  addf (F := Ideal) (φ := .f32) (v119 a0 a1 a2) (v120 a0 a1 a2)
def v122 : Stage S4x2048x512 .f32 := fun a0 a1 a2 =>
  (fun a b => concatenate S4x2048x512 1 [⟨S4x16x512, a⟩, ⟨S4x2032x512, b⟩] concatenates_S4x16x512_S4x2032x512_S4x2048x512_d1) (v116 a0 a1 a2) (v121 a0 a1 a2)
def v123 : Stage S4x16x512 .f32 := fun a0 a1 a2 =>
  (extractStridedSlice S4x16x512 ![0, 0, 0] · slices_S4x2048x512_S4x16x512_0_0_0) (v115 a0 a1 a2)
def v124 : Stage S4x2032x512 .f32 := fun a0 a1 a2 =>
  (extractStridedSlice S4x2032x512 ![0, 16, 0] · slices_S4x2048x512_S4x2032x512_0_16_0) (v115 a0 a1 a2)
def v125 : Stage S4x2032x512 .f32 := fun a0 a1 a2 =>
  (extractStridedSlice S4x2032x512 ![0, 0, 0] · slices_S4x2048x512_S4x2032x512_0_0_0) (v115 a0 a1 a2)
def v126 : Stage S4x2032x512 .f32 := fun a0 a1 a2 =>
  mulf (F := Ideal) (φ := .f32) (v124 a0 a1 a2) (v125 a0 a1 a2)
def v127 : Stage S4x2048x512 .f32 := fun a0 a1 a2 =>
  (fun a b => concatenate S4x2048x512 1 [⟨S4x16x512, a⟩, ⟨S4x2032x512, b⟩] concatenates_S4x16x512_S4x2032x512_S4x2048x512_d1) (v123 a0 a1 a2) (v126 a0 a1 a2)
def v128 : Stage S4x32x512 .f32 := fun a0 a1 a2 =>
  (extractStridedSlice S4x32x512 ![0, 0, 0] · slices_S4x2048x512_S4x32x512_0_0_0) (v122 a0 a1 a2)
def v129 : Stage S4x2016x512 .f32 := fun a0 a1 a2 =>
  (extractStridedSlice S4x2016x512 ![0, 32, 0] · slices_S4x2048x512_S4x2016x512_0_32_0) (v127 a0 a1 a2)
def v130 : Stage S4x2016x512 .f32 := fun a0 a1 a2 =>
  (extractStridedSlice S4x2016x512 ![0, 0, 0] · slices_S4x2048x512_S4x2016x512_0_0_0) (v122 a0 a1 a2)
def v131 : Stage S4x2016x512 .f32 := fun a0 a1 a2 =>
  mulf (F := Ideal) (φ := .f32) (v129 a0 a1 a2) (v130 a0 a1 a2)
def v132 : Stage S4x2016x512 .f32 := fun a0 a1 a2 =>
  (extractStridedSlice S4x2016x512 ![0, 32, 0] · slices_S4x2048x512_S4x2016x512_0_32_0) (v122 a0 a1 a2)
def v133 : Stage S4x2016x512 .f32 := fun a0 a1 a2 =>
  addf (F := Ideal) (φ := .f32) (v131 a0 a1 a2) (v132 a0 a1 a2)
def v134 : Stage S4x2048x512 .f32 := fun a0 a1 a2 =>
  (fun a b => concatenate S4x2048x512 1 [⟨S4x32x512, a⟩, ⟨S4x2016x512, b⟩] concatenates_S4x32x512_S4x2016x512_S4x2048x512_d1) (v128 a0 a1 a2) (v133 a0 a1 a2)
def v135 : Stage S4x32x512 .f32 := fun a0 a1 a2 =>
  (extractStridedSlice S4x32x512 ![0, 0, 0] · slices_S4x2048x512_S4x32x512_0_0_0) (v127 a0 a1 a2)
def v136 : Stage S4x2016x512 .f32 := fun a0 a1 a2 =>
  (extractStridedSlice S4x2016x512 ![0, 32, 0] · slices_S4x2048x512_S4x2016x512_0_32_0) (v127 a0 a1 a2)
def v137 : Stage S4x2016x512 .f32 := fun a0 a1 a2 =>
  (extractStridedSlice S4x2016x512 ![0, 0, 0] · slices_S4x2048x512_S4x2016x512_0_0_0) (v127 a0 a1 a2)
def v138 : Stage S4x2016x512 .f32 := fun a0 a1 a2 =>
  mulf (F := Ideal) (φ := .f32) (v136 a0 a1 a2) (v137 a0 a1 a2)
def v139 : Stage S4x2048x512 .f32 := fun a0 a1 a2 =>
  (fun a b => concatenate S4x2048x512 1 [⟨S4x32x512, a⟩, ⟨S4x2016x512, b⟩] concatenates_S4x32x512_S4x2016x512_S4x2048x512_d1) (v135 a0 a1 a2) (v138 a0 a1 a2)
def v140 : Stage S4x64x512 .f32 := fun a0 a1 a2 =>
  (extractStridedSlice S4x64x512 ![0, 0, 0] · slices_S4x2048x512_S4x64x512_0_0_0) (v134 a0 a1 a2)
def v141 : Stage S4x1984x512 .f32 := fun a0 a1 a2 =>
  (extractStridedSlice S4x1984x512 ![0, 64, 0] · slices_S4x2048x512_S4x1984x512_0_64_0) (v139 a0 a1 a2)
def v142 : Stage S4x1984x512 .f32 := fun a0 a1 a2 =>
  (extractStridedSlice S4x1984x512 ![0, 0, 0] · slices_S4x2048x512_S4x1984x512_0_0_0) (v134 a0 a1 a2)
def v143 : Stage S4x1984x512 .f32 := fun a0 a1 a2 =>
  mulf (F := Ideal) (φ := .f32) (v141 a0 a1 a2) (v142 a0 a1 a2)
def v144 : Stage S4x1984x512 .f32 := fun a0 a1 a2 =>
  (extractStridedSlice S4x1984x512 ![0, 64, 0] · slices_S4x2048x512_S4x1984x512_0_64_0) (v134 a0 a1 a2)
def v145 : Stage S4x1984x512 .f32 := fun a0 a1 a2 =>
  addf (F := Ideal) (φ := .f32) (v143 a0 a1 a2) (v144 a0 a1 a2)
def v146 : Stage S4x2048x512 .f32 := fun a0 a1 a2 =>
  (fun a b => concatenate S4x2048x512 1 [⟨S4x64x512, a⟩, ⟨S4x1984x512, b⟩] concatenates_S4x64x512_S4x1984x512_S4x2048x512_d1) (v140 a0 a1 a2) (v145 a0 a1 a2)
def v147 : Stage S4x64x512 .f32 := fun a0 a1 a2 =>
  (extractStridedSlice S4x64x512 ![0, 0, 0] · slices_S4x2048x512_S4x64x512_0_0_0) (v139 a0 a1 a2)
def v148 : Stage S4x1984x512 .f32 := fun a0 a1 a2 =>
  (extractStridedSlice S4x1984x512 ![0, 64, 0] · slices_S4x2048x512_S4x1984x512_0_64_0) (v139 a0 a1 a2)
def v149 : Stage S4x1984x512 .f32 := fun a0 a1 a2 =>
  (extractStridedSlice S4x1984x512 ![0, 0, 0] · slices_S4x2048x512_S4x1984x512_0_0_0) (v139 a0 a1 a2)
def v150 : Stage S4x1984x512 .f32 := fun a0 a1 a2 =>
  mulf (F := Ideal) (φ := .f32) (v148 a0 a1 a2) (v149 a0 a1 a2)
def v151 : Stage S4x2048x512 .f32 := fun a0 a1 a2 =>
  (fun a b => concatenate S4x2048x512 1 [⟨S4x64x512, a⟩, ⟨S4x1984x512, b⟩] concatenates_S4x64x512_S4x1984x512_S4x2048x512_d1) (v147 a0 a1 a2) (v150 a0 a1 a2)
def v152 : Stage S4x128x512 .f32 := fun a0 a1 a2 =>
  (extractStridedSlice S4x128x512 ![0, 0, 0] · slices_S4x2048x512_S4x128x512_0_0_0) (v146 a0 a1 a2)
def v153 : Stage S4x1920x512 .f32 := fun a0 a1 a2 =>
  (extractStridedSlice S4x1920x512 ![0, 128, 0] · slices_S4x2048x512_S4x1920x512_0_128_0) (v151 a0 a1 a2)
def v154 : Stage S4x1920x512 .f32 := fun a0 a1 a2 =>
  (extractStridedSlice S4x1920x512 ![0, 0, 0] · slices_S4x2048x512_S4x1920x512_0_0_0) (v146 a0 a1 a2)
def v155 : Stage S4x1920x512 .f32 := fun a0 a1 a2 =>
  mulf (F := Ideal) (φ := .f32) (v153 a0 a1 a2) (v154 a0 a1 a2)
def v156 : Stage S4x1920x512 .f32 := fun a0 a1 a2 =>
  (extractStridedSlice S4x1920x512 ![0, 128, 0] · slices_S4x2048x512_S4x1920x512_0_128_0) (v146 a0 a1 a2)
def v157 : Stage S4x1920x512 .f32 := fun a0 a1 a2 =>
  addf (F := Ideal) (φ := .f32) (v155 a0 a1 a2) (v156 a0 a1 a2)
def v158 : Stage S4x2048x512 .f32 := fun a0 a1 a2 =>
  (fun a b => concatenate S4x2048x512 1 [⟨S4x128x512, a⟩, ⟨S4x1920x512, b⟩] concatenates_S4x128x512_S4x1920x512_S4x2048x512_d1) (v152 a0 a1 a2) (v157 a0 a1 a2)
def v159 : Stage S4x128x512 .f32 := fun a0 a1 a2 =>
  (extractStridedSlice S4x128x512 ![0, 0, 0] · slices_S4x2048x512_S4x128x512_0_0_0) (v151 a0 a1 a2)
def v160 : Stage S4x1920x512 .f32 := fun a0 a1 a2 =>
  (extractStridedSlice S4x1920x512 ![0, 128, 0] · slices_S4x2048x512_S4x1920x512_0_128_0) (v151 a0 a1 a2)
def v161 : Stage S4x1920x512 .f32 := fun a0 a1 a2 =>
  (extractStridedSlice S4x1920x512 ![0, 0, 0] · slices_S4x2048x512_S4x1920x512_0_0_0) (v151 a0 a1 a2)
def v162 : Stage S4x1920x512 .f32 := fun a0 a1 a2 =>
  mulf (F := Ideal) (φ := .f32) (v160 a0 a1 a2) (v161 a0 a1 a2)
def v163 : Stage S4x2048x512 .f32 := fun a0 a1 a2 =>
  (fun a b => concatenate S4x2048x512 1 [⟨S4x128x512, a⟩, ⟨S4x1920x512, b⟩] concatenates_S4x128x512_S4x1920x512_S4x2048x512_d1) (v159 a0 a1 a2) (v162 a0 a1 a2)
def v164 : Stage S4x256x512 .f32 := fun a0 a1 a2 =>
  (extractStridedSlice S4x256x512 ![0, 0, 0] · slices_S4x2048x512_S4x256x512_0_0_0) (v158 a0 a1 a2)
def v165 : Stage S4x1792x512 .f32 := fun a0 a1 a2 =>
  (extractStridedSlice S4x1792x512 ![0, 256, 0] · slices_S4x2048x512_S4x1792x512_0_256_0) (v163 a0 a1 a2)
def v166 : Stage S4x1792x512 .f32 := fun a0 a1 a2 =>
  (extractStridedSlice S4x1792x512 ![0, 0, 0] · slices_S4x2048x512_S4x1792x512_0_0_0) (v158 a0 a1 a2)
def v167 : Stage S4x1792x512 .f32 := fun a0 a1 a2 =>
  mulf (F := Ideal) (φ := .f32) (v165 a0 a1 a2) (v166 a0 a1 a2)
def v168 : Stage S4x1792x512 .f32 := fun a0 a1 a2 =>
  (extractStridedSlice S4x1792x512 ![0, 256, 0] · slices_S4x2048x512_S4x1792x512_0_256_0) (v158 a0 a1 a2)
def v169 : Stage S4x1792x512 .f32 := fun a0 a1 a2 =>
  addf (F := Ideal) (φ := .f32) (v167 a0 a1 a2) (v168 a0 a1 a2)
def v170 : Stage S4x2048x512 .f32 := fun a0 a1 a2 =>
  (fun a b => concatenate S4x2048x512 1 [⟨S4x256x512, a⟩, ⟨S4x1792x512, b⟩] concatenates_S4x256x512_S4x1792x512_S4x2048x512_d1) (v164 a0 a1 a2) (v169 a0 a1 a2)
def v171 : Stage S4x256x512 .f32 := fun a0 a1 a2 =>
  (extractStridedSlice S4x256x512 ![0, 0, 0] · slices_S4x2048x512_S4x256x512_0_0_0) (v163 a0 a1 a2)
def v172 : Stage S4x1792x512 .f32 := fun a0 a1 a2 =>
  (extractStridedSlice S4x1792x512 ![0, 256, 0] · slices_S4x2048x512_S4x1792x512_0_256_0) (v163 a0 a1 a2)
def v173 : Stage S4x1792x512 .f32 := fun a0 a1 a2 =>
  (extractStridedSlice S4x1792x512 ![0, 0, 0] · slices_S4x2048x512_S4x1792x512_0_0_0) (v163 a0 a1 a2)
def v174 : Stage S4x1792x512 .f32 := fun a0 a1 a2 =>
  mulf (F := Ideal) (φ := .f32) (v172 a0 a1 a2) (v173 a0 a1 a2)
def v175 : Stage S4x2048x512 .f32 := fun a0 a1 a2 =>
  (fun a b => concatenate S4x2048x512 1 [⟨S4x256x512, a⟩, ⟨S4x1792x512, b⟩] concatenates_S4x256x512_S4x1792x512_S4x2048x512_d1) (v171 a0 a1 a2) (v174 a0 a1 a2)
def v176 : Stage S4x512x512 .f32 := fun a0 a1 a2 =>
  (extractStridedSlice S4x512x512 ![0, 0, 0] · slices_S4x2048x512_S4x512x512_0_0_0) (v170 a0 a1 a2)
def v177 : Stage S4x1536x512 .f32 := fun a0 a1 a2 =>
  (extractStridedSlice S4x1536x512 ![0, 512, 0] · slices_S4x2048x512_S4x1536x512_0_512_0) (v175 a0 a1 a2)
def v178 : Stage S4x1536x512 .f32 := fun a0 a1 a2 =>
  (extractStridedSlice S4x1536x512 ![0, 0, 0] · slices_S4x2048x512_S4x1536x512_0_0_0) (v170 a0 a1 a2)
def v179 : Stage S4x1536x512 .f32 := fun a0 a1 a2 =>
  mulf (F := Ideal) (φ := .f32) (v177 a0 a1 a2) (v178 a0 a1 a2)
def v180 : Stage S4x1536x512 .f32 := fun a0 a1 a2 =>
  (extractStridedSlice S4x1536x512 ![0, 512, 0] · slices_S4x2048x512_S4x1536x512_0_512_0) (v170 a0 a1 a2)
def v181 : Stage S4x1536x512 .f32 := fun a0 a1 a2 =>
  addf (F := Ideal) (φ := .f32) (v179 a0 a1 a2) (v180 a0 a1 a2)
def v182 : Stage S4x2048x512 .f32 := fun a0 a1 a2 =>
  (fun a b => concatenate S4x2048x512 1 [⟨S4x512x512, a⟩, ⟨S4x1536x512, b⟩] concatenates_S4x512x512_S4x1536x512_S4x2048x512_d1) (v176 a0 a1 a2) (v181 a0 a1 a2)
def v183 : Stage S4x512x512 .f32 := fun a0 a1 a2 =>
  (extractStridedSlice S4x512x512 ![0, 0, 0] · slices_S4x2048x512_S4x512x512_0_0_0) (v175 a0 a1 a2)
def v184 : Stage S4x1536x512 .f32 := fun a0 a1 a2 =>
  (extractStridedSlice S4x1536x512 ![0, 512, 0] · slices_S4x2048x512_S4x1536x512_0_512_0) (v175 a0 a1 a2)
def v185 : Stage S4x1536x512 .f32 := fun a0 a1 a2 =>
  (extractStridedSlice S4x1536x512 ![0, 0, 0] · slices_S4x2048x512_S4x1536x512_0_0_0) (v175 a0 a1 a2)
def v186 : Stage S4x1536x512 .f32 := fun a0 a1 a2 =>
  mulf (F := Ideal) (φ := .f32) (v184 a0 a1 a2) (v185 a0 a1 a2)
def v187 : Stage S4x2048x512 .f32 := fun a0 a1 a2 =>
  (fun a b => concatenate S4x2048x512 1 [⟨S4x512x512, a⟩, ⟨S4x1536x512, b⟩] concatenates_S4x512x512_S4x1536x512_S4x2048x512_d1) (v183 a0 a1 a2) (v186 a0 a1 a2)
def v188 : Stage S4x1024x512 .f32 := fun a0 a1 a2 =>
  (extractStridedSlice S4x1024x512 ![0, 0, 0] · slices_S4x2048x512_S4x1024x512_0_0_0) (v182 a0 a1 a2)
def v189 : Stage S4x1024x512 .f32 := fun a0 a1 a2 =>
  (extractStridedSlice S4x1024x512 ![0, 1024, 0] · slices_S4x2048x512_S4x1024x512_0_1024_0) (v187 a0 a1 a2)
def v190 : Stage S4x1024x512 .f32 := fun a0 a1 a2 =>
  (extractStridedSlice S4x1024x512 ![0, 0, 0] · slices_S4x2048x512_S4x1024x512_0_0_0) (v182 a0 a1 a2)
def v191 : Stage S4x1024x512 .f32 := fun a0 a1 a2 =>
  mulf (F := Ideal) (φ := .f32) (v189 a0 a1 a2) (v190 a0 a1 a2)
def v192 : Stage S4x1024x512 .f32 := fun a0 a1 a2 =>
  (extractStridedSlice S4x1024x512 ![0, 1024, 0] · slices_S4x2048x512_S4x1024x512_0_1024_0) (v182 a0 a1 a2)
def v193 : Stage S4x1024x512 .f32 := fun a0 a1 a2 =>
  addf (F := Ideal) (φ := .f32) (v191 a0 a1 a2) (v192 a0 a1 a2)
def v194 : Stage S4x2048x512 .f32 := fun a0 a1 a2 =>
  (fun a b => concatenate S4x2048x512 1 [⟨S4x1024x512, a⟩, ⟨S4x1024x512, b⟩] concatenates_S4x1024x512_S4x1024x512_S4x2048x512_d1) (v188 a0 a1 a2) (v193 a0 a1 a2)
def v195 : Stage S4x1024x512 .f32 := fun a0 a1 a2 =>
  (extractStridedSlice S4x1024x512 ![0, 0, 0] · slices_S4x2048x512_S4x1024x512_0_0_0) (v187 a0 a1 a2)
def v196 : Stage S4x1024x512 .f32 := fun a0 a1 a2 =>
  (extractStridedSlice S4x1024x512 ![0, 1024, 0] · slices_S4x2048x512_S4x1024x512_0_1024_0) (v187 a0 a1 a2)
def v197 : Stage S4x1024x512 .f32 := fun a0 a1 a2 =>
  (extractStridedSlice S4x1024x512 ![0, 0, 0] · slices_S4x2048x512_S4x1024x512_0_0_0) (v187 a0 a1 a2)
def v198 : Stage S4x1024x512 .f32 := fun a0 a1 a2 =>
  mulf (F := Ideal) (φ := .f32) (v196 a0 a1 a2) (v197 a0 a1 a2)
def v199 : Stage S4x2048x512 .f32 := fun a0 a1 a2 =>
  (fun a b => concatenate S4x2048x512 1 [⟨S4x1024x512, a⟩, ⟨S4x1024x512, b⟩] concatenates_S4x1024x512_S4x1024x512_S4x2048x512_d1) (v195 a0 a1 a2) (v198 a0 a1 a2)
def v200 : Stage S4x2048x1 .i1 := fun a0 a1 a2 =>
  broadcastInDim S4x2048x1 ![0, 1] bcast_S4x2048_S4x2048x1_0_1 (v46 a0 a1 a2)
def v201 : Stage S4x2048x1 .f32 := fun a0 a1 a2 =>
  uitofp (F := Ideal) .f32 (v200 a0 a1 a2)
def v202 : Stage S4x2048x512 .f32 := fun a0 a1 a2 =>
  broadcastInDim S4x2048x512 ![0, 1, 2] bcast_S4x2048x1_S4x2048x512_0_1_2 (v201 a0 a1 a2)
def v203 : Stage S4x2048x512 .f32 := fun a0 a1 a2 =>
  mulf (F := Ideal) (φ := .f32) (v194 a0 a1 a2) (v202 a0 a1 a2)
def v204 : Stage S4x2048 .i32 := fun a0 a1 a2 =>
  (extui 32 · natLt_1_32) (v33 a0 a1 a2)
def call5_call0_c : Stage S_ .i32 := fun a0 a1 a2 =>
  (constantI S_ 32 0#32)
def call5_call0_v0 : Stage S_ .i32 := fun a0 a1 a2 =>
  (broadcastInDim S_ ![] bcast_S_S_) (call5_call0_c a0 a1 a2)
def v205 : Stage S4x2048 .i32 := fun a0 a1 a2 =>
  (fun x v => Host.reduceWindow IntOp.addi ![1, 2048] ![1, 1] ![0, 2047] ![0, 0] x v reduceWindows_S4x2048_S4x2048_w1s1p0_0_w2048s1p2047_0 h_S_) (v204 a0 a1 a2) (call5_call0_v0 a0 a1 a2)
def c_17 : Stage S_ .i32 := fun a0 a1 a2 =>
  (constantI S_ 32 1#32)
def v206 : Stage S4x2048 .i32 := fun a0 a1 a2 =>
  broadcastInDim S4x2048 ![] bcast_S_S4x2048 (c_17 a0 a1 a2)
def v207 : Stage S4x2048 .i32 := fun a0 a1 a2 =>
  subi (v205 a0 a1 a2) (v206 a0 a1 a2)
def c_18 : Stage S_ .i32 := fun a0 a1 a2 =>
  (constantI S_ 32 0#32)
def c_19 : Stage S_ .i32 := fun a0 a1 a2 =>
  (constantI S_ 32 2047#32)
def call6_v0 : Stage S_ .i32 := fun a0 a1 a2 =>
  id (c_18 a0 a1 a2)
def call6_v1 : Stage S4x2048 .i32 := fun a0 a1 a2 =>
  (broadcastInDim S4x2048 ![] bcast_S_S4x2048) (call6_v0 a0 a1 a2)
def call6_v2 : Stage S4x2048 .i32 := fun a0 a1 a2 =>
  maxsi (call6_v1 a0 a1 a2) (v207 a0 a1 a2)
def call6_v3 : Stage S_ .i32 := fun a0 a1 a2 =>
  id (c_19 a0 a1 a2)
def call6_v4 : Stage S4x2048 .i32 := fun a0 a1 a2 =>
  (broadcastInDim S4x2048 ![] bcast_S_S4x2048) (call6_v3 a0 a1 a2)
def v208 : Stage S4x2048 .i32 := fun a0 a1 a2 =>
  minsi (call6_v4 a0 a1 a2) (call6_v2 a0 a1 a2)
def c_20 : Stage S_ .i32 := fun a0 a1 a2 =>
  (constantI S_ 32 0#32)
def v209 : Stage S4x2048 .i32 := fun a0 a1 a2 =>
  broadcastInDim S4x2048 ![] bcast_S_S4x2048 (c_20 a0 a1 a2)
def v210 : Stage S4x2048 .i1 := fun a0 a1 a2 =>
  cmpi .sge (v207 a0 a1 a2) (v209 a0 a1 a2)
def v211 : Stage S4x2048x1 .i32 := fun a0 a1 a2 =>
  broadcastInDim S4x2048x1 ![0, 1] bcast_S4x2048_S4x2048x1_0_1 (v208 a0 a1 a2)
def call7_c : Stage S_ .i32 := fun a0 a1 a2 =>
  (constantI S_ 32 0#32)
def call7_v0 : Stage S4x2048x1 .i32 := fun a0 a1 a2 =>
  (broadcastInDim S4x2048x1 ![] bcast_S_S4x2048x1) (call7_c a0 a1 a2)
def call7_v1 : Stage S4x2048x1 .i1 := fun a0 a1 a2 =>
  (cmpi .slt) (v211 a0 a1 a2) (call7_v0 a0 a1 a2)
def call7_c_0 : Stage S_ .i32 := fun a0 a1 a2 =>
  (constantI S_ 32 2048#32)
def call7_v2 : Stage S4x2048x1 .i32 := fun a0 a1 a2 =>
  (broadcastInDim S4x2048x1 ![] bcast_S_S4x2048x1) (call7_c_0 a0 a1 a2)
def call7_v3 : Stage S4x2048x1 .i32 := fun a0 a1 a2 =>
  addi (v211 a0 a1 a2) (call7_v2 a0 a1 a2)
def call7_v4 : Stage S4x2048x1 .i32 := fun a0 a1 a2 =>
  select (call7_v1 a0 a1 a2) (call7_v3 a0 a1 a2) (v211 a0 a1 a2)
def call7_c_1 : Stage S1 .i32 := fun a0 a1 a2 =>
  (constantI S1 32 2047#32)
def call7_c_2 : Stage S_ .i32 := fun a0 a1 a2 =>
  (constantI S_ 32 0#32)
def call7_v5 : Stage S4x2048x1 .i32 := fun a0 a1 a2 =>
  (broadcastInDim S4x2048x1 ![] bcast_S_S4x2048x1) (call7_c_2 a0 a1 a2)
def call7_v6 : Stage S4x2048x1 .i1 := fun a0 a1 a2 =>
  (cmpi .sge) (call7_v4 a0 a1 a2) (call7_v5 a0 a1 a2)
def call7_v7 : Stage S1x1x1 .i32 := fun a0 a1 a2 =>
  (broadcastInDim S1x1x1 ![2] bcast_S1_S1x1x1_2) (call7_c_1 a0 a1 a2)
def call7_v8 : Stage S4x2048x1 .i32 := fun a0 a1 a2 =>
  (broadcastInDim S4x2048x1 ![0, 1, 2] bcast_S1x1x1_S4x2048x1_0_1_2) (call7_v7 a0 a1 a2)
def call7_v9 : Stage S4x2048x1 .i1 := fun a0 a1 a2 =>
  (cmpi .sle) (call7_v4 a0 a1 a2) (call7_v8 a0 a1 a2)
def call7_v10 : Stage S4x2048x1 .i1 := fun a0 a1 a2 =>
  andi (call7_v6 a0 a1 a2) (call7_v9 a0 a1 a2)
def call7_c_3 : Stage S_ .i1 := fun a0 a1 a2 =>
  (constantI S_ 1 1#1)
def call7_v11 : Stage S4x2048 .i1 := fun a0 a1 a2 =>
  (fun x v => Host.reduce IntOp.andi x v reducesTo_S4x2048x1_S4x2048_d2 h_S_) (call7_v10 a0 a1 a2) (call7_c_3 a0 a1 a2)
def call7_v12 : Stage S4x2048x512 .f32 := fun a0 a1 a2 =>
  (fun x i => Host.gather gather_S4x2048x512_S4x2048x1_S4x2048x512_2_1_0_0_1_2_11512 x i) (v203 a0 a1 a2) (call7_v4 a0 a1 a2)
def call7_v13 : Stage S4x2048x512 .i1 := fun a0 a1 a2 =>
  (broadcastInDim S4x2048x512 ![0, 1] bcast_S4x2048_S4x2048x512_0_1) (call7_v11 a0 a1 a2)
def call7_cst : Stage S_ .f32 := fun a0 a1 a2 =>
  (constant (F := Ideal) S_ .f32 0x7FC00000#32)
def call7_v14 : Stage S4x2048x512 .f32 := fun a0 a1 a2 =>
  (broadcastInDim S4x2048x512 ![] bcast_S_S4x2048x512) (call7_cst a0 a1 a2)
def v212 : Stage S4x2048x512 .f32 := fun a0 a1 a2 =>
  select (call7_v13 a0 a1 a2) (call7_v12 a0 a1 a2) (call7_v14 a0 a1 a2)
def v213 : Stage S4x2048x1 .i1 := fun a0 a1 a2 =>
  broadcastInDim S4x2048x1 ![0, 1] bcast_S4x2048_S4x2048x1_0_1 (v210 a0 a1 a2)
def v214 : Stage S4x2048x1 .f32 := fun a0 a1 a2 =>
  uitofp (F := Ideal) .f32 (v213 a0 a1 a2)
def v215 : Stage S4x2048x512 .f32 := fun a0 a1 a2 =>
  broadcastInDim S4x2048x512 ![0, 1, 2] bcast_S4x2048x1_S4x2048x512_0_1_2 (v214 a0 a1 a2)
def v216 : Stage S4x2048x512 .f32 := fun a0 a1 a2 =>
  mulf (F := Ideal) (φ := .f32) (v212 a0 a1 a2) (v215 a0 a1 a2)
def cst_21 : Stage S_ .f32 := fun a0 a1 a2 =>
  (constant (F := Ideal) S_ .f32 0x3F800000#32)
def v217 : Stage S4x2048 .f32 := fun a0 a1 a2 =>
  broadcastInDim S4x2048 ![] bcast_S_S4x2048 (cst_21 a0 a1 a2)
def v218 : Stage S4x2048 .f32 := fun a0 a1 a2 =>
  subf (F := Ideal) (φ := .f32) (v217 a0 a1 a2) (v31 a0 a1 a2)
def v219 : Stage S4x2048 .f32 := fun a0 a1 a2 =>
  maximumf (F := Ideal) (φ := .f32) (v218 a0 a1 a2) (v31 a0 a1 a2)
def cst_22 : Stage S_ .f32 := fun a0 a1 a2 =>
  (constant (F := Ideal) S_ .f32 0x3F800000#32)
def v220 : Stage S4x2048 .f32 := fun a0 a1 a2 =>
  broadcastInDim S4x2048 ![] bcast_S_S4x2048 (cst_22 a0 a1 a2)
def v221 : Stage S4x2048 .f32 := fun a0 a1 a2 =>
  subf (F := Ideal) (φ := .f32) (v219 a0 a1 a2) (v219 a0 a1 a2)
def v222 : Stage S4x2048 .f32 := fun a0 a1 a2 =>
  addf (F := Ideal) (φ := .f32) (v220 a0 a1 a2) (v221 a0 a1 a2)
def v223 : Stage S4x2048x1 .f32 := fun a0 a1 a2 =>
  broadcastInDim S4x2048x1 ![0, 1] bcast_S4x2048_S4x2048x1_0_1 (v222 a0 a1 a2)
def v224 : Stage S4x2048x512 .f32 := fun a0 a1 a2 =>
  broadcastInDim S4x2048x512 ![0, 1, 2] bcast_S4x2048x1_S4x2048x512_0_1_2 (v223 a0 a1 a2)
def v225 : Stage S4x2048x512 .f32 := fun a0 a1 a2 =>
  mulf (F := Ideal) (φ := .f32) (v216 a0 a1 a2) (v224 a0 a1 a2)
def v226 : Stage S4x2048x512 .f32 := fun a0 a1 a2 =>
  addf (F := Ideal) (φ := .f32) a0 (v225 a0 a1 a2)

end Cert.Ref

end
-- ==== Proof.Ref.At0.lean ====
import proofs.«123660_g14800457302192_cont_week2b_463_30_alg».proof.Proof.Ref.Stages
import proofs.«123660_g14800457302192_cont_week2b_463_30_alg».proof.Proof.Ref.Ops

noncomputable section

namespace Cert.Ref

open Cert.ReferenceIdeal Idealize.ShloMosaic Idealize.ShloMosaic.TcCoe Idealize.SL.Sem Idealize.ShloMosaic.StableHlo

variable (V : Valuation τ sig (Elt Ideal))

-- After the whole line array r holds its stage f of the argument arrays: the position lemma at the operation's place, its operands read at their own stages.
abbrev At (r : Ref sig .tc) (f : Vec Ideal S4x2048x512 .f32 → Vec Ideal S512x512 .f32 → Vec Ideal S512x512 .f32 → r.ty.Contents (Elt Ideal)) : Prop :=
  after ops V (Proc.devRef .tc r) = f (arg0 V) (arg1 V) (arg2 V)

theorem at_arg0 : after ops V (Proc.devRef .tc main_arg0) = arg0 V :=
  frame (hW (F := Ideal)) (by decide) V
theorem at_arg1 : after ops V (Proc.devRef .tc main_arg1) = arg1 V :=
  frame (hW (F := Ideal)) (by decide) V
theorem at_arg2 : after ops V (Proc.devRef .tc main_arg2) = arg2 V :=
  frame (hW (F := Ideal)) (by decide) V
theorem at_v0 : At V main_v0 v0 := (at_unary (hW (F := Ideal)) 0 rfl (at_arg0 V) :)
theorem at_v1 : At V main_v1 v1 := (at_binary (hW (F := Ideal)) 1 rfl (at_v0 V) (at_arg1 V) :)
theorem at_v2 : At V main_v2 v2 := (at_binary (hW (F := Ideal)) 2 rfl (at_v1 V) (at_v1 V) :)
theorem at_cst : At V main_cst cst := (at_nullary (hW (F := Ideal)) 3 rfl :)
theorem at_v3 : At V main_v3 v3 := (at_binary (hW (F := Ideal)) 4 rfl (at_v2 V) (at_cst V) :)
theorem at_v4 : At V main_v4 v4 := (at_unary (hW (F := Ideal)) 5 rfl (at_v3 V) :)
theorem at_v5 : At V main_v5 v5 := (at_unary (hW (F := Ideal)) 6 rfl (at_v4 V) :)
theorem at_cst_0 : At V main_cst_0 cst_0 := (at_nullary (hW (F := Ideal)) 7 rfl :)
theorem at_v6 : At V main_v6 v6 := (at_unary (hW (F := Ideal)) 8 rfl (at_cst_0 V) :)
theorem at_v7 : At V main_v7 v7 := (at_binary (hW (F := Ideal)) 9 rfl (at_v5 V) (at_v6 V) :)
theorem at_v8 : At V main_v8 v8 := (at_unary (hW (F := Ideal)) 10 rfl (at_v7 V) :)
theorem at_v9 : At V main_v9 v9 := (at_binary (hW (F := Ideal)) 11 rfl (at_v1 V) (at_v8 V) :)
theorem at_v10 : At V main_v10 v10 := (at_unary (hW (F := Ideal)) 12 rfl (at_arg0 V) :)
theorem at_v11 : At V main_v11 v11 := (at_binary (hW (F := Ideal)) 13 rfl (at_v10 V) (at_arg2 V) :)
theorem at_v12 : At V main_v12 v12 := (at_binary (hW (F := Ideal)) 14 rfl (at_v11 V) (at_v11 V) :)
theorem at_cst_1 : At V main_cst_1 cst_1 := (at_nullary (hW (F := Ideal)) 15 rfl :)
theorem at_v13 : At V main_v13 v13 := (at_binary (hW (F := Ideal)) 16 rfl (at_v12 V) (at_cst_1 V) :)
theorem at_v14 : At V main_v14 v14 := (at_unary (hW (F := Ideal)) 17 rfl (at_v13 V) :)
theorem at_v15 : At V main_v15 v15 := (at_unary (hW (F := Ideal)) 18 rfl (at_v14 V) :)
theorem at_cst_2 : At V main_cst_2 cst_2 := (at_nullary (hW (F := Ideal)) 19 rfl :)
theorem at_v16 : At V main_v16 v16 := (at_unary (hW (F := Ideal)) 20 rfl (at_cst_2 V) :)
theorem at_v17 : At V main_v17 v17 := (at_binary (hW (F := Ideal)) 21 rfl (at_v15 V) (at_v16 V) :)
theorem at_v18 : At V main_v18 v18 := (at_unary (hW (F := Ideal)) 22 rfl (at_v17 V) :)
theorem at_v19 : At V main_v19 v19 := (at_binary (hW (F := Ideal)) 23 rfl (at_v11 V) (at_v18 V) :)
theorem at_v20 : At V main_v20 v20 := (at_binary (hW (F := Ideal)) 24 rfl (at_v9 V) (at_v19 V) :)
theorem at_cst_3 : At V main_cst_3 cst_3 := (at_nullary (hW (F := Ideal)) 25 rfl :)
theorem at_v21 : At V main_v21 v21 := (at_binary (hW (F := Ideal)) 26 rfl (at_v20 V) (at_cst_3 V) :)
theorem at_cst_4 : At V main_cst_4 cst_4 := (at_nullary (hW (F := Ideal)) 27 rfl :)
theorem at_v22 : At V main_v22 v22 := (at_unary (hW (F := Ideal)) 28 rfl (at_cst_4 V) :)
theorem at_cst_5 : At V main_cst_5 cst_5 := (at_nullary (hW (F := Ideal)) 29 rfl :)
theorem at_v23 : At V main_v23 v23 := (at_unary (hW (F := Ideal)) 30 rfl (at_cst_5 V) :)
theorem at_v24 : At V main_v24 v24 := (at_binary (hW (F := Ideal)) 31 rfl (at_v23 V) (at_v21 V) :)
theorem at_cst_6 : At V main_cst_6 cst_6 := (at_nullary (hW (F := Ideal)) 32 rfl :)
theorem at_v25 : At V main_v25 v25 := (at_unary (hW (F := Ideal)) 33 rfl (at_cst_6 V) :)
theorem at_v26 : At V main_v26 v26 := (at_binary (hW (F := Ideal)) 34 rfl (at_v24 V) (at_v25 V) :)
theorem at_cst_7 : At V main_cst_7 cst_7 := (at_nullary (hW (F := Ideal)) 35 rfl :)
theorem at_cst_8 : At V main_cst_8 cst_8 := (at_nullary (hW (F := Ideal)) 36 rfl :)
theorem at_call0_v0 : At V main_call0_v0 call0_v0 := (at_unary (hW (F := Ideal)) 37 rfl (at_cst_7 V) :)
theorem at_call0_v1 : At V main_call0_v1 call0_v1 := (at_unary (hW (F := Ideal)) 38 rfl (at_call0_v0 V) :)
theorem at_call0_v2 : At V main_call0_v2 call0_v2 := (at_binary (hW (F := Ideal)) 39 rfl (at_call0_v1 V) (at_v26 V) :)
theorem at_call0_v3 : At V main_call0_v3 call0_v3 := (at_unary (hW (F := Ideal)) 40 rfl (at_cst_8 V) :)
theorem at_call0_v4 : At V main_call0_v4 call0_v4 := (at_unary (hW (F := Ideal)) 41 rfl (at_call0_v3 V) :)
theorem at_v27 : At V main_v27 v27 := (at_binary (hW (F := Ideal)) 42 rfl (at_call0_v4 V) (at_call0_v2 V) :)
theorem at_v28 : At V main_v28 v28 := (at_binary (hW (F := Ideal)) 43 rfl (at_v22 V) (at_v27 V) :)
theorem at_c : At V main_c c := (at_nullary (hW (F := Ideal)) 44 rfl :)
theorem at_v29 : At V main_v29 v29 := (at_unary (hW (F := Ideal)) 45 rfl (at_c V) :)
theorem at_cst_9 : At V main_cst_9 cst_9 := (at_nullary (hW (F := Ideal)) 46 rfl :)
theorem at_v30 : At V main_v30 v30 := (at_unary (hW (F := Ideal)) 47 rfl (at_cst_9 V) :)
theorem at_v31 : At V main_v31 v31 := (at_ternary (hW (F := Ideal)) 48 rfl (at_v28 V) (at_v29 V) (at_v30 V) :)
theorem at_cst_10 : At V main_cst_10 cst_10 := (at_nullary (hW (F := Ideal)) 49 rfl :)
theorem at_v32 : At V main_v32 v32 := (at_unary (hW (F := Ideal)) 50 rfl (at_cst_10 V) :)
theorem at_v33 : At V main_v33 v33 := (at_binary (hW (F := Ideal)) 51 rfl (at_v31 V) (at_v32 V) :)
theorem at_v34 : At V main_v34 v34 := (at_unary (hW (F := Ideal)) 52 rfl (at_v33 V) :)
theorem at_v35 : At V main_v35 v35 := (at_unary (hW (F := Ideal)) 53 rfl (at_v34 V) :)
theorem at_call1_v0 : At V main_call1_v0 call1_v0 := (at_nullary (hW (F := Ideal)) 54 rfl :)
theorem at_call1_v1_0 : At V main_call1_v1_0 call1_v1_0 := (at_binary (hW (F := Ideal)) 55 rfl (at_v35 V) (at_call1_v0 V) :)
theorem at_v36 : At V main_v36 v36 := (at_binary (hW (F := Ideal)) 56 rfl (at_v35 V) (at_call1_v0 V) :)
theorem at_v37 : At V main_v37 v37 := (at_unary (hW (F := Ideal)) 57 rfl (at_v33 V) :)
theorem at_c_11 : At V main_c_11 c_11 := (at_nullary (hW (F := Ideal)) 58 rfl :)
theorem at_v38 : At V main_v38 v38 := (at_binary (hW (F := Ideal)) 59 rfl (at_v37 V) (at_c_11 V) :)
theorem at_v39 : At V main_v39 v39 := (at_unary (hW (F := Ideal)) 60 rfl (at_v36 V) :)
theorem at_call2_c : At V main_call2_c call2_c := (at_nullary (hW (F := Ideal)) 61 rfl :)
theorem at_call2_v0 : At V main_call2_v0 call2_v0 := (at_unary (hW (F := Ideal)) 62 rfl (at_call2_c V) :)
theorem at_call2_v1 :
    after ops V (Proc.devRef .tc main_call2_v1) = call2_v1 (arg0 V) (arg1 V) (arg2 V) := by
  have h := at_binary (hW (F := Ideal)) 63 rfl (at_v39 V) (at_call2_v0 V)
  unfold call2_v1
  generalize v39 (arg0 V) (arg1 V) (arg2 V) = x0 at h ⊢
  generalize call2_v0 (arg0 V) (arg1 V) (arg2 V) = x1 at h ⊢
  exact h
theorem at_call2_c_0 : At V main_call2_c_0 call2_c_0 := (at_nullary (hW (F := Ideal)) 64 rfl :)
theorem at_call2_v2 : At V main_call2_v2 call2_v2 := (at_unary (hW (F := Ideal)) 65 rfl (at_call2_c_0 V) :)
theorem at_call2_v3 : At V main_call2_v3 call2_v3 := (at_binary (hW (F := Ideal)) 66 rfl (at_v39 V) (at_call2_v2 V) :)
theorem at_call2_v4 :
    after ops V (Proc.devRef .tc main_call2_v4) = call2_v4 (arg0 V) (arg1 V) (arg2 V) := by
  have h := at_ternary (hW (F := Ideal)) 67 rfl (at_call2_v1 V) (at_call2_v3 V) (at_v39 V)
  unfold call2_v4
  generalize call2_v1 (arg0 V) (arg1 V) (arg2 V) = x0 at h ⊢
  generalize call2_v3 (arg0 V) (arg1 V) (arg2 V) = x1 at h ⊢
  generalize v39 (arg0 V) (arg1 V) (arg2 V) = x2 at h ⊢
  exact h
theorem at_call2_c_1 : At V main_call2_c_1 call2_c_1 := (at_nullary (hW (F := Ideal)) 68 rfl :)
theorem at_call2_c_2 : At V main_call2_c_2 call2_c_2 := (at_nullary (hW (F := Ideal)) 69 rfl :)
theorem at_call2_v5 : At V main_call2_v5 call2_v5 := (at_unary (hW (F := Ideal)) 70 rfl (at_call2_c_2 V) :)
theorem at_call2_v6 :
    after ops V (Proc.devRef .tc main_call2_v6) = call2_v6 (arg0 V) (arg1 V) (arg2 V) := by
  have h := at_binary (hW (F := Ideal)) 71 rfl (at_call2_v4 V) (at_call2_v5 V)
  unfold call2_v6
  generalize call2_v4 (arg0 V) (arg1 V) (arg2 V) = x0 at h ⊢
  generalize call2_v5 (arg0 V) (arg1 V) (arg2 V) = x1 at h ⊢
  exact h
theorem at_call2_v7 : At V main_call2_v7 call2_v7 := (at_unary (hW (F := Ideal)) 72 rfl (at_call2_c_1 V) :)
theorem at_call2_v8 : At V main_call2_v8 call2_v8 := (at_unary (hW (F := Ideal)) 73 rfl (at_call2_v7 V) :)
theorem at_call2_v9 :
    after ops V (Proc.devRef .tc main_call2_v9) = call2_v9 (arg0 V) (arg1 V) (arg2 V) := by
  have h := at_binary (hW (F := Ideal)) 74 rfl (at_call2_v4 V) (at_call2_v8 V)
  unfold call2_v9
  generalize call2_v4 (arg0 V) (arg1 V) (arg2 V) = x0 at h ⊢
  generalize call2_v8 (arg0 V) (arg1 V) (arg2 V) = x1 at h ⊢
  exact h
theorem at_call2_v10 :
    after ops V (Proc.devRef .tc main_call2_v10) = call2_v10 (arg0 V) (arg1 V) (arg2 V) := by
  have h := at_binary (hW (F := Ideal)) 75 rfl (at_call2_v6 V) (at_call2_v9 V)
  unfold call2_v10
  generalize call2_v6 (arg0 V) (arg1 V) (arg2 V) = x0 at h ⊢
  generalize call2_v9 (arg0 V) (arg1 V) (arg2 V) = x1 at h ⊢
  exact h
theorem at_call2_c_3 : At V main_call2_c_3 call2_c_3 := (at_nullary (hW (F := Ideal)) 76 rfl :)
theorem at_call2_v11 : At V main_call2_v11 call2_v11 := (at_binary (hW (F := Ideal)) 77 rfl (at_call2_v10 V) (at_call2_c_3 V) :)
theorem at_call2_v12 :
    after ops V (Proc.devRef .tc main_call2_v12) = call2_v12 (arg0 V) (arg1 V) (arg2 V) := by
  have h := at_binary (hW (F := Ideal)) 78 rfl (at_arg0 V) (at_call2_v4 V)
  unfold call2_v12
  generalize call2_v4 (arg0 V) (arg1 V) (arg2 V) = x0 at h ⊢
  exact h
theorem at_call2_v13 : At V main_call2_v13 call2_v13 := (at_unary (hW (F := Ideal)) 79 rfl (at_call2_v11 V) :)
theorem at_call2_cst : At V main_call2_cst call2_cst := (at_nullary (hW (F := Ideal)) 80 rfl :)
theorem at_call2_v14 : At V main_call2_v14 call2_v14 := (at_unary (hW (F := Ideal)) 81 rfl (at_call2_cst V) :)
theorem at_v40 : At V main_v40 v40 := (at_ternary (hW (F := Ideal)) 82 rfl (at_call2_v13 V) (at_call2_v12 V) (at_call2_v14 V) :)
theorem at_v41 : At V main_v41 v41 := (at_nullary (hW (F := Ideal)) 83 rfl :)
theorem at_v42 : At V main_v42 v42 := (at_unary (hW (F := Ideal)) 84 rfl (at_v41 V) :)
theorem at_v43 : At V main_v43 v43 := (at_unary (hW (F := Ideal)) 85 rfl (at_v38 V) :)
theorem at_v44 : At V main_v44 v44 := (at_unary (hW (F := Ideal)) 86 rfl (at_v42 V) :)
theorem at_v45 : At V main_v45 v45 := (at_unary (hW (F := Ideal)) 87 rfl (at_v43 V) :)

end Cert.Ref

end
-- ==== Proof.Ref.At1.lean ====
import proofs.«123660_g14800457302192_cont_week2b_463_30_alg».proof.Proof.Ref.Stages
import proofs.«123660_g14800457302192_cont_week2b_463_30_alg».proof.Proof.Ref.At0

noncomputable section

namespace Cert.Ref

open Cert.ReferenceIdeal Idealize.ShloMosaic Idealize.ShloMosaic.TcCoe Idealize.SL.Sem Idealize.ShloMosaic.StableHlo

variable (V : Valuation τ sig (Elt Ideal))

theorem at_v46 : At V main_v46 v46 := (at_binary (hW (F := Ideal)) 88 rfl (at_v44 V) (at_v45 V) :)
theorem at_call3_c : At V main_call3_c call3_c := (at_nullary (hW (F := Ideal)) 89 rfl :)
theorem at_call3_v0 : At V main_call3_v0 call3_v0 := (at_unary (hW (F := Ideal)) 90 rfl (at_call3_c V) :)
theorem at_call3_v1 :
    after ops V (Proc.devRef .tc main_call3_v1) = call3_v1 (arg0 V) (arg1 V) (arg2 V) := by
  have h := at_binary (hW (F := Ideal)) 91 rfl (at_v36 V) (at_call3_v0 V)
  unfold call3_v1
  generalize v36 (arg0 V) (arg1 V) (arg2 V) = x0 at h ⊢
  generalize call3_v0 (arg0 V) (arg1 V) (arg2 V) = x1 at h ⊢
  exact h
theorem at_call3_c_0 : At V main_call3_c_0 call3_c_0 := (at_nullary (hW (F := Ideal)) 92 rfl :)
theorem at_call3_v2 : At V main_call3_v2 call3_v2 := (at_unary (hW (F := Ideal)) 93 rfl (at_call3_c_0 V) :)
theorem at_call3_v3 : At V main_call3_v3 call3_v3 := (at_binary (hW (F := Ideal)) 94 rfl (at_v36 V) (at_call3_v2 V) :)
theorem at_call3_v4 :
    after ops V (Proc.devRef .tc main_call3_v4) = call3_v4 (arg0 V) (arg1 V) (arg2 V) := by
  have h := at_ternary (hW (F := Ideal)) 95 rfl (at_call3_v1 V) (at_call3_v3 V) (at_v36 V)
  unfold call3_v4
  generalize call3_v1 (arg0 V) (arg1 V) (arg2 V) = x0 at h ⊢
  generalize call3_v3 (arg0 V) (arg1 V) (arg2 V) = x1 at h ⊢
  generalize v36 (arg0 V) (arg1 V) (arg2 V) = x2 at h ⊢
  exact h
theorem at_call3_v5 : At V main_call3_v5 call3_v5 := (at_reshape (hW (F := Ideal)) 96 rfl (at_call3_v4 V) :)
theorem at_call3_c_1 : At V main_call3_c_1 call3_c_1 := (at_nullary (hW (F := Ideal)) 97 rfl :)
theorem at_call3_c_2 : At V main_call3_c_2 call3_c_2 := (at_nullary (hW (F := Ideal)) 98 rfl :)
theorem at_call3_v6 : At V main_call3_v6 call3_v6 := (at_unary (hW (F := Ideal)) 99 rfl (at_call3_c_2 V) :)
theorem at_call3_v7 :
    after ops V (Proc.devRef .tc main_call3_v7) = call3_v7 (arg0 V) (arg1 V) (arg2 V) := by
  have h := at_binary (hW (F := Ideal)) 100 rfl (at_call3_v5 V) (at_call3_v6 V)
  unfold call3_v7
  generalize call3_v5 (arg0 V) (arg1 V) (arg2 V) = x0 at h ⊢
  generalize call3_v6 (arg0 V) (arg1 V) (arg2 V) = x1 at h ⊢
  exact h
theorem at_call3_v8 : At V main_call3_v8 call3_v8 := (at_unary (hW (F := Ideal)) 101 rfl (at_call3_c_1 V) :)
theorem at_call3_v9 : At V main_call3_v9 call3_v9 := (at_unary (hW (F := Ideal)) 102 rfl (at_call3_v8 V) :)
theorem at_call3_v10 :
    after ops V (Proc.devRef .tc main_call3_v10) = call3_v10 (arg0 V) (arg1 V) (arg2 V) := by
  have h := at_binary (hW (F := Ideal)) 103 rfl (at_call3_v5 V) (at_call3_v9 V)
  unfold call3_v10
  generalize call3_v5 (arg0 V) (arg1 V) (arg2 V) = x0 at h ⊢
  generalize call3_v9 (arg0 V) (arg1 V) (arg2 V) = x1 at h ⊢
  exact h
theorem at_call3_v11 :
    after ops V (Proc.devRef .tc main_call3_v11) = call3_v11 (arg0 V) (arg1 V) (arg2 V) := by
  have h := at_binary (hW (F := Ideal)) 104 rfl (at_call3_v7 V) (at_call3_v10 V)
  unfold call3_v11
  generalize call3_v7 (arg0 V) (arg1 V) (arg2 V) = x0 at h ⊢
  generalize call3_v10 (arg0 V) (arg1 V) (arg2 V) = x1 at h ⊢
  exact h
theorem at_call3_c_3 : At V main_call3_c_3 call3_c_3 := (at_nullary (hW (F := Ideal)) 105 rfl :)
theorem at_call3_v12 : At V main_call3_v12 call3_v12 := (at_binary (hW (F := Ideal)) 106 rfl (at_call3_v11 V) (at_call3_c_3 V) :)
theorem at_call3_v13 :
    after ops V (Proc.devRef .tc main_call3_v13) = call3_v13 (arg0 V) (arg1 V) (arg2 V) := by
  have h := at_binary (hW (F := Ideal)) 107 rfl (at_v31 V) (at_call3_v5 V)
  unfold call3_v13
  generalize v31 (arg0 V) (arg1 V) (arg2 V) = x0 at h ⊢
  generalize call3_v5 (arg0 V) (arg1 V) (arg2 V) = x1 at h ⊢
  exact h
theorem at_call3_cst : At V main_call3_cst call3_cst := (at_nullary (hW (F := Ideal)) 108 rfl :)
theorem at_call3_v14 : At V main_call3_v14 call3_v14 := (at_unary (hW (F := Ideal)) 109 rfl (at_call3_cst V) :)
theorem at_v47 :
    after ops V (Proc.devRef .tc main_v47) = v47 (arg0 V) (arg1 V) (arg2 V) := by
  have h := at_ternary (hW (F := Ideal)) 110 rfl (at_call3_v12 V) (at_call3_v13 V) (at_call3_v14 V)
  unfold v47
  generalize call3_v12 (arg0 V) (arg1 V) (arg2 V) = x0 at h ⊢
  generalize call3_v13 (arg0 V) (arg1 V) (arg2 V) = x1 at h ⊢
  generalize call3_v14 (arg0 V) (arg1 V) (arg2 V) = x2 at h ⊢
  exact h
theorem at_v48 : At V main_v48 v48 := (at_unary (hW (F := Ideal)) 111 rfl (at_v46 V) :)
theorem at_v49 : At V main_v49 v49 := (at_binary (hW (F := Ideal)) 112 rfl (at_v47 V) (at_v48 V) :)
theorem at_cst_12 : At V main_cst_12 cst_12 := (at_nullary (hW (F := Ideal)) 113 rfl :)
theorem at_v50 : At V main_v50 v50 := (at_unary (hW (F := Ideal)) 114 rfl (at_cst_12 V) :)
theorem at_v51 : At V main_v51 v51 := (at_binary (hW (F := Ideal)) 115 rfl (at_v50 V) (at_v49 V) :)
theorem at_cst_13 : At V main_cst_13 cst_13 := (at_nullary (hW (F := Ideal)) 116 rfl :)
theorem at_cst_14 : At V main_cst_14 cst_14 := (at_nullary (hW (F := Ideal)) 117 rfl :)
theorem at_call4_v0 : At V main_call4_v0 call4_v0 := (at_unary (hW (F := Ideal)) 118 rfl (at_cst_13 V) :)
theorem at_call4_v1 : At V main_call4_v1 call4_v1 := (at_unary (hW (F := Ideal)) 119 rfl (at_call4_v0 V) :)
theorem at_call4_v2 : At V main_call4_v2 call4_v2 := (at_binary (hW (F := Ideal)) 120 rfl (at_call4_v1 V) (at_v51 V) :)
theorem at_call4_v3 : At V main_call4_v3 call4_v3 := (at_unary (hW (F := Ideal)) 121 rfl (at_cst_14 V) :)
theorem at_call4_v4 : At V main_call4_v4 call4_v4 := (at_unary (hW (F := Ideal)) 122 rfl (at_call4_v3 V) :)
theorem at_v52 : At V main_v52 v52 := (at_binary (hW (F := Ideal)) 123 rfl (at_call4_v4 V) (at_call4_v2 V) :)
theorem at_cst_15 : At V main_cst_15 cst_15 := (at_nullary (hW (F := Ideal)) 124 rfl :)
theorem at_v53 : At V main_v53 v53 := (at_unary (hW (F := Ideal)) 125 rfl (at_cst_15 V) :)
theorem at_v54 : At V main_v54 v54 := (at_unary (hW (F := Ideal)) 126 rfl (at_v52 V) :)
theorem at_v55 : At V main_v55 v55 := (at_unary (hW (F := Ideal)) 127 rfl (at_v54 V) :)
theorem at_cst_16 : At V main_cst_16 cst_16 := (at_nullary (hW (F := Ideal)) 128 rfl :)
theorem at_v56 : At V main_v56 v56 := (at_unary (hW (F := Ideal)) 129 rfl (at_cst_16 V) :)
theorem at_v57 : At V main_v57 v57 := (at_binary (hW (F := Ideal)) 130 rfl (at_v56 V) (at_v52 V) :)
theorem at_v58 : At V main_v58 v58 := (at_unary (hW (F := Ideal)) 131 rfl (at_v57 V) :)
theorem at_v59 : At V main_v59 v59 := (at_unary (hW (F := Ideal)) 132 rfl (at_v58 V) :)
theorem at_v60 : At V main_v60 v60 := (at_binary (hW (F := Ideal)) 133 rfl (at_v59 V) (at_v40 V) :)
theorem at_v61 : At V main_v61 v61 := (at_unary (hW (F := Ideal)) 134 rfl (at_v60 V) :)
theorem at_v62 : At V main_v62 v62 := (at_unary (hW (F := Ideal)) 135 rfl (at_v55 V) :)
theorem at_v63 : At V main_v63 v63 := (at_unary (hW (F := Ideal)) 136 rfl (at_v53 V) :)
theorem at_v64 : At V main_v64 v64 := (at_binary (hW (F := Ideal)) 137 rfl (at_v62 V) (at_v63 V) :)
theorem at_v65 : At V main_v65 v65 := (at_binary (hW (F := Ideal)) 138 rfl (at_v61 V) (at_v64 V) :)
theorem at_v66 : At V main_v66 v66 := (at_unary (hW (F := Ideal)) 139 rfl (at_v60 V) :)
theorem at_v67 : At V main_v67 v67 := (at_binary (hW (F := Ideal)) 140 rfl (at_v65 V) (at_v66 V) :)
theorem at_v68 : At V main_v68 v68 := (at_unary (hW (F := Ideal)) 141 rfl (at_v67 V) :)
theorem at_v69 : At V main_v69 v69 := (at_unary (hW (F := Ideal)) 142 rfl (at_v55 V) :)
theorem at_v70 : At V main_v70 v70 := (at_unary (hW (F := Ideal)) 143 rfl (at_v67 V) :)
theorem at_v71 : At V main_v71 v71 := (at_binary (hW (F := Ideal)) 144 rfl (at_v69 V) (at_v70 V) :)
theorem at_v72 : At V main_v72 v72 := (at_unary (hW (F := Ideal)) 145 rfl (at_v67 V) :)
theorem at_v73 : At V main_v73 v73 := (at_binary (hW (F := Ideal)) 146 rfl (at_v71 V) (at_v72 V) :)
theorem at_v74 : At V main_v74 v74 := (at_binary (hW (F := Ideal)) 147 rfl (at_v68 V) (at_v73 V) :)
theorem at_v75 : At V main_v75 v75 := (at_unary (hW (F := Ideal)) 148 rfl (at_v55 V) :)
theorem at_v76 : At V main_v76 v76 := (at_unary (hW (F := Ideal)) 149 rfl (at_v55 V) :)
theorem at_v77 : At V main_v77 v77 := (at_unary (hW (F := Ideal)) 150 rfl (at_v55 V) :)
theorem at_v78 : At V main_v78 v78 := (at_binary (hW (F := Ideal)) 151 rfl (at_v76 V) (at_v77 V) :)
theorem at_v79 : At V main_v79 v79 := (at_binary (hW (F := Ideal)) 152 rfl (at_v75 V) (at_v78 V) :)
theorem at_v80 : At V main_v80 v80 := (at_unary (hW (F := Ideal)) 153 rfl (at_v74 V) :)
theorem at_v81 : At V main_v81 v81 := (at_unary (hW (F := Ideal)) 154 rfl (at_v79 V) :)
theorem at_v82 : At V main_v82 v82 := (at_unary (hW (F := Ideal)) 155 rfl (at_v74 V) :)
theorem at_v83 : At V main_v83 v83 := (at_binary (hW (F := Ideal)) 156 rfl (at_v81 V) (at_v82 V) :)
theorem at_v84 : At V main_v84 v84 := (at_unary (hW (F := Ideal)) 157 rfl (at_v74 V) :)
theorem at_v85 : At V main_v85 v85 := (at_binary (hW (F := Ideal)) 158 rfl (at_v83 V) (at_v84 V) :)
theorem at_v86 : At V main_v86 v86 := (at_binary (hW (F := Ideal)) 159 rfl (at_v80 V) (at_v85 V) :)
theorem at_v87 : At V main_v87 v87 := (at_unary (hW (F := Ideal)) 160 rfl (at_v79 V) :)
theorem at_v88 : At V main_v88 v88 := (at_unary (hW (F := Ideal)) 161 rfl (at_v79 V) :)
theorem at_v89 : At V main_v89 v89 := (at_unary (hW (F := Ideal)) 162 rfl (at_v79 V) :)
theorem at_v90 : At V main_v90 v90 := (at_binary (hW (F := Ideal)) 163 rfl (at_v88 V) (at_v89 V) :)
theorem at_v91 : At V main_v91 v91 := (at_binary (hW (F := Ideal)) 164 rfl (at_v87 V) (at_v90 V) :)
theorem at_v92 : At V main_v92 v92 := (at_unary (hW (F := Ideal)) 165 rfl (at_v86 V) :)
theorem at_v93 : At V main_v93 v93 := (at_unary (hW (F := Ideal)) 166 rfl (at_v91 V) :)
theorem at_v94 : At V main_v94 v94 := (at_unary (hW (F := Ideal)) 167 rfl (at_v86 V) :)
theorem at_v95 : At V main_v95 v95 := (at_binary (hW (F := Ideal)) 168 rfl (at_v93 V) (at_v94 V) :)
theorem at_v96 : At V main_v96 v96 := (at_unary (hW (F := Ideal)) 169 rfl (at_v86 V) :)
theorem at_v97 : At V main_v97 v97 := (at_binary (hW (F := Ideal)) 170 rfl (at_v95 V) (at_v96 V) :)
theorem at_v98 : At V main_v98 v98 := (at_binary (hW (F := Ideal)) 171 rfl (at_v92 V) (at_v97 V) :)
theorem at_v99 : At V main_v99 v99 := (at_unary (hW (F := Ideal)) 172 rfl (at_v91 V) :)
theorem at_v100 : At V main_v100 v100 := (at_unary (hW (F := Ideal)) 173 rfl (at_v91 V) :)

end Cert.Ref

end
-- ==== Proof.Ref.At2.lean ====
import proofs.«123660_g14800457302192_cont_week2b_463_30_alg».proof.Proof.Ref.Stages
import proofs.«123660_g14800457302192_cont_week2b_463_30_alg».proof.Proof.Ref.At1

noncomputable section

namespace Cert.Ref

open Cert.ReferenceIdeal Idealize.ShloMosaic Idealize.ShloMosaic.TcCoe Idealize.SL.Sem Idealize.ShloMosaic.StableHlo

variable (V : Valuation τ sig (Elt Ideal))

theorem at_v101 : At V main_v101 v101 := (at_unary (hW (F := Ideal)) 174 rfl (at_v91 V) :)
theorem at_v102 : At V main_v102 v102 := (at_binary (hW (F := Ideal)) 175 rfl (at_v100 V) (at_v101 V) :)
theorem at_v103 : At V main_v103 v103 := (at_binary (hW (F := Ideal)) 176 rfl (at_v99 V) (at_v102 V) :)
theorem at_v104 : At V main_v104 v104 := (at_unary (hW (F := Ideal)) 177 rfl (at_v98 V) :)
theorem at_v105 : At V main_v105 v105 := (at_unary (hW (F := Ideal)) 178 rfl (at_v103 V) :)
theorem at_v106 : At V main_v106 v106 := (at_unary (hW (F := Ideal)) 179 rfl (at_v98 V) :)
theorem at_v107 : At V main_v107 v107 := (at_binary (hW (F := Ideal)) 180 rfl (at_v105 V) (at_v106 V) :)
theorem at_v108 : At V main_v108 v108 := (at_unary (hW (F := Ideal)) 181 rfl (at_v98 V) :)
theorem at_v109 : At V main_v109 v109 := (at_binary (hW (F := Ideal)) 182 rfl (at_v107 V) (at_v108 V) :)
theorem at_v110 : At V main_v110 v110 := (at_binary (hW (F := Ideal)) 183 rfl (at_v104 V) (at_v109 V) :)
theorem at_v111 : At V main_v111 v111 := (at_unary (hW (F := Ideal)) 184 rfl (at_v103 V) :)
theorem at_v112 : At V main_v112 v112 := (at_unary (hW (F := Ideal)) 185 rfl (at_v103 V) :)
theorem at_v113 : At V main_v113 v113 := (at_unary (hW (F := Ideal)) 186 rfl (at_v103 V) :)
theorem at_v114 : At V main_v114 v114 := (at_binary (hW (F := Ideal)) 187 rfl (at_v112 V) (at_v113 V) :)
theorem at_v115 : At V main_v115 v115 := (at_binary (hW (F := Ideal)) 188 rfl (at_v111 V) (at_v114 V) :)
theorem at_v116 : At V main_v116 v116 := (at_unary (hW (F := Ideal)) 189 rfl (at_v110 V) :)
theorem at_v117 : At V main_v117 v117 := (at_unary (hW (F := Ideal)) 190 rfl (at_v115 V) :)
theorem at_v118 : At V main_v118 v118 := (at_unary (hW (F := Ideal)) 191 rfl (at_v110 V) :)
theorem at_v119 : At V main_v119 v119 := (at_binary (hW (F := Ideal)) 192 rfl (at_v117 V) (at_v118 V) :)
theorem at_v120 : At V main_v120 v120 := (at_unary (hW (F := Ideal)) 193 rfl (at_v110 V) :)
theorem at_v121 : At V main_v121 v121 := (at_binary (hW (F := Ideal)) 194 rfl (at_v119 V) (at_v120 V) :)
theorem at_v122 : At V main_v122 v122 := (at_binary (hW (F := Ideal)) 195 rfl (at_v116 V) (at_v121 V) :)
theorem at_v123 : At V main_v123 v123 := (at_unary (hW (F := Ideal)) 196 rfl (at_v115 V) :)
theorem at_v124 : At V main_v124 v124 := (at_unary (hW (F := Ideal)) 197 rfl (at_v115 V) :)
theorem at_v125 : At V main_v125 v125 := (at_unary (hW (F := Ideal)) 198 rfl (at_v115 V) :)
theorem at_v126 : At V main_v126 v126 := (at_binary (hW (F := Ideal)) 199 rfl (at_v124 V) (at_v125 V) :)
theorem at_v127 : At V main_v127 v127 := (at_binary (hW (F := Ideal)) 200 rfl (at_v123 V) (at_v126 V) :)
theorem at_v128 : At V main_v128 v128 := (at_unary (hW (F := Ideal)) 201 rfl (at_v122 V) :)
theorem at_v129 : At V main_v129 v129 := (at_unary (hW (F := Ideal)) 202 rfl (at_v127 V) :)
theorem at_v130 : At V main_v130 v130 := (at_unary (hW (F := Ideal)) 203 rfl (at_v122 V) :)
theorem at_v131 : At V main_v131 v131 := (at_binary (hW (F := Ideal)) 204 rfl (at_v129 V) (at_v130 V) :)
theorem at_v132 : At V main_v132 v132 := (at_unary (hW (F := Ideal)) 205 rfl (at_v122 V) :)
theorem at_v133 : At V main_v133 v133 := (at_binary (hW (F := Ideal)) 206 rfl (at_v131 V) (at_v132 V) :)
theorem at_v134 : At V main_v134 v134 := (at_binary (hW (F := Ideal)) 207 rfl (at_v128 V) (at_v133 V) :)
theorem at_v135 : At V main_v135 v135 := (at_unary (hW (F := Ideal)) 208 rfl (at_v127 V) :)
theorem at_v136 : At V main_v136 v136 := (at_unary (hW (F := Ideal)) 209 rfl (at_v127 V) :)
theorem at_v137 : At V main_v137 v137 := (at_unary (hW (F := Ideal)) 210 rfl (at_v127 V) :)
theorem at_v138 : At V main_v138 v138 := (at_binary (hW (F := Ideal)) 211 rfl (at_v136 V) (at_v137 V) :)
theorem at_v139 : At V main_v139 v139 := (at_binary (hW (F := Ideal)) 212 rfl (at_v135 V) (at_v138 V) :)
theorem at_v140 : At V main_v140 v140 := (at_unary (hW (F := Ideal)) 213 rfl (at_v134 V) :)
theorem at_v141 : At V main_v141 v141 := (at_unary (hW (F := Ideal)) 214 rfl (at_v139 V) :)
theorem at_v142 : At V main_v142 v142 := (at_unary (hW (F := Ideal)) 215 rfl (at_v134 V) :)
theorem at_v143 : At V main_v143 v143 := (at_binary (hW (F := Ideal)) 216 rfl (at_v141 V) (at_v142 V) :)
theorem at_v144 : At V main_v144 v144 := (at_unary (hW (F := Ideal)) 217 rfl (at_v134 V) :)
theorem at_v145 : At V main_v145 v145 := (at_binary (hW (F := Ideal)) 218 rfl (at_v143 V) (at_v144 V) :)
theorem at_v146 : At V main_v146 v146 := (at_binary (hW (F := Ideal)) 219 rfl (at_v140 V) (at_v145 V) :)
theorem at_v147 : At V main_v147 v147 := (at_unary (hW (F := Ideal)) 220 rfl (at_v139 V) :)
theorem at_v148 : At V main_v148 v148 := (at_unary (hW (F := Ideal)) 221 rfl (at_v139 V) :)
theorem at_v149 : At V main_v149 v149 := (at_unary (hW (F := Ideal)) 222 rfl (at_v139 V) :)
theorem at_v150 : At V main_v150 v150 := (at_binary (hW (F := Ideal)) 223 rfl (at_v148 V) (at_v149 V) :)
theorem at_v151 : At V main_v151 v151 := (at_binary (hW (F := Ideal)) 224 rfl (at_v147 V) (at_v150 V) :)
theorem at_v152 : At V main_v152 v152 := (at_unary (hW (F := Ideal)) 225 rfl (at_v146 V) :)
theorem at_v153 : At V main_v153 v153 := (at_unary (hW (F := Ideal)) 226 rfl (at_v151 V) :)
theorem at_v154 : At V main_v154 v154 := (at_unary (hW (F := Ideal)) 227 rfl (at_v146 V) :)
theorem at_v155 : At V main_v155 v155 := (at_binary (hW (F := Ideal)) 228 rfl (at_v153 V) (at_v154 V) :)
theorem at_v156 : At V main_v156 v156 := (at_unary (hW (F := Ideal)) 229 rfl (at_v146 V) :)
theorem at_v157 : At V main_v157 v157 := (at_binary (hW (F := Ideal)) 230 rfl (at_v155 V) (at_v156 V) :)
theorem at_v158 : At V main_v158 v158 := (at_binary (hW (F := Ideal)) 231 rfl (at_v152 V) (at_v157 V) :)
theorem at_v159 : At V main_v159 v159 := (at_unary (hW (F := Ideal)) 232 rfl (at_v151 V) :)
theorem at_v160 : At V main_v160 v160 := (at_unary (hW (F := Ideal)) 233 rfl (at_v151 V) :)

end Cert.Ref

end
-- ==== Proof.Ref.At3.lean ====
import proofs.«123660_g14800457302192_cont_week2b_463_30_alg».proof.Proof.Ref.Stages
import proofs.«123660_g14800457302192_cont_week2b_463_30_alg».proof.Proof.Ref.At2

noncomputable section

namespace Cert.Ref

open Cert.ReferenceIdeal Idealize.ShloMosaic Idealize.ShloMosaic.TcCoe Idealize.SL.Sem Idealize.ShloMosaic.StableHlo

variable (V : Valuation τ sig (Elt Ideal))

theorem at_v161 : At V main_v161 v161 := (at_unary (hW (F := Ideal)) 234 rfl (at_v151 V) :)
theorem at_v162 : At V main_v162 v162 := (at_binary (hW (F := Ideal)) 235 rfl (at_v160 V) (at_v161 V) :)
theorem at_v163 : At V main_v163 v163 := (at_binary (hW (F := Ideal)) 236 rfl (at_v159 V) (at_v162 V) :)
theorem at_v164 : At V main_v164 v164 := (at_unary (hW (F := Ideal)) 237 rfl (at_v158 V) :)
theorem at_v165 : At V main_v165 v165 := (at_unary (hW (F := Ideal)) 238 rfl (at_v163 V) :)
theorem at_v166 : At V main_v166 v166 := (at_unary (hW (F := Ideal)) 239 rfl (at_v158 V) :)
theorem at_v167 : At V main_v167 v167 := (at_binary (hW (F := Ideal)) 240 rfl (at_v165 V) (at_v166 V) :)
theorem at_v168 : At V main_v168 v168 := (at_unary (hW (F := Ideal)) 241 rfl (at_v158 V) :)
theorem at_v169 : At V main_v169 v169 := (at_binary (hW (F := Ideal)) 242 rfl (at_v167 V) (at_v168 V) :)
theorem at_v170 : At V main_v170 v170 := (at_binary (hW (F := Ideal)) 243 rfl (at_v164 V) (at_v169 V) :)
theorem at_v171 : At V main_v171 v171 := (at_unary (hW (F := Ideal)) 244 rfl (at_v163 V) :)
theorem at_v172 : At V main_v172 v172 := (at_unary (hW (F := Ideal)) 245 rfl (at_v163 V) :)
theorem at_v173 : At V main_v173 v173 := (at_unary (hW (F := Ideal)) 246 rfl (at_v163 V) :)
theorem at_v174 : At V main_v174 v174 := (at_binary (hW (F := Ideal)) 247 rfl (at_v172 V) (at_v173 V) :)
theorem at_v175 : At V main_v175 v175 := (at_binary (hW (F := Ideal)) 248 rfl (at_v171 V) (at_v174 V) :)
theorem at_v176 : At V main_v176 v176 := (at_unary (hW (F := Ideal)) 249 rfl (at_v170 V) :)
theorem at_v177 : At V main_v177 v177 := (at_unary (hW (F := Ideal)) 250 rfl (at_v175 V) :)
theorem at_v178 : At V main_v178 v178 := (at_unary (hW (F := Ideal)) 251 rfl (at_v170 V) :)
theorem at_v179 : At V main_v179 v179 := (at_binary (hW (F := Ideal)) 252 rfl (at_v177 V) (at_v178 V) :)
theorem at_v180 : At V main_v180 v180 := (at_unary (hW (F := Ideal)) 253 rfl (at_v170 V) :)
theorem at_v181 : At V main_v181 v181 := (at_binary (hW (F := Ideal)) 254 rfl (at_v179 V) (at_v180 V) :)
theorem at_v182 : At V main_v182 v182 := (at_binary (hW (F := Ideal)) 255 rfl (at_v176 V) (at_v181 V) :)
theorem at_v183 : At V main_v183 v183 := (at_unary (hW (F := Ideal)) 256 rfl (at_v175 V) :)
theorem at_v184 : At V main_v184 v184 := (at_unary (hW (F := Ideal)) 257 rfl (at_v175 V) :)
theorem at_v185 : At V main_v185 v185 := (at_unary (hW (F := Ideal)) 258 rfl (at_v175 V) :)
theorem at_v186 : At V main_v186 v186 := (at_binary (hW (F := Ideal)) 259 rfl (at_v184 V) (at_v185 V) :)
theorem at_v187 : At V main_v187 v187 := (at_binary (hW (F := Ideal)) 260 rfl (at_v183 V) (at_v186 V) :)
theorem at_v188 : At V main_v188 v188 := (at_unary (hW (F := Ideal)) 261 rfl (at_v182 V) :)
theorem at_v189 : At V main_v189 v189 := (at_unary (hW (F := Ideal)) 262 rfl (at_v187 V) :)
theorem at_v190 : At V main_v190 v190 := (at_unary (hW (F := Ideal)) 263 rfl (at_v182 V) :)
theorem at_v191 : At V main_v191 v191 := (at_binary (hW (F := Ideal)) 264 rfl (at_v189 V) (at_v190 V) :)
theorem at_v192 : At V main_v192 v192 := (at_unary (hW (F := Ideal)) 265 rfl (at_v182 V) :)
theorem at_v193 : At V main_v193 v193 := (at_binary (hW (F := Ideal)) 266 rfl (at_v191 V) (at_v192 V) :)
theorem at_v194 : At V main_v194 v194 := (at_binary (hW (F := Ideal)) 267 rfl (at_v188 V) (at_v193 V) :)
theorem at_v195 : At V main_v195 v195 := (at_unary (hW (F := Ideal)) 268 rfl (at_v187 V) :)
theorem at_v196 : At V main_v196 v196 := (at_unary (hW (F := Ideal)) 269 rfl (at_v187 V) :)
theorem at_v197 : At V main_v197 v197 := (at_unary (hW (F := Ideal)) 270 rfl (at_v187 V) :)
theorem at_v198 : At V main_v198 v198 := (at_binary (hW (F := Ideal)) 271 rfl (at_v196 V) (at_v197 V) :)
theorem at_v199 : At V main_v199 v199 := (at_binary (hW (F := Ideal)) 272 rfl (at_v195 V) (at_v198 V) :)
theorem at_v200 : At V main_v200 v200 := (at_unary (hW (F := Ideal)) 273 rfl (at_v46 V) :)
theorem at_v201 : At V main_v201 v201 := (at_unary (hW (F := Ideal)) 274 rfl (at_v200 V) :)
theorem at_v202 : At V main_v202 v202 := (at_unary (hW (F := Ideal)) 275 rfl (at_v201 V) :)
theorem at_v203 : At V main_v203 v203 := (at_binary (hW (F := Ideal)) 276 rfl (at_v194 V) (at_v202 V) :)
theorem at_v204 : At V main_v204 v204 := (at_unary (hW (F := Ideal)) 277 rfl (at_v33 V) :)
theorem at_call5_call0_c : At V main_call5_call0_c call5_call0_c := (at_nullary (hW (F := Ideal)) 278 rfl :)
theorem at_call5_call0_v0 : At V main_call5_call0_v0 call5_call0_v0 := (at_unary (hW (F := Ideal)) 279 rfl (at_call5_call0_c V) :)
theorem at_v205 :
    after ops V (Proc.devRef .tc main_v205) = v205 (arg0 V) (arg1 V) (arg2 V) := by
  have h := at_binary (hW (F := Ideal)) 280 rfl (at_v204 V) (at_call5_call0_v0 V)
  simp only [TRef.toBuf, TRef.ofBuf, cast_eq] at h
  unfold v205
  generalize v204 (arg0 V) (arg1 V) (arg2 V) = x0 at h ⊢
  generalize call5_call0_v0 (arg0 V) (arg1 V) (arg2 V) = x1 at h ⊢
  exact h
theorem at_c_17 : At V main_c_17 c_17 := (at_nullary (hW (F := Ideal)) 281 rfl :)
theorem at_v206 : At V main_v206 v206 := (at_unary (hW (F := Ideal)) 282 rfl (at_c_17 V) :)
theorem at_v207 : At V main_v207 v207 := (at_binary (hW (F := Ideal)) 283 rfl (at_v205 V) (at_v206 V) :)
theorem at_c_18 : At V main_c_18 c_18 := (at_nullary (hW (F := Ideal)) 284 rfl :)
theorem at_c_19 : At V main_c_19 c_19 := (at_nullary (hW (F := Ideal)) 285 rfl :)
theorem at_call6_v0 : At V main_call6_v0 call6_v0 := (at_unary (hW (F := Ideal)) 286 rfl (at_c_18 V) :)
theorem at_call6_v1 : At V main_call6_v1 call6_v1 := (at_unary (hW (F := Ideal)) 287 rfl (at_call6_v0 V) :)
theorem at_call6_v2 :
    after ops V (Proc.devRef .tc main_call6_v2) = call6_v2 (arg0 V) (arg1 V) (arg2 V) := by
  have h := at_binary (hW (F := Ideal)) 288 rfl (at_call6_v1 V) (at_v207 V)
  simp only [TRef.toBuf, TRef.ofBuf, cast_eq] at h
  unfold call6_v2
  generalize call6_v1 (arg0 V) (arg1 V) (arg2 V) = x0 at h ⊢
  generalize v207 (arg0 V) (arg1 V) (arg2 V) = x1 at h ⊢
  exact h
theorem at_call6_v3 : At V main_call6_v3 call6_v3 := (at_unary (hW (F := Ideal)) 289 rfl (at_c_19 V) :)
theorem at_call6_v4 : At V main_call6_v4 call6_v4 := (at_unary (hW (F := Ideal)) 290 rfl (at_call6_v3 V) :)
theorem at_v208 :
    after ops V (Proc.devRef .tc main_v208) = v208 (arg0 V) (arg1 V) (arg2 V) := by
  have h := at_binary (hW (F := Ideal)) 291 rfl (at_call6_v4 V) (at_call6_v2 V)
  simp only [TRef.toBuf, TRef.ofBuf, cast_eq] at h
  unfold v208
  generalize call6_v4 (arg0 V) (arg1 V) (arg2 V) = x0 at h ⊢
  generalize call6_v2 (arg0 V) (arg1 V) (arg2 V) = x1 at h ⊢
  exact h
theorem at_c_20 : At V main_c_20 c_20 := (at_nullary (hW (F := Ideal)) 292 rfl :)
theorem at_v209 : At V main_v209 v209 := (at_unary (hW (F := Ideal)) 293 rfl (at_c_20 V) :)
theorem at_v210 : At V main_v210 v210 := (at_binary (hW (F := Ideal)) 294 rfl (at_v207 V) (at_v209 V) :)
theorem at_v211 : At V main_v211 v211 := (at_unary (hW (F := Ideal)) 295 rfl (at_v208 V) :)
theorem at_call7_c : At V main_call7_c call7_c := (at_nullary (hW (F := Ideal)) 296 rfl :)
theorem at_call7_v0 : At V main_call7_v0 call7_v0 := (at_unary (hW (F := Ideal)) 297 rfl (at_call7_c V) :)
theorem at_call7_v1 :
    after ops V (Proc.devRef .tc main_call7_v1) = call7_v1 (arg0 V) (arg1 V) (arg2 V) := by
  have h := at_binary (hW (F := Ideal)) 298 rfl (at_v211 V) (at_call7_v0 V)
  simp only [TRef.toBuf, TRef.ofBuf, cast_eq] at h
  unfold call7_v1
  generalize v211 (arg0 V) (arg1 V) (arg2 V) = x0 at h ⊢
  generalize call7_v0 (arg0 V) (arg1 V) (arg2 V) = x1 at h ⊢
  exact h
theorem at_call7_c_0 : At V main_call7_c_0 call7_c_0 := (at_nullary (hW (F := Ideal)) 299 rfl :)
theorem at_call7_v2 : At V main_call7_v2 call7_v2 := (at_unary (hW (F := Ideal)) 300 rfl (at_call7_c_0 V) :)
theorem at_call7_v3 :
    after ops V (Proc.devRef .tc main_call7_v3) = call7_v3 (arg0 V) (arg1 V) (arg2 V) := by
  have h := at_binary (hW (F := Ideal)) 301 rfl (at_v211 V) (at_call7_v2 V)
  simp only [TRef.toBuf, TRef.ofBuf, cast_eq] at h
  unfold call7_v3
  generalize v211 (arg0 V) (arg1 V) (arg2 V) = x0 at h ⊢
  generalize call7_v2 (arg0 V) (arg1 V) (arg2 V) = x1 at h ⊢
  exact h
theorem at_call7_v4 :
    after ops V (Proc.devRef .tc main_call7_v4) = call7_v4 (arg0 V) (arg1 V) (arg2 V) := by
  have h := at_ternary (hW (F := Ideal)) 302 rfl (at_call7_v1 V) (at_call7_v3 V) (at_v211 V)
  simp only [TRef.toBuf, TRef.ofBuf, cast_eq] at h
  unfold call7_v4
  generalize call7_v1 (arg0 V) (arg1 V) (arg2 V) = x0 at h ⊢
  generalize call7_v3 (arg0 V) (arg1 V) (arg2 V) = x1 at h ⊢
  generalize v211 (arg0 V) (arg1 V) (arg2 V) = x2 at h ⊢
  exact h
theorem at_call7_c_1 : At V main_call7_c_1 call7_c_1 := (at_nullary (hW (F := Ideal)) 303 rfl :)
theorem at_call7_c_2 : At V main_call7_c_2 call7_c_2 := (at_nullary (hW (F := Ideal)) 304 rfl :)
theorem at_call7_v5 : At V main_call7_v5 call7_v5 := (at_unary (hW (F := Ideal)) 305 rfl (at_call7_c_2 V) :)
theorem at_call7_v6 :
    after ops V (Proc.devRef .tc main_call7_v6) = call7_v6 (arg0 V) (arg1 V) (arg2 V) := by
  have h := at_binary (hW (F := Ideal)) 306 rfl (at_call7_v4 V) (at_call7_v5 V)
  simp only [TRef.toBuf, TRef.ofBuf, cast_eq] at h
  unfold call7_v6
  generalize call7_v4 (arg0 V) (arg1 V) (arg2 V) = x0 at h ⊢
  generalize call7_v5 (arg0 V) (arg1 V) (arg2 V) = x1 at h ⊢
  exact h
theorem at_call7_v7 : At V main_call7_v7 call7_v7 := (at_unary (hW (F := Ideal)) 307 rfl (at_call7_c_1 V) :)
theorem at_call7_v8 : At V main_call7_v8 call7_v8 := (at_unary (hW (F := Ideal)) 308 rfl (at_call7_v7 V) :)
theorem at_call7_v9 :
    after ops V (Proc.devRef .tc main_call7_v9) = call7_v9 (arg0 V) (arg1 V) (arg2 V) := by
  have h := at_binary (hW (F := Ideal)) 309 rfl (at_call7_v4 V) (at_call7_v8 V)
  simp only [TRef.toBuf, TRef.ofBuf, cast_eq] at h
  unfold call7_v9
  generalize call7_v4 (arg0 V) (arg1 V) (arg2 V) = x0 at h ⊢
  generalize call7_v8 (arg0 V) (arg1 V) (arg2 V) = x1 at h ⊢
  exact h
theorem at_call7_v10 :
    after ops V (Proc.devRef .tc main_call7_v10) = call7_v10 (arg0 V) (arg1 V) (arg2 V) := by
  have h := at_binary (hW (F := Ideal)) 310 rfl (at_call7_v6 V) (at_call7_v9 V)
  simp only [TRef.toBuf, TRef.ofBuf, cast_eq] at h
  unfold call7_v10
  generalize call7_v6 (arg0 V) (arg1 V) (arg2 V) = x0 at h ⊢
  generalize call7_v9 (arg0 V) (arg1 V) (arg2 V) = x1 at h ⊢
  exact h
theorem at_call7_c_3 : At V main_call7_c_3 call7_c_3 := (at_nullary (hW (F := Ideal)) 311 rfl :)
theorem at_call7_v11 : At V main_call7_v11 call7_v11 := (at_binary (hW (F := Ideal)) 312 rfl (at_call7_v10 V) (at_call7_c_3 V) :)
theorem at_call7_v12 :
    after ops V (Proc.devRef .tc main_call7_v12) = call7_v12 (arg0 V) (arg1 V) (arg2 V) := by
  have h := at_binary (hW (F := Ideal)) 313 rfl (at_v203 V) (at_call7_v4 V)
  simp only [TRef.toBuf, TRef.ofBuf, cast_eq] at h
  unfold call7_v12
  generalize v203 (arg0 V) (arg1 V) (arg2 V) = x0 at h ⊢
  generalize call7_v4 (arg0 V) (arg1 V) (arg2 V) = x1 at h ⊢
  exact h
theorem at_call7_v13 : At V main_call7_v13 call7_v13 := (at_unary (hW (F := Ideal)) 314 rfl (at_call7_v11 V) :)
theorem at_call7_cst : At V main_call7_cst call7_cst := (at_nullary (hW (F := Ideal)) 315 rfl :)
theorem at_call7_v14 : At V main_call7_v14 call7_v14 := (at_unary (hW (F := Ideal)) 316 rfl (at_call7_cst V) :)
theorem at_v212 : At V main_v212 v212 := (at_ternary (hW (F := Ideal)) 317 rfl (at_call7_v13 V) (at_call7_v12 V) (at_call7_v14 V) :)
theorem at_v213 : At V main_v213 v213 := (at_unary (hW (F := Ideal)) 318 rfl (at_v210 V) :)
theorem at_v214 : At V main_v214 v214 := (at_unary (hW (F := Ideal)) 319 rfl (at_v213 V) :)
theorem at_v215 : At V main_v215 v215 := (at_unary (hW (F := Ideal)) 320 rfl (at_v214 V) :)
theorem at_v216 : At V main_v216 v216 := (at_binary (hW (F := Ideal)) 321 rfl (at_v212 V) (at_v215 V) :)

end Cert.Ref

end
-- ==== Proof.Ref.At4.lean ====
import proofs.«123660_g14800457302192_cont_week2b_463_30_alg».proof.Proof.Ref.Stages
import proofs.«123660_g14800457302192_cont_week2b_463_30_alg».proof.Proof.Ref.At3

noncomputable section

namespace Cert.Ref

open Cert.ReferenceIdeal Idealize.ShloMosaic Idealize.ShloMosaic.TcCoe Idealize.SL.Sem Idealize.ShloMosaic.StableHlo

variable (V : Valuation τ sig (Elt Ideal))

theorem at_cst_21 : At V main_cst_21 cst_21 := (at_nullary (hW (F := Ideal)) 322 rfl :)
theorem at_v217 : At V main_v217 v217 := (at_unary (hW (F := Ideal)) 323 rfl (at_cst_21 V) :)
theorem at_v218 : At V main_v218 v218 := (at_binary (hW (F := Ideal)) 324 rfl (at_v217 V) (at_v31 V) :)
theorem at_v219 : At V main_v219 v219 := (at_binary (hW (F := Ideal)) 325 rfl (at_v218 V) (at_v31 V) :)
theorem at_cst_22 : At V main_cst_22 cst_22 := (at_nullary (hW (F := Ideal)) 326 rfl :)
theorem at_v220 : At V main_v220 v220 := (at_unary (hW (F := Ideal)) 327 rfl (at_cst_22 V) :)
theorem at_v221 : At V main_v221 v221 := (at_binary (hW (F := Ideal)) 328 rfl (at_v219 V) (at_v219 V) :)
theorem at_v222 : At V main_v222 v222 := (at_binary (hW (F := Ideal)) 329 rfl (at_v220 V) (at_v221 V) :)
theorem at_v223 : At V main_v223 v223 := (at_unary (hW (F := Ideal)) 330 rfl (at_v222 V) :)
theorem at_v224 : At V main_v224 v224 := (at_unary (hW (F := Ideal)) 331 rfl (at_v223 V) :)
theorem at_v225 : At V main_v225 v225 := (at_binary (hW (F := Ideal)) 332 rfl (at_v216 V) (at_v224 V) :)
theorem at_v226 : At V main_v226 v226 := (at_binary (hW (F := Ideal)) 333 rfl (at_arg0 V) (at_v225 V) :)

end Cert.Ref

end
-- ==== Proof.Ref.Run.lean ====
import proofs.«123660_g14800457302192_cont_week2b_463_30_alg».proof.Proof.Ref.RunMain
import proofs.«123660_g14800457302192_cont_week2b_463_30_alg».proof.Proof.Ref.At4

noncomputable section

namespace Cert.Ref

open Cert.ReferenceIdeal Cert.ReferenceIdeal.Facts₀ Idealize.ShloMosaic Idealize.ShloMosaic.TcCoe Idealize.SL.Sem Idealize.ShloMosaic.StableHlo

-- The result array ends at the last stage of the argument arrays, which themselves are unchanged.
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v226)
          = v226 (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v226).trans (at_v226 (launchContents m c)),
        (h c main_arg0).trans (at_arg0 (launchContents m c)),
        (h c main_arg1).trans (at_arg1 (launchContents m c)),
        (h c main_arg2).trans (at_arg2 (launchContents m c))⟩)
    (run_main m ρ)

end Cert.Ref

end
-- ==== Proof.Real.Compact.lean ====
import proofs.«123660_g14800457302192_cont_week2b_463_30_alg».proof.Proof.Spec
import proofs.«123660_g14800457302192_cont_week2b_463_30_alg».proof.Proof.Real.Scan

noncomputable section

namespace Cert.Spec

open Finset

def countB (p : ℕ → ℝ) (n : ℕ) : ℕ := ((range n).filter fun l => 1 / 2 < p l).card

structure Compacts (p : ℕ → ℝ) (n : ℕ) (ord : ℕ → ℕ) : Prop where
  lt : ∀ j, j < countB p n → ord j < n
  bd : ∀ j, j < countB p n → 1 / 2 < p (ord j)
  rank : ∀ j, j < countB p n → countB p (ord j) = j

def cKeep (p : ℕ → ℝ) (ord : ℕ → ℕ) (n j : ℕ) : ℝ := if j < countB p n then 1 - p (ord j) else 1

def cIn (p : ℕ → ℝ) (ord : ℕ → ℕ) (n : ℕ) (x : ℕ → ℕ → ℝ) (j d : ℕ) : ℝ := (1 - cKeep p ord n j) * x (ord j) d

theorem countB_zero (p : ℕ → ℝ) : countB p 0 = 0 := by
  simp [countB]

theorem countB_succ (p : ℕ → ℝ) (l : ℕ) :
    countB p (l + 1) = countB p l + (if 1 / 2 < p l then 1 else 0) := by
  unfold countB
  rw [Finset.range_add_one, Finset.filter_insert]
  split_ifs with h
  · rw [Finset.card_insert_of_notMem]
    simp
  · simp

theorem countB_mono (p : ℕ → ℝ) {m n : ℕ} (h : m ≤ n) : countB p m ≤ countB p n := by
  unfold countB
  exact Finset.card_le_card (Finset.filter_subset_filter _ (Finset.range_mono h))

theorem ord_countB (p : ℕ → ℝ) (n : ℕ) (ord : ℕ → ℕ) (hc : Compacts p n ord) (l : ℕ) (hl : l < n)
    (hb : 1 / 2 < p l) : countB p l < countB p n ∧ ord (countB p l) = l := by
  have hs : countB p (l + 1) = countB p l + 1 := by rw [countB_succ, if_pos hb]
  have hj : countB p l < countB p n := by
    have := countB_mono p (show l + 1 ≤ n from hl)
    omega
  refine ⟨hj, ?_⟩
  have hr := hc.rank _ hj
  have hbd := hc.bd _ hj
  have hs' : countB p (ord (countB p l) + 1) = countB p (ord (countB p l)) + 1 := by
    rw [countB_succ, if_pos hbd]
  rcases Nat.lt_trichotomy (ord (countB p l)) l with h | h | h
  · have := countB_mono p (show ord (countB p l) + 1 ≤ l from h)
    omega
  · exact h
  · have := countB_mono p (show l + 1 ≤ ord (countB p l) from h)
    omega

theorem compact_state_aux (p : ℕ → ℝ) (n : ℕ) (ord : ℕ → ℕ) (x : ℕ → ℕ → ℝ) (hc : Compacts p n ord) (d : ℕ) :
    ∀ l, l ≤ n → sol (cKeep p ord n) (fun j => cIn p ord n x j d) (countB p l)
      = stateOf (keepOf p) (gainOf p) x l d := by
  intro l
  induction l with
  | zero => intro _; rw [countB_zero]; rfl
  | succ l ih =>
    intro hl
    have ih' := ih (Nat.le_of_succ_le hl)
    rw [stateOf_succ, ← ih']
    by_cases hb : 1 / 2 < p l
    · obtain ⟨hj, ho⟩ := ord_countB p n ord hc l hl hb
      rw [countB_succ, if_pos hb, sol_succ]
      simp only [cIn, cKeep, if_pos hj, ho, keepOf, gainOf, if_pos hb]
      ring
    · rw [countB_succ, if_neg hb, Nat.add_zero]
      simp only [keepOf, gainOf, if_neg hb]
      ring

theorem compact_state (p : ℕ → ℝ) (n : ℕ) (ord : ℕ → ℕ) (x : ℕ → ℕ → ℝ) (h0 : 1 / 2 < p 0)
    (hc : Compacts p n ord) (l d : ℕ) (hl : l < n) :
    sol (cKeep p ord n) (fun j => cIn p ord n x j d) (countB p (l + 1))
      = stateOf (keepOf p) (gainOf p) x (l + 1) d :=
  compact_state_aux p n ord x hc d (l + 1) hl

end Cert.Spec

end
-- ==== Proof.Ref.GatherTake.lean ====
import Idealize.ShloMosaic.PureOps.Reduce
import Idealize.ShloMosaic.Lib.ValueIdx
import Idealize.ShloMosaic.Lib.StableHlo.Predicate

namespace Cert.Ref

open Idealize.ShloMosaic Idealize.ShloMosaic.ValueIdx Idealize.ShloMosaic.StableHlo.Predicate

theorem foldl_andi_ones {ι : Type} (f : ι → BitVec 1) (hf : ∀ i, f i = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_ones f hf l

theorem take_wrap {s : Shape} (hz : (⟨0, ![]⟩ : Shape).BroadcastsInDim s ![]) (idx : IVec s 32)
    (h : ∀ i, (idx i).toNat < 2 ^ 31) :
    select (cmpi .slt idx (broadcastInDim s ![] hz (constantI ⟨0, ![]⟩ 32 0#32)))
      (addi idx (broadcastInDim s ![] hz (constantI ⟨0, ![]⟩ 32 2048#32))) idx = idx := by
  funext i
  show Scalar.select (IntOp.cmpi .slt (idx i) 0#32) (IntOp.addi (idx i) 2048#32) (idx i) = idx i
  have hn : ¬ IntOp.cmpi .slt (idx i) 0#32 = 1#1 := by
    rw [slt_iff_toNat (h i) (by decide)]
    simp
  rw [eq_zero_of_ne_one hn, select_zero]

theorem take_inrange {s s1 s2 t : Shape} {axes : List (Fin s.rank)} {d1 : Fin s1.rank → Fin s2.rank}
    {d2 : Fin s2.rank → Fin s.rank} (hz : (⟨0, ![]⟩ : Shape).BroadcastsInDim s ![]) (hb1 : s1.BroadcastsInDim s2 d1)
    (hb2 : s2.BroadcastsInDim s d2) (hr : s.ReducesTo axes t) (hu : 0 < (⟨0, ![]⟩ : Shape).numel) (w : IVec s 32)
    (hw : ∀ i, (w i).toNat ≤ 2047) :
    Host.reduce IntOp.andi
      (andi (cmpi .sge w (broadcastInDim s ![] hz (constantI ⟨0, ![]⟩ 32 0#32)))
        (cmpi .sle w (broadcastInDim s d2 hb2 (broadcastInDim s2 d1 hb1 (constantI s1 32 2047#32)))))
      (constantI ⟨0, ![]⟩ 1 1#1) hr hu = fun _ => 1#1 := by
  funext j
  rw [Host.reduce_eq_foldl]
  refine foldl_andi_ones _ (fun i => ?_) _
  show IntOp.andi (IntOp.cmpi .sge (w i) 0#32) (IntOp.cmpi .sle (w i) 2047#32) = 1#1
  have hi := hw i
  have h1 : IntOp.cmpi .sge (w i) 0#32 = 1#1 := (sge_iff_toNat (by omega) (by decide)).2 (by simp)
  have h2 : IntOp.cmpi .sle (w i) 2047#32 = 1#1 := (sle_iff_toNat (by omega) (by decide)).2 (by simpa using hi)
  rw [h1, h2]
  decide

theorem take_select {α : Type} {s t : Shape} {dims : Fin t.rank → Fin s.rank} (h : t.BroadcastsInDim s dims) (m : IVec t 1)
    (hm : m = fun _ => 1#1) (G fill : s.Idx → α) : select (broadcastInDim s dims h m) G fill = G := by
  subst hm
  funext i
  exact select_one _ _

end Cert.Ref
-- ==== Proof.Ref.GatherAt.lean ====
import proofs.«123660_g14800457302192_cont_week2b_463_30_alg».proof.ReferenceIdeal
import proofs.«123660_g14800457302192_cont_week2b_463_30_alg».proof.Proof.Gen.ReferenceIdeal
import Idealize.ShloMosaic.Lib.ValueIdx

noncomputable section

namespace Cert.Ref

open Idealize.ShloMosaic Idealize.ShloMosaic.ValueIdx Cert.ReferenceIdeal

theorem word_toInt_toNat_of_lt (k : ℕ) (hk : k < 2048) : (BitVec.ofNat 32 k).toInt.toNat = k := by
  have h1 : (BitVec.ofNat 32 k).toNat = k := by
    rw [BitVec.toNat_ofNat]; exact Nat.mod_eq_of_lt (by omega)
  rw [BitVec.toInt_eq_toNat_cond, h1]
  have : 2 * k < 2 ^ 32 := by omega
  rw [if_pos this]
  exact Int.toNat_natCast k

theorem gather3_at {α : Type} [Facts₀] (x : S4x2048x512.Idx → α) (idx : IVec S4x2048x1 32)
    (b : Fin 4) (j : Fin 2048) (d : Fin 512) (k : ℕ) (hk : k < 2048)
    (h : idx (ix3 b j (0 : Fin 1)) = BitVec.ofNat 32 k) :
    Host.gather gather_S4x2048x512_S4x2048x1_S4x2048x512_2_1_0_0_1_2_11512 x idx (ix3 b j d) = x (ix3 b ⟨k, hk⟩ d) := by
  unfold Host.gather
  congr 1
  funext a
  refine Fin.ext ?_
  match a with
  | ⟨0, h0⟩ =>
    show GatherDims.start _ _ idx _ + GatherDims.batchCoord _ _ _ + GatherDims.offCoord _ _ _ = b.val
    have hb : (⟨0, h0⟩ : Fin S4x2048x512.rank) ∈ gather_S4x2048x512_S4x2048x1_S4x2048x512_2_1_0_0_1_2_11512.operandBatchingDims := List.mem_singleton.mpr rfl
    rw [GatherDims.start_batching _ _ idx _ hb,
      GatherDims.offCoord_eq_zero _ _ _ (fun hm => ((GatherDims.mem_sKept _ _).1 hm).2 hb)]
    simp only [Nat.zero_add, Nat.add_zero]
    rfl
  | ⟨1, h1⟩ =>
    show GatherDims.start _ _ idx _ + GatherDims.batchCoord _ _ _ + GatherDims.offCoord _ _ _ = k
    have hnb : (⟨1, h1⟩ : Fin S4x2048x512.rank) ∉ gather_S4x2048x512_S4x2048x1_S4x2048x512_2_1_0_0_1_2_11512.operandBatchingDims := fun hm => by
      have e := congrArg Fin.val (List.mem_singleton.1 hm)
      change (1 : ℕ) = 0 at e
      omega
    have hc : (⟨1, h1⟩ : Fin S4x2048x512.rank) ∈ gather_S4x2048x512_S4x2048x1_S4x2048x512_2_1_0_0_1_2_11512.collapsedSliceDims := List.mem_singleton.mpr rfl
    have hm : (⟨1, h1⟩ : Fin S4x2048x512.rank) ∈ gather_S4x2048x512_S4x2048x1_S4x2048x512_2_1_0_0_1_2_11512.startIndexMap := List.mem_singleton.mpr rfl
    rw [GatherDims.batchCoord_eq_zero _ _ _ hnb,
      GatherDims.offCoord_eq_zero _ _ _ (fun hs => ((GatherDims.mem_sKept _ _).1 hs).1 hc)]
    simp only [Nat.add_zero]
    unfold GatherDims.start
    rw [dif_pos hm]
    have hsi : gather_S4x2048x512_S4x2048x1_S4x2048x512_2_1_0_0_1_2_11512.siIdx (ix3 b j d)
        ⟨List.idxOf (⟨1, h1⟩ : Fin S4x2048x512.rank) gather_S4x2048x512_S4x2048x1_S4x2048x512_2_1_0_0_1_2_11512.startIndexMap,
          List.idxOf_lt_length_iff.2 hm⟩ = ix3 b j (0 : Fin 1) := by
      funext c; refine Fin.ext ?_
      match c with
      | ⟨0, _⟩ => rfl
      | ⟨1, _⟩ => rfl
      | ⟨2, _⟩ => rfl
    rw [hsi, h, word_toInt_toNat_of_lt k hk]
    show min k (2048 - 1) = k
    omega
  | ⟨2, h2⟩ =>
    show GatherDims.start _ _ idx _ + GatherDims.batchCoord _ _ _ + GatherDims.offCoord _ _ _ = d.val
    have hnb : (⟨2, h2⟩ : Fin S4x2048x512.rank) ∉ gather_S4x2048x512_S4x2048x1_S4x2048x512_2_1_0_0_1_2_11512.operandBatchingDims := fun hm => by
      have e := congrArg Fin.val (List.mem_singleton.1 hm)
      change (2 : ℕ) = 0 at e
      omega
    have hnm : (⟨2, h2⟩ : Fin S4x2048x512.rank) ∉ gather_S4x2048x512_S4x2048x1_S4x2048x512_2_1_0_0_1_2_11512.startIndexMap := fun hm => by
      have e := congrArg Fin.val (List.mem_singleton.1 hm)
      change (2 : ℕ) = 1 at e
      omega
    rw [GatherDims.batchCoord_eq_zero _ _ _ hnb]
    unfold GatherDims.start
    rw [dif_neg hnm]
    simp only [Nat.zero_add, Nat.add_zero]
    rfl

theorem gather2_at {α : Type} [Facts₀] (x : S4x2048.Idx → α) (idx : IVec S4x2048x1 32)
    (b : Fin 4) (j : Fin 2048) (k : ℕ) (hk : k < 2048)
    (h : idx (ix3 b j (0 : Fin 1)) = BitVec.ofNat 32 k) :
    Host.gather gather_S4x2048_S4x2048x1_S4x2048_n_1_0_0_1_2_11 x idx (ix2 b j) = x (ix2 b ⟨k, hk⟩) := by
  unfold Host.gather
  congr 1
  funext a
  refine Fin.ext ?_
  match a with
  | ⟨0, h0⟩ =>
    show GatherDims.start _ _ idx _ + GatherDims.batchCoord _ _ _ + GatherDims.offCoord _ _ _ = b.val
    have hb : (⟨0, h0⟩ : Fin S4x2048.rank) ∈ gather_S4x2048_S4x2048x1_S4x2048_n_1_0_0_1_2_11.operandBatchingDims := List.mem_singleton.mpr rfl
    rw [GatherDims.start_batching _ _ idx _ hb,
      GatherDims.offCoord_eq_zero _ _ _ (fun hm => ((GatherDims.mem_sKept _ _).1 hm).2 hb)]
    simp only [Nat.zero_add, Nat.add_zero]
    rfl
  | ⟨1, h1⟩ =>
    show GatherDims.start _ _ idx _ + GatherDims.batchCoord _ _ _ + GatherDims.offCoord _ _ _ = k
    have hnb : (⟨1, h1⟩ : Fin S4x2048.rank) ∉ gather_S4x2048_S4x2048x1_S4x2048_n_1_0_0_1_2_11.operandBatchingDims := fun hm => by
      have e := congrArg Fin.val (List.mem_singleton.1 hm)
      change (1 : ℕ) = 0 at e
      omega
    have hc : (⟨1, h1⟩ : Fin S4x2048.rank) ∈ gather_S4x2048_S4x2048x1_S4x2048_n_1_0_0_1_2_11.collapsedSliceDims := List.mem_singleton.mpr rfl
    have hm : (⟨1, h1⟩ : Fin S4x2048.rank) ∈ gather_S4x2048_S4x2048x1_S4x2048_n_1_0_0_1_2_11.startIndexMap := List.mem_singleton.mpr rfl
    rw [GatherDims.batchCoord_eq_zero _ _ _ hnb,
      GatherDims.offCoord_eq_zero _ _ _ (fun hs => ((GatherDims.mem_sKept _ _).1 hs).1 hc)]
    simp only [Nat.add_zero]
    unfold GatherDims.start
    rw [dif_pos hm]
    have hsi : gather_S4x2048_S4x2048x1_S4x2048_n_1_0_0_1_2_11.siIdx (ix2 b j)
        ⟨List.idxOf (⟨1, h1⟩ : Fin S4x2048.rank) gather_S4x2048_S4x2048x1_S4x2048_n_1_0_0_1_2_11.startIndexMap,
          List.idxOf_lt_length_iff.2 hm⟩ = ix3 b j (0 : Fin 1) := by
      funext c; refine Fin.ext ?_
      match c with
      | ⟨0, _⟩ => rfl
      | ⟨1, _⟩ => rfl
      | ⟨2, _⟩ => rfl
    rw [hsi, h, word_toInt_toNat_of_lt k hk]
    show min k (2048 - 1) = k
    omega

end Cert.Ref

end
-- ==== Proof.Ref.TailCore.lean ====
import proofs.«123660_g14800457302192_cont_week2b_463_30_alg».proof.Proof.Ref.Stages
import Idealize.ShloMosaic.PureOps.Ideal
import Idealize.ShloMosaic.Lib.ValueIdx
import proofs.«123660_g14800457302192_cont_week2b_463_30_alg».proof.Proof.Coe
import proofs.«123660_g14800457302192_cont_week2b_463_30_alg».proof.Proof.Real.Scan
import proofs.«123660_g14800457302192_cont_week2b_463_30_alg».proof.Proof.Real.Compact
import proofs.«123660_g14800457302192_cont_week2b_463_30_alg».proof.Proof.Ref.GatherTake
import proofs.«123660_g14800457302192_cont_week2b_463_30_alg».proof.Proof.Ref.GatherAt

noncomputable section

namespace Cert.Ref

open Idealize.ShloMosaic Idealize.ShloMosaic.ValueIdx Cert.ReferenceIdeal Cert.Num Cert.Spec

private theorem bc_col {α : Type} (h : S4x2048.BroadcastsInDim S4x2048x1 ![0, 1]) (v : S4x2048.Idx → α)
    (b : Fin 4) (l : Fin 2048) (z : Fin 1) :
    broadcastInDim S4x2048x1 ![0, 1] h v (ix3 b l z) = v (ix2 b l) := by
  simp only [broadcastInDim]
  congr 1
  funext a
  match a with
  | ⟨0, _⟩ =>
    apply Fin.ext
    split
    · next h1 => change (4 : ℕ) = 1 at h1; omega
    · rfl
  | ⟨1, _⟩ =>
    apply Fin.ext
    split
    · next h1 => change (2048 : ℕ) = 1 at h1; omega
    · rfl

private theorem bc_full {α : Type} (h : S4x2048x1.BroadcastsInDim S4x2048x512 ![0, 1, 2]) (v : S4x2048x1.Idx → α)
    (b : Fin 4) (l : Fin 2048) (d : Fin 512) :
    broadcastInDim S4x2048x512 ![0, 1, 2] h v (ix3 b l d) = v (ix3 b l (0 : Fin 1)) := by
  simp only [broadcastInDim]
  congr 1
  funext a
  match a with
  | ⟨0, _⟩ =>
    apply Fin.ext
    split
    · next h1 => change (4 : ℕ) = 1 at h1; omega
    · rfl
  | ⟨1, _⟩ =>
    apply Fin.ext
    split
    · next h1 => change (2048 : ℕ) = 1 at h1; omega
    · rfl
  | ⟨2, _⟩ =>
    apply Fin.ext
    split
    · rfl
    · next h1 => exact absurd rfl h1

private theorem bc_scalar {α : Type} {t : Shape} (h : S_.BroadcastsInDim t ![]) (v : S_.Idx → α) (j : t.Idx) :
    broadcastInDim t ![] h v j = v ix0 := by
  simp only [broadcastInDim]
  congr 1
  funext a
  exact a.elim0

private theorem maskmul_apply (h1 : S4x2048.BroadcastsInDim S4x2048x1 ![0, 1])
    (h2 : S4x2048x1.BroadcastsInDim S4x2048x512 ![0, 1, 2])
    (x : FVec Ideal S4x2048x512 .f32) (m : IVec S4x2048 1) (b : Fin 4) (l : Fin 2048) (d : Fin 512) :
    mulf x (broadcastInDim S4x2048x512 ![0, 1, 2] h2 (uitofp .f32 (broadcastInDim S4x2048x1 ![0, 1] h1 m))) (ix3 b l d)
      = x (ix3 b l d) * (((m (ix2 b l)).toNat : ℝ) : EReal) := by
  rw [mulf_apply, bc_full]
  show x (ix3 b l d) * ((((broadcastInDim S4x2048x1 ![0, 1] h1 m (ix3 b l (0 : Fin 1))).toNat : ℝ) : EReal)) = _
  rw [bc_col]

private theorem maskmul_one (h1 : S4x2048.BroadcastsInDim S4x2048x1 ![0, 1])
    (h2 : S4x2048x1.BroadcastsInDim S4x2048x512 ![0, 1, 2])
    (x : FVec Ideal S4x2048x512 .f32) (m : IVec S4x2048 1) (b : Fin 4) (l : Fin 2048) (d : Fin 512)
    (hm : m (ix2 b l) = 1#1) :
    mulf x (broadcastInDim S4x2048x512 ![0, 1, 2] h2 (uitofp .f32 (broadcastInDim S4x2048x1 ![0, 1] h1 m))) (ix3 b l d)
      = x (ix3 b l d) := by
  rw [maskmul_apply, hm]
  show x (ix3 b l d) * (((1 : ℕ) : ℝ) : EReal) = _
  rw [Nat.cast_one, EReal.coe_one, mul_one]

private theorem bcmul_apply (h1 : S4x2048.BroadcastsInDim S4x2048x1 ![0, 1])
    (h2 : S4x2048x1.BroadcastsInDim S4x2048x512 ![0, 1, 2])
    (x : FVec Ideal S4x2048x512 .f32) (c : FVec Ideal S4x2048 .f32) (b : Fin 4) (l : Fin 2048) (d : Fin 512) :
    mulf x (broadcastInDim S4x2048x512 ![0, 1, 2] h2 (broadcastInDim S4x2048x1 ![0, 1] h1 c)) (ix3 b l d)
      = x (ix3 b l d) * c (ix2 b l) := by
  rw [mulf_apply, bc_full, bc_col]

private theorem coef_one (h : S_.BroadcastsInDim S4x2048 ![]) (p : FVec Ideal S4x2048 .f32) (i : S4x2048.Idx) (r : ℝ)
    (hp : p i = (r : EReal)) :
    addf (broadcastInDim S4x2048 ![] h (constant (F := Ideal) S_ .f32 0x3F800000#32))
      (subf (maximumf (subf (broadcastInDim S4x2048 ![] h (constant (F := Ideal) S_ .f32 0x3F800000#32)) p) p)
            (maximumf (subf (broadcastInDim S4x2048 ![] h (constant (F := Ideal) S_ .f32 0x3F800000#32)) p) p)) i
      = ((1 : ℝ) : EReal) := by
  rw [addf_apply, subf_apply, maximumf_apply, subf_apply, bc_scalar, constant_apply, ofBits_one, hp,
    sub_coe_coe, max_coe_coe, sub_coe_coe, sub_self, ← EReal.coe_add, add_zero]

private theorem countB_le (p : ℕ → ℝ) (n : ℕ) : countB p n ≤ n := by
  unfold countB
  exact (Finset.card_filter_le _ _).trans (by rw [Finset.card_range])

private theorem countB_pos (p : ℕ → ℝ) (h0 : 1 / 2 < p 0) (l : ℕ) : 1 ≤ countB p (l + 1) := by
  have h1 : countB p (0 + 1) = 1 := by rw [countB_succ, countB_zero, if_pos h0]
  have h2 := countB_mono p (show 0 + 1 ≤ l + 1 by omega)
  omega

section Chain

variable (a0 : Vec Ideal S4x2048x512 .f32) (a1 a2 : Vec Ideal S512x512 .f32)

private theorem v203_at (b : Fin 4) (j : Fin 2048) (d : Fin 512) (hm : v46 a0 a1 a2 (ix2 b j) = 1#1) :
    v203 a0 a1 a2 (ix3 b j d) = v194 a0 a1 a2 (ix3 b j d) := by
  unfold v203 v202 v201 v200
  exact maskmul_one _ _ _ _ b j d hm

private theorem v211_at (b : Fin 4) (l : Fin 2048) (z : Fin 1) :
    v211 a0 a1 a2 (ix3 b l z) = v208 a0 a1 a2 (ix2 b l) := by
  unfold v211
  exact bc_col _ _ b l z

private theorem call7_v4_eq (hs : ∀ i, (v211 a0 a1 a2 i).toNat < 2 ^ 31) : call7_v4 a0 a1 a2 = v211 a0 a1 a2 := by
  unfold call7_v4 call7_v1 call7_v3 call7_v0 call7_v2 call7_c call7_c_0
  exact take_wrap _ _ hs

private theorem call7_v11_eq (h4 : call7_v4 a0 a1 a2 = v211 a0 a1 a2) (hle : ∀ i, (v211 a0 a1 a2 i).toNat ≤ 2047) :
    call7_v11 a0 a1 a2 = fun _ => 1#1 := by
  unfold call7_v11 call7_v10 call7_v6 call7_v9 call7_v5 call7_v8 call7_v7 call7_c_1 call7_c_2 call7_c_3
  rw [h4]
  exact take_inrange _ _ _ _ _ _ hle

private theorem v212_eq (h11 : call7_v11 a0 a1 a2 = fun _ => 1#1) : v212 a0 a1 a2 = call7_v12 a0 a1 a2 := by
  unfold v212 call7_v13
  exact take_select _ _ h11 _ _

private theorem call7_v12_at (h4 : call7_v4 a0 a1 a2 = v211 a0 a1 a2) (b : Fin 4) (l : Fin 2048) (d : Fin 512)
    (k : ℕ) (hk : k < 2048) (hidx : v211 a0 a1 a2 (ix3 b l (0 : Fin 1)) = BitVec.ofNat 32 k) :
    call7_v12 a0 a1 a2 (ix3 b l d) = v203 a0 a1 a2 (ix3 b ⟨k, hk⟩ d) := by
  unfold call7_v12
  rw [h4]
  exact gather3_at _ _ b l d k hk hidx

private theorem v216_at (b : Fin 4) (l : Fin 2048) (d : Fin 512) (hm : v210 a0 a1 a2 (ix2 b l) = 1#1) :
    v216 a0 a1 a2 (ix3 b l d) = v212 a0 a1 a2 (ix3 b l d) := by
  unfold v216 v215 v214 v213
  exact maskmul_one _ _ _ _ b l d hm

private theorem v222_at (b : Fin 4) (l : Fin 2048) (r : ℝ) (hp : v31 a0 a1 a2 (ix2 b l) = (r : EReal)) :
    v222 a0 a1 a2 (ix2 b l) = ((1 : ℝ) : EReal) := by
  unfold v222 v221 v220 v219 v218 v217 cst_21 cst_22
  exact coef_one _ _ _ r hp

private theorem v225_at (b : Fin 4) (l : Fin 2048) (d : Fin 512) :
    v225 a0 a1 a2 (ix3 b l d) = v216 a0 a1 a2 (ix3 b l d) * v222 a0 a1 a2 (ix2 b l) := by
  unfold v225 v224 v223
  exact bcmul_apply _ _ _ _ b l d

private theorem v226_at (i : S4x2048x512.Idx) : v226 a0 a1 a2 i = a0 i + v225 a0 a1 a2 i := by
  unfold v226
  rfl

theorem v226_of (hreal : AllReal a0) (p : ℕ → ℕ → ℝ) (cnt : ℕ → ℕ) (k : ℕ → ℕ → ℕ) (S : ℕ → ℕ → ℕ → ℝ)
    (h31 : ∀ (b : Fin 4) (l : Fin 2048), v31 a0 a1 a2 (ix2 b l) = ((p b l : ℝ) : EReal))
    (hp01 : ∀ (b : Fin 4) (l : Fin 2048), 0 ≤ p b l ∧ p b l ≤ 1)
    (h46 : ∀ (b : Fin 4) (j : Fin 2048), v46 a0 a1 a2 (ix2 b j) = if (j : ℕ) < cnt b then 1#1 else 0#1)
    (h194 : ∀ (b : Fin 4) (j : Fin 2048) (d : Fin 512), v194 a0 a1 a2 (ix3 b j d) = ((S b j d : ℝ) : EReal))
    (h208 : ∀ (b : Fin 4) (l : Fin 2048), v208 a0 a1 a2 (ix2 b l) = BitVec.ofNat 32 (k b l))
    (hk : ∀ (b : Fin 4) (l : Fin 2048), k b l < cnt b ∧ cnt b ≤ 2048)
    (h210 : ∀ (b : Fin 4) (l : Fin 2048), v210 a0 a1 a2 (ix2 b l) = 1#1)
    (b : Fin 4) (l : Fin 2048) (d : Fin 512) :
    v226 a0 a1 a2 (ix3 b l d) = ((re3 a0 b l d + S b (k b l) d : ℝ) : EReal) := by
  have hk2 : ∀ (b : Fin 4) (l : Fin 2048), k b l < 2048 := fun b l => lt_of_lt_of_le (hk b l).1 (hk b l).2
  have hle : ∀ i, (v211 a0 a1 a2 i).toNat ≤ 2047 := by
    intro i
    obtain ⟨b', l', z', rfl⟩ : ∃ (b' : Fin 4) (l' : Fin 2048) (z' : Fin 1), i = ix3 b' l' z' := ⟨i 0, i 1, i 2, eq_ix3 i⟩
    rw [v211_at, h208, BitVec.toNat_ofNat, Nat.mod_eq_of_lt (by have := hk2 b' l'; omega)]
    have := hk2 b' l'
    omega
  have hs : ∀ i, (v211 a0 a1 a2 i).toNat < 2 ^ 31 := fun i => by have := hle i; omega
  have h4 := call7_v4_eq a0 a1 a2 hs
  have h11 := call7_v11_eq a0 a1 a2 h4 hle
  have h212 := v212_eq a0 a1 a2 h11
  have hidx : v211 a0 a1 a2 (ix3 b l (0 : Fin 1)) = BitVec.ofNat 32 (k b l) := by rw [v211_at, h208]
  have hvalid : v46 a0 a1 a2 (ix2 b (⟨k b l, hk2 b l⟩ : Fin 2048)) = 1#1 := by
    rw [h46]
    exact if_pos (hk b l).1
  rw [v226_at, v225_at, v222_at a0 a1 a2 b l (p b l) (h31 b l), v216_at a0 a1 a2 b l d (h210 b l), h212,
    call7_v12_at a0 a1 a2 h4 b l d (k b l) (hk2 b l) hidx, v203_at a0 a1 a2 b ⟨k b l, hk2 b l⟩ d hvalid,
    h194, re3_eq hreal b l d, ← EReal.coe_mul, mul_one, ← EReal.coe_add]

end Chain

section Result

variable (a0 : Vec Ideal S4x2048x512 .f32) (a1 a2 : Vec Ideal S512x512 .f32)

theorem v226_spec_of (hreal : AllReal a0) (o : ℕ → ℕ → ℕ)
    (h31 : ∀ (b : Fin 4) (l : Fin 2048), v31 a0 a1 a2 (ix2 b l) = ((prob (re3 a0 b) (re2 a1) (re2 a2) l : ℝ) : EReal))
    (h46 : ∀ (b : Fin 4) (j : Fin 2048), v46 a0 a1 a2 (ix2 b j)
      = if (j : ℕ) < countB (prob (re3 a0 b) (re2 a1) (re2 a2)) 2048 then 1#1 else 0#1)
    (h208 : ∀ (b : Fin 4) (l : Fin 2048), v208 a0 a1 a2 (ix2 b l)
      = BitVec.ofNat 32 (countB (prob (re3 a0 b) (re2 a1) (re2 a2)) (l + 1) - 1))
    (h210 : ∀ (b : Fin 4) (l : Fin 2048), v210 a0 a1 a2 (ix2 b l) = 1#1)
    (hcomp : ∀ b : Fin 4, Compacts (prob (re3 a0 b) (re2 a1) (re2 a2)) 2048 (o b))
    (h194 : ∀ (b : Fin 4) (j : Fin 2048) (d : Fin 512), v194 a0 a1 a2 (ix3 b j d)
      = ((sol (fun i => cKeep (prob (re3 a0 b) (re2 a1) (re2 a2)) (o b) 2048 i)
              (fun i => cIn (prob (re3 a0 b) (re2 a1) (re2 a2)) (o b) 2048 (re3 a0 b) i d) (j + 1) : ℝ) : EReal))
    (b : Fin 4) (l : Fin 2048) (d : Fin 512) :
    v226 a0 a1 a2 (ix3 b l d) = ((out (re3 a0 b) (re2 a1) (re2 a2) l d : ℝ) : EReal) := by
  have hp0 : ∀ b : ℕ, (1 : ℝ) / 2 < prob (re3 a0 b) (re2 a1) (re2 a2) 0 := fun b => by
    rw [prob_zero]; norm_num
  have hkc : ∀ (b : Fin 4) (l : Fin 2048),
      countB (prob (re3 a0 b) (re2 a1) (re2 a2)) (l + 1) - 1 < countB (prob (re3 a0 b) (re2 a1) (re2 a2)) 2048
        ∧ countB (prob (re3 a0 b) (re2 a1) (re2 a2)) 2048 ≤ 2048 := fun b l => by
    have h1 := countB_pos _ (hp0 b) l
    have h2 := countB_mono (prob (re3 a0 b) (re2 a1) (re2 a2)) (show (l : ℕ) + 1 ≤ 2048 from l.isLt)
    exact ⟨by omega, countB_le _ _⟩
  rw [v226_of a0 a1 a2 hreal (fun b => prob (re3 a0 b) (re2 a1) (re2 a2))
    (fun b => countB (prob (re3 a0 b) (re2 a1) (re2 a2)) 2048)
    (fun b l => countB (prob (re3 a0 b) (re2 a1) (re2 a2)) (l + 1) - 1)
    (fun b j d => sol (fun i => cKeep (prob (re3 a0 b) (re2 a1) (re2 a2)) (o b) 2048 i)
      (fun i => cIn (prob (re3 a0 b) (re2 a1) (re2 a2)) (o b) 2048 (re3 a0 b) i d) (j + 1))
    h31 (fun b l => prob_mem _ _ _ _) h46 h194 h208 hkc h210 b l d]
  have hc : countB (prob (re3 a0 b) (re2 a1) (re2 a2)) (l + 1) - 1 + 1
      = countB (prob (re3 a0 b) (re2 a1) (re2 a2)) (l + 1) := by
    have h1 := countB_pos _ (hp0 b) l
    omega
  show ((re3 a0 b l d + sol (fun i => cKeep (prob (re3 a0 b) (re2 a1) (re2 a2)) (o b) 2048 i)
      (fun i => cIn (prob (re3 a0 b) (re2 a1) (re2 a2)) (o b) 2048 (re3 a0 b) i d)
      (countB (prob (re3 a0 b) (re2 a1) (re2 a2)) (l + 1) - 1 + 1) : ℝ) : EReal) = _
  rw [hc]
  have hcs := compact_state (prob (re3 a0 b) (re2 a1) (re2 a2)) 2048 (o b) (re3 a0 b) (hp0 b) (hcomp b) l d l.isLt
  unfold out state
  rw [← hcs]

end Result

end Cert.Ref

end
-- ==== Proof.Ref.RouterOps.lean ====
import Idealize.ShloMosaic.Lib.IdealHost
import Idealize.ShloMosaic.Lib.ValueLayout
import Idealize.ShloMosaic.Lib.Pipeline.Value
import Idealize.ShloMosaic.PureOps.Ideal.Laws
import proofs.«123660_g14800457302192_cont_week2b_463_30_alg».proof.Proof.Coe

noncomputable section

namespace Cert.Ref

open Idealize.ShloMosaic Idealize.ShloMosaic.ValueIdx Cert.Num
open scoped BigOperators

theorem dot_at (w : DotDims.WF ⟨3, ![4, 2047, 512]⟩ ⟨2, ![512, 512]⟩ ⟨3, ![4, 2047, 512]⟩ [2] [1] [0, 1] [0] [] [])
    (A : FVec Ideal ⟨3, ![4, 2047, 512]⟩ .f32) (B : FVec Ideal ⟨2, ![512, 512]⟩ .f32) (b : Fin 4) (l : Fin 2047) (e : Fin 512) :
    Host.dotGeneral (⟨[2], [1], [0, 1], [0], [], [], w⟩ : DotDims _ _ _) none A B (ix3 b l e)
      = ∑ c : Fin 512, A (ix3 b l c) * B (ix2 e c) := by
  show FloatOps.dotGeneral _ none _ A B (ix3 b l e) = _
  rw [Ideal.dotGeneral_apply,
    ← Equiv.sum_comp (contrEquiv1 (⟨[2], [1], [0, 1], [0], [], [], w⟩ : DotDims _ _ _) 512 rfl rfl).symm]
  refine Finset.sum_congr rfl fun c _ => ?_
  have hc := contrEquiv1_symm_val
    (⟨[2], [1], [0, 1], [0], [], [], w⟩ : DotDims ⟨3, ![4, 2047, 512]⟩ ⟨2, ![512, 512]⟩ ⟨3, ![4, 2047, 512]⟩) 512 rfl rfl c
  have hl : (⟨[2], [1], [0, 1], [0], [], [], w⟩ : DotDims ⟨3, ![4, 2047, 512]⟩ ⟨2, ![512, 512]⟩ ⟨3, ![4, 2047, 512]⟩).lhsIdx (ix3 b l e)
      ((contrEquiv1 _ 512 rfl rfl).symm c) = ix3 b l c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [1], [0, 1], [0], [], [], w⟩ : DotDims ⟨3, ![4, 2047, 512]⟩ ⟨2, ![512, 512]⟩ ⟨3, ![4, 2047, 512]⟩).rhsIdx (ix3 b l e)
      ((contrEquiv1 _ 512 rfl rfl).symm c) = ix2 e c := by
    funext ax; apply Fin.ext
    match ax with
    | ⟨0, _⟩ => simp [DotDims.rhsIdx]; rfl
    | ⟨1, _⟩ => simp [DotDims.rhsIdx]; exact hc
  rw [hl, hr]

theorem reduce_at (h' : (⟨3, ![4, 2047, 512]⟩ : Shape).ReducesTo [2] ⟨2, ![4, 2047]⟩) (hu : 0 < (⟨0, ![]⟩ : Shape).numel)
    (x : FVec Ideal ⟨3, ![4, 2047, 512]⟩ .f32) (init : FVec Ideal ⟨0, ![]⟩ .f32) (b : Fin 4) (l : Fin 2047) :
    Host.reduceAdd x init h' hu (ix2 b l) = init ix0 + ∑ k : Fin 512, x (ix3 b l k) := by
  have h : (⟨3, ![4, 2047, 512]⟩ : Shape).Reduces [2] ⟨2, ![4, 2047]⟩ := by decide
  rw [hostReduceAdd_apply, Ideal.hostReduceAdd_single h' h, eq_ix0 (Shape.Idx.first hu)]
  refine congrArg (init ix0 + ·) (Finset.sum_congr rfl fun k _ => congrArg x ?_)
  funext ax; apply Fin.ext
  match ax with
  | ⟨0, _⟩ => rfl
  | ⟨1, _⟩ => rfl
  | ⟨2, _⟩ => rfl

theorem slice_rows_at (o : Nat) (X : (⟨3, ![4, 2048, 512]⟩ : Shape).Idx → EReal)
    (h : (⟨3, ![4, 2048, 512]⟩ : Shape).Slices ![0, o, 0] ⟨3, ![4, 2047, 512]⟩) (b : Fin 4) (l : Fin 2047) (e : Fin 512)
    (k : Fin 2048) (hk : k.val = o + l.val) :
    extractStridedSlice ⟨3, ![4, 2047, 512]⟩ ![0, o, 0] X h (ix3 b l e) = X (ix3 b k e) :=
  slice3_axis1_apply o X h b l e k hk

theorem bcast_unit_at (h : (⟨2, ![4, 2047]⟩ : Shape).BroadcastsInDim ⟨3, ![4, 2047, 1]⟩ ![0, 1])
    (x : (⟨2, ![4, 2047]⟩ : Shape).Idx → EReal) (b : Fin 4) (l : Fin 2047) (z : Fin 1) :
    broadcastInDim ⟨3, ![4, 2047, 1]⟩ ![0, 1] h x (ix3 b l z) = x (ix2 b l) :=
  broadcastInDim_apply _ h x _ (ix2 b l) (fun a => by
    match a with
    | ⟨0, _⟩ => rfl
    | ⟨1, _⟩ => rfl)

theorem bcast_feat_at (h : (⟨3, ![4, 2047, 1]⟩ : Shape).BroadcastsInDim ⟨3, ![4, 2047, 512]⟩ ![0, 1, 2])
    (x : (⟨3, ![4, 2047, 1]⟩ : Shape).Idx → EReal) (b : Fin 4) (l : Fin 2047) (e : Fin 512) :
    broadcastInDim ⟨3, ![4, 2047, 512]⟩ ![0, 1, 2] h x (ix3 b l e) = x (ix3 b l (0 : Fin 1)) :=
  broadcastInDim_apply _ h x _ (ix3 b l (0 : Fin 1)) (fun a => by
    match a with
    | ⟨0, _⟩ => rfl
    | ⟨1, _⟩ => rfl
    | ⟨2, _⟩ => rfl)

theorem concat_col_zero (x₁ : (⟨2, ![4, 1]⟩ : Shape).Idx → EReal) (x₂ : (⟨2, ![4, 2047]⟩ : Shape).Idx → EReal)
    (h : Shape.Concatenates [⟨2, ![4, 1]⟩, ⟨2, ![4, 2047]⟩] ⟨2, ![4, 2048]⟩ 1) (b : Fin 4) :
    concatenate ⟨2, ![4, 2048]⟩ 1 [⟨⟨2, ![4, 1]⟩, x₁⟩, ⟨⟨2, ![4, 2047]⟩, x₂⟩] h (ix2 b (0 : Fin 2048)) = x₁ (ix2 b (0 : Fin 1)) :=
  concatenate_pair_apply_left 1 x₁ x₂ h _ rfl (ix2 b (0 : Fin 1)) (fun a => by
    match a with
    | ⟨0, _⟩ => rfl
    | ⟨1, _⟩ => rfl)

theorem concat_col_succ (x₁ : (⟨2, ![4, 1]⟩ : Shape).Idx → EReal) (x₂ : (⟨2, ![4, 2047]⟩ : Shape).Idx → EReal)
    (h : Shape.Concatenates [⟨2, ![4, 1]⟩, ⟨2, ![4, 2047]⟩] ⟨2, ![4, 2048]⟩ 1) (b : Fin 4) (l : Fin 2048) (l' : Fin 2047)
    (hl : l'.val + 1 = l.val) :
    concatenate ⟨2, ![4, 2048]⟩ 1 [⟨⟨2, ![4, 1]⟩, x₁⟩, ⟨⟨2, ![4, 2047]⟩, x₂⟩] h (ix2 b l) = x₂ (ix2 b l') :=
  concatenate_pair_apply_right 1 x₁ x₂ h _ rfl rfl (ix2 b l') (fun a ha => by
    match a with
    | ⟨0, _⟩ => rfl
    | ⟨1, _⟩ => exact absurd rfl ha) hl

theorem dot_coe (w : DotDims.WF ⟨3, ![4, 2047, 512]⟩ ⟨2, ![512, 512]⟩ ⟨3, ![4, 2047, 512]⟩ [2] [1] [0, 1] [0] [] [])
    (A : FVec Ideal ⟨3, ![4, 2047, 512]⟩ .f32) (B : FVec Ideal ⟨2, ![512, 512]⟩ .f32) (b : Fin 4) (l : Fin 2047) (e : Fin 512)
    (xr : ℕ → ℝ) (wr : ℕ → ℕ → ℝ) (hA : ∀ c : Fin 512, A (ix3 b l c) = ((xr c : ℝ) : EReal))
    (hB : ∀ c : Fin 512, B (ix2 e c) = ((wr e c : ℝ) : EReal)) :
    Host.dotGeneral (⟨[2], [1], [0, 1], [0], [], [], w⟩ : DotDims _ _ _) none A B (ix3 b l e)
      = ((∑ d ∈ Finset.range 512, xr d * wr e d : ℝ) : EReal) := by
  rw [dot_at, ← sum_fin_eq_range (fun d => xr d * wr e d), ← sum_coe]
  exact Finset.sum_congr rfl fun c _ => by rw [hA c, hB c, EReal.coe_mul]

theorem reduce_coe (h' : (⟨3, ![4, 2047, 512]⟩ : Shape).ReducesTo [2] ⟨2, ![4, 2047]⟩) (hu : 0 < (⟨0, ![]⟩ : Shape).numel)
    (x : FVec Ideal ⟨3, ![4, 2047, 512]⟩ .f32) (b : Fin 4) (l : Fin 2047) (f : ℕ → ℝ)
    (hx : ∀ e : Fin 512, x (ix3 b l e) = ((f e : ℝ) : EReal)) :
    Host.reduceAdd x (constant (F := Ideal) ⟨0, ![]⟩ .f32 0x00000000#32) h' hu (ix2 b l)
      = ((∑ e ∈ Finset.range 512, f e : ℝ) : EReal) := by
  rw [reduce_at, constant_apply, ofBits_zero, EReal.coe_zero, zero_add, ← sum_fin_eq_range f, ← sum_coe]
  exact Finset.sum_congr rfl fun e _ => hx e

theorem l2norm_coe (hr : (⟨3, ![4, 2047, 512]⟩ : Shape).ReducesTo [2] ⟨2, ![4, 2047]⟩) (hu : 0 < (⟨0, ![]⟩ : Shape).numel)
    (hb1 : (⟨2, ![4, 2047]⟩ : Shape).BroadcastsInDim ⟨3, ![4, 2047, 1]⟩ ![0, 1])
    (hb0 : (⟨0, ![]⟩ : Shape).BroadcastsInDim ⟨3, ![4, 2047, 1]⟩ ![])
    (hb2 : (⟨3, ![4, 2047, 1]⟩ : Shape).BroadcastsInDim ⟨3, ![4, 2047, 512]⟩ ![0, 1, 2])
    (u : FVec Ideal ⟨3, ![4, 2047, 512]⟩ .f32) (b : Fin 4) (l : Fin 2047) (e : Fin 512) (v : ℕ → ℝ)
    (hv : ∀ e : Fin 512, u (ix3 b l e) = ((v e : ℝ) : EReal)) :
    Host.divf u (broadcastInDim ⟨3, ![4, 2047, 512]⟩ ![0, 1, 2] hb2
        (maximumf (F := Ideal)
          (Host.sqrt (F := Ideal) (broadcastInDim ⟨3, ![4, 2047, 1]⟩ ![0, 1] hb1
            (Host.reduceAdd (F := Ideal) (mulf (F := Ideal) u u) (constant (F := Ideal) ⟨0, ![]⟩ .f32 0x00000000#32) hr hu)))
          (broadcastInDim ⟨3, ![4, 2047, 1]⟩ ![] hb0 (constant (F := Ideal) ⟨0, ![]⟩ .f32 0x2B8CBCCC#32)))) (ix3 b l e)
      = ((v e / Cert.Spec.len v : ℝ) : EReal) := by

  have hs : Host.reduceAdd (F := Ideal) (mulf (F := Ideal) u u) (constant (F := Ideal) ⟨0, ![]⟩ .f32 0x00000000#32) hr hu (ix2 b l)
      = ((∑ e ∈ Finset.range 512, v e * v e : ℝ) : EReal) :=
    reduce_coe hr hu _ b l (fun e => v e * v e) (fun e => by rw [mulf_apply, hv e, EReal.coe_mul])

  have h5 : Host.sqrt (F := Ideal) (broadcastInDim ⟨3, ![4, 2047, 1]⟩ ![0, 1] hb1
        (Host.reduceAdd (F := Ideal) (mulf (F := Ideal) u u) (constant (F := Ideal) ⟨0, ![]⟩ .f32 0x00000000#32) hr hu)) (ix3 b l (0 : Fin 1))
      = ((Real.sqrt (∑ e ∈ Finset.range 512, v e * v e) : ℝ) : EReal) := by
    show Ideal.sqrt (broadcastInDim ⟨3, ![4, 2047, 1]⟩ ![0, 1] hb1
        (Host.reduceAdd (F := Ideal) (mulf (F := Ideal) u u) (constant (F := Ideal) ⟨0, ![]⟩ .f32 0x00000000#32) hr hu)
        (ix3 b l (0 : Fin 1))) = _
    rw [bcast_unit_at, hs, sqrt_coe_nonneg _ (Finset.sum_nonneg fun e _ => mul_self_nonneg _)]
  rw [hostDivf_apply, bcast_feat_at, maximumf_apply, h5, broadcastInDim_scalar_apply, constant_apply, ofBits_tiny, max_coe_coe,
    hv e]
  exact div_coe_coe _ _ (Cert.Spec.len_pos v).ne'

theorem foldl_overwrite_miss {ι κ α : Type} [DecidableEq κ] (g : ι → κ) (v : ι → α) (i : κ) :
    ∀ (L : List ι) (r : κ → α), (∀ n ∈ L, g n ≠ i) →
      L.foldl (fun r n => fun i' => if i' = g n then v n else r i') r i = r i
  | [], _, _ => rfl
  | a :: L, r, h => by
      rw [List.foldl_cons, foldl_overwrite_miss g v i L _ (fun n hn => h n (List.mem_cons_of_mem _ hn))]
      exact if_neg (fun e => h a List.mem_cons_self e.symm)

theorem foldl_overwrite_hit {ι κ α : Type} [DecidableEq κ] (g : ι → κ) (v : ι → α) (i : κ) :
    ∀ (L : List ι) (r : κ → α), L.Nodup → (∀ a ∈ L, ∀ b ∈ L, g a = g b → a = b) → ∀ n0 ∈ L, g n0 = i →
      L.foldl (fun r n => fun i' => if i' = g n then v n else r i') r i = v n0
  | [], _, _, _, _, hn0, _ => absurd hn0 List.not_mem_nil
  | a :: L, r, hnd, hinj, n0, hn0, hg => by
      rw [List.foldl_cons]
      rcases List.mem_cons.1 hn0 with e | hmem
      · subst e
        rw [foldl_overwrite_miss g v i L _ ?_]
        · exact if_pos hg.symm
        · intro n hn e
          have hne : n = n0 := hinj n (List.mem_cons_of_mem _ hn) n0 List.mem_cons_self (e.trans hg.symm)
          exact (List.nodup_cons.1 hnd).1 (hne ▸ hn)
      · exact foldl_overwrite_hit g v i L _ (List.nodup_cons.1 hnd).2
          (fun a ha b hb => hinj a (List.mem_cons_of_mem _ ha) b (List.mem_cons_of_mem _ hb)) n0 hmem hg

theorem scatter_resultIdx (w : ScatterDims.WF ⟨2, ![4, 2048]⟩ ⟨1, ![1]⟩ ⟨1, ![4]⟩ [0] [1] [1] 0)
    (idx : IVec ⟨1, ![1]⟩ 32) (hidx : ∀ k, idx k = 0#32) (j : (⟨1, ![4]⟩ : Shape).Idx) :
    (⟨[0], [1], [1], 0, w⟩ : ScatterDims ⟨2, ![4, 2048]⟩ ⟨1, ![1]⟩ ⟨1, ![4]⟩).resultIdx? j idx = some (ix2 (j 0) (0 : Fin 2048)) := by
  have hstart : ∀ a, (⟨[0], [1], [1], 0, w⟩ : ScatterDims ⟨2, ![4, 2048]⟩ ⟨1, ![1]⟩ ⟨1, ![4]⟩).start j idx a = 0 := by
    intro a; unfold ScatterDims.start; split
    · rw [hidx]; rfl
    · rfl
  have hw0 : ∀ h, (⟨[0], [1], [1], 0, w⟩ : ScatterDims ⟨2, ![4, 2048]⟩ ⟨1, ![1]⟩ ⟨1, ![4]⟩).window j ⟨0, h⟩ = (j 0).val :=
    fun _ => rfl
  have hw1 : ∀ h, (⟨[0], [1], [1], 0, w⟩ : ScatterDims ⟨2, ![4, 2048]⟩ ⟨1, ![1]⟩ ⟨1, ![4]⟩).window j ⟨1, h⟩ = 0 :=
    fun _ => rfl
  unfold ScatterDims.resultIdx?
  rw [dif_pos (by
    intro a
    rw [hstart a]
    match a with
    | ⟨0, h⟩ => rw [hw0 h]; exact ⟨by omega, by have := (j 0).isLt; simpa using this⟩
    | ⟨1, h⟩ => rw [hw1 h]; exact ⟨by omega, by show (0 : Int) + ((0 : Nat) : Int) < ((2048 : Nat) : Int); omega⟩)]
  refine congrArg some (funext fun a => Fin.ext ?_)
  match a with
  | ⟨0, h⟩ => simp [hstart]; rfl
  | ⟨1, h⟩ => simp [hstart]; rfl

theorem scatter_col0 (w : ScatterDims.WF ⟨2, ![4, 2048]⟩ ⟨1, ![1]⟩ ⟨1, ![4]⟩ [0] [1] [1] 0)
    (x : (⟨2, ![4, 2048]⟩ : Shape).Idx → EReal) (idx : IVec ⟨1, ![1]⟩ 32) (hidx : ∀ k, idx k = 0#32)
    (upd : (⟨1, ![4]⟩ : Shape).Idx → EReal) (b : Fin 4) (l : Fin 2048) :
    Host.scatter (⟨[0], [1], [1], 0, w⟩ : ScatterDims ⟨2, ![4, 2048]⟩ ⟨1, ![1]⟩ ⟨1, ![4]⟩) (fun _ u => u) x idx upd (ix2 b l)
      = if l.val = 0 then upd (ix1 b) else x (ix2 b l) := by
  unfold Host.scatter
  simp only [scatter_resultIdx w idx hidx]
  by_cases hl : l.val = 0
  · rw [if_pos hl]
    have hl0 : l = 0 := Fin.ext hl
    subst hl0
    refine (foldl_overwrite_hit _ _ _ _ x (List.nodup_finRange _) ?_
      ((⟨1, ![4]⟩ : Shape).rowMajor (ix1 b)) (List.mem_finRange _) ?_).trans ?_
    · intro p _ q _ e
      have h0 : ((⟨1, ![4]⟩ : Shape).rowMajor.symm p) 0 = ((⟨1, ![4]⟩ : Shape).rowMajor.symm q) 0 := congrFun e 0
      have : (⟨1, ![4]⟩ : Shape).rowMajor.symm p = (⟨1, ![4]⟩ : Shape).rowMajor.symm q := by
        rw [eq_ix1 ((⟨1, ![4]⟩ : Shape).rowMajor.symm p), eq_ix1 ((⟨1, ![4]⟩ : Shape).rowMajor.symm q), h0]
      exact (⟨1, ![4]⟩ : Shape).rowMajor.symm.injective this
    · rw [Equiv.symm_apply_apply]; rfl
    · rw [Equiv.symm_apply_apply]
  · rw [if_neg hl]
    exact foldl_overwrite_miss _ _ _ _ x (fun n _ e => hl (by
      have := congrArg Fin.val (congrFun e 1); exact this.symm))

end Cert.Ref

end
-- ==== Proof.Ref.Router.lean ====
import proofs.«123660_g14800457302192_cont_week2b_463_30_alg».proof.Proof.Ref.Stages
import proofs.«123660_g14800457302192_cont_week2b_463_30_alg».proof.Proof.Ref.RouterOps

noncomputable section

namespace Cert.Ref

open Idealize.ShloMosaic Idealize.ShloMosaic.ValueIdx Cert.Num Cert.ReferenceIdeal Cert.ReferenceIdeal.Facts₀
open scoped BigOperators

variable {a0 : Vec Ideal S4x2048x512 .f32} {a1 a2 : Vec Ideal S512x512 .f32}

theorem v0_eq (h0 : AllReal a0) (b : Fin 4) (l : Fin 2047) (d : Fin 512) :
    v0 a0 a1 a2 (ix3 b l d) = ((re3 a0 b l d : ℝ) : EReal) := by
  unfold v0
  exact (slice_rows_at 0 a0 slices_S4x2048x512_S4x2047x512_0_0_0 b l d ⟨l.val, by have := l.isLt; omega⟩
    (Nat.zero_add _).symm).trans (re3_eq h0 b ⟨l.val, by have := l.isLt; omega⟩ d)

theorem v10_eq (h0 : AllReal a0) (b : Fin 4) (l : Fin 2047) (d : Fin 512) :
    v10 a0 a1 a2 (ix3 b l d) = ((re3 a0 b (l + 1) d : ℝ) : EReal) := by
  unfold v10
  exact (slice_rows_at 1 a0 slices_S4x2048x512_S4x2047x512_0_1_0 b l d ⟨l.val + 1, by have := l.isLt; omega⟩
    (Nat.add_comm _ _)).trans (re3_eq h0 b ⟨l.val + 1, by have := l.isLt; omega⟩ d)

theorem v1_eq (h0 : AllReal a0) (h1 : AllReal a1) (b : Fin 4) (l : Fin 2047) (e : Fin 512) :
    v1 a0 a1 a2 (ix3 b l e) = ((Cert.Spec.proj (re3 a0 b) (re2 a1) l e : ℝ) : EReal) := by
  unfold v1
  exact dot_coe _ (v0 a0 a1 a2) a1 b l e (re3 a0 b l) (re2 a1) (fun c => v0_eq h0 b l c) (fun c => re2_eq h1 e c)

theorem v11_eq (h0 : AllReal a0) (h2 : AllReal a2) (b : Fin 4) (l : Fin 2047) (e : Fin 512) :
    v11 a0 a1 a2 (ix3 b l e) = ((Cert.Spec.proj (re3 a0 b) (re2 a2) (l + 1) e : ℝ) : EReal) := by
  unfold v11
  exact dot_coe _ (v10 a0 a1 a2) a2 b l e (re3 a0 b (l + 1)) (re2 a2) (fun c => v10_eq h0 b l c) (fun c => re2_eq h2 e c)

theorem v9_eq (h0 : AllReal a0) (h1 : AllReal a1) (b : Fin 4) (l : Fin 2047) (e : Fin 512) :
    v9 a0 a1 a2 (ix3 b l e)
      = ((Cert.Spec.proj (re3 a0 b) (re2 a1) l e / Cert.Spec.len (Cert.Spec.proj (re3 a0 b) (re2 a1) l) : ℝ) : EReal) := by
  unfold v9 v8 v7 v6 v5 v4 v3 v2 cst cst_0
  exact l2norm_coe _ _ _ _ _ (v1 a0 a1 a2) b l e (Cert.Spec.proj (re3 a0 b) (re2 a1) l) (fun e => v1_eq h0 h1 b l e)

theorem v19_eq (h0 : AllReal a0) (h2 : AllReal a2) (b : Fin 4) (l : Fin 2047) (e : Fin 512) :
    v19 a0 a1 a2 (ix3 b l e)
      = ((Cert.Spec.proj (re3 a0 b) (re2 a2) (l + 1) e / Cert.Spec.len (Cert.Spec.proj (re3 a0 b) (re2 a2) (l + 1)) : ℝ) : EReal) := by
  unfold v19 v18 v17 v16 v15 v14 v13 v12 cst_1 cst_2
  exact l2norm_coe _ _ _ _ _ (v11 a0 a1 a2) b l e (Cert.Spec.proj (re3 a0 b) (re2 a2) (l + 1)) (fun e => v11_eq h0 h2 b l e)

theorem v21_eq (h0 : AllReal a0) (h1 : AllReal a1) (h2 : AllReal a2) (b : Fin 4) (l : Fin 2047) :
    v21 a0 a1 a2 (ix2 b l) = ((Cert.Spec.cosAt (re3 a0 b) (re2 a1) (re2 a2) l : ℝ) : EReal) := by
  unfold v21 cst_3
  exact reduce_coe _ _ (v20 a0 a1 a2) b l
    (fun e => Cert.Spec.proj (re3 a0 b) (re2 a1) l e / Cert.Spec.len (Cert.Spec.proj (re3 a0 b) (re2 a1) l)
      * (Cert.Spec.proj (re3 a0 b) (re2 a2) (l + 1) e / Cert.Spec.len (Cert.Spec.proj (re3 a0 b) (re2 a2) (l + 1))))
    (fun e => by
      unfold v20
      rw [mulf_apply, v9_eq h0 h1, v19_eq h0 h2]
      exact (EReal.coe_mul _ _).symm)

theorem v26_eq (h0 : AllReal a0) (h1 : AllReal a1) (h2 : AllReal a2) (b : Fin 4) (l : Fin 2047) :
    v26 a0 a1 a2 (ix2 b l) = (((1 - Cert.Spec.cosAt (re3 a0 b) (re2 a1) (re2 a2) l) / 2 : ℝ) : EReal) := by
  unfold v26 v25 v24 v23 cst_5 cst_6
  rw [hostDivf_apply, subf_apply, broadcastInDim_scalar_apply, broadcastInDim_scalar_apply, constant_apply, constant_apply,
    ofBits_one, ofBits_two, v21_eq h0 h1 h2, sub_coe_coe]
  exact div_coe_coe _ _ two_ne_zero

theorem v27_eq (h0 : AllReal a0) (h1 : AllReal a1) (h2 : AllReal a2) (b : Fin 4) (l : Fin 2047) :
    v27 a0 a1 a2 (ix2 b l)
      = ((min 1 (max 0 ((1 - Cert.Spec.cosAt (re3 a0 b) (re2 a1) (re2 a2) l) / 2)) : ℝ) : EReal) := by
  show min (Ideal.ofBits .f32 0x3F800000#32) (max (Ideal.ofBits .f32 0x00000000#32) (v26 a0 a1 a2 (ix2 b l))) = _
  rw [ofBits_one, ofBits_zero, v26_eq h0 h1 h2, max_coe_coe, min_coe_coe]

theorem v31_eq (h0 : AllReal a0) (h1 : AllReal a1) (h2 : AllReal a2) (b : Fin 4) (l : Fin 2048) :
    v31 a0 a1 a2 (ix2 b l) = ((Cert.Spec.prob (re3 a0 b) (re2 a1) (re2 a2) l : ℝ) : EReal) := by
  unfold v31
  refine (scatter_col0 _ (v28 a0 a1 a2) (v29 a0 a1 a2) (fun _ => rfl) (v30 a0 a1 a2) b l).trans ?_
  unfold Cert.Spec.prob
  by_cases hl : l.val = 0
  ·
    rw [if_pos hl, if_pos hl]
    show Ideal.ofBits .f32 0x3F800000#32 = _
    exact ofBits_one
  ·
    rw [if_neg hl, if_neg hl]
    have hl' : l.val - 1 < 2047 := by have := l.isLt; omega
    unfold v28
    refine (concat_col_succ (v22 a0 a1 a2) (v27 a0 a1 a2) concatenates_S4x1_S4x2047_S4x2048_d1 b l ⟨l.val - 1, hl'⟩
      (by show l.val - 1 + 1 = l.val; omega)).trans ?_
    exact v27_eq h0 h1 h2 b ⟨l.val - 1, hl'⟩

theorem v33_eq (h0 : AllReal a0) (h1 : AllReal a1) (h2 : AllReal a2) (b : Fin 4) (l : Fin 2048) :
    v33 a0 a1 a2 (ix2 b l) = if 1 / 2 < Cert.Spec.prob (re3 a0 b) (re2 a1) (re2 a2) l then 1#1 else 0#1 := by
  unfold v33 v32 cst_10
  rw [cmpf_apply, v31_eq h0 h1 h2, broadcastInDim_scalar_apply, constant_apply, ofBits_half]
  exact cmpf_ogt_coe _ _

end Cert.Ref

end
-- ==== Proof.Ref.Count.lean ====
import proofs.«123660_g14800457302192_cont_week2b_463_30_alg».proof.Proof.Ref.Stages
import proofs.«123660_g14800457302192_cont_week2b_463_30_alg».proof.Proof.Coe
import proofs.«123660_g14800457302192_cont_week2b_463_30_alg».proof.Proof.Real.Compact
import Idealize.ShloMosaic.Lib.StableHlo.Predicate
import Idealize.ShloMosaic.Lib.ValueIdx

noncomputable section

namespace Cert.Ref

open Idealize.ShloMosaic Idealize.ShloMosaic.ValueIdx Idealize.ShloMosaic.StableHlo.Predicate
open Idealize.SL.Sem Cert.ReferenceIdeal Cert.ReferenceIdeal.Facts₀

private theorem ij_eq_ix2 {n m : Nat} (p : Fin n) (q : Fin m) : ij p q = ix2 p q := by
  funext d; match d with | ⟨0, _⟩ => rfl | ⟨1, _⟩ => rfl

private theorem ofFin_eq_ix1 {n : Nat} (p : Fin n) : Shape.Idx.ofFin p = ix1 p := by
  funext d; match d with | ⟨0, _⟩ => exact Fin.ext rfl

private theorem countB_le (p : ℕ → ℝ) (n : ℕ) : Cert.Spec.countB p n ≤ n := by
  unfold Cert.Spec.countB
  exact le_trans (Finset.card_filter_le _ _) (by rw [Finset.card_range])

private theorem count_eq (mask : IVec ⟨2, ![4, 2048]⟩ 1) (p : ℕ → ℕ → ℝ)
    (hm : ∀ (b : Fin 4) (l : Fin 2048), mask (ix2 b l) = if 1 / 2 < p b l then 1#1 else 0#1)
    (hw : 1 < 32) (h : (⟨2, ![4, 2048]⟩ : Shape).ReducesTo [1] ⟨1, ![4]⟩) {u : Shape} (hu : 0 < u.numel) (b : Fin 4) :
    Host.reduce IntOp.addi (extui 32 mask hw) (constantI u 32 0#32) h hu (ix1 b)
      = BitVec.ofNat 32 (Cert.Spec.countB (p b) 2048) := by
  apply BitVec.eq_of_toNat_eq
  rw [toNat_reduce_count_cols (by norm_num) mask hw h hu (ix1 b), BitVec.toNat_ofNat,
    Nat.mod_eq_of_lt (lt_of_le_of_lt (countB_le _ _) (by norm_num)), Finset.card_filter]
  unfold Cert.Spec.countB
  rw [Finset.card_filter, ← Fin.sum_univ_eq_sum_range (fun l => if 1 / 2 < p b l then 1 else 0) 2048]
  refine Finset.sum_congr rfl fun q _ => ?_
  show (if mask (ij b q) = 1#1 then 1 else 0) = _
  rw [ij_eq_ix2, hm]
  by_cases hc : 1 / 2 < p b q
  · simp [hc]
  · simp [hc]

private theorem valid_eq (cnt : IVec ⟨1, ![4]⟩ 32) (c : ℕ → ℕ) (hc : ∀ b : Fin 4, cnt (ix1 b) = BitVec.ofNat 32 (c b))
    (hle : ∀ b : Fin 4, c b ≤ 2048)
    (h₁ : (⟨1, ![2048]⟩ : Shape).BroadcastsInDim ⟨2, ![1, 2048]⟩ ![1])
    (h₂ : (⟨2, ![1, 2048]⟩ : Shape).BroadcastsInDim ⟨2, ![4, 2048]⟩ ![0, 1])
    (h₃ : (⟨1, ![4]⟩ : Shape).BroadcastsInDim ⟨2, ![4, 1]⟩ ![0])
    (h₄ : (⟨2, ![4, 1]⟩ : Shape).BroadcastsInDim ⟨2, ![4, 2048]⟩ ![0, 1])
    (b : Fin 4) (j : Fin 2048) :
    cmpi .slt (broadcastInDim ⟨2, ![4, 2048]⟩ ![0, 1] h₂ (broadcastInDim ⟨2, ![1, 2048]⟩ ![1] h₁ (iotaInDim ⟨1, ![2048]⟩ 32 0)))
        (broadcastInDim ⟨2, ![4, 2048]⟩ ![0, 1] h₄ (broadcastInDim ⟨2, ![4, 1]⟩ ![0] h₃ cnt)) (ix2 b j)
      = if (j : ℕ) < c b then 1#1 else 0#1 := by
  show IntOp.cmpi .slt
      (broadcastInDim ⟨2, ![4, 2048]⟩ ![0, 1] h₂ (broadcastInDim ⟨2, ![1, 2048]⟩ ![1] h₁ (iotaInDim ⟨1, ![2048]⟩ 32 0)) (ix2 b j))
      (broadcastInDim ⟨2, ![4, 2048]⟩ ![0, 1] h₄ (broadcastInDim ⟨2, ![4, 1]⟩ ![0] h₃ cnt) (ix2 b j)) = _
  rw [← ij_eq_ix2, bcast_cols, bcast_rows, iota_apply, ofFin_eq_ix1, hc]
  have key : IntOp.cmpi .slt (BitVec.ofNat 32 (j : ℕ)) (BitVec.ofNat 32 (c b)) = 1#1 ↔ (j : ℕ) < c b := by
    unfold IntOp.cmpi
    exact slt_ofNat_iff _ _ (by have := j.isLt; omega) (by have := hle b; omega)
  by_cases hj : (j : ℕ) < c b
  · rw [if_pos hj]; exact key.2 hj
  · rw [if_neg hj]
    rcases BitVec.eq_zero_or_eq_one (IntOp.cmpi .slt (BitVec.ofNat 32 (j : ℕ)) (BitVec.ofNat 32 (c b))) with h | h
    · exact h
    · exact absurd (key.1 h) hj

theorem v38_eq (a0 : Vec Ideal S4x2048x512 .f32) (a1 a2 : Vec Ideal S512x512 .f32) (p : ℕ → ℕ → ℝ)
    (h33 : ∀ (b : Fin 4) (l : Fin 2048), v33 a0 a1 a2 (ix2 b l) = if 1 / 2 < p b l then 1#1 else 0#1) (b : Fin 4) :
    v38 a0 a1 a2 (ix1 b) = BitVec.ofNat 32 (Cert.Spec.countB (p b) 2048) := by
  unfold v38 v37 c_11
  exact count_eq (v33 a0 a1 a2) p h33 natLt_1_32 reducesTo_S4x2048_S4_d1 h_S_ b

theorem v46_eq (a0 : Vec Ideal S4x2048x512 .f32) (a1 a2 : Vec Ideal S512x512 .f32) (p : ℕ → ℕ → ℝ)
    (h33 : ∀ (b : Fin 4) (l : Fin 2048), v33 a0 a1 a2 (ix2 b l) = if 1 / 2 < p b l then 1#1 else 0#1)
    (b : Fin 4) (j : Fin 2048) :
    v46 a0 a1 a2 (ix2 b j) = if (j : ℕ) < Cert.Spec.countB (p b) 2048 then 1#1 else 0#1 := by
  unfold v46 v45 v44 v43 v42 v41
  exact valid_eq (v38 a0 a1 a2) (fun b => Cert.Spec.countB (p b) 2048) (v38_eq a0 a1 a2 p h33) (fun b => countB_le _ _)
    bcast_S2048_S1x2048_1 bcast_S1x2048_S4x2048_0_1 bcast_S4_S4x1_0 bcast_S4x1_S4x2048_0_1 b j

end Cert.Ref

end
-- ==== Proof.Ref.Cumsum.lean ====
import proofs.«123660_g14800457302192_cont_week2b_463_30_alg».proof.Proof.Ref.Stages
import proofs.«123660_g14800457302192_cont_week2b_463_30_alg».proof.Proof.Coe
import proofs.«123660_g14800457302192_cont_week2b_463_30_alg».proof.Proof.Real.Compact
import Idealize.ShloMosaic.Lib.StableHlo.Predicate
import Idealize.ShloMosaic.Lib.ValueIdx
import Mathlib.Algebra.BigOperators.Fin

noncomputable section

namespace Cert.Ref

open Idealize.ShloMosaic Idealize.SL.Sem Cert.ReferenceIdeal Cert.ReferenceIdeal.Facts₀
open Idealize.ShloMosaic.ValueIdx Idealize.ShloMosaic.StableHlo.Predicate
open Finset

theorem foldl_addi_ofNat {ι : Type} (L : List ι) (g : ι → ℕ) (c : ℕ) :
    L.foldl (fun r n => IntOp.addi r (BitVec.ofNat 32 (g n))) (BitVec.ofNat 32 c)
      = BitVec.ofNat 32 (c + (L.map g).sum) := by
  induction L generalizing c with
  | nil => simp
  | cons a L ih =>
    have h1 : IntOp.addi (BitVec.ofNat 32 c) (BitVec.ofNat 32 (g a)) = BitVec.ofNat 32 (c + g a) := by
      unfold IntOp.addi; exact (BitVec.ofNat_add _ _).symm
    rw [List.foldl_cons, h1, ih, List.map_cons, List.sum_cons, Nat.add_assoc]

def winPos (j : (⟨2, ![4, 2048]⟩ : Shape).Idx) (w : (⟨2, ![1, 2048]⟩ : Shape).Idx) (a : Fin 2) : ℕ :=
  (j a).val * (![1, 1] : Fin 2 → ℕ) a + (w a).val

def winElt (x : (⟨2, ![4, 2048]⟩ : Shape).Idx → BitVec 32) (v0 : BitVec 32) (j : (⟨2, ![4, 2048]⟩ : Shape).Idx)
    (w : (⟨2, ![1, 2048]⟩ : Shape).Idx) : BitVec 32 :=
  @dite _ (∀ a : Fin 2, (![0, 2047] : Fin 2 → ℕ) a ≤ winPos j w a
      ∧ winPos j w a - (![0, 2047] : Fin 2 → ℕ) a < (![4, 2048] : Fin 2 → ℕ) a) (Nat.decidableForallFin _)
    (fun hin => x (fun a => ⟨winPos j w a - (![0, 2047] : Fin 2 → ℕ) a, (hin a).2⟩)) (fun _ => v0)

theorem reduceWindow_eq_foldl (x : (⟨2, ![4, 2048]⟩ : Shape).Idx → BitVec 32) (v : (⟨0, ![]⟩ : Shape).Idx → BitVec 32)
    (h : (⟨2, ![4, 2048]⟩ : Shape).ReduceWindows ![1, 2048] ![1, 1] ![0, 2047] ![0, 0] ⟨2, ![4, 2048]⟩)
    (hu : 0 < (⟨0, ![]⟩ : Shape).numel) (j : (⟨2, ![4, 2048]⟩ : Shape).Idx) :
    Host.reduceWindow IntOp.addi ![1, 2048] ![1, 1] ![0, 2047] ![0, 0] x v h hu j
      = (List.finRange (⟨2, ![1, 2048]⟩ : Shape).numel).foldl
          (fun r n => IntOp.addi r (winElt x (v (Shape.Idx.first hu)) j ((⟨2, ![1, 2048]⟩ : Shape).rowMajor.symm n)))
          (v (Shape.Idx.first hu)) := rfl

theorem winElt_eval (x : (⟨2, ![4, 2048]⟩ : Shape).Idx → BitVec 32) (v0 : BitVec 32) (gx : ℕ → ℕ → ℕ)
    (hx : ∀ (b : Fin 4) (m : Fin 2048), x (ix2 b m) = BitVec.ofNat 32 (gx b m)) (hv : v0 = 0#32)
    (b : Fin 4) (l : Fin 2048) (a : Fin 1) (c : Fin 2048) :
    winElt x v0 (ix2 b l) (ix2 a c)
      = BitVec.ofNat 32 (if 2047 ≤ l.val + c.val then gx b (l.val + c.val - 2047) else 0) := by
  have ha : a.val = 0 := by omega
  unfold winElt
  by_cases hc : 2047 ≤ l.val + c.val
  · have hin : ∀ a' : Fin 2, (![0, 2047] : Fin 2 → ℕ) a' ≤ winPos (ix2 b l) (ix2 a c) a'
        ∧ winPos (ix2 b l) (ix2 a c) a' - (![0, 2047] : Fin 2 → ℕ) a' < (![4, 2048] : Fin 2 → ℕ) a' := by
      intro a'
      match a' with
      | ⟨0, _⟩ => show 0 ≤ b.val * 1 + a.val ∧ b.val * 1 + a.val - 0 < 4; omega
      | ⟨1, _⟩ => show 2047 ≤ l.val * 1 + c.val ∧ l.val * 1 + c.val - 2047 < 2048; omega
    rw [dif_pos hin, if_pos hc, ← hx b ⟨l.val + c.val - 2047, by omega⟩]
    congr 1
    funext a'
    match a' with
    | ⟨0, _⟩ => apply Fin.ext; show b.val * 1 + a.val - 0 = b.val; omega
    | ⟨1, _⟩ => apply Fin.ext; show l.val * 1 + c.val - 2047 = l.val + c.val - 2047; omega
  · have hin : ¬ ∀ a' : Fin 2, (![0, 2047] : Fin 2 → ℕ) a' ≤ winPos (ix2 b l) (ix2 a c) a'
        ∧ winPos (ix2 b l) (ix2 a c) a' - (![0, 2047] : Fin 2 → ℕ) a' < (![4, 2048] : Fin 2 → ℕ) a' := by
      intro hin
      have h1 : 2047 ≤ l.val * 1 + c.val ∧ l.val * 1 + c.val - 2047 < 2048 := hin ⟨1, Nat.one_lt_two⟩
      omega
    rw [dif_neg hin, if_neg hc, hv]

theorem sum_window_shift (G : ℕ → ℕ) (l : ℕ) (hl : l < 2048) :
    ∑ c ∈ range 2048, (if 2047 ≤ l + c then G (l + c - 2047) else 0) = ∑ m ∈ range (l + 1), G m := by
  rw [← Finset.sum_filter]
  refine Finset.sum_nbij' (fun c => l + c - 2047) (fun m => m + 2047 - l) ?_ ?_ ?_ ?_ ?_
  · intro c hc; simp only [mem_filter, mem_range] at hc ⊢; omega
  · intro m hm; simp only [mem_filter, mem_range] at hm ⊢; omega
  · intro c hc; simp only [mem_filter, mem_range] at hc; omega
  · intro m hm; simp only [mem_range] at hm; omega
  · intro c _; rfl

def winVal (G : ℕ → ℕ) (l : ℕ) (w : (⟨2, ![1, 2048]⟩ : Shape).Idx) : ℕ :=
  if 2047 ≤ l + (w 1).val then G (l + (w 1).val - 2047) else 0

theorem reduceWindow_listSum (x : (⟨2, ![4, 2048]⟩ : Shape).Idx → BitVec 32) (v : (⟨0, ![]⟩ : Shape).Idx → BitVec 32)
    (h : (⟨2, ![4, 2048]⟩ : Shape).ReduceWindows ![1, 2048] ![1, 1] ![0, 2047] ![0, 0] ⟨2, ![4, 2048]⟩)
    (hu : 0 < (⟨0, ![]⟩ : Shape).numel) (gx : ℕ → ℕ → ℕ)
    (hx : ∀ (b : Fin 4) (m : Fin 2048), x (ix2 b m) = BitVec.ofNat 32 (gx b m))
    (hv : v (Shape.Idx.first hu) = 0#32) (b : Fin 4) (l : Fin 2048) :
    Host.reduceWindow IntOp.addi ![1, 2048] ![1, 1] ![0, 2047] ![0, 0] x v h hu (ix2 b l)
      = BitVec.ofNat 32 (((List.finRange (⟨2, ![1, 2048]⟩ : Shape).numel).map fun n =>
          winVal (gx b) l.val ((⟨2, ![1, 2048]⟩ : Shape).rowMajor.symm n)).sum) := by
  rw [reduceWindow_eq_foldl]
  have hel : ∀ w : (⟨2, ![1, 2048]⟩ : Shape).Idx, winElt x (v (Shape.Idx.first hu)) (ix2 b l) w
      = BitVec.ofNat 32 (winVal (gx b) l.val w) := by
    intro w
    obtain ⟨a, c, rfl⟩ : ∃ a c, w = ix2 a c := ⟨w 0, w 1, eq_ix2 w⟩
    exact winElt_eval x _ gx hx hv b l a c
  simp only [hel]
  rw [hv]
  have := foldl_addi_ofNat (List.finRange (⟨2, ![1, 2048]⟩ : Shape).numel) (fun n =>
          winVal (gx b) l.val ((⟨2, ![1, 2048]⟩ : Shape).rowMajor.symm n)) 0
  rw [Nat.zero_add] at this
  exact this

theorem window_listSum_eq (G : ℕ → ℕ) (l : ℕ) (hl : l < 2048) :
    ((List.finRange (⟨2, ![1, 2048]⟩ : Shape).numel).map fun n =>
          winVal G l ((⟨2, ![1, 2048]⟩ : Shape).rowMajor.symm n)).sum = ∑ m ∈ range (l + 1), G m := by
  have e1 : ((List.finRange (⟨2, ![1, 2048]⟩ : Shape).numel).map fun n =>
          winVal G l ((⟨2, ![1, 2048]⟩ : Shape).rowMajor.symm n)).sum
      = ∑ n : Fin (⟨2, ![1, 2048]⟩ : Shape).numel, winVal G l ((⟨2, ![1, 2048]⟩ : Shape).rowMajor.symm n) :=
    (Fin.sum_univ_def _).symm
  have e2 : ∑ n : Fin (⟨2, ![1, 2048]⟩ : Shape).numel, winVal G l ((⟨2, ![1, 2048]⟩ : Shape).rowMajor.symm n)
      = ∑ w : (⟨2, ![1, 2048]⟩ : Shape).Idx, winVal G l w :=
    Equiv.sum_comp (⟨2, ![1, 2048]⟩ : Shape).rowMajor.symm (winVal G l)
  have e3 : ∑ w : (⟨2, ![1, 2048]⟩ : Shape).Idx, winVal G l w
      = ∑ c : Fin 2048, (if 2047 ≤ l + c.val then G (l + c.val - 2047) else 0) := by
    rw [sum_idx2, Fin.sum_univ_one]
    rfl
  have e4 : ∑ c : Fin 2048, (if 2047 ≤ l + c.val then G (l + c.val - 2047) else 0)
      = ∑ c ∈ range 2048, (if 2047 ≤ l + c then G (l + c - 2047) else 0) :=
    Fin.sum_univ_eq_sum_range (fun c => if 2047 ≤ l + c then G (l + c - 2047) else 0) 2048
  rw [e1, e2, e3, e4]
  exact sum_window_shift G l hl

theorem reduceWindow_cumsum (x : (⟨2, ![4, 2048]⟩ : Shape).Idx → BitVec 32) (v : (⟨0, ![]⟩ : Shape).Idx → BitVec 32)
    (h : (⟨2, ![4, 2048]⟩ : Shape).ReduceWindows ![1, 2048] ![1, 1] ![0, 2047] ![0, 0] ⟨2, ![4, 2048]⟩)
    (hu : 0 < (⟨0, ![]⟩ : Shape).numel) (gx : ℕ → ℕ → ℕ)
    (hx : ∀ (b : Fin 4) (m : Fin 2048), x (ix2 b m) = BitVec.ofNat 32 (gx b m))
    (hv : v (Shape.Idx.first hu) = 0#32) (b : Fin 4) (l : Fin 2048) :
    Host.reduceWindow IntOp.addi ![1, 2048] ![1, 1] ![0, 2047] ![0, 0] x v h hu (ix2 b l)
      = BitVec.ofNat 32 (∑ m ∈ range (l.val + 1), gx b m) := by
  rw [reduceWindow_listSum x v h hu gx hx hv b l, window_listSum_eq (gx b) l.val l.isLt]

theorem clamp_small (n : ℕ) (hn : n ≤ 2047) :
    IntOp.minsi 2047#32 (IntOp.maxsi 0#32 (BitVec.ofNat 32 n)) = BitVec.ofNat 32 n := by
  have h1 : ¬ ((BitVec.ofNat 32 n).slt 0#32 = true) := by
    intro h
    have := (slt_ofNat_iff n 0 (by omega) (by norm_num)).1 (by rw [h]; rfl)
    omega
  have hmax : IntOp.maxsi 0#32 (BitVec.ofNat 32 n) = BitVec.ofNat 32 n := by
    unfold IntOp.maxsi; rw [if_neg h1]
  rw [hmax]
  have h2 : ¬ ((2047#32 : BitVec 32).slt (BitVec.ofNat 32 n) = true) := by
    intro h
    have := (slt_ofNat_iff 2047 n (by norm_num) (by omega)).1 (by rw [h]; rfl)
    omega
  unfold IntOp.minsi; rw [if_neg h2]

theorem sge_zero_small (n : ℕ) (hn : n ≤ 2047) : IntOp.cmpi .sge (BitVec.ofNat 32 n) 0#32 = 1#1 := by
  refine (sge_iff_toNat ?_ ?_).2 ?_
  · rw [BitVec.toNat_ofNat]; omega
  · decide
  · exact Nat.zero_le _

theorem countB_eq_sum (q : ℕ → ℝ) (n : ℕ) :
    Cert.Spec.countB q n = ∑ m ∈ range n, (if 1 / 2 < q m then 1 else 0) := by
  unfold Cert.Spec.countB; rw [Finset.card_filter]

theorem countB_le (q : ℕ → ℝ) (n : ℕ) : Cert.Spec.countB q n ≤ n := by
  unfold Cert.Spec.countB
  exact (Finset.card_filter_le _ _).trans (by rw [Finset.card_range])

theorem countB_pos (q : ℕ → ℝ) (h0 : 1 / 2 < q 0) (l : ℕ) : 1 ≤ Cert.Spec.countB q (l + 1) := by
  have h1 : Cert.Spec.countB q 1 = 1 := by
    rw [show (1 : ℕ) = 0 + 1 from rfl, Cert.Spec.countB_succ, if_pos h0, Cert.Spec.countB_zero]
  have := Cert.Spec.countB_mono q (show 1 ≤ l + 1 by omega)
  omega

section Values

variable (a0 : Vec Ideal S4x2048x512 .f32) (a1 a2 : Vec Ideal S512x512 .f32) (p : ℕ → ℕ → ℝ)
  (h33 : ∀ (b : Fin 4) (l : Fin 2048), v33 a0 a1 a2 (ix2 b l) = if 1 / 2 < p b l then 1#1 else 0#1)

include h33

theorem v204_eq (b : Fin 4) (l : Fin 2048) :
    v204 a0 a1 a2 (ix2 b l) = BitVec.ofNat 32 (if 1 / 2 < p b l then 1 else 0) := by
  show (v33 a0 a1 a2 (ix2 b l)).setWidth 32 = _
  rw [h33]
  split_ifs <;> rfl

theorem v205_eq (b : Fin 4) (l : Fin 2048) :
    v205 a0 a1 a2 (ix2 b l) = BitVec.ofNat 32 (Cert.Spec.countB (p b) (l + 1)) := by
  have hw := reduceWindow_cumsum (v204 a0 a1 a2) (call5_call0_v0 a0 a1 a2)
    reduceWindows_S4x2048_S4x2048_w1s1p0_0_w2048s1p2047_0 h_S_
    (fun b m => if 1 / 2 < p b m then 1 else 0) (fun b m => v204_eq a0 a1 a2 p h33 b m) rfl b l
  rw [countB_eq_sum]
  exact hw

theorem v207_eq (h0 : ∀ b : ℕ, 1 / 2 < p b 0) (b : Fin 4) (l : Fin 2048) :
    v207 a0 a1 a2 (ix2 b l) = BitVec.ofNat 32 (Cert.Spec.countB (p b) (l + 1) - 1) := by
  show IntOp.subi (v205 a0 a1 a2 (ix2 b l)) 1#32 = _
  rw [v205_eq a0 a1 a2 p h33 b l]
  have hle := countB_le (p b) (l + 1)
  exact sub_one_ofNat _ (countB_pos (p b) (h0 b) l) (by omega)

theorem v208_eq (h0 : ∀ b : ℕ, 1 / 2 < p b 0) (b : Fin 4) (l : Fin 2048) :
    v208 a0 a1 a2 (ix2 b l) = BitVec.ofNat 32 (Cert.Spec.countB (p b) (l + 1) - 1) := by
  show IntOp.minsi 2047#32 (IntOp.maxsi 0#32 (v207 a0 a1 a2 (ix2 b l))) = _
  rw [v207_eq a0 a1 a2 p h33 h0 b l]
  have hle := countB_le (p b) (l + 1)
  exact clamp_small _ (by omega)

theorem v210_eq (h0 : ∀ b : ℕ, 1 / 2 < p b 0) (b : Fin 4) (l : Fin 2048) :
    v210 a0 a1 a2 (ix2 b l) = 1#1 := by
  show IntOp.cmpi .sge (v207 a0 a1 a2 (ix2 b l)) 0#32 = 1#1
  rw [v207_eq a0 a1 a2 p h33 h0 b l]
  have hle := countB_le (p b) (l + 1)
  exact sge_zero_small _ (by omega)

end Values

end Cert.Ref

end
-- ==== Proof.Ref.OrderSort.lean ====
import Idealize.ShloMosaic.Lib.SortFacts
import Mathlib.Data.List.Sort
import Mathlib.Order.Interval.Finset.Fin
import Mathlib.Data.Finset.Card
import Idealize.ShloMosaic.Lib.ValueIdx
import Idealize.ShloMosaic.Lib.StableHlo.Predicate
import proofs.«123660_g14800457302192_cont_week2b_463_30_alg».proof.Proof.Real.Compact

namespace Cert.Ref

open Idealize.ShloMosaic Finset

section stable

variable {n : ℕ} (z : Fin n → Prop)

def Before (b c : Fin n) : Prop := (z b ∧ ¬ z c) ∨ ((z b ↔ z c) ∧ b < c)

variable (R : Fin n → Fin n → Bool) (hR : ∀ k k', R k k' = true ↔ (z k ∧ ¬ z k'))

include hR in

theorem pairwise_insert_before (a : Fin n) (m : List (Fin n)) (hm : m.Pairwise (Before z)) (ha : ∀ c ∈ m, a < c) :
    (insertBefore R a m).Pairwise (Before z) := by
  induction m with
  | nil => exact List.pairwise_singleton _ _
  | cons b m ih =>
    rw [List.pairwise_cons] at hm
    unfold insertBefore
    split
    · rename_i h
      obtain ⟨hb, hna⟩ := (hR b a).mp h
      refine List.pairwise_cons.mpr ⟨fun c hc => ?_, ih hm.2 fun c hc => ha c (List.mem_cons_of_mem b hc)⟩
      rcases List.mem_cons.mp ((perm_insertBefore R a m).mem_iff.mp hc) with rfl | hc'
      · exact Or.inl ⟨hb, hna⟩
      · exact hm.1 c hc'
    · rename_i h
      have hba : z b → z a := fun hb => by
        by_contra hna
        exact h ((hR b a).mpr ⟨hb, hna⟩)
      refine List.pairwise_cons.mpr ⟨fun c hc => ?_, List.pairwise_cons.mpr hm⟩
      have hac : a < c := ha c hc
      rcases List.mem_cons.mp hc with rfl | hc'
      · by_cases hza : z a
        · by_cases hzc : z c
          · exact Or.inr ⟨⟨fun _ => hzc, fun _ => hza⟩, hac⟩
          · exact Or.inl ⟨hza, hzc⟩
        · exact Or.inr ⟨⟨fun h' => absurd h' hza, fun h' => absurd (hba h') hza⟩, hac⟩
      · by_cases hza : z a
        · by_cases hzc : z c
          · exact Or.inr ⟨⟨fun _ => hzc, fun _ => hza⟩, hac⟩
          · exact Or.inl ⟨hza, hzc⟩
        · have hnb : ¬ z b := fun hb => hza (hba hb)
          have hnc : ¬ z c := by
            rcases hm.1 c hc' with h1 | h1
            · exact h1.2
            · exact fun hzc => hnb (h1.1.mpr hzc)
          exact Or.inr ⟨⟨fun h' => absurd h' hza, fun h' => absurd h' hnc⟩, hac⟩

include hR in

theorem pairwise_stableSort_before (l : List (Fin n)) (hl : l.Pairwise (· < ·)) :
    (stableSort R l).Pairwise (Before z) := by
  induction l with
  | nil => exact List.Pairwise.nil
  | cons a l ih =>
    rw [List.pairwise_cons] at hl
    unfold stableSort
    exact pairwise_insert_before z R hR a _ (ih hl.2) fun c hc => hl.1 c ((perm_stableSort R l).mem_iff.mp hc)

include hR in

theorem sortedFrom_before (i j : Fin n) (hij : i < j) : Before z (sortedFrom R i) (sortedFrom R j) := by
  have hp : ∀ a b : Fin (sortPositions n R).length, a < b →
      Before z ((sortPositions n R).get a) ((sortPositions n R).get b) :=
    List.pairwise_iff_get.mp (pairwise_stableSort_before z R hR (List.finRange n) (List.sortedLT_finRange n).pairwise)
  unfold sortedFrom
  exact hp _ _ (by simp only [Fin.lt_def, Fin.val_cast]; exact hij)

end stable

section count

variable {n : ℕ} (z : Fin n → Prop) [DecidablePred z] (σ : Fin n → Fin n)
  (hinj : Function.Injective σ) (hsurj : Function.Surjective σ)
  (hL : ∀ i j, i < j → Before z (σ i) (σ j))

include hsurj hL in

theorem filter_below_eq_image (j : Fin n) (hz : z (σ j)) :
    univ.filter (fun k : Fin n => z k ∧ k.val < (σ j).val) = (Iio j).image σ := by
  ext k
  simp only [mem_filter, mem_univ, true_and, mem_image, mem_Iio]
  constructor
  · rintro ⟨hk, hlt⟩
    obtain ⟨i, rfl⟩ := hsurj k
    refine ⟨i, ?_, rfl⟩
    rcases lt_trichotomy i j with h | h | h
    · exact h
    · subst h; exact absurd hlt (lt_irrefl _)
    · rcases hL j i h with h1 | h1
      · exact absurd hk h1.2
      · exact absurd (Fin.lt_def.mp h1.2) (Nat.lt_asymm hlt)
  · rintro ⟨i, hi, rfl⟩
    rcases hL i j hi with h1 | h1
    · exact absurd hz h1.2
    · exact ⟨h1.1.mpr hz, Fin.lt_def.mp h1.2⟩

include hinj hsurj hL in

theorem card_filter_below (j : Fin n) (hz : z (σ j)) :
    (univ.filter (fun k : Fin n => z k ∧ k.val < (σ j).val)).card = j.val := by
  rw [filter_below_eq_image z σ hsurj hL j hz, card_image_of_injective _ hinj, Fin.card_Iio]

include hinj hsurj hL in

theorem marked_of_lt_card (j : Fin n) (hj : j.val < (univ.filter z).card) : z (σ j) := by
  by_contra hz
  have hsub : univ.filter z ⊆ (Iio j).image σ := by
    intro k hk
    have hk' : z k := (mem_filter.mp hk).2
    obtain ⟨i, rfl⟩ := hsurj k
    refine mem_image.mpr ⟨i, mem_Iio.mpr ?_, rfl⟩
    rcases lt_trichotomy i j with h | h | h
    · exact h
    · subst h; exact absurd hk' hz
    · rcases hL j i h with h1 | h1
      · exact absurd h1.1 hz
      · exact absurd (h1.1.mpr hk') hz
  have hc := card_le_card hsub
  rw [card_image_of_injective _ hinj, Fin.card_Iio] at hc
  omega

end count

theorem card_filter_fin_below (P : ℕ → Prop) [DecidablePred P] (n m : ℕ) (hm : m ≤ n) :
    (univ.filter (fun k : Fin n => P k.val ∧ k.val < m)).card = ((range m).filter P).card := by
  refine card_bij (fun k _ => k.val) ?_ ?_ ?_
  · intro k hk
    simp only [mem_filter, mem_univ, true_and] at hk
    exact mem_filter.mpr ⟨mem_range.mpr hk.2, hk.1⟩
  · intro a _ b _ h
    exact Fin.ext h
  · intro l hl
    have h := mem_filter.mp hl
    exact ⟨⟨l, lt_of_lt_of_le (mem_range.mp h.1) hm⟩, mem_filter.mpr ⟨mem_univ _, h.2, mem_range.mp h.1⟩, rfl⟩

theorem card_filter_fin (P : ℕ → Prop) [DecidablePred P] (n : ℕ) :
    (univ.filter (fun k : Fin n => P k.val)).card = ((range n).filter P).card := by
  rw [← card_filter_fin_below P n n le_rfl]
  refine congrArg card (filter_congr fun k _ => ?_)
  exact ⟨fun h => ⟨h, k.isLt⟩, fun h => h.1⟩

open Cert.Spec in

theorem compacts_of_stable (p : ℕ → ℝ) (n : ℕ) (R : Fin n → Fin n → Bool)
    (hR : ∀ k k' : Fin n, R k k' = true ↔ (1 / 2 < p k.val ∧ ¬ 1 / 2 < p k'.val)) :
    Compacts p n (fun j => if h : j < n then (sortedFrom R ⟨j, h⟩).val else 0) := by
  have hinj := sortedFrom_injective R
  have hsurj := sortedFrom_surjective R
  have hL := sortedFrom_before (fun k : Fin n => 1 / 2 < p k.val) R hR
  have hcount : countB p n = (univ.filter (fun k : Fin n => 1 / 2 < p k.val)).card := by
    unfold countB
    exact (card_filter_fin (fun l => 1 / 2 < p l) n).symm
  have hle : countB p n ≤ n := by
    unfold countB
    exact (card_filter_le _ _).trans (card_range n).le
  refine ⟨fun j hj => ?_, fun j hj => ?_, fun j hj => ?_⟩
  · have hjn : j < n := lt_of_lt_of_le hj hle
    simp only [dif_pos hjn]
    exact (sortedFrom R ⟨j, hjn⟩).isLt
  · have hjn : j < n := lt_of_lt_of_le hj hle
    simp only [dif_pos hjn]
    exact marked_of_lt_card (fun k : Fin n => 1 / 2 < p k.val) (sortedFrom R) hinj hsurj hL ⟨j, hjn⟩ (hcount ▸ hj)
  · have hjn : j < n := lt_of_lt_of_le hj hle
    have hz := marked_of_lt_card (fun k : Fin n => 1 / 2 < p k.val) (sortedFrom R) hinj hsurj hL ⟨j, hjn⟩ (hcount ▸ hj)
    simp only [dif_pos hjn]
    unfold countB
    rw [← card_filter_fin_below (fun l => 1 / 2 < p l) n _ (sortedFrom R ⟨j, hjn⟩).isLt.le]
    exact card_filter_below (fun k : Fin n => 1 / 2 < p k.val) (sortedFrom R) hinj hsurj hL ⟨j, hjn⟩ hz

section decode

open Idealize.ShloMosaic.ValueIdx

variable {α : Type} {n0 n1 : ℕ}

theorem along_one_ix2 (b : Fin n0) (j : Fin n1) (hd : 1 < (⟨2, ![n0, n1]⟩ : Shape).rank)
    (k : Fin ((⟨2, ![n0, n1]⟩ : Shape).size ⟨1, hd⟩)) :
    (ix2 b j).along (⟨1, hd⟩ : Fin (⟨2, ![n0, n1]⟩ : Shape).rank) k = ix2 b k := by
  funext d
  unfold Shape.Idx.along
  match d with
  | ⟨0, _⟩ => exact Function.update_of_ne (Fin.ne_of_val_ne Nat.zero_ne_one) _ _
  | ⟨1, _⟩ => exact Function.update_self ..

theorem sort2_iota_apply (cmp : α × BitVec 32 → α × BitVec 32 → BitVec 1)
    (x : (⟨2, ![n0, n1]⟩ : Shape).Idx → α) (b : Fin n0) (j : Fin n1) :
    (Host.sort2 ⟨2, ![n0, n1]⟩ 1 cmp x (iotaInDim ⟨2, ![n0, n1]⟩ 32 1)).2 (ix2 b j)
      = BitVec.ofNat 32 (sortedFrom (fun k k' : Fin n1 =>
          cmp (x (ix2 b k), BitVec.ofNat 32 k.val) (x (ix2 b k'), BitVec.ofNat 32 k'.val) == 1#1) j).val := by
  unfold Host.sort2
  rw [dif_pos (show 1 < (⟨2, ![n0, n1]⟩ : Shape).rank from Nat.one_lt_two)]
  simp only [along_one_ix2, iotaInDim]
  rfl

end decode

section keys

open Idealize.ShloMosaic.ValueIdx

private theorem key_toNat (P : Prop) [Decidable P] :
    (if P then 0#32 else 1#32 : BitVec 32).toNat = if P then 0 else 1 := by
  split <;> rfl

theorem key_lt_iff (P Q : Prop) [Decidable P] [Decidable Q] :
    (IntOp.cmpi .slt (if P then 0#32 else 1#32 : BitVec 32) (if Q then 0#32 else 1#32) == 1#1) = true ↔ (P ∧ ¬ Q) := by
  have hP : (if P then 0#32 else 1#32 : BitVec 32).toNat < 2 ^ 31 := by rw [key_toNat]; split <;> omega
  have hQ : (if Q then 0#32 else 1#32 : BitVec 32).toNat < 2 ^ 31 := by rw [key_toNat]; split <;> omega
  rw [beq_iff_eq, StableHlo.Predicate.slt_iff_toNat hP hQ, key_toNat, key_toNat]
  by_cases hp : P <;> by_cases hq : Q <;> simp [hp, hq]

variable {n0 n1 : ℕ}

theorem argsort_rel (cmp : BitVec 32 × BitVec 32 → BitVec 32 × BitVec 32 → BitVec 1)
    (hcmp : ∀ l r, cmp l r = IntOp.cmpi .slt l.1 r.1) (x : (⟨2, ![n0, n1]⟩ : Shape).Idx → BitVec 32) (b : Fin n0)
    (P : Fin n1 → Prop) [DecidablePred P] (hx : ∀ k : Fin n1, x (ix2 b k) = if P k then 0#32 else 1#32)
    (k k' : Fin n1) :
    (cmp (x (ix2 b k), BitVec.ofNat 32 k.val) (x (ix2 b k'), BitVec.ofNat 32 k'.val) == 1#1) = true ↔ (P k ∧ ¬ P k') := by
  rw [hcmp, hx k, hx k']
  exact key_lt_iff _ _

theorem sort2_iota_toNat {α : Type} (cmp : α × BitVec 32 → α × BitVec 32 → BitVec 1)
    (x : (⟨2, ![n0, n1]⟩ : Shape).Idx → α) (b : Fin n0) (j : Fin n1) (hn : n1 ≤ 2 ^ 32) :
    ((Host.sort2 ⟨2, ![n0, n1]⟩ 1 cmp x (iotaInDim ⟨2, ![n0, n1]⟩ 32 1)).2 (ix2 b j)).toNat
      = (sortedFrom (fun k k' : Fin n1 =>
          cmp (x (ix2 b k), BitVec.ofNat 32 k.val) (x (ix2 b k'), BitVec.ofNat 32 k'.val) == 1#1) j).val := by
  rw [sort2_iota_apply, BitVec.toNat_ofNat]
  exact Nat.mod_eq_of_lt (lt_of_lt_of_le (Fin.isLt _) hn)

end keys

end Cert.Ref
-- ==== Proof.Ref.Order.lean ====
import proofs.«123660_g14800457302192_cont_week2b_463_30_alg».proof.Proof.Ref.Stages
import proofs.«123660_g14800457302192_cont_week2b_463_30_alg».proof.Proof.Coe
import proofs.«123660_g14800457302192_cont_week2b_463_30_alg».proof.Proof.Real.Compact
import proofs.«123660_g14800457302192_cont_week2b_463_30_alg».proof.Proof.Ref.OrderSort
import Idealize.ShloMosaic.Lib.SortFacts
import Idealize.ShloMosaic.Lib.StableHlo.Predicate
import Idealize.ShloMosaic.Lib.ValueIdx

noncomputable section

namespace Cert.Ref

open Idealize.ShloMosaic Idealize.ShloMosaic.ValueIdx Idealize.SL.Sem Cert.ReferenceIdeal Cert.ReferenceIdeal.Facts₀

variable (a0 : Vec Ideal S4x2048x512 .f32) (a1 a2 : Vec Ideal S512x512 .f32)

def ord (b j : ℕ) : ℕ :=
  if h : b < 4 ∧ j < 2048 then BitVec.toNat (v36 a0 a1 a2 (ix2 ⟨b, h.1⟩ ⟨j, h.2⟩)) else 0

def before (b : Fin 4) (k k' : Fin 2048) : Bool :=
  comparator_i32_i32_d1 (v35 a0 a1 a2 (ix2 b k), BitVec.ofNat 32 k.val)
    (v35 a0 a1 a2 (ix2 b k'), BitVec.ofNat 32 k'.val) == 1#1

theorem v36_toNat (b : Fin 4) (j : Fin 2048) :
    BitVec.toNat (v36 a0 a1 a2 (ix2 b j)) = (sortedFrom (before a0 a1 a2 b) j).val := by
  unfold v36 call1_v0
  exact sort2_iota_toNat comparator_i32_i32_d1 (v35 a0 a1 a2) b j (by norm_num)

theorem v36_eq (b : Fin 4) (j : Fin 2048) :
    v36 a0 a1 a2 (ix2 b j) = BitVec.ofNat 32 (ord a0 a1 a2 b j) := by
  unfold ord
  rw [dif_pos ⟨b.isLt, j.isLt⟩]
  apply BitVec.eq_of_toNat_eq
  rw [BitVec.toNat_ofNat]
  exact (Nat.mod_eq_of_lt (BitVec.isLt _)).symm

theorem ord_lt (b j : ℕ) : ord a0 a1 a2 b j < 2048 := by
  unfold ord
  split
  · rename_i h
    rw [v36_toNat a0 a1 a2 ⟨b, h.1⟩ ⟨j, h.2⟩]
    exact Fin.isLt _
  · exact Nat.zero_lt_succ _

section boundaries

variable (p : ℕ → ℕ → ℝ)
  (h33 : ∀ (b : Fin 4) (l : Fin 2048), v33 a0 a1 a2 (ix2 b l) = if 1 / 2 < p b l then 1#1 else 0#1)

include h33 in

theorem v35_eq (b : Fin 4) (k : Fin 2048) :
    v35 a0 a1 a2 (ix2 b k) = if 1 / 2 < p b k then 0#32 else 1#32 := by
  unfold v35 v34
  show BitVec.setWidth 32 (~~~ (v33 a0 a1 a2 (ix2 b k))) = _
  rw [h33]
  split <;> rfl

include h33 in

theorem compacts (b : Fin 4) : Cert.Spec.Compacts (p b) 2048 (ord a0 a1 a2 b) := by
  have hR : ∀ k k' : Fin 2048,
      before a0 a1 a2 b k k' = true ↔ (1 / 2 < p b k.val ∧ ¬ 1 / 2 < p b k'.val) := fun k k' =>
    argsort_rel comparator_i32_i32_d1 (fun _ _ => rfl) (v35 a0 a1 a2) b (fun k : Fin 2048 => 1 / 2 < p b k.val)
      (v35_eq a0 a1 a2 p h33 b) k k'
  have hord : ord a0 a1 a2 b
      = fun j => if h : j < 2048 then (sortedFrom (before a0 a1 a2 b) ⟨j, h⟩).val else 0 := by
    funext j
    unfold ord
    by_cases hj : j < 2048
    · rw [dif_pos ⟨b.isLt, hj⟩, dif_pos hj]
      exact v36_toNat a0 a1 a2 b ⟨j, hj⟩
    · rw [dif_neg fun h => hj h.2, dif_neg hj]
  rw [hord]
  exact compacts_of_stable (p b) 2048 (before a0 a1 a2 b) hR

end boundaries

end Cert.Ref

end
-- ==== Proof.Ref.Gather.lean ====
import proofs.«123660_g14800457302192_cont_week2b_463_30_alg».proof.Proof.Ref.Stages
import proofs.«123660_g14800457302192_cont_week2b_463_30_alg».proof.Proof.Ref.GatherTake
import proofs.«123660_g14800457302192_cont_week2b_463_30_alg».proof.Proof.Ref.GatherAt
import proofs.«123660_g14800457302192_cont_week2b_463_30_alg».proof.Proof.Coe
import proofs.«123660_g14800457302192_cont_week2b_463_30_alg».proof.Proof.Real.Compact
import Idealize.ShloMosaic.Lib.ValueIdx
import Idealize.ShloMosaic.Lib.ValueLayout
import Idealize.ShloMosaic.Lib.Pipeline.Value

noncomputable section

namespace Cert.Ref

open Idealize.ShloMosaic Idealize.ShloMosaic.ValueIdx Cert.ReferenceIdeal Cert.ReferenceIdeal.Facts₀ Cert.Num Cert.Spec

section Layout
variable {α : Type}

theorem bcast_unit3 {n0 n1 : ℕ} (h : (⟨2, ![n0, n1]⟩ : Shape).BroadcastsInDim ⟨3, ![n0, n1, 1]⟩ ![0, 1])
    (x : (⟨2, ![n0, n1]⟩ : Shape).Idx → α) (b : Fin n0) (j : Fin n1) (u : Fin 1) :
    broadcastInDim ⟨3, ![n0, n1, 1]⟩ ![0, 1] h x (ix3 b j u) = x (ix2 b j) :=
  broadcastInDim_apply _ h x _ _ (fun a => by
    match a with
    | ⟨0, _⟩ =>
      show b.val = if n0 = 1 then 0 else b.val
      have := b.isLt
      split <;> omega
    | ⟨1, _⟩ =>
      show j.val = if n1 = 1 then 0 else j.val
      have := j.isLt
      split <;> omega)

theorem bcast_last3 {n0 n1 n2 : ℕ} (h : (⟨3, ![n0, n1, 1]⟩ : Shape).BroadcastsInDim ⟨3, ![n0, n1, n2]⟩ ![0, 1, 2])
    (x : (⟨3, ![n0, n1, 1]⟩ : Shape).Idx → α) (b : Fin n0) (j : Fin n1) (d : Fin n2) :
    broadcastInDim ⟨3, ![n0, n1, n2]⟩ ![0, 1, 2] h x (ix3 b j d) = x (ix3 b j (0 : Fin 1)) :=
  broadcastInDim_apply _ h x _ _ (fun a => by
    match a with
    | ⟨0, _⟩ =>
      show b.val = if n0 = 1 then 0 else b.val
      have := b.isLt
      split <;> omega
    | ⟨1, _⟩ =>
      show j.val = if n1 = 1 then 0 else j.val
      have := j.isLt
      split <;> omega
    | ⟨2, _⟩ =>
      show (0 : ℕ) = if (1 : ℕ) = 1 then 0 else d.val
      rfl)

theorem shapeCast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

end Layout

theorem uitofp_bit (c : Prop) [Decidable c] :
    FloatOps.uitofp (F := Ideal) FTy.f32 (if c then 1#1 else 0#1 : BitVec 1) = (((if c then 1 else 0 : ℝ)) : EReal) := by
  by_cases h : c
  · rw [if_pos h, if_pos h]
    show ((((1#1 : BitVec 1).toNat : ℝ)) : EReal) = ((1 : ℝ) : EReal)
    simp
  · rw [if_neg h, if_neg h]
    show ((((0#1 : BitVec 1).toNat : ℝ)) : EReal) = ((0 : ℝ) : EReal)
    simp

theorem clip_keep (q : ℝ) (hq0 : 0 ≤ q) (hq1 : q ≤ 1) (c : Prop) [Decidable c] :
    min (1 : ℝ) (max 0 (1 - q * (if c then 1 else 0))) = if c then 1 - q else 1 := by
  by_cases h : c
  · rw [if_pos h, if_pos h, mul_one, max_eq_right (by linarith), min_eq_right (by linarith)]
  · rw [if_neg h, if_neg h, mul_zero, sub_zero, max_eq_right zero_le_one, min_self]

theorem clip_keep_coe (q : ℝ) (hq0 : 0 ≤ q) (hq1 : q ≤ 1) (c : Prop) [Decidable c] :
    min ((1 : ℝ) : EReal) (max ((0 : ℝ) : EReal) (((1 : ℝ) : EReal) - ((q : ℝ) : EReal) * (((if c then 1 else 0 : ℝ)) : EReal)))
      = (((if c then 1 - q else 1 : ℝ)) : EReal) := by
  rw [← EReal.coe_mul, sub_coe_coe, max_coe_coe, min_coe_coe, clip_keep q hq0 hq1 c]

structure Given (a0 : Vec Ideal S4x2048x512 .f32) (a1 a2 : Vec Ideal S512x512 .f32) (p : ℕ → ℕ → ℝ)
    (ordN : ℕ → ℕ → ℕ) : Prop where
  p_mem : ∀ (b : Fin 4) (l : Fin 2048), 0 ≤ p b l ∧ p b l ≤ 1
  h31 : ∀ (b : Fin 4) (l : Fin 2048), v31 a0 a1 a2 (ix2 b l) = ((p b l : ℝ) : EReal)
  h36 : ∀ (b : Fin 4) (j : Fin 2048), v36 a0 a1 a2 (ix2 b j) = BitVec.ofNat 32 (ordN b j)
  hord : ∀ (b : Fin 4) (j : Fin 2048), ordN b j < 2048
  h46 : ∀ (b : Fin 4) (j : Fin 2048), v46 a0 a1 a2 (ix2 b j) = if (j : ℕ) < countB (p b) 2048 then 1#1 else 0#1

namespace Given

variable {a0 : Vec Ideal S4x2048x512 .f32} {a1 a2 : Vec Ideal S512x512 .f32} {p : ℕ → ℕ → ℝ} {ordN : ℕ → ℕ → ℕ}

theorem v39_at (G : Given a0 a1 a2 p ordN) (b : Fin 4) (j : Fin 2048) (u : Fin 1) :
    v39 a0 a1 a2 (ix3 b j u) = BitVec.ofNat 32 (ordN b j) :=
  (bcast_unit3 bcast_S4x2048_S4x2048x1_0_1 (v36 a0 a1 a2) b j u).trans (G.h36 b j)

theorem v39_small (G : Given a0 a1 a2 p ordN) (i : S4x2048x1.Idx) : (v39 a0 a1 a2 i).toNat ≤ 2047 := by
  obtain ⟨b, j, u, rfl⟩ : ∃ (b : Fin 4) (j : Fin 2048) (u : Fin 1), i = ix3 b j u := ⟨i 0, i 1, i 2, eq_ix3 i⟩
  rw [G.v39_at, BitVec.toNat_ofNat]
  have := G.hord b j
  omega

theorem call2_v4_eq (G : Given a0 a1 a2 p ordN) : call2_v4 a0 a1 a2 = v39 a0 a1 a2 :=
  take_wrap bcast_S_S4x2048x1 (v39 a0 a1 a2) (fun i => by have := G.v39_small i; omega)

theorem call2_v11_eq (G : Given a0 a1 a2 p ordN) : call2_v11 a0 a1 a2 = fun _ => 1#1 :=
  take_inrange bcast_S_S4x2048x1 bcast_S1_S1x1x1_2 bcast_S1x1x1_S4x2048x1_0_1_2 reducesTo_S4x2048x1_S4x2048_d2 h_S_
    (call2_v4 a0 a1 a2) (fun i => by rw [G.call2_v4_eq]; exact G.v39_small i)

theorem v40_eq (G : Given a0 a1 a2 p ordN) : v40 a0 a1 a2 = call2_v12 a0 a1 a2 :=
  take_select bcast_S4x2048_S4x2048x512_0_1 (call2_v11 a0 a1 a2) G.call2_v11_eq _ _

theorem v40_at (G : Given a0 a1 a2 p ordN) (b : Fin 4) (j : Fin 2048) (d : Fin 512) :
    v40 a0 a1 a2 (ix3 b j d) = a0 (ix3 b ⟨ordN b j, G.hord b j⟩ d) := by
  rw [G.v40_eq]
  show Host.gather gather_S4x2048x512_S4x2048x1_S4x2048x512_2_1_0_0_1_2_11512 a0 (call2_v4 a0 a1 a2) (ix3 b j d) = _
  exact gather3_at a0 (call2_v4 a0 a1 a2) b j d (ordN b j) (G.hord b j) (by rw [G.call2_v4_eq]; exact G.v39_at b j 0)

theorem v36_small (G : Given a0 a1 a2 p ordN) (i : S4x2048.Idx) : (v36 a0 a1 a2 i).toNat ≤ 2047 := by
  obtain ⟨b, j, rfl⟩ : ∃ (b : Fin 4) (j : Fin 2048), i = ix2 b j := ⟨i 0, i 1, eq_ix2 i⟩
  rw [G.h36, BitVec.toNat_ofNat]
  have := G.hord b j
  omega

theorem call3_v4_eq (G : Given a0 a1 a2 p ordN) : call3_v4 a0 a1 a2 = v36 a0 a1 a2 :=
  take_wrap bcast_S_S4x2048 (v36 a0 a1 a2) (fun i => by have := G.v36_small i; omega)

theorem call3_v5_at (G : Given a0 a1 a2 p ordN) (b : Fin 4) (j : Fin 2048) (u : Fin 1) :
    call3_v5 a0 a1 a2 (ix3 b j u) = BitVec.ofNat 32 (ordN b j) := by
  show shapeCast S4x2048x1 (call3_v4 a0 a1 a2) shapeCasts_S4x2048_S4x2048x1 (ix3 b j u) = _
  rw [G.call3_v4_eq]
  exact (shapeCast_ab_ab1 (v36 a0 a1 a2) shapeCasts_S4x2048_S4x2048x1 b j u).trans (G.h36 b j)

theorem call3_v5_small (G : Given a0 a1 a2 p ordN) (i : S4x2048x1.Idx) : (call3_v5 a0 a1 a2 i).toNat ≤ 2047 := by
  obtain ⟨b, j, u, rfl⟩ : ∃ (b : Fin 4) (j : Fin 2048) (u : Fin 1), i = ix3 b j u := ⟨i 0, i 1, i 2, eq_ix3 i⟩
  rw [G.call3_v5_at, BitVec.toNat_ofNat]
  have := G.hord b j
  omega

theorem call3_v12_eq (G : Given a0 a1 a2 p ordN) : call3_v12 a0 a1 a2 = fun _ => 1#1 :=
  take_inrange bcast_S_S4x2048x1 bcast_S1_S1x1x1_2 bcast_S1x1x1_S4x2048x1_0_1_2 reducesTo_S4x2048x1_S4x2048_d2 h_S_
    (call3_v5 a0 a1 a2) G.call3_v5_small

theorem v47_at (G : Given a0 a1 a2 p ordN) (b : Fin 4) (j : Fin 2048) :
    v47 a0 a1 a2 (ix2 b j) = ((p b (ordN b j) : ℝ) : EReal) := by
  show Scalar.select (call3_v12 a0 a1 a2 (ix2 b j)) (call3_v13 a0 a1 a2 (ix2 b j)) (call3_v14 a0 a1 a2 (ix2 b j)) = _
  have hm : call3_v12 a0 a1 a2 (ix2 b j) = 1#1 := congrFun G.call3_v12_eq _
  rw [hm, select_one]
  show Host.gather gather_S4x2048_S4x2048x1_S4x2048_n_1_0_0_1_2_11 (v31 a0 a1 a2) (call3_v5 a0 a1 a2) (ix2 b j) = _
  rw [gather2_at (v31 a0 a1 a2) (call3_v5 a0 a1 a2) b j (ordN b j) (G.hord b j) (G.call3_v5_at b j 0)]
  exact G.h31 b ⟨ordN b j, G.hord b j⟩

theorem v48_at (G : Given a0 a1 a2 p ordN) (b : Fin 4) (j : Fin 2048) :
    v48 a0 a1 a2 (ix2 b j) = (((if (j : ℕ) < countB (p b) 2048 then 1 else 0 : ℝ)) : EReal) := by
  show FloatOps.uitofp (F := Ideal) FTy.f32 (v46 a0 a1 a2 (ix2 b j)) = _
  rw [G.h46 b j]
  exact uitofp_bit _

theorem v52_at (G : Given a0 a1 a2 p ordN) (b : Fin 4) (j : Fin 2048) :
    v52 a0 a1 a2 (ix2 b j) = ((cKeep (p b) (ordN b) 2048 j : ℝ) : EReal) := by
  show min (Ideal.ofBits .f32 0x3F800000#32) (max (Ideal.ofBits .f32 0x00000000#32)
    (Ideal.ofBits .f32 0x3F800000#32 - v47 a0 a1 a2 (ix2 b j) * v48 a0 a1 a2 (ix2 b j))) = _
  rw [ofBits_one, ofBits_zero, G.v47_at, G.v48_at]
  have hp := G.p_mem b ⟨ordN b j, G.hord b j⟩
  exact clip_keep_coe _ hp.1 hp.2 _

theorem v54_at (G : Given a0 a1 a2 p ordN) (b : Fin 4) (j : Fin 2048) (u : Fin 1) :
    v54 a0 a1 a2 (ix3 b j u) = ((cKeep (p b) (ordN b) 2048 j : ℝ) : EReal) :=
  (bcast_unit3 bcast_S4x2048_S4x2048x1_0_1 (v52 a0 a1 a2) b j u).trans (G.v52_at b j)

theorem v55_at (G : Given a0 a1 a2 p ordN) (b : Fin 4) (j : Fin 2048) (d : Fin 512) :
    v55 a0 a1 a2 (ix3 b j d) = ((cKeep (p b) (ordN b) 2048 j : ℝ) : EReal) :=
  (bcast_last3 bcast_S4x2048x1_S4x2048x512_0_1_2 (v54 a0 a1 a2) b j d).trans (G.v54_at b j 0)

theorem v57_at (G : Given a0 a1 a2 p ordN) (b : Fin 4) (j : Fin 2048) :
    v57 a0 a1 a2 (ix2 b j) = ((1 - cKeep (p b) (ordN b) 2048 j : ℝ) : EReal) := by
  show Ideal.ofBits .f32 0x3F800000#32 - v52 a0 a1 a2 (ix2 b j) = _
  rw [ofBits_one, G.v52_at, sub_coe_coe]

theorem v59_at (G : Given a0 a1 a2 p ordN) (b : Fin 4) (j : Fin 2048) (d : Fin 512) :
    v59 a0 a1 a2 (ix3 b j d) = ((1 - cKeep (p b) (ordN b) 2048 j : ℝ) : EReal) :=
  (bcast_last3 bcast_S4x2048x1_S4x2048x512_0_1_2 (v58 a0 a1 a2) b j d).trans
    ((bcast_unit3 bcast_S4x2048_S4x2048x1_0_1 (v57 a0 a1 a2) b j 0).trans (G.v57_at b j))

theorem v60_at (G : Given a0 a1 a2 p ordN) (h0 : AllReal a0) (b : Fin 4) (j : Fin 2048) (d : Fin 512) :
    v60 a0 a1 a2 (ix3 b j d) = ((cIn (p b) (ordN b) 2048 (re3 a0 b) j d : ℝ) : EReal) := by
  show v59 a0 a1 a2 (ix3 b j d) * v40 a0 a1 a2 (ix3 b j d) = _
  rw [G.v59_at, G.v40_at, re3_eq h0, ← EReal.coe_mul]
  rfl

theorem v65_at (G : Given a0 a1 a2 p ordN) (h0 : AllReal a0) (b : Fin 4) (u : Fin 1) (d : Fin 512) :
    v65 a0 a1 a2 (ix3 b u d) = ((cIn (p b) (ordN b) 2048 (re3 a0 b) (0 : Fin 2048) d : ℝ) : EReal) := by
  show v61 a0 a1 a2 (ix3 b u d) + v62 a0 a1 a2 (ix3 b u d) * v63 a0 a1 a2 (ix3 b u d) = _
  have hu : (0 : ℕ) = 0 + u.val := by omega
  have h61 : v61 a0 a1 a2 (ix3 b u d) = v60 a0 a1 a2 (ix3 b (0 : Fin 2048) d) :=
    slice3_axis1_apply 0 (v60 a0 a1 a2) slices_S4x2048x512_S4x1x512_0_0_0 b u d (0 : Fin 2048) hu
  have h62 : v62 a0 a1 a2 (ix3 b u d) = v55 a0 a1 a2 (ix3 b (0 : Fin 2048) d) :=
    slice3_axis1_apply 0 (v55 a0 a1 a2) slices_S4x2048x512_S4x1x512_0_0_0 b u d (0 : Fin 2048) hu
  have h63 : v63 a0 a1 a2 (ix3 b u d) = ((0 : ℝ) : EReal) := ofBits_zero
  rw [h61, h62, h63, G.v60_at h0, G.v55_at, ← EReal.coe_mul, ← EReal.coe_add, mul_zero, add_zero]

theorem v66_at (G : Given a0 a1 a2 p ordN) (b : Fin 4) (j : Fin 2048) (hj : j.val ≠ 0) (d : Fin 512) :
    v66 a0 a1 a2 (ix3 b (⟨j.val - 1, by have := j.isLt; omega⟩ : Fin 2047) d) = v60 a0 a1 a2 (ix3 b j d) :=
  slice3_axis1_apply 1 (v60 a0 a1 a2) slices_S4x2048x512_S4x2047x512_0_1_0 b ⟨j.val - 1, by have := j.isLt; omega⟩ d j
    (by show j.val = 1 + (j.val - 1); omega)

theorem v67_at (G : Given a0 a1 a2 p ordN) (h0 : AllReal a0) (b : Fin 4) (j : Fin 2048) (d : Fin 512) :
    v67 a0 a1 a2 (ix3 b j d) = ((cIn (p b) (ordN b) 2048 (re3 a0 b) j d : ℝ) : EReal) := by
  show concatenate S4x2048x512 1 [⟨S4x1x512, v65 a0 a1 a2⟩, ⟨S4x2047x512, v66 a0 a1 a2⟩]
    concatenates_S4x1x512_S4x2047x512_S4x2048x512_d1 (ix3 b j d) = _
  by_cases hj : j.val = 0
  · obtain rfl : j = 0 := Fin.ext hj
    rw [concatenate_pair_apply_left _ (v65 a0 a1 a2) (v66 a0 a1 a2) concatenates_S4x1x512_S4x2047x512_S4x2048x512_d1
      (ix3 b (0 : Fin 2048) d) rfl (ix3 b (0 : Fin 1) d) (fun a => by
        match a with
        | ⟨0, _⟩ => rfl
        | ⟨1, _⟩ => rfl
        | ⟨2, _⟩ => rfl)]
    exact G.v65_at h0 b 0 d
  · rw [concatenate_pair_apply_right _ (v65 a0 a1 a2) (v66 a0 a1 a2) concatenates_S4x1x512_S4x2047x512_S4x2048x512_d1
      (ix3 b j d) rfl rfl (ix3 b (⟨j.val - 1, by have := j.isLt; omega⟩ : Fin 2047) d) (fun a hne => by
        match a with
        | ⟨0, _⟩ => rfl
        | ⟨1, _⟩ => exact absurd (Fin.ext rfl) hne
        | ⟨2, _⟩ => rfl) (by show (j.val - 1) + 1 = j.val; omega)]
    rw [G.v66_at b j hj d]
    exact G.v60_at h0 b j d

end Given

variable (a0 : Vec Ideal S4x2048x512 .f32) (a1 a2 : Vec Ideal S512x512 .f32)

theorem v55_eq (p : ℕ → ℕ → ℝ) (ordN : ℕ → ℕ → ℕ)
    (hp : ∀ (b : Fin 4) (l : Fin 2048), 0 ≤ p b l ∧ p b l ≤ 1)
    (h31 : ∀ (b : Fin 4) (l : Fin 2048), v31 a0 a1 a2 (ix2 b l) = ((p b l : ℝ) : EReal))
    (h36 : ∀ (b : Fin 4) (j : Fin 2048), v36 a0 a1 a2 (ix2 b j) = BitVec.ofNat 32 (ordN b j))
    (hord : ∀ (b : Fin 4) (j : Fin 2048), ordN b j < 2048)
    (h46 : ∀ (b : Fin 4) (j : Fin 2048), v46 a0 a1 a2 (ix2 b j) = if (j : ℕ) < countB (p b) 2048 then 1#1 else 0#1)
    (b : Fin 4) (j : Fin 2048) (d : Fin 512) :
    v55 a0 a1 a2 (ix3 b j d) = ((cKeep (p b) (ordN b) 2048 j : ℝ) : EReal) :=
  Given.v55_at ⟨hp, h31, h36, hord, h46⟩ b j d

theorem v67_eq (p : ℕ → ℕ → ℝ) (ordN : ℕ → ℕ → ℕ) (h0 : AllReal a0)
    (hp : ∀ (b : Fin 4) (l : Fin 2048), 0 ≤ p b l ∧ p b l ≤ 1)
    (h31 : ∀ (b : Fin 4) (l : Fin 2048), v31 a0 a1 a2 (ix2 b l) = ((p b l : ℝ) : EReal))
    (h36 : ∀ (b : Fin 4) (j : Fin 2048), v36 a0 a1 a2 (ix2 b j) = BitVec.ofNat 32 (ordN b j))
    (hord : ∀ (b : Fin 4) (j : Fin 2048), ordN b j < 2048)
    (h46 : ∀ (b : Fin 4) (j : Fin 2048), v46 a0 a1 a2 (ix2 b j) = if (j : ℕ) < countB (p b) 2048 then 1#1 else 0#1)
    (b : Fin 4) (j : Fin 2048) (d : Fin 512) :
    v67 a0 a1 a2 (ix3 b j d) = ((cIn (p b) (ordN b) 2048 (re3 a0 b) j d : ℝ) : EReal) :=
  Given.v67_at ⟨hp, h31, h36, hord, h46⟩ h0 b j d

end Cert.Ref

end
-- ==== Proof.Ref.ScanStep.lean ====
import proofs.«123660_g14800457302192_cont_week2b_463_30_alg».proof.Proof.Coe
import proofs.«123660_g14800457302192_cont_week2b_463_30_alg».proof.Proof.Real.Scan
import Idealize.ShloMosaic.Lib.ValueIdx
import Idealize.ShloMosaic.Lib.ValueLayout
import Idealize.ShloMosaic.Lib.Pipeline.Value

noncomputable section

namespace Cert.Ref

open Idealize.ShloMosaic Idealize.ShloMosaic.ValueIdx Cert.Spec

theorem stepB (s m : ℕ) (hsm : s + m = 2048)
    (A B : (⟨3, ![4, 2048, 512]⟩ : Shape).Idx → EReal) (α β : ℕ → ℕ → ℕ → ℝ)
    (hA : ∀ (b : Fin 4) (i : Fin 2048) (d : Fin 512), A (ix3 b i d) = ((α b i d : ℝ) : EReal))
    (hB : ∀ (b : Fin 4) (i : Fin 2048) (d : Fin 512), B (ix3 b i d) = ((β b i d : ℝ) : EReal))
    (h0 : (⟨3, ![4, 2048, 512]⟩ : Shape).Slices ![0, 0, 0] ⟨3, ![4, s, 512]⟩)
    (h1 : (⟨3, ![4, 2048, 512]⟩ : Shape).Slices ![0, s, 0] ⟨3, ![4, m, 512]⟩)
    (h2 : (⟨3, ![4, 2048, 512]⟩ : Shape).Slices ![0, 0, 0] ⟨3, ![4, m, 512]⟩)
    (hc : Shape.Concatenates [(⟨3, ![4, s, 512]⟩ : Shape), ⟨3, ![4, m, 512]⟩] ⟨3, ![4, 2048, 512]⟩ 1)
    (b : Fin 4) (i : Fin 2048) (d : Fin 512) :
    concatenate (⟨3, ![4, 2048, 512]⟩ : Shape) 1
        [⟨⟨3, ![4, s, 512]⟩, extractStridedSlice ⟨3, ![4, s, 512]⟩ ![0, 0, 0] B h0⟩,
         ⟨⟨3, ![4, m, 512]⟩,
           addf (F := Ideal) (φ := .f32)
             (mulf (F := Ideal) (φ := .f32) (extractStridedSlice ⟨3, ![4, m, 512]⟩ ![0, s, 0] A h1)
               (extractStridedSlice ⟨3, ![4, m, 512]⟩ ![0, 0, 0] B h2))
             (extractStridedSlice ⟨3, ![4, m, 512]⟩ ![0, s, 0] B h1)⟩] hc (ix3 b i d)
      = (((dstep s (fun i => α b i d, fun i => β b i d)).2 i : ℝ) : EReal) := by
  by_cases hi : (i : ℕ) < s
  ·
    rw [concatenate_pair_apply_left (t := ⟨3, ![4, 2048, 512]⟩) (s₁ := ⟨3, ![4, s, 512]⟩) (s₂ := ⟨3, ![4, m, 512]⟩)
      (1 : Fin 3) _ _ hc (ix3 b i d) rfl (ix3 b (⟨i, hi⟩ : Fin s) d)
      (fun ax => by match ax with | ⟨0, _⟩ => rfl | ⟨1, _⟩ => rfl | ⟨2, _⟩ => rfl)]
    rw [slice3_axis1_apply 0 B h0 b (⟨i, hi⟩ : Fin s) d i (Nat.zero_add _).symm, hB]
    simp only [dstep, if_pos hi]
  ·
    have hi' : s ≤ (i : ℕ) := Nat.le_of_not_lt hi
    have hlt : (i : ℕ) - s < m := by have := i.isLt; omega
    have hlt2 : (i : ℕ) - s < 2048 := by have := i.isLt; omega
    rw [concatenate_pair_apply_right (t := ⟨3, ![4, 2048, 512]⟩) (s₁ := ⟨3, ![4, s, 512]⟩) (s₂ := ⟨3, ![4, m, 512]⟩)
      (1 : Fin 3) _ _ hc (ix3 b i d) rfl rfl (ix3 b (⟨(i : ℕ) - s, hlt⟩ : Fin m) d)
      (fun ax hax => by
        match ax with
        | ⟨0, _⟩ => rfl
        | ⟨1, _⟩ => exact absurd rfl hax
        | ⟨2, _⟩ => rfl)
      (by show (i : ℕ) - s + s = (i : ℕ); omega)]
    show extractStridedSlice ⟨3, ![4, m, 512]⟩ ![0, s, 0] A h1 (ix3 b (⟨(i : ℕ) - s, hlt⟩ : Fin m) d)
          * extractStridedSlice ⟨3, ![4, m, 512]⟩ ![0, 0, 0] B h2 (ix3 b (⟨(i : ℕ) - s, hlt⟩ : Fin m) d)
        + extractStridedSlice ⟨3, ![4, m, 512]⟩ ![0, s, 0] B h1 (ix3 b (⟨(i : ℕ) - s, hlt⟩ : Fin m) d) = _
    rw [slice3_axis1_apply s A h1 b (⟨(i : ℕ) - s, hlt⟩ : Fin m) d i (by show (i : ℕ) = s + ((i : ℕ) - s); omega),
      slice3_axis1_apply 0 B h2 b (⟨(i : ℕ) - s, hlt⟩ : Fin m) d ⟨(i : ℕ) - s, hlt2⟩ (Nat.zero_add _).symm,
      slice3_axis1_apply s B h1 b (⟨(i : ℕ) - s, hlt⟩ : Fin m) d i (by show (i : ℕ) = s + ((i : ℕ) - s); omega),
      hA, hB, hB, ← EReal.coe_mul, ← EReal.coe_add]
    simp only [dstep, if_neg hi]

theorem stepA (s m : ℕ) (hsm : s + m = 2048)
    (A : (⟨3, ![4, 2048, 512]⟩ : Shape).Idx → EReal) (α β : ℕ → ℕ → ℕ → ℝ)
    (hA : ∀ (b : Fin 4) (i : Fin 2048) (d : Fin 512), A (ix3 b i d) = ((α b i d : ℝ) : EReal))
    (h0 : (⟨3, ![4, 2048, 512]⟩ : Shape).Slices ![0, 0, 0] ⟨3, ![4, s, 512]⟩)
    (h1 : (⟨3, ![4, 2048, 512]⟩ : Shape).Slices ![0, s, 0] ⟨3, ![4, m, 512]⟩)
    (h2 : (⟨3, ![4, 2048, 512]⟩ : Shape).Slices ![0, 0, 0] ⟨3, ![4, m, 512]⟩)
    (hc : Shape.Concatenates [(⟨3, ![4, s, 512]⟩ : Shape), ⟨3, ![4, m, 512]⟩] ⟨3, ![4, 2048, 512]⟩ 1)
    (b : Fin 4) (i : Fin 2048) (d : Fin 512) :
    concatenate (⟨3, ![4, 2048, 512]⟩ : Shape) 1
        [⟨⟨3, ![4, s, 512]⟩, extractStridedSlice ⟨3, ![4, s, 512]⟩ ![0, 0, 0] A h0⟩,
         ⟨⟨3, ![4, m, 512]⟩,
           mulf (F := Ideal) (φ := .f32) (extractStridedSlice ⟨3, ![4, m, 512]⟩ ![0, s, 0] A h1)
             (extractStridedSlice ⟨3, ![4, m, 512]⟩ ![0, 0, 0] A h2)⟩] hc (ix3 b i d)
      = (((dstep s (fun i => α b i d, fun i => β b i d)).1 i : ℝ) : EReal) := by
  by_cases hi : (i : ℕ) < s
  ·
    rw [concatenate_pair_apply_left (t := ⟨3, ![4, 2048, 512]⟩) (s₁ := ⟨3, ![4, s, 512]⟩) (s₂ := ⟨3, ![4, m, 512]⟩)
      (1 : Fin 3) _ _ hc (ix3 b i d) rfl (ix3 b (⟨i, hi⟩ : Fin s) d)
      (fun ax => by match ax with | ⟨0, _⟩ => rfl | ⟨1, _⟩ => rfl | ⟨2, _⟩ => rfl)]
    rw [slice3_axis1_apply 0 A h0 b (⟨i, hi⟩ : Fin s) d i (Nat.zero_add _).symm, hA]
    simp only [dstep, if_pos hi]
  ·
    have hi' : s ≤ (i : ℕ) := Nat.le_of_not_lt hi
    have hlt : (i : ℕ) - s < m := by have := i.isLt; omega
    have hlt2 : (i : ℕ) - s < 2048 := by have := i.isLt; omega
    rw [concatenate_pair_apply_right (t := ⟨3, ![4, 2048, 512]⟩) (s₁ := ⟨3, ![4, s, 512]⟩) (s₂ := ⟨3, ![4, m, 512]⟩)
      (1 : Fin 3) _ _ hc (ix3 b i d) rfl rfl (ix3 b (⟨(i : ℕ) - s, hlt⟩ : Fin m) d)
      (fun ax hax => by
        match ax with
        | ⟨0, _⟩ => rfl
        | ⟨1, _⟩ => exact absurd rfl hax
        | ⟨2, _⟩ => rfl)
      (by show (i : ℕ) - s + s = (i : ℕ); omega)]
    show extractStridedSlice ⟨3, ![4, m, 512]⟩ ![0, s, 0] A h1 (ix3 b (⟨(i : ℕ) - s, hlt⟩ : Fin m) d)
          * extractStridedSlice ⟨3, ![4, m, 512]⟩ ![0, 0, 0] A h2 (ix3 b (⟨(i : ℕ) - s, hlt⟩ : Fin m) d) = _
    rw [slice3_axis1_apply s A h1 b (⟨(i : ℕ) - s, hlt⟩ : Fin m) d i (by show (i : ℕ) = s + ((i : ℕ) - s); omega),
      slice3_axis1_apply 0 A h2 b (⟨(i : ℕ) - s, hlt⟩ : Fin m) d ⟨(i : ℕ) - s, hlt2⟩ (Nat.zero_add _).symm,
      hA, hA, ← EReal.coe_mul]
    simp only [dstep, if_neg hi]

theorem chainB (k s m : ℕ) (hs : s = 2 ^ k) (hsm : s + m = 2048)
    (A B : (⟨3, ![4, 2048, 512]⟩ : Shape).Idx → EReal) (α β : ℕ → ℕ → ℕ → ℝ)
    (hA : ∀ (b : Fin 4) (i : Fin 2048) (d : Fin 512),
      A (ix3 b i d) = (((dscan k (fun i => α b i d, fun i => β b i d)).1 i : ℝ) : EReal))
    (hB : ∀ (b : Fin 4) (i : Fin 2048) (d : Fin 512),
      B (ix3 b i d) = (((dscan k (fun i => α b i d, fun i => β b i d)).2 i : ℝ) : EReal))
    (h0 : (⟨3, ![4, 2048, 512]⟩ : Shape).Slices ![0, 0, 0] ⟨3, ![4, s, 512]⟩)
    (h1 : (⟨3, ![4, 2048, 512]⟩ : Shape).Slices ![0, s, 0] ⟨3, ![4, m, 512]⟩)
    (h2 : (⟨3, ![4, 2048, 512]⟩ : Shape).Slices ![0, 0, 0] ⟨3, ![4, m, 512]⟩)
    (hc : Shape.Concatenates [(⟨3, ![4, s, 512]⟩ : Shape), ⟨3, ![4, m, 512]⟩] ⟨3, ![4, 2048, 512]⟩ 1)
    (b : Fin 4) (i : Fin 2048) (d : Fin 512) :
    concatenate (⟨3, ![4, 2048, 512]⟩ : Shape) 1
        [⟨⟨3, ![4, s, 512]⟩, extractStridedSlice ⟨3, ![4, s, 512]⟩ ![0, 0, 0] B h0⟩,
         ⟨⟨3, ![4, m, 512]⟩,
           addf (F := Ideal) (φ := .f32)
             (mulf (F := Ideal) (φ := .f32) (extractStridedSlice ⟨3, ![4, m, 512]⟩ ![0, s, 0] A h1)
               (extractStridedSlice ⟨3, ![4, m, 512]⟩ ![0, 0, 0] B h2))
             (extractStridedSlice ⟨3, ![4, m, 512]⟩ ![0, s, 0] B h1)⟩] hc (ix3 b i d)
      = (((dscan (k + 1) (fun i => α b i d, fun i => β b i d)).2 i : ℝ) : EReal) := by
  subst hs
  exact stepB (2 ^ k) m hsm A B (fun b i d => (dscan k (fun i => α b i d, fun i => β b i d)).1 i)
    (fun b i d => (dscan k (fun i => α b i d, fun i => β b i d)).2 i) hA hB h0 h1 h2 hc b i d

theorem chainA (k s m : ℕ) (hs : s = 2 ^ k) (hsm : s + m = 2048)
    (A : (⟨3, ![4, 2048, 512]⟩ : Shape).Idx → EReal) (α β : ℕ → ℕ → ℕ → ℝ)
    (hA : ∀ (b : Fin 4) (i : Fin 2048) (d : Fin 512),
      A (ix3 b i d) = (((dscan k (fun i => α b i d, fun i => β b i d)).1 i : ℝ) : EReal))
    (h0 : (⟨3, ![4, 2048, 512]⟩ : Shape).Slices ![0, 0, 0] ⟨3, ![4, s, 512]⟩)
    (h1 : (⟨3, ![4, 2048, 512]⟩ : Shape).Slices ![0, s, 0] ⟨3, ![4, m, 512]⟩)
    (h2 : (⟨3, ![4, 2048, 512]⟩ : Shape).Slices ![0, 0, 0] ⟨3, ![4, m, 512]⟩)
    (hc : Shape.Concatenates [(⟨3, ![4, s, 512]⟩ : Shape), ⟨3, ![4, m, 512]⟩] ⟨3, ![4, 2048, 512]⟩ 1)
    (b : Fin 4) (i : Fin 2048) (d : Fin 512) :
    concatenate (⟨3, ![4, 2048, 512]⟩ : Shape) 1
        [⟨⟨3, ![4, s, 512]⟩, extractStridedSlice ⟨3, ![4, s, 512]⟩ ![0, 0, 0] A h0⟩,
         ⟨⟨3, ![4, m, 512]⟩,
           mulf (F := Ideal) (φ := .f32) (extractStridedSlice ⟨3, ![4, m, 512]⟩ ![0, s, 0] A h1)
             (extractStridedSlice ⟨3, ![4, m, 512]⟩ ![0, 0, 0] A h2)⟩] hc (ix3 b i d)
      = (((dscan (k + 1) (fun i => α b i d, fun i => β b i d)).1 i : ℝ) : EReal) := by
  subst hs
  exact stepA (2 ^ k) m hsm A (fun b i d => (dscan k (fun i => α b i d, fun i => β b i d)).1 i)
    (fun b i d => (dscan k (fun i => α b i d, fun i => β b i d)).2 i) hA h0 h1 h2 hc b i d

end Cert.Ref

end
-- ==== Proof.Ref.Scan.lean ====
import proofs.«123660_g14800457302192_cont_week2b_463_30_alg».proof.Proof.Ref.Stages
import proofs.«123660_g14800457302192_cont_week2b_463_30_alg».proof.Proof.Ref.ScanStep

noncomputable section

namespace Cert.Ref

open Idealize.ShloMosaic Idealize.ShloMosaic.ValueIdx Cert.Spec Cert.ReferenceIdeal Cert.ReferenceIdeal.Facts₀

section
variable (a0 : Vec Ideal S4x2048x512 .f32) (a1 a2 : Vec Ideal S512x512 .f32) (α β : ℕ → ℕ → ℕ → ℝ)
  (hA : ∀ (b : Fin 4) (j : Fin 2048) (d : Fin 512), v55 a0 a1 a2 (ix3 b j d) = ((α b j d : ℝ) : EReal))
  (hB : ∀ (b : Fin 4) (j : Fin 2048) (d : Fin 512), v67 a0 a1 a2 (ix3 b j d) = ((β b j d : ℝ) : EReal))
include hA hB

theorem v74_eq (b : Fin 4) (i : Fin 2048) (d : Fin 512) :
    v74 a0 a1 a2 (ix3 b i d) = (((dscan 1 (fun i => α b i d, fun i => β b i d)).2 i : ℝ) : EReal) :=
  chainB 0 1 2047 rfl rfl (v55 a0 a1 a2) (v67 a0 a1 a2) α β hA hB
    slices_S4x2048x512_S4x1x512_0_0_0 slices_S4x2048x512_S4x2047x512_0_1_0
    slices_S4x2048x512_S4x2047x512_0_0_0 concatenates_S4x1x512_S4x2047x512_S4x2048x512_d1 b i d

theorem v79_eq (b : Fin 4) (i : Fin 2048) (d : Fin 512) :
    v79 a0 a1 a2 (ix3 b i d) = (((dscan 1 (fun i => α b i d, fun i => β b i d)).1 i : ℝ) : EReal) :=
  chainA 0 1 2047 rfl rfl (v55 a0 a1 a2) α β hA
    slices_S4x2048x512_S4x1x512_0_0_0 slices_S4x2048x512_S4x2047x512_0_1_0
    slices_S4x2048x512_S4x2047x512_0_0_0 concatenates_S4x1x512_S4x2047x512_S4x2048x512_d1 b i d

theorem v86_eq (b : Fin 4) (i : Fin 2048) (d : Fin 512) :
    v86 a0 a1 a2 (ix3 b i d) = (((dscan 2 (fun i => α b i d, fun i => β b i d)).2 i : ℝ) : EReal) :=
  chainB 1 2 2046 rfl rfl (v79 a0 a1 a2) (v74 a0 a1 a2) α β (v79_eq a0 a1 a2 α β hA hB) (v74_eq a0 a1 a2 α β hA hB)
    slices_S4x2048x512_S4x2x512_0_0_0 slices_S4x2048x512_S4x2046x512_0_2_0
    slices_S4x2048x512_S4x2046x512_0_0_0 concatenates_S4x2x512_S4x2046x512_S4x2048x512_d1 b i d

theorem v91_eq (b : Fin 4) (i : Fin 2048) (d : Fin 512) :
    v91 a0 a1 a2 (ix3 b i d) = (((dscan 2 (fun i => α b i d, fun i => β b i d)).1 i : ℝ) : EReal) :=
  chainA 1 2 2046 rfl rfl (v79 a0 a1 a2) α β (v79_eq a0 a1 a2 α β hA hB)
    slices_S4x2048x512_S4x2x512_0_0_0 slices_S4x2048x512_S4x2046x512_0_2_0
    slices_S4x2048x512_S4x2046x512_0_0_0 concatenates_S4x2x512_S4x2046x512_S4x2048x512_d1 b i d

theorem v98_eq (b : Fin 4) (i : Fin 2048) (d : Fin 512) :
    v98 a0 a1 a2 (ix3 b i d) = (((dscan 3 (fun i => α b i d, fun i => β b i d)).2 i : ℝ) : EReal) :=
  chainB 2 4 2044 rfl rfl (v91 a0 a1 a2) (v86 a0 a1 a2) α β (v91_eq a0 a1 a2 α β hA hB) (v86_eq a0 a1 a2 α β hA hB)
    slices_S4x2048x512_S4x4x512_0_0_0 slices_S4x2048x512_S4x2044x512_0_4_0
    slices_S4x2048x512_S4x2044x512_0_0_0 concatenates_S4x4x512_S4x2044x512_S4x2048x512_d1 b i d

theorem v103_eq (b : Fin 4) (i : Fin 2048) (d : Fin 512) :
    v103 a0 a1 a2 (ix3 b i d) = (((dscan 3 (fun i => α b i d, fun i => β b i d)).1 i : ℝ) : EReal) :=
  chainA 2 4 2044 rfl rfl (v91 a0 a1 a2) α β (v91_eq a0 a1 a2 α β hA hB)
    slices_S4x2048x512_S4x4x512_0_0_0 slices_S4x2048x512_S4x2044x512_0_4_0
    slices_S4x2048x512_S4x2044x512_0_0_0 concatenates_S4x4x512_S4x2044x512_S4x2048x512_d1 b i d

theorem v110_eq (b : Fin 4) (i : Fin 2048) (d : Fin 512) :
    v110 a0 a1 a2 (ix3 b i d) = (((dscan 4 (fun i => α b i d, fun i => β b i d)).2 i : ℝ) : EReal) :=
  chainB 3 8 2040 rfl rfl (v103 a0 a1 a2) (v98 a0 a1 a2) α β (v103_eq a0 a1 a2 α β hA hB) (v98_eq a0 a1 a2 α β hA hB)
    slices_S4x2048x512_S4x8x512_0_0_0 slices_S4x2048x512_S4x2040x512_0_8_0
    slices_S4x2048x512_S4x2040x512_0_0_0 concatenates_S4x8x512_S4x2040x512_S4x2048x512_d1 b i d

theorem v115_eq (b : Fin 4) (i : Fin 2048) (d : Fin 512) :
    v115 a0 a1 a2 (ix3 b i d) = (((dscan 4 (fun i => α b i d, fun i => β b i d)).1 i : ℝ) : EReal) :=
  chainA 3 8 2040 rfl rfl (v103 a0 a1 a2) α β (v103_eq a0 a1 a2 α β hA hB)
    slices_S4x2048x512_S4x8x512_0_0_0 slices_S4x2048x512_S4x2040x512_0_8_0
    slices_S4x2048x512_S4x2040x512_0_0_0 concatenates_S4x8x512_S4x2040x512_S4x2048x512_d1 b i d

theorem v122_eq (b : Fin 4) (i : Fin 2048) (d : Fin 512) :
    v122 a0 a1 a2 (ix3 b i d) = (((dscan 5 (fun i => α b i d, fun i => β b i d)).2 i : ℝ) : EReal) :=
  chainB 4 16 2032 rfl rfl (v115 a0 a1 a2) (v110 a0 a1 a2) α β (v115_eq a0 a1 a2 α β hA hB) (v110_eq a0 a1 a2 α β hA hB)
    slices_S4x2048x512_S4x16x512_0_0_0 slices_S4x2048x512_S4x2032x512_0_16_0
    slices_S4x2048x512_S4x2032x512_0_0_0 concatenates_S4x16x512_S4x2032x512_S4x2048x512_d1 b i d

theorem v127_eq (b : Fin 4) (i : Fin 2048) (d : Fin 512) :
    v127 a0 a1 a2 (ix3 b i d) = (((dscan 5 (fun i => α b i d, fun i => β b i d)).1 i : ℝ) : EReal) :=
  chainA 4 16 2032 rfl rfl (v115 a0 a1 a2) α β (v115_eq a0 a1 a2 α β hA hB)
    slices_S4x2048x512_S4x16x512_0_0_0 slices_S4x2048x512_S4x2032x512_0_16_0
    slices_S4x2048x512_S4x2032x512_0_0_0 concatenates_S4x16x512_S4x2032x512_S4x2048x512_d1 b i d

theorem v134_eq (b : Fin 4) (i : Fin 2048) (d : Fin 512) :
    v134 a0 a1 a2 (ix3 b i d) = (((dscan 6 (fun i => α b i d, fun i => β b i d)).2 i : ℝ) : EReal) :=
  chainB 5 32 2016 rfl rfl (v127 a0 a1 a2) (v122 a0 a1 a2) α β (v127_eq a0 a1 a2 α β hA hB) (v122_eq a0 a1 a2 α β hA hB)
    slices_S4x2048x512_S4x32x512_0_0_0 slices_S4x2048x512_S4x2016x512_0_32_0
    slices_S4x2048x512_S4x2016x512_0_0_0 concatenates_S4x32x512_S4x2016x512_S4x2048x512_d1 b i d

theorem v139_eq (b : Fin 4) (i : Fin 2048) (d : Fin 512) :
    v139 a0 a1 a2 (ix3 b i d) = (((dscan 6 (fun i => α b i d, fun i => β b i d)).1 i : ℝ) : EReal) :=
  chainA 5 32 2016 rfl rfl (v127 a0 a1 a2) α β (v127_eq a0 a1 a2 α β hA hB)
    slices_S4x2048x512_S4x32x512_0_0_0 slices_S4x2048x512_S4x2016x512_0_32_0
    slices_S4x2048x512_S4x2016x512_0_0_0 concatenates_S4x32x512_S4x2016x512_S4x2048x512_d1 b i d

theorem v146_eq (b : Fin 4) (i : Fin 2048) (d : Fin 512) :
    v146 a0 a1 a2 (ix3 b i d) = (((dscan 7 (fun i => α b i d, fun i => β b i d)).2 i : ℝ) : EReal) :=
  chainB 6 64 1984 rfl rfl (v139 a0 a1 a2) (v134 a0 a1 a2) α β (v139_eq a0 a1 a2 α β hA hB) (v134_eq a0 a1 a2 α β hA hB)
    slices_S4x2048x512_S4x64x512_0_0_0 slices_S4x2048x512_S4x1984x512_0_64_0
    slices_S4x2048x512_S4x1984x512_0_0_0 concatenates_S4x64x512_S4x1984x512_S4x2048x512_d1 b i d

theorem v151_eq (b : Fin 4) (i : Fin 2048) (d : Fin 512) :
    v151 a0 a1 a2 (ix3 b i d) = (((dscan 7 (fun i => α b i d, fun i => β b i d)).1 i : ℝ) : EReal) :=
  chainA 6 64 1984 rfl rfl (v139 a0 a1 a2) α β (v139_eq a0 a1 a2 α β hA hB)
    slices_S4x2048x512_S4x64x512_0_0_0 slices_S4x2048x512_S4x1984x512_0_64_0
    slices_S4x2048x512_S4x1984x512_0_0_0 concatenates_S4x64x512_S4x1984x512_S4x2048x512_d1 b i d

theorem v158_eq (b : Fin 4) (i : Fin 2048) (d : Fin 512) :
    v158 a0 a1 a2 (ix3 b i d) = (((dscan 8 (fun i => α b i d, fun i => β b i d)).2 i : ℝ) : EReal) :=
  chainB 7 128 1920 rfl rfl (v151 a0 a1 a2) (v146 a0 a1 a2) α β (v151_eq a0 a1 a2 α β hA hB) (v146_eq a0 a1 a2 α β hA hB)
    slices_S4x2048x512_S4x128x512_0_0_0 slices_S4x2048x512_S4x1920x512_0_128_0
    slices_S4x2048x512_S4x1920x512_0_0_0 concatenates_S4x128x512_S4x1920x512_S4x2048x512_d1 b i d

theorem v163_eq (b : Fin 4) (i : Fin 2048) (d : Fin 512) :
    v163 a0 a1 a2 (ix3 b i d) = (((dscan 8 (fun i => α b i d, fun i => β b i d)).1 i : ℝ) : EReal) :=
  chainA 7 128 1920 rfl rfl (v151 a0 a1 a2) α β (v151_eq a0 a1 a2 α β hA hB)
    slices_S4x2048x512_S4x128x512_0_0_0 slices_S4x2048x512_S4x1920x512_0_128_0
    slices_S4x2048x512_S4x1920x512_0_0_0 concatenates_S4x128x512_S4x1920x512_S4x2048x512_d1 b i d

theorem v170_eq (b : Fin 4) (i : Fin 2048) (d : Fin 512) :
    v170 a0 a1 a2 (ix3 b i d) = (((dscan 9 (fun i => α b i d, fun i => β b i d)).2 i : ℝ) : EReal) :=
  chainB 8 256 1792 rfl rfl (v163 a0 a1 a2) (v158 a0 a1 a2) α β (v163_eq a0 a1 a2 α β hA hB) (v158_eq a0 a1 a2 α β hA hB)
    slices_S4x2048x512_S4x256x512_0_0_0 slices_S4x2048x512_S4x1792x512_0_256_0
    slices_S4x2048x512_S4x1792x512_0_0_0 concatenates_S4x256x512_S4x1792x512_S4x2048x512_d1 b i d

theorem v175_eq (b : Fin 4) (i : Fin 2048) (d : Fin 512) :
    v175 a0 a1 a2 (ix3 b i d) = (((dscan 9 (fun i => α b i d, fun i => β b i d)).1 i : ℝ) : EReal) :=
  chainA 8 256 1792 rfl rfl (v163 a0 a1 a2) α β (v163_eq a0 a1 a2 α β hA hB)
    slices_S4x2048x512_S4x256x512_0_0_0 slices_S4x2048x512_S4x1792x512_0_256_0
    slices_S4x2048x512_S4x1792x512_0_0_0 concatenates_S4x256x512_S4x1792x512_S4x2048x512_d1 b i d

theorem v182_eq (b : Fin 4) (i : Fin 2048) (d : Fin 512) :
    v182 a0 a1 a2 (ix3 b i d) = (((dscan 10 (fun i => α b i d, fun i => β b i d)).2 i : ℝ) : EReal) :=
  chainB 9 512 1536 rfl rfl (v175 a0 a1 a2) (v170 a0 a1 a2) α β (v175_eq a0 a1 a2 α β hA hB) (v170_eq a0 a1 a2 α β hA hB)
    slices_S4x2048x512_S4x512x512_0_0_0 slices_S4x2048x512_S4x1536x512_0_512_0
    slices_S4x2048x512_S4x1536x512_0_0_0 concatenates_S4x512x512_S4x1536x512_S4x2048x512_d1 b i d

theorem v187_eq (b : Fin 4) (i : Fin 2048) (d : Fin 512) :
    v187 a0 a1 a2 (ix3 b i d) = (((dscan 10 (fun i => α b i d, fun i => β b i d)).1 i : ℝ) : EReal) :=
  chainA 9 512 1536 rfl rfl (v175 a0 a1 a2) α β (v175_eq a0 a1 a2 α β hA hB)
    slices_S4x2048x512_S4x512x512_0_0_0 slices_S4x2048x512_S4x1536x512_0_512_0
    slices_S4x2048x512_S4x1536x512_0_0_0 concatenates_S4x512x512_S4x1536x512_S4x2048x512_d1 b i d

theorem v194_scan (b : Fin 4) (i : Fin 2048) (d : Fin 512) :
    v194 a0 a1 a2 (ix3 b i d) = (((dscan 11 (fun i => α b i d, fun i => β b i d)).2 i : ℝ) : EReal) :=
  chainB 10 1024 1024 rfl rfl (v187 a0 a1 a2) (v182 a0 a1 a2) α β (v187_eq a0 a1 a2 α β hA hB) (v182_eq a0 a1 a2 α β hA hB)
    slices_S4x2048x512_S4x1024x512_0_0_0 slices_S4x2048x512_S4x1024x512_0_1024_0
    slices_S4x2048x512_S4x1024x512_0_0_0 concatenates_S4x1024x512_S4x1024x512_S4x2048x512_d1 b i d

theorem v194_eq (b : Fin 4) (j : Fin 2048) (d : Fin 512) :
    v194 a0 a1 a2 (ix3 b j d) = ((sol (fun i => α b i d) (fun i => β b i d) (j + 1) : ℝ) : EReal) := by
  rw [v194_scan a0 a1 a2 α β hA hB b j d, dscan_val (fun i => α b i d) (fun i => β b i d) 11 j (by have := j.isLt; omega)]

end

end Cert.Ref

end
-- ==== Proof.Ref.Tail.lean ====
import proofs.«123660_g14800457302192_cont_week2b_463_30_alg».proof.Proof.Ref.TailCore
import proofs.«123660_g14800457302192_cont_week2b_463_30_alg».proof.Proof.Ref.Router
import proofs.«123660_g14800457302192_cont_week2b_463_30_alg».proof.Proof.Ref.Count
import proofs.«123660_g14800457302192_cont_week2b_463_30_alg».proof.Proof.Ref.Cumsum
import proofs.«123660_g14800457302192_cont_week2b_463_30_alg».proof.Proof.Ref.Order
import proofs.«123660_g14800457302192_cont_week2b_463_30_alg».proof.Proof.Ref.Gather
import proofs.«123660_g14800457302192_cont_week2b_463_30_alg».proof.Proof.Ref.Scan

noncomputable section

namespace Cert.Ref

open Idealize.ShloMosaic Idealize.ShloMosaic.ValueIdx Cert.ReferenceIdeal Cert.Num Cert.Spec

variable (a0 : Vec Ideal S4x2048x512 .f32) (a1 a2 : Vec Ideal S512x512 .f32)

theorem v226_eq_of_router (h0 : AllReal a0)
    (h31 : ∀ (b : Fin 4) (l : Fin 2048),
      v31 a0 a1 a2 (ix2 b l) = ((prob (re3 a0 b) (re2 a1) (re2 a2) l : ℝ) : EReal))
    (h33 : ∀ (b : Fin 4) (l : Fin 2048),
      v33 a0 a1 a2 (ix2 b l) = if 1 / 2 < prob (re3 a0 b) (re2 a1) (re2 a2) l then 1#1 else 0#1)
    (b : Fin 4) (l : Fin 2048) (d : Fin 512) :
    v226 a0 a1 a2 (ix3 b l d) = ((out (re3 a0 b) (re2 a1) (re2 a2) l d : ℝ) : EReal) := by
  have hp0 : ∀ b : ℕ, (1 : ℝ) / 2 < prob (re3 a0 b) (re2 a1) (re2 a2) 0 := fun b => by
    rw [prob_zero]; norm_num
  have hp : ∀ (b : Fin 4) (l : Fin 2048),
      0 ≤ prob (re3 a0 b) (re2 a1) (re2 a2) l ∧ prob (re3 a0 b) (re2 a1) (re2 a2) l ≤ 1 :=
    fun b l => prob_mem _ _ _ _
  have h46 : ∀ (b : Fin 4) (j : Fin 2048), v46 a0 a1 a2 (ix2 b j)
      = if (j : ℕ) < countB (prob (re3 a0 b) (re2 a1) (re2 a2)) 2048 then 1#1 else 0#1 :=
    v46_eq a0 a1 a2 (fun b => prob (re3 a0 b) (re2 a1) (re2 a2)) h33
  have h208 : ∀ (b : Fin 4) (l : Fin 2048), v208 a0 a1 a2 (ix2 b l)
      = BitVec.ofNat 32 (countB (prob (re3 a0 b) (re2 a1) (re2 a2)) (l + 1) - 1) :=
    v208_eq a0 a1 a2 (fun b => prob (re3 a0 b) (re2 a1) (re2 a2)) h33 hp0
  have h210 : ∀ (b : Fin 4) (l : Fin 2048), v210 a0 a1 a2 (ix2 b l) = 1#1 :=
    v210_eq a0 a1 a2 (fun b => prob (re3 a0 b) (re2 a1) (re2 a2)) h33 hp0
  have hcomp : ∀ b : Fin 4, Compacts (prob (re3 a0 b) (re2 a1) (re2 a2)) 2048 (ord a0 a1 a2 b) :=
    compacts a0 a1 a2 (fun b => prob (re3 a0 b) (re2 a1) (re2 a2)) h33
  have h36 : ∀ (b : Fin 4) (j : Fin 2048), v36 a0 a1 a2 (ix2 b j) = BitVec.ofNat 32 (ord a0 a1 a2 b j) :=
    v36_eq a0 a1 a2
  have hord : ∀ (b : Fin 4) (j : Fin 2048), ord a0 a1 a2 b j < 2048 := fun b j => ord_lt a0 a1 a2 b j
  have h55 : ∀ (b : Fin 4) (j : Fin 2048) (d : Fin 512), v55 a0 a1 a2 (ix3 b j d)
      = ((cKeep (prob (re3 a0 b) (re2 a1) (re2 a2)) (ord a0 a1 a2 b) 2048 j : ℝ) : EReal) :=
    v55_eq a0 a1 a2 (fun b => prob (re3 a0 b) (re2 a1) (re2 a2)) (ord a0 a1 a2) hp h31 h36 hord h46
  have h67 : ∀ (b : Fin 4) (j : Fin 2048) (d : Fin 512), v67 a0 a1 a2 (ix3 b j d)
      = ((cIn (prob (re3 a0 b) (re2 a1) (re2 a2)) (ord a0 a1 a2 b) 2048 (re3 a0 b) j d : ℝ) : EReal) :=
    v67_eq a0 a1 a2 (fun b => prob (re3 a0 b) (re2 a1) (re2 a2)) (ord a0 a1 a2) h0 hp h31 h36 hord h46
  have h194 : ∀ (b : Fin 4) (j : Fin 2048) (d : Fin 512), v194 a0 a1 a2 (ix3 b j d)
      = ((sol (fun i => cKeep (prob (re3 a0 b) (re2 a1) (re2 a2)) (ord a0 a1 a2 b) 2048 i)
              (fun i => cIn (prob (re3 a0 b) (re2 a1) (re2 a2)) (ord a0 a1 a2 b) 2048 (re3 a0 b) i d) (j + 1) : ℝ) : EReal) :=
    v194_eq a0 a1 a2
      (fun b j _ => cKeep (prob (re3 a0 b) (re2 a1) (re2 a2)) (ord a0 a1 a2 b) 2048 j)
      (fun b j d => cIn (prob (re3 a0 b) (re2 a1) (re2 a2)) (ord a0 a1 a2 b) 2048 (re3 a0 b) j d) h55 h67
  exact v226_spec_of a0 a1 a2 h0 (ord a0 a1 a2) h31 h46 h208 h210 hcomp h194 b l d

theorem v226_eq (h0 : AllReal a0) (h1 : AllReal a1) (h2 : AllReal a2) (b : Fin 4) (l : Fin 2048) (d : Fin 512) :
    v226 a0 a1 a2 (ix3 b l d) = ((Cert.Spec.out (re3 a0 b) (re2 a1) (re2 a2) l d : ℝ) : EReal) :=
  v226_eq_of_router a0 a1 a2 h0 (fun b l => v31_eq h0 h1 h2 b l) (fun b l => v33_eq h0 h1 h2 b l) b l d

theorem v226_result (h0 : AllReal a0) (h1 : AllReal a1) (h2 : AllReal a2) :
    v226 a0 a1 a2 = Cert.Num.result a0 a1 a2 := by
  funext i
  obtain ⟨b, l, d, rfl⟩ : ∃ (b : Fin 4) (l : Fin 2048) (d : Fin 512), i = ix3 b l d := ⟨i 0, i 1, i 2, eq_ix3 i⟩
  exact v226_eq a0 a1 a2 h0 h1 h2 b l d

end Cert.Ref

end
-- ==== Proof.lean ====
import proofs.«123660_g14800457302192_cont_week2b_463_30_alg».proof.Defs
import proofs.«123660_g14800457302192_cont_week2b_463_30_alg».proof.Proof.Gen.Kernel
import proofs.«123660_g14800457302192_cont_week2b_463_30_alg».proof.Proof.Gen.Kernel.Frame
import proofs.«123660_g14800457302192_cont_week2b_463_30_alg».proof.Proof.Gen.KernelIdeal
import proofs.«123660_g14800457302192_cont_week2b_463_30_alg».proof.Proof.Gen.KernelIdeal.Frame
import proofs.«123660_g14800457302192_cont_week2b_463_30_alg».proof.Proof.Gen.ReferenceIdeal
import proofs.«123660_g14800457302192_cont_week2b_463_30_alg».proof.Proof.Gen.Pre_finite_inputs
import proofs.«123660_g14800457302192_cont_week2b_463_30_alg».proof.Proof.Coe
import proofs.«123660_g14800457302192_cont_week2b_463_30_alg».proof.Proof.Finite
import proofs.«123660_g14800457302192_cont_week2b_463_30_alg».proof.Proof.Ker.Carry
import proofs.«123660_g14800457302192_cont_week2b_463_30_alg».proof.Proof.Ker.Array
import proofs.«123660_g14800457302192_cont_week2b_463_30_alg».proof.Proof.Ref.Run
import proofs.«123660_g14800457302192_cont_week2b_463_30_alg».proof.Proof.Ref.Tail
import Idealize.ShloMosaic.Adequacy
import Idealize.ShloMosaic.Init

noncomputable section

namespace Cert.Proof

open Idealize.ShloMosaic Idealize.SL.Sem

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.Ref.run m ρ)

-- Kernel and reference both end at the same closed-form recurrence of the three argument arrays.
theorem algebraic : @Cert.algebraic_KernelIdeal_ReferenceIdeal Cert.KernelIdeal.Gen.facts Cert.ReferenceIdeal.Gen.facts
    Cert.Pre_finite_inputs.Gen.facts := by
  intro m ρ m' ρ' hpre hagree
  have hreal := fun c => @Cert.Num.allReal_of_pre_KernelIdeal Cert.Pre_finite_inputs.Gen.facts m hpre c
  refine ⟨fun c => Cert.Num.result (m ((c.tc : Thread _ _).loc Cert.KernelIdeal.main_arg0))
      (m ((c.tc : Thread _ _).loc Cert.KernelIdeal.main_arg1)) (m ((c.tc : Thread _ _).loc Cert.KernelIdeal.main_arg2)),
    Cert.Ker.run m ρ hreal (fun _ _ _ h0 h1 h2 l d => Cert.Ker.out_eq h0 h1 h2 l d), ?_⟩
  refine (θ_run Cert.ReferenceIdeal.defs _ _).mono (fun _ h c => ⟨(h c).1.trans ?_, (h c).2⟩) (Cert.Ref.run m' ρ')
  rw [(hagree c).1, (hagree c).2.1, (hagree c).2.2]
  exact Cert.Ref.v226_result _ _ _ (hreal c).1 (hreal c).2.1 (hreal c).2.2

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
